-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v307)) (v1 : (c : Dev Cert.KernelIdeal.nD) → Buf (Elt Ideal) ((c.tc : Thread Cert.KernelIdeal.nD Cert.KernelIdeal.τ).loc Cert.KernelIdeal.main_v157)) (v2 : (c : Dev Cert.KernelIdeal.nD) → Buf (Elt Ideal) ((c.tc : Thread Cert.KernelIdeal.nD Cert.KernelIdeal.τ).loc Cert.KernelIdeal.main_v214)) (v3 : (c : Dev Cert.KernelIdeal.nD) → Buf (Elt Ideal) ((c.tc : Thread Cert.KernelIdeal.nD Cert.KernelIdeal.τ).loc Cert.KernelIdeal.main_v319)) (v4 : (c : Dev Cert.KernelIdeal.nD) → Buf (Elt Ideal) ((c.tc : Thread Cert.KernelIdeal.nD Cert.KernelIdeal.τ).loc Cert.KernelIdeal.main_v219)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v307) = v0 c
          ∧ r.2.mem ((c.tc : Thread Cert.KernelIdeal.nD Cert.KernelIdeal.τ).loc Cert.KernelIdeal.main_v157) = v1 c
          ∧ r.2.mem ((c.tc : Thread Cert.KernelIdeal.nD Cert.KernelIdeal.τ).loc Cert.KernelIdeal.main_v214) = v2 c
          ∧ r.2.mem ((c.tc : Thread Cert.KernelIdeal.nD Cert.KernelIdeal.τ).loc Cert.KernelIdeal.main_v319) = v3 c
          ∧ r.2.mem ((c.tc : Thread Cert.KernelIdeal.nD Cert.KernelIdeal.τ).loc Cert.KernelIdeal.main_v219) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v307) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v218) = v2 c
          ∧ r.2.mem ((c.tc : Thread Cert.ReferenceIdeal.nD Cert.ReferenceIdeal.τ).loc Cert.ReferenceIdeal.main_v325) = v3 c
          ∧ r.2.mem ((c.tc : Thread Cert.ReferenceIdeal.nD Cert.ReferenceIdeal.τ).loc Cert.ReferenceIdeal.main_v219) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x14 : Shape := ⟨2, ![1, 14]⟩
abbrev S1x1000000 : Shape := ⟨2, ![1, 1000000]⟩
abbrev S1000000x20 : Shape := ⟨2, ![1000000, 20]⟩
abbrev S1x20 : Shape := ⟨2, ![1, 20]⟩
abbrev S48x14 : Shape := ⟨2, ![48, 14]⟩
abbrev S48 : Shape := ⟨1, ![48]⟩
abbrev S72x48 : Shape := ⟨2, ![72, 48]⟩
abbrev S72 : Shape := ⟨1, ![72]⟩
abbrev S92x72 : Shape := ⟨2, ![92, 72]⟩
abbrev S92 : Shape := ⟨1, ![92]⟩
abbrev S3x72 : Shape := ⟨2, ![3, 72]⟩
abbrev S3 : Shape := ⟨1, ![3]⟩
abbrev S20x325 : Shape := ⟨2, ![20, 325]⟩
abbrev S20 : Shape := ⟨1, ![20]⟩
abbrev S110x40 : Shape := ⟨2, ![110, 40]⟩
abbrev S110 : Shape := ⟨1, ![110]⟩
abbrev S190x110 : Shape := ⟨2, ![190, 110]⟩
abbrev S190 : Shape := ⟨1, ![190]⟩
abbrev S270x190 : Shape := ⟨2, ![270, 190]⟩
abbrev S270 : Shape := ⟨1, ![270]⟩
abbrev S325x270 : Shape := ⟨2, ![325, 270]⟩
abbrev S325 : Shape := ⟨1, ![325]⟩
abbrev S_ : Shape := ⟨0, ![]⟩

class Facts : Prop where
  bcast_S_S1x14 : S_.BroadcastsInDim S1x14 (![] : Fin 0 → Fin S1x14.rank)
  reducesTo_S1x14_S_d0_1 : S1x14.ReducesTo [0, 1] S_
  h_S_ : 0 < S_.numel
  bcast_S_S1x1000000 : S_.BroadcastsInDim S1x1000000 (![] : Fin 0 → Fin S1x1000000.rank)
  reducesTo_S1x1000000_S_d0_1 : S1x1000000.ReducesTo [0, 1] S_
  bcast_S_S1000000x20 : S_.BroadcastsInDim S1000000x20 (![] : Fin 0 → Fin S1000000x20.rank)
  reducesTo_S1000000x20_S_d0_1 : S1000000x20.ReducesTo [0, 1] S_
  bcast_S_S1x20 : S_.BroadcastsInDim S1x20 (![] : Fin 0 → Fin S1x20.rank)
  reducesTo_S1x20_S_d0_1 : S1x20.ReducesTo [0, 1] S_
  bcast_S_S48x14 : S_.BroadcastsInDim S48x14 (![] : Fin 0 → Fin S48x14.rank)
  reducesTo_S48x14_S_d0_1 : S48x14.ReducesTo [0, 1] S_
  bcast_S_S48 : S_.BroadcastsInDim S48 (![] : Fin 0 → Fin S48.rank)
  reducesTo_S48_S_d0 : S48.ReducesTo [0] S_
  bcast_S_S72x48 : S_.BroadcastsInDim S72x48 (![] : Fin 0 → Fin S72x48.rank)
  reducesTo_S72x48_S_d0_1 : S72x48.ReducesTo [0, 1] S_
  bcast_S_S72 : S_.BroadcastsInDim S72 (![] : Fin 0 → Fin S72.rank)
  reducesTo_S72_S_d0 : S72.ReducesTo [0] S_
  bcast_S_S92x72 : S_.BroadcastsInDim S92x72 (![] : Fin 0 → Fin S92x72.rank)
  reducesTo_S92x72_S_d0_1 : S92x72.ReducesTo [0, 1] S_
  bcast_S_S92 : S_.BroadcastsInDim S92 (![] : Fin 0 → Fin S92.rank)
  reducesTo_S92_S_d0 : S92.ReducesTo [0] S_
  bcast_S_S3x72 : S_.BroadcastsInDim S3x72 (![] : Fin 0 → Fin S3x72.rank)
  reducesTo_S3x72_S_d0_1 : S3x72.ReducesTo [0, 1] S_
  bcast_S_S3 : S_.BroadcastsInDim S3 (![] : Fin 0 → Fin S3.rank)
  reducesTo_S3_S_d0 : S3.ReducesTo [0] S_
  bcast_S_S20x325 : S_.BroadcastsInDim S20x325 (![] : Fin 0 → Fin S20x325.rank)
  reducesTo_S20x325_S_d0_1 : S20x325.ReducesTo [0, 1] S_
  bcast_S_S20 : S_.BroadcastsInDim S20 (![] : Fin 0 → Fin S20.rank)
  reducesTo_S20_S_d0 : S20.ReducesTo [0] S_
  bcast_S_S110x40 : S_.BroadcastsInDim S110x40 (![] : Fin 0 → Fin S110x40.rank)
  reducesTo_S110x40_S_d0_1 : S110x40.ReducesTo [0, 1] S_
  bcast_S_S110 : S_.BroadcastsInDim S110 (![] : Fin 0 → Fin S110.rank)
  reducesTo_S110_S_d0 : S110.ReducesTo [0] S_
  bcast_S_S190x110 : S_.BroadcastsInDim S190x110 (![] : Fin 0 → Fin S190x110.rank)
  reducesTo_S190x110_S_d0_1 : S190x110.ReducesTo [0, 1] S_
  bcast_S_S190 : S_.BroadcastsInDim S190 (![] : Fin 0 → Fin S190.rank)
  reducesTo_S190_S_d0 : S190.ReducesTo [0] S_
  bcast_S_S270x190 : S_.BroadcastsInDim S270x190 (![] : Fin 0 → Fin S270x190.rank)
  reducesTo_S270x190_S_d0_1 : S270x190.ReducesTo [0, 1] S_
  bcast_S_S270 : S_.BroadcastsInDim S270 (![] : Fin 0 → Fin S270.rank)
  reducesTo_S270_S_d0 : S270.ReducesTo [0] S_
  bcast_S_S325x270 : S_.BroadcastsInDim S325x270 (![] : Fin 0 → Fin S325x270.rank)
  reducesTo_S325x270_S_d0_1 : S325x270.ReducesTo [0, 1] S_
  bcast_S_S325 : S_.BroadcastsInDim S325 (![] : Fin 0 → Fin S325.rank)
  reducesTo_S325_S_d0 : S325.ReducesTo [0] S_

variable [Facts]

def fn_part8 {F : FTy → Type} [FloatOps F] (main_arg28 : FVec F S270 .f32) (main_arg29 : FVec F S325x270 .f32) (main_arg30 : FVec F S325 .f32) (main_v133 : IVec S_ 1) (main_v136 : IVec S270x190 1) : IVec S_ 1 :=
  let main_c_53 : IVec S_ 1 := constantI S_ 1 1#1
  let main_v137 : IVec S_ 1 := (fun x v => Host.reduce IntOp.andi x v reducesTo_S270x190_S_d0_1 h_S_) main_v136 main_c_53
  let main_v138 : IVec S_ 1 := andi main_v133 main_v137
  let main_v139 : FVec F S270 .f32 := Host.absf main_arg28
  let main_cst_54 : FVec F S_ .f32 := constant S_ .f32 0x7F800000#32
  let main_v140 : FVec F S270 .f32 := broadcastInDim S270 ![] bcast_S_S270 main_cst_54
  let main_v141 : IVec S270 1 := cmpf .olt main_v139 main_v140
  let main_c_55 : IVec S_ 1 := constantI S_ 1 1#1
  let main_v142 : IVec S_ 1 := (fun x v => Host.reduce IntOp.andi x v reducesTo_S270_S_d0 h_S_) main_v141 main_c_55
  let main_v143 : IVec S_ 1 := andi main_v138 main_v142
  let main_v144 : FVec F S325x270 .f32 := Host.absf main_arg29
  let main_cst_56 : FVec F S_ .f32 := constant S_ .f32 0x7F800000#32
  let main_v145 : FVec F S325x270 .f32 := broadcastInDim S325x270 ![] bcast_S_S325x270 main_cst_56
  let main_v146 : IVec S325x270 1 := cmpf .olt main_v144 main_v145
  let main_c_57 : IVec S_ 1 := constantI S_ 1 1#1
  let main_v147 : IVec S_ 1 := (fun x v => Host.reduce IntOp.andi x v reducesTo_S325x270_S_d0_1 h_S_) main_v146 main_c_57
  let main_v148 : IVec S_ 1 := andi main_v143 main_v147
  let main_v149 : FVec F S325 .f32 := Host.absf main_arg30
  let main_cst_58 : FVec F S_ .f32 := constant S_ .f32 0x7F800000#32
  let main_v150 : FVec F S325 .f32 := broadcastInDim S325 ![] bcast_S_S325 main_cst_58
  let main_v151 : IVec S325 1 := cmpf .olt main_v149 main_v150
  let main_c_59 : IVec S_ 1 := constantI S_ 1 1#1
  let main_v152 : IVec S_ 1 := (fun x v => Host.reduce IntOp.andi x v reducesTo_S325_S_d0 h_S_) main_v151 main_c_59
  let main_v153 : IVec S_ 1 := andi main_v148 main_v152
  main_v153

def fn_part7 {F : FTy → Type} [FloatOps F] (main_arg25 : FVec F S190x110 .f32) (main_arg26 : FVec F S190 .f32) (main_arg27 : FVec F S270x190 .f32) (main_arg28 : FVec F S270 .f32) (main_arg29 : FVec F S325x270 .f32) (main_arg30 : FVec F S325 .f32) (main_v118 : IVec S_ 1) (main_v119 : FVec F S110 .f32) : IVec S_ 1 :=
  let main_cst_46 : FVec F S_ .f32 := constant S_ .f32 0x7F800000#32
  let main_v120 : FVec F S110 .f32 := broadcastInDim S110 ![] bcast_S_S110 main_cst_46
  let main_v121 : IVec S110 1 := cmpf .olt main_v119 main_v120
  let main_c_47 : IVec S_ 1 := constantI S_ 1 1#1
  let main_v122 : IVec S_ 1 := (fun x v => Host.reduce IntOp.andi x v reducesTo_S110_S_d0 h_S_) main_v121 main_c_47
  let main_v123 : IVec S_ 1 := andi main_v118 main_v122
  let main_v124 : FVec F S190x110 .f32 := Host.absf main_arg25
  let main_cst_48 : FVec F S_ .f32 := constant S_ .f32 0x7F800000#32
  let main_v125 : FVec F S190x110 .f32 := broadcastInDim S190x110 ![] bcast_S_S190x110 main_cst_48
  let main_v126 : IVec S190x110 1 := cmpf .olt main_v124 main_v125
  let main_c_49 : IVec S_ 1 := constantI S_ 1 1#1
  let main_v127 : IVec S_ 1 := (fun x v => Host.reduce IntOp.andi x v reducesTo_S190x110_S_d0_1 h_S_) main_v126 main_c_49
  let main_v128 : IVec S_ 1 := andi main_v123 main_v127
  let main_v129 : FVec F S190 .f32 := Host.absf main_arg26
  let main_cst_50 : FVec F S_ .f32 := constant S_ .f32 0x7F800000#32
  let main_v130 : FVec F S190 .f32 := broadcastInDim S190 ![] bcast_S_S190 main_cst_50
  let main_v131 : IVec S190 1 := cmpf .olt main_v129 main_v130
  let main_c_51 : IVec S_ 1 := constantI S_ 1 1#1
  let main_v132 : IVec S_ 1 := (fun x v => Host.reduce IntOp.andi x v reducesTo_S190_S_d0 h_S_) main_v131 main_c_51
  let main_v133 : IVec S_ 1 := andi main_v128 main_v132
  let main_v134 : FVec F S270x190 .f32 := Host.absf main_arg27
  let main_cst_52 : FVec F S_ .f32 := constant S_ .f32 0x7F800000#32
  let main_v135 : FVec F S270x190 .f32 := broadcastInDim S270x190 ![] bcast_S_S270x190 main_cst_52
  let main_v136 : IVec S270x190 1 := cmpf .olt main_v134 main_v135
  fn_part8 (F := F) main_arg28 main_arg29 main_arg30 main_v133 main_v136

def fn_part6 {F : FTy → Type} [FloatOps F] (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v98 : IVec S_ 1) (main_v101 : IVec S270 1) (main_c_39 : IVec S_ 1) : IVec S_ 1 :=
  let main_v102 : IVec S_ 1 := (fun x v => Host.reduce IntOp.andi x v reducesTo_S270_S_d0 h_S_) main_v101 main_c_39
  let main_v103 : IVec S_ 1 := andi main_v98 main_v102
  let main_v104 : FVec F S325x270 .f32 := Host.absf main_arg21
  let main_cst_40 : FVec F S_ .f32 := constant S_ .f32 0x7F800000#32
  let main_v105 : FVec F S325x270 .f32 := broadcastInDim S325x270 ![] bcast_S_S325x270 main_cst_40
  let main_v106 : IVec S325x270 1 := cmpf .olt main_v104 main_v105
  let main_c_41 : IVec S_ 1 := constantI S_ 1 1#1
  let main_v107 : IVec S_ 1 := (fun x v => Host.reduce IntOp.andi x v reducesTo_S325x270_S_d0_1 h_S_) main_v106 main_c_41
  let main_v108 : IVec S_ 1 := andi main_v103 main_v107
  let main_v109 : FVec F S325 .f32 := Host.absf main_arg22
  let main_cst_42 : FVec F S_ .f32 := constant S_ .f32 0x7F800000#32
  let main_v110 : FVec F S325 .f32 := broadcastInDim S325 ![] bcast_S_S325 main_cst_42
  let main_v111 : IVec S325 1 := cmpf .olt main_v109 main_v110
  let main_c_43 : IVec S_ 1 := constantI S_ 1 1#1
  let main_v112 : IVec S_ 1 := (fun x v => Host.reduce IntOp.andi x v reducesTo_S325_S_d0 h_S_) main_v111 main_c_43
  let main_v113 : IVec S_ 1 := andi main_v108 main_v112
  let main_v114 : FVec F S110x40 .f32 := Host.absf main_arg23
  let main_cst_44 : FVec F S_ .f32 := constant S_ .f32 0x7F800000#32
  let main_v115 : FVec F S110x40 .f32 := broadcastInDim S110x40 ![] bcast_S_S110x40 main_cst_44
  let main_v116 : IVec S110x40 1 := cmpf .olt main_v114 main_v115
  let main_c_45 : IVec S_ 1 := constantI S_ 1 1#1
  let main_v117 : IVec S_ 1 := (fun x v => Host.reduce IntOp.andi x v reducesTo_S110x40_S_d0_1 h_S_) main_v116 main_c_45
  let main_v118 : IVec S_ 1 := andi main_v113 main_v117
  let main_v119 : FVec F S110 .f32 := Host.absf main_arg24
  fn_part7 (F := F) main_arg25 main_arg26 main_arg27 main_arg28 main_arg29 main_arg30 main_v118 main_v119

def fn_part5 {F : FTy → Type} [FloatOps F] (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v83 : IVec S_ 1) (main_v84 : FVec F S190x110 .f32) (main_cst_32 : FVec F S_ .f32) : IVec S_ 1 :=
  let main_v85 : FVec F S190x110 .f32 := broadcastInDim S190x110 ![] bcast_S_S190x110 main_cst_32
  let main_v86 : IVec S190x110 1 := cmpf .olt main_v84 main_v85
  let main_c_33 : IVec S_ 1 := constantI S_ 1 1#1
  let main_v87 : IVec S_ 1 := (fun x v => Host.reduce IntOp.andi x v reducesTo_S190x110_S_d0_1 h_S_) main_v86 main_c_33
  let main_v88 : IVec S_ 1 := andi main_v83 main_v87
  let main_v89 : FVec F S190 .f32 := Host.absf main_arg18
  let main_cst_34 : FVec F S_ .f32 := constant S_ .f32 0x7F800000#32
  let main_v90 : FVec F S190 .f32 := broadcastInDim S190 ![] bcast_S_S190 main_cst_34
  let main_v91 : IVec S190 1 := cmpf .olt main_v89 main_v90
  let main_c_35 : IVec S_ 1 := constantI S_ 1 1#1
  let main_v92 : IVec S_ 1 := (fun x v => Host.reduce IntOp.andi x v reducesTo_S190_S_d0 h_S_) main_v91 main_c_35
  let main_v93 : IVec S_ 1 := andi main_v88 main_v92
  let main_v94 : FVec F S270x190 .f32 := Host.absf main_arg19
  let main_cst_36 : FVec F S_ .f32 := constant S_ .f32 0x7F800000#32
  let main_v95 : FVec F S270x190 .f32 := broadcastInDim S270x190 ![] bcast_S_S270x190 main_cst_36
  let main_v96 : IVec S270x190 1 := cmpf .olt main_v94 main_v95
  let main_c_37 : IVec S_ 1 := constantI S_ 1 1#1
  let main_v97 : IVec S_ 1 := (fun x v => Host.reduce IntOp.andi x v reducesTo_S270x190_S_d0_1 h_S_) main_v96 main_c_37
  let main_v98 : IVec S_ 1 := andi main_v93 main_v97
  let main_v99 : FVec F S270 .f32 := Host.absf main_arg20
  let main_cst_38 : FVec F S_ .f32 := constant S_ .f32 0x7F800000#32
  let main_v100 : FVec F S270 .f32 := broadcastInDim S270 ![] bcast_S_S270 main_cst_38
  let main_v101 : IVec S270 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_v98 main_v101 main_c_39

def fn_part4 {F : FTy → Type} [FloatOps F] (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v63 : IVec S_ 1) (main_v67 : IVec S_ 1) : IVec S_ 1 :=
  let main_v68 : IVec S_ 1 := andi main_v63 main_v67
  let main_v69 : FVec F S20 .f32 := Host.absf main_arg14
  let main_cst_26 : FVec F S_ .f32 := constant S_ .f32 0x7F800000#32
  let main_v70 : FVec F S20 .f32 := broadcastInDim S20 ![] bcast_S_S20 main_cst_26
  let main_v71 : IVec S20 1 := cmpf .olt main_v69 main_v70
  let main_c_27 : IVec S_ 1 := constantI S_ 1 1#1
  let main_v72 : IVec S_ 1 := (fun x v => Host.reduce IntOp.andi x v reducesTo_S20_S_d0 h_S_) main_v71 main_c_27
  let main_v73 : IVec S_ 1 := andi main_v68 main_v72
  let main_v74 : FVec F S110x40 .f32 := Host.absf main_arg15
  let main_cst_28 : FVec F S_ .f32 := constant S_ .f32 0x7F800000#32
  let main_v75 : FVec F S110x40 .f32 := broadcastInDim S110x40 ![] bcast_S_S110x40 main_cst_28
  let main_v76 : IVec S110x40 1 := cmpf .olt main_v74 main_v75
  let main_c_29 : IVec S_ 1 := constantI S_ 1 1#1
  let main_v77 : IVec S_ 1 := (fun x v => Host.reduce IntOp.andi x v reducesTo_S110x40_S_d0_1 h_S_) main_v76 main_c_29
  let main_v78 : IVec S_ 1 := andi main_v73 main_v77
  let main_v79 : FVec F S110 .f32 := Host.absf main_arg16
  let main_cst_30 : FVec F S_ .f32 := constant S_ .f32 0x7F800000#32
  let main_v80 : FVec F S110 .f32 := broadcastInDim S110 ![] bcast_S_S110 main_cst_30
  let main_v81 : IVec S110 1 := cmpf .olt main_v79 main_v80
  let main_c_31 : IVec S_ 1 := constantI S_ 1 1#1
  let main_v82 : IVec S_ 1 := (fun x v => Host.reduce IntOp.andi x v reducesTo_S110_S_d0 h_S_) main_v81 main_c_31
  let main_v83 : IVec S_ 1 := andi main_v78 main_v82
  let main_v84 : FVec F S190x110 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_v83 main_v84 main_cst_32

def fn_part3 {F : FTy → Type} [FloatOps F] (main_arg11 : FVec F S3x72 .f32) (main_arg12 : FVec F S3 .f32) (main_arg13 : FVec F S20x325 .f32) (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v48 : IVec S_ 1) (main_v49 : FVec F S92 .f32) (main_v50 : FVec F S92 .f32) : IVec S_ 1 :=
  let main_v51 : IVec S92 1 := cmpf .olt main_v49 main_v50
  let main_c_19 : IVec S_ 1 := constantI S_ 1 1#1
  let main_v52 : IVec S_ 1 := (fun x v => Host.reduce IntOp.andi x v reducesTo_S92_S_d0 h_S_) main_v51 main_c_19
  let main_v53 : IVec S_ 1 := andi main_v48 main_v52
  let main_v54 : FVec F S3x72 .f32 := Host.absf main_arg11
  let main_cst_20 : FVec F S_ .f32 := constant S_ .f32 0x7F800000#32
  let main_v55 : FVec F S3x72 .f32 := broadcastInDim S3x72 ![] bcast_S_S3x72 main_cst_20
  let main_v56 : IVec S3x72 1 := cmpf .olt main_v54 main_v55
  let main_c_21 : IVec S_ 1 := constantI S_ 1 1#1
  let main_v57 : IVec S_ 1 := (fun x v => Host.reduce IntOp.andi x v reducesTo_S3x72_S_d0_1 h_S_) main_v56 main_c_21
  let main_v58 : IVec S_ 1 := andi main_v53 main_v57
  let main_v59 : FVec F S3 .f32 := Host.absf main_arg12
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  let main_v64 : FVec F S20x325 .f32 := Host.absf main_arg13
  let main_cst_24 : FVec F S_ .f32 := constant S_ .f32 0x7F800000#32
  let main_v65 : FVec F S20x325 .f32 := broadcastInDim S20x325 ![] bcast_S_S20x325 main_cst_24
  let main_v66 : IVec S20x325 1 := cmpf .olt main_v64 main_v65
  let main_c_25 : IVec S_ 1 := constantI S_ 1 1#1
  let main_v67 : IVec S_ 1 := (fun x v => Host.reduce IntOp.andi x v reducesTo_S20x325_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg7 : FVec F S72x48 .f32) (main_arg8 : FVec F S72 .f32) (main_arg9 : FVec F S92x72 .f32) (main_arg10 : FVec F S92 .f32) (main_arg11 : FVec F S3x72 .f32) (main_arg12 : FVec F S3 .f32) (main_arg13 : FVec F S20x325 .f32) (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v33 : IVec S_ 1) : IVec S_ 1 :=
  let main_v34 : FVec F S72x48 .f32 := Host.absf main_arg7
  let main_cst_12 : FVec F S_ .f32 := constant S_ .f32 0x7F800000#32
  let main_v35 : FVec F S72x48 .f32 := broadcastInDim S72x48 ![] bcast_S_S72x48 main_cst_12
  let main_v36 : IVec S72x48 1 := cmpf .olt main_v34 main_v35
  let main_c_13 : IVec S_ 1 := constantI S_ 1 1#1
  let main_v37 : IVec S_ 1 := (fun x v => Host.reduce IntOp.andi x v reducesTo_S72x48_S_d0_1 h_S_) main_v36 main_c_13
  let main_v38 : IVec S_ 1 := andi main_v33 main_v37
  let main_v39 : FVec F S72 .f32 := Host.absf main_arg8
  let main_cst_14 : FVec F S_ .f32 := constant S_ .f32 0x7F800000#32
  let main_v40 : FVec F S72 .f32 := broadcastInDim S72 ![] bcast_S_S72 main_cst_14
  let main_v41 : IVec S72 1 := cmpf .olt main_v39 main_v40
  let main_c_15 : IVec S_ 1 := constantI S_ 1 1#1
  let main_v42 : IVec S_ 1 := (fun x v => Host.reduce IntOp.andi x v reducesTo_S72_S_d0 h_S_) main_v41 main_c_15
  let main_v43 : IVec S_ 1 := andi main_v38 main_v42
  let main_v44 : FVec F S92x72 .f32 := Host.absf main_arg9
  let main_cst_16 : FVec F S_ .f32 := constant S_ .f32 0x7F800000#32
  let main_v45 : FVec F S92x72 .f32 := broadcastInDim S92x72 ![] bcast_S_S92x72 main_cst_16
  let main_v46 : IVec S92x72 1 := cmpf .olt main_v44 main_v45
  let main_c_17 : IVec S_ 1 := constantI S_ 1 1#1
  let main_v47 : IVec S_ 1 := (fun x v => Host.reduce IntOp.andi x v reducesTo_S92x72_S_d0_1 h_S_) main_v46 main_c_17
  let main_v48 : IVec S_ 1 := andi main_v43 main_v47
  let main_v49 : FVec F S92 .f32 := Host.absf main_arg10
  let main_cst_18 : FVec F S_ .f32 := constant S_ .f32 0x7F800000#32
  let main_v50 : FVec F S92 .f32 := broadcastInDim S92 ![] bcast_S_S92 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg4 : FVec F S1x20 .f32) (main_arg5 : FVec F S48x14 .f32) (main_arg6 : FVec F S48 .f32) (main_arg7 : FVec F S72x48 .f32) (main_arg8 : FVec F S72 .f32) (main_arg9 : FVec F S92x72 .f32) (main_arg10 : FVec F S92 .f32) (main_arg11 : FVec F S3x72 .f32) (main_arg12 : FVec F S3 .f32) (main_arg13 : FVec F S20x325 .f32) (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v13 : IVec S_ 1) (main_v16 : IVec S1000000x20 1) : IVec S_ 1 :=
  let main_c_5 : IVec S_ 1 := constantI S_ 1 1#1
  let main_v17 : IVec S_ 1 := (fun x v => Host.reduce IntOp.andi x v reducesTo_S1000000x20_S_d0_1 h_S_) main_v16 main_c_5
  let main_v18 : IVec S_ 1 := andi main_v13 main_v17
  let main_v19 : FVec F S1x20 .f32 := Host.absf main_arg4
  let main_cst_6 : FVec F S_ .f32 := constant S_ .f32 0x7F800000#32
  let main_v20 : FVec F S1x20 .f32 := broadcastInDim S1x20 ![] bcast_S_S1x20 main_cst_6
  let main_v21 : IVec S1x20 1 := cmpf .olt main_v19 main_v20
  let main_c_7 : IVec S_ 1 := constantI S_ 1 1#1
  let main_v22 : IVec S_ 1 := (fun x v => Host.reduce IntOp.andi x v reducesTo_S1x20_S_d0_1 h_S_) main_v21 main_c_7
  let main_v23 : IVec S_ 1 := andi main_v18 main_v22
  let main_v24 : FVec F S48x14 .f32 := Host.absf main_arg5
  let main_cst_8 : FVec F S_ .f32 := constant S_ .f32 0x7F800000#32
  let main_v25 : FVec F S48x14 .f32 := broadcastInDim S48x14 ![] bcast_S_S48x14 main_cst_8
  let main_v26 : IVec S48x14 1 := cmpf .olt main_v24 main_v25
  let main_c_9 : IVec S_ 1 := constantI S_ 1 1#1
  let main_v27 : IVec S_ 1 := (fun x v => Host.reduce IntOp.andi x v reducesTo_S48x14_S_d0_1 h_S_) main_v26 main_c_9
  let main_v28 : IVec S_ 1 := andi main_v23 main_v27
  let main_v29 : FVec F S48 .f32 := Host.absf main_arg6
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S1x14 .f32) (main_arg1 : FVec F S1x1000000 .f32) (main_arg2 : FVec F S1x1000000 .f32) (main_arg3 : FVec F S1000000x20 .f32) (main_arg4 : FVec F S1x20 .f32) (main_arg5 : FVec F S48x14 .f32) (main_arg6 : FVec F S48 .f32) (main_arg7 : FVec F S72x48 .f32) (main_arg8 : FVec F S72 .f32) (main_arg9 : FVec F S92x72 .f32) (main_arg10 : FVec F S92 .f32) (main_arg11 : FVec F S3x72 .f32) (main_arg12 : FVec F S3 .f32) (main_arg13 : FVec F S20x325 .f32) (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) : IVec S_ 1 :=
  let main_v0 : FVec F S1x14 .f32 := Host.absf main_arg0
  let main_cst : FVec F S_ .f32 := constant S_ .f32 0x7F800000#32
  let main_v1 : FVec F S1x14 .f32 := broadcastInDim S1x14 ![] bcast_S_S1x14 main_cst
  let main_v2 : IVec S1x14 1 := cmpf .olt main_v0 main_v1
  let main_c : IVec S_ 1 := constantI S_ 1 1#1
  let main_v3 : IVec S_ 1 := (fun x v => Host.reduce IntOp.andi x v reducesTo_S1x14_S_d0_1 h_S_) main_v2 main_c
  let main_v4 : FVec F S1x1000000 .f32 := Host.absf main_arg1
  let main_cst_0 : FVec F S_ .f32 := constant S_ .f32 0x7F800000#32
  let main_v5 : FVec F S1x1000000 .f32 := broadcastInDim S1x1000000 ![] bcast_S_S1x1000000 main_cst_0
  let main_v6 : IVec S1x1000000 1 := cmpf .olt main_v4 main_v5
  let main_c_1 : IVec S_ 1 := constantI S_ 1 1#1
  let main_v7 : IVec S_ 1 := (fun x v => Host.reduce IntOp.andi x v reducesTo_S1x1000000_S_d0_1 h_S_) main_v6 main_c_1
  let main_v8 : IVec S_ 1 := andi main_v3 main_v7
  let main_v9 : FVec F S1x1000000 .f32 := Host.absf main_arg2
  let main_cst_2 : FVec F S_ .f32 := constant S_ .f32 0x7F800000#32
  let main_v10 : FVec F S1x1000000 .f32 := broadcastInDim S1x1000000 ![] bcast_S_S1x1000000 main_cst_2
  let main_v11 : IVec S1x1000000 1 := cmpf .olt main_v9 main_v10
  let main_c_3 : IVec S_ 1 := constantI S_ 1 1#1
  let main_v12 : IVec S_ 1 := (fun x v => Host.reduce IntOp.andi x v reducesTo_S1x1000000_S_d0_1 h_S_) main_v11 main_c_3
  let main_v13 : IVec S_ 1 := andi main_v8 main_v12
  let main_v14 : FVec F S1000000x20 .f32 := Host.absf main_arg3
  let main_cst_4 : FVec F S_ .f32 := constant S_ .f32 0x7F800000#32
  let main_v15 : FVec F S1000000x20 .f32 := broadcastInDim S1000000x20 ![] bcast_S_S1000000x20 main_cst_4
  let main_v16 : IVec S1000000x20 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S1x14 : Shape := ⟨2, ![1, 14]⟩
abbrev S1x1000000 : Shape := ⟨2, ![1, 1000000]⟩
abbrev S1000000x20 : Shape := ⟨2, ![1000000, 20]⟩
abbrev S1x20 : Shape := ⟨2, ![1, 20]⟩
abbrev S48x14 : Shape := ⟨2, ![48, 14]⟩
abbrev S48 : Shape := ⟨1, ![48]⟩
abbrev S72x48 : Shape := ⟨2, ![72, 48]⟩
abbrev S72 : Shape := ⟨1, ![72]⟩
abbrev S92x72 : Shape := ⟨2, ![92, 72]⟩
abbrev S92 : Shape := ⟨1, ![92]⟩
abbrev S3x72 : Shape := ⟨2, ![3, 72]⟩
abbrev S3 : Shape := ⟨1, ![3]⟩
abbrev S20x325 : Shape := ⟨2, ![20, 325]⟩
abbrev S20 : Shape := ⟨1, ![20]⟩
abbrev S110x40 : Shape := ⟨2, ![110, 40]⟩
abbrev S110 : Shape := ⟨1, ![110]⟩
abbrev S190x110 : Shape := ⟨2, ![190, 110]⟩
abbrev S190 : Shape := ⟨1, ![190]⟩
abbrev S270x190 : Shape := ⟨2, ![270, 190]⟩
abbrev S270 : Shape := ⟨1, ![270]⟩
abbrev S325x270 : Shape := ⟨2, ![325, 270]⟩
abbrev S325 : Shape := ⟨1, ![325]⟩
abbrev S14x48 : Shape := ⟨2, ![14, 48]⟩
abbrev S1x48 : Shape := ⟨2, ![1, 48]⟩
abbrev S48x72 : Shape := ⟨2, ![48, 72]⟩
abbrev S1x72 : Shape := ⟨2, ![1, 72]⟩
abbrev S72x92 : Shape := ⟨2, ![72, 92]⟩
abbrev S1x92 : Shape := ⟨2, ![1, 92]⟩
abbrev S72x3 : Shape := ⟨2, ![72, 3]⟩
abbrev S1x3 : Shape := ⟨2, ![1, 3]⟩
abbrev S1x26 : Shape := ⟨2, ![1, 26]⟩
abbrev S26 : Shape := ⟨1, ![26]⟩
abbrev S_ : Shape := ⟨0, ![]⟩
abbrev S1x1 : Shape := ⟨2, ![1, 1]⟩
abbrev S1 : Shape := ⟨1, ![1]⟩
abbrev S1000000x3 : Shape := ⟨2, ![1000000, 3]⟩
abbrev S10000x20 : Shape := ⟨2, ![10000, 20]⟩
abbrev S10000x3 : Shape := ⟨2, ![10000, 3]⟩
abbrev S10000 : Shape := ⟨1, ![10000]⟩
abbrev S10000x1 : Shape := ⟨2, ![10000, 1]⟩
abbrev S1000000x1 : Shape := ⟨2, ![1000000, 1]⟩
abbrev S1x1000002 : Shape := ⟨2, ![1, 1000002]⟩
abbrev S2x1x20 : Shape := ⟨3, ![2, 1, 20]⟩
abbrev S1x1x20 : Shape := ⟨3, ![1, 1, 20]⟩
abbrev S2x20 : Shape := ⟨2, ![2, 20]⟩
abbrev S1x40 : Shape := ⟨2, ![1, 40]⟩
abbrev S1x2 : Shape := ⟨2, ![1, 2]⟩
abbrev S40x110 : Shape := ⟨2, ![40, 110]⟩
abbrev S1x110 : Shape := ⟨2, ![1, 110]⟩
abbrev S110x190 : Shape := ⟨2, ![110, 190]⟩
abbrev S1x190 : Shape := ⟨2, ![1, 190]⟩
abbrev S190x270 : Shape := ⟨2, ![190, 270]⟩
abbrev S1x270 : Shape := ⟨2, ![1, 270]⟩
abbrev S270x325 : Shape := ⟨2, ![270, 325]⟩
abbrev S1x325 : Shape := ⟨2, ![1, 325]⟩
abbrev S325x20 : Shape := ⟨2, ![325, 20]⟩
abbrev S5000x20 : Shape := ⟨2, ![5000, 20]⟩
abbrev S5000x1 : Shape := ⟨2, ![5000, 1]⟩

abbrev nBuf : Space → Nat
  | .hbm => 454
  | .vmem => 20
  | .smem => 0
  | _ => 0

abbrev hbmTy0_0 (i : Nat) : BufTy := match i % 128 with
  | 0 => ⟨S1x14, .f32⟩
  | 1 => ⟨S1x1000000, .f32⟩
  | 2 => ⟨S1x1000000, .f32⟩
  | 3 => ⟨S1000000x20, .f32⟩
  | 4 => ⟨S1x20, .f32⟩
  | 5 => ⟨S48x14, .f32⟩
  | 6 => ⟨S48, .f32⟩
  | 7 => ⟨S72x48, .f32⟩
  | 8 => ⟨S72, .f32⟩
  | 9 => ⟨S92x72, .f32⟩
  | 10 => ⟨S92, .f32⟩
  | 11 => ⟨S3x72, .f32⟩
  | 12 => ⟨S3, .f32⟩
  | 13 => ⟨S20x325, .f32⟩
  | 14 => ⟨S20, .f32⟩
  | 15 => ⟨S110x40, .f32⟩
  | 16 => ⟨S110, .f32⟩
  | 17 => ⟨S190x110, .f32⟩
  | 18 => ⟨S190, .f32⟩
  | 19 => ⟨S270x190, .f32⟩
  | 20 => ⟨S270, .f32⟩
  | 21 => ⟨S325x270, .f32⟩
  | 22 => ⟨S325, .f32⟩
  | 23 => ⟨S110x40, .f32⟩
  | 24 => ⟨S110, .f32⟩
  | 25 => ⟨S190x110, .f32⟩
  | 26 => ⟨S190, .f32⟩
  | 27 => ⟨S270x190, .f32⟩
  | 28 => ⟨S270, .f32⟩
  | 29 => ⟨S325x270, .f32⟩
  | 30 => ⟨S325, .f32⟩
  | 31 => ⟨S14x48, .f32⟩
  | 32 => ⟨S1x48, .f32⟩
  | 33 => ⟨S1x48, .f32⟩
  | 34 => ⟨S1x48, .f32⟩
  | 35 => ⟨S48x72, .f32⟩
  | 36 => ⟨S1x72, .f32⟩
  | 37 => ⟨S1x72, .f32⟩
  | 38 => ⟨S1x72, .f32⟩
  | 39 => ⟨S72x92, .f32⟩
  | 40 => ⟨S1x92, .f32⟩
  | 41 => ⟨S1x92, .f32⟩
  | 42 => ⟨S1x92, .f32⟩
  | 43 => ⟨S72x3, .f32⟩
  | 44 => ⟨S1x3, .f32⟩
  | 45 => ⟨S1x3, .f32⟩
  | 46 => ⟨S1x3, .f32⟩
  | 47 => ⟨S1x26, .f32⟩
  | 48 => ⟨S26, .f32⟩
  | 49 => ⟨S1x26, .f32⟩
  | 50 => ⟨S1x26, .f32⟩
  | 51 => ⟨S26, .f32⟩
  | 52 => ⟨S1x26, .f32⟩
  | 53 => ⟨S1x20, .f32⟩
  | 54 => ⟨S20, .f32⟩
  | 55 => ⟨S1x20, .f32⟩
  | 56 => ⟨S1x20, .f32⟩
  | 57 => ⟨S1x20, .f32⟩
  | 58 => ⟨S_, .f32⟩
  | 59 => ⟨S1x20, .f32⟩
  | 60 => ⟨S1x20, .f32⟩
  | 61 => ⟨S_, .f32⟩
  | 62 => ⟨S1x20, .f32⟩
  | 63 => ⟨S1x20, .f32⟩
  | 64 => ⟨S1x20, .f32⟩
  | 65 => ⟨S20, .f32⟩
  | 66 => ⟨S1x20, .f32⟩
  | 67 => ⟨S1x20, .f32⟩
  | 68 => ⟨S1x20, .f32⟩
  | 69 => ⟨S20, .f32⟩
  | 70 => ⟨S20, .f32⟩
  | 71 => ⟨S1x20, .f32⟩
  | 72 => ⟨S1x1, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S1x3, .f32⟩
  | 81 => ⟨S3, .f32⟩
  | 82 => ⟨S_, .f32⟩
  | 83 => ⟨S_, .f32⟩
  | 84 => ⟨S_, .f32⟩
  | 85 => ⟨S_, .f32⟩
  | 86 => ⟨S1, .f32⟩
  | 87 => ⟨S3, .f32⟩
  | 88 => ⟨S3, .f32⟩
  | 89 => ⟨S3, .f32⟩
  | 90 => ⟨S_, .f32⟩
  | 91 => ⟨S_, .f32⟩
  | 92 => ⟨S1, .f32⟩
  | 93 => ⟨S3, .f32⟩
  | 94 => ⟨S3, .f32⟩
  | 95 => ⟨S1x1, .f32⟩
  | 96 => ⟨S_, .f32⟩
  | 97 => ⟨S_, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S1x1, .f32⟩
  | 111 => ⟨S_, .f32⟩
  | 112 => ⟨S_, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S1x20, .f32⟩
  | 124 => ⟨S20, .f32⟩
  | 125 => ⟨S20, .f32⟩
  | 126 => ⟨S1x20, .f32⟩
  | 127 => ⟨S1x1, .f32⟩
  | _ => ⟨S1x14, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S1x3, .f32⟩
  | 8 => ⟨S3, .f32⟩
  | 9 => ⟨S_, .f32⟩
  | 10 => ⟨S_, .f32⟩
  | 11 => ⟨S_, .f32⟩
  | 12 => ⟨S_, .f32⟩
  | 13 => ⟨S1, .f32⟩
  | 14 => ⟨S3, .f32⟩
  | 15 => ⟨S3, .f32⟩
  | 16 => ⟨S3, .f32⟩
  | 17 => ⟨S_, .f32⟩
  | 18 => ⟨S_, .f32⟩
  | 19 => ⟨S1, .f32⟩
  | 20 => ⟨S3, .f32⟩
  | 21 => ⟨S3, .f32⟩
  | 22 => ⟨S1x1, .f32⟩
  | 23 => ⟨S_, .f32⟩
  | 24 => ⟨S_, .f32⟩
  | 25 => ⟨S_, .f32⟩
  | 26 => ⟨S_, .f32⟩
  | 27 => ⟨S_, .i1⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S1x1, .f32⟩
  | 38 => ⟨S_, .f32⟩
  | 39 => ⟨S_, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S1x20, .f32⟩
  | 52 => ⟨S1x20, .f32⟩
  | 53 => ⟨S_, .f32⟩
  | 54 => ⟨S1x20, .f32⟩
  | 55 => ⟨S1x20, .f32⟩
  | 56 => ⟨S1000000x3, .f32⟩
  | 57 => ⟨S1000000x1, .f32⟩
  | 58 => ⟨S1000000x1, .f32⟩
  | 59 => ⟨S1000000x1, .f32⟩
  | 60 => ⟨S1x20, .f32⟩
  | 61 => ⟨S_, .f32⟩
  | 62 => ⟨S1, .f32⟩
  | 63 => ⟨S1, .f32⟩
  | 64 => ⟨S_, .f32⟩
  | 65 => ⟨S1, .f32⟩
  | 66 => ⟨S1, .f32⟩
  | 67 => ⟨S_, .f32⟩
  | 68 => ⟨S1000000x1, .f32⟩
  | 69 => ⟨S1000000x1, .f32⟩
  | 70 => ⟨S1x1, .f32⟩
  | 71 => ⟨S1000000x1, .f32⟩
  | 72 => ⟨S1000000x1, .f32⟩
  | 73 => ⟨S1000000x1, .f32⟩
  | 74 => ⟨S1000000x1, .f32⟩
  | 75 => ⟨S1000000x1, .f32⟩
  | 76 => ⟨S1x1000000, .f32⟩
  | 77 => ⟨S_, .f32⟩
  | 78 => ⟨S1, .f32⟩
  | 79 => ⟨S_, .f32⟩
  | 80 => ⟨S1, .f32⟩
  | 81 => ⟨S1, .f32⟩
  | 82 => ⟨S1x1, .f32⟩
  | 83 => ⟨S1x1000000, .f32⟩
  | 84 => ⟨S1x1000000, .f32⟩
  | 85 => ⟨S1x1000000, .f32⟩
  | 86 => ⟨S_, .f32⟩
  | 87 => ⟨S1, .f32⟩
  | 88 => ⟨S1x1, .f32⟩
  | 89 => ⟨S1x1000000, .f32⟩
  | 90 => ⟨S1x1000000, .f32⟩
  | 91 => ⟨S1x1000000, .f32⟩
  | 92 => ⟨S1x1000000, .f32⟩
  | 93 => ⟨S_, .f32⟩
  | 94 => ⟨S_, .f32⟩
  | 95 => ⟨S1x1000000, .f32⟩
  | 96 => ⟨S1x1000000, .f32⟩
  | 97 => ⟨S1x1000000, .f32⟩
  | 98 => ⟨S1x1, .f32⟩
  | 99 => ⟨S1x1, .f32⟩
  | 100 => ⟨S1x1000002, .f32⟩
  | 101 => ⟨S1, .f32⟩
  | 102 => ⟨S_, .f32⟩
  | 103 => ⟨S1x1000000, .f32⟩
  | 104 => ⟨S1x1000000, .f32⟩
  | 105 => ⟨S1x1000000, .f32⟩
  | 106 => ⟨S1, .f32⟩
  | 107 => ⟨S_, .f32⟩
  | 108 => ⟨S1x1000000, .f32⟩
  | 109 => ⟨S1x1000000, .f32⟩
  | 110 => ⟨S1x1000000, .f32⟩
  | 111 => ⟨S1x1000000, .f32⟩
  | 112 => ⟨S1, .f32⟩
  | 113 => ⟨S_, .f32⟩
  | 114 => ⟨S1x1000000, .f32⟩
  | 115 => ⟨S1x1000000, .f32⟩
  | 116 => ⟨S1x1000000, .f32⟩
  | 117 => ⟨S1x1000000, .f32⟩
  | 118 => ⟨S1x1000000, .f32⟩
  | 119 => ⟨S1x1000000, .f32⟩
  | 120 => ⟨S_, .f32⟩
  | 121 => ⟨S1, .f32⟩
  | 122 => ⟨S1x1, .f32⟩
  | 123 => ⟨S_, .f32⟩
  | 124 => ⟨S1x1, .f32⟩
  | 125 => ⟨S1x1, .f32⟩
  | 126 => ⟨S1x1000000, .f32⟩
  | 127 => ⟨S1x1000000, .f32⟩
  | _ => ⟨S1x14, .f32⟩

abbrev hbmTy0_2 (i : Nat) : BufTy := match i % 128 with
  | 0 => ⟨S1x20, .f32⟩
  | 1 => ⟨S_, .f32⟩
  | 2 => ⟨S1, .f32⟩
  | 3 => ⟨S1, .f32⟩
  | 4 => ⟨S_, .f32⟩
  | 5 => ⟨S1, .f32⟩
  | 6 => ⟨S1, .f32⟩
  | 7 => ⟨S_, .f32⟩
  | 8 => ⟨S1000000x1, .f32⟩
  | 9 => ⟨S1000000x1, .f32⟩
  | 10 => ⟨S1x1, .f32⟩
  | 11 => ⟨S1000000x1, .f32⟩
  | 12 => ⟨S1000000x1, .f32⟩
  | 13 => ⟨S1000000x1, .f32⟩
  | 14 => ⟨S1000000x1, .f32⟩
  | 15 => ⟨S1000000x1, .f32⟩
  | 16 => ⟨S1x1000000, .f32⟩
  | 17 => ⟨S_, .f32⟩
  | 18 => ⟨S1, .f32⟩
  | 19 => ⟨S_, .f32⟩
  | 20 => ⟨S1, .f32⟩
  | 21 => ⟨S1, .f32⟩
  | 22 => ⟨S1x1, .f32⟩
  | 23 => ⟨S1x1000000, .f32⟩
  | 24 => ⟨S1x1000000, .f32⟩
  | 25 => ⟨S1x1000000, .f32⟩
  | 26 => ⟨S_, .f32⟩
  | 27 => ⟨S1, .f32⟩
  | 28 => ⟨S1x1, .f32⟩
  | 29 => ⟨S1x1000000, .f32⟩
  | 30 => ⟨S1x1000000, .f32⟩
  | 31 => ⟨S1x1000000, .f32⟩
  | 32 => ⟨S1x1000000, .f32⟩
  | 33 => ⟨S_, .f32⟩
  | 34 => ⟨S_, .f32⟩
  | 35 => ⟨S1x1000000, .f32⟩
  | 36 => ⟨S1x1000000, .f32⟩
  | 37 => ⟨S1x1000000, .f32⟩
  | 38 => ⟨S1x1, .f32⟩
  | 39 => ⟨S1x1, .f32⟩
  | 40 => ⟨S1x1000002, .f32⟩
  | 41 => ⟨S1, .f32⟩
  | 42 => ⟨S_, .f32⟩
  | 43 => ⟨S1x1000000, .f32⟩
  | 44 => ⟨S1x1000000, .f32⟩
  | 45 => ⟨S1x1000000, .f32⟩
  | 46 => ⟨S1, .f32⟩
  | 47 => ⟨S_, .f32⟩
  | 48 => ⟨S1x1000000, .f32⟩
  | 49 => ⟨S1x1000000, .f32⟩
  | 50 => ⟨S1x1000000, .f32⟩
  | 51 => ⟨S1x1000000, .f32⟩
  | 52 => ⟨S1, .f32⟩
  | 53 => ⟨S_, .f32⟩
  | 54 => ⟨S1x1000000, .f32⟩
  | 55 => ⟨S1x1000000, .f32⟩
  | 56 => ⟨S1x1000000, .f32⟩
  | 57 => ⟨S1x1000000, .f32⟩
  | 58 => ⟨S1x1000000, .f32⟩
  | 59 => ⟨S1x1000000, .f32⟩
  | 60 => ⟨S_, .f32⟩
  | 61 => ⟨S1, .f32⟩
  | 62 => ⟨S1x1, .f32⟩
  | 63 => ⟨S_, .f32⟩
  | 64 => ⟨S1x1, .f32⟩
  | 65 => ⟨S1x1, .f32⟩
  | 66 => ⟨S1x1000000, .f32⟩
  | 67 => ⟨S1x1000000, .f32⟩
  | 68 => ⟨S1000000x1, .f32⟩
  | 69 => ⟨S2x1x20, .f32⟩
  | 70 => ⟨S2x20, .f32⟩
  | 71 => ⟨S_, .f32⟩
  | 72 => ⟨S20, .f32⟩
  | 73 => ⟨S1x20, .f32⟩
  | 74 => ⟨S1x40, .f32⟩
  | 75 => ⟨S1x1, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S1x2, .f32⟩
  | 84 => ⟨S_, .f32⟩
  | 85 => ⟨S1, .f32⟩
  | 86 => ⟨S_, .f32⟩
  | 87 => ⟨S1, .f32⟩
  | 88 => ⟨S1, .f32⟩
  | 89 => ⟨S1x1, .f32⟩
  | 90 => ⟨S1x2, .f32⟩
  | 91 => ⟨S1x2, .f32⟩
  | 92 => ⟨S1x2, .f32⟩
  | 93 => ⟨S_, .f32⟩
  | 94 => ⟨S1, .f32⟩
  | 95 => ⟨S1x1, .f32⟩
  | 96 => ⟨S1x2, .f32⟩
  | 97 => ⟨S1x2, .f32⟩
  | 98 => ⟨S40x110, .f32⟩
  | 99 => ⟨S1x110, .f32⟩
  | 100 => ⟨S1x110, .f32⟩
  | 101 => ⟨S1x110, .f32⟩
  | 102 => ⟨S_, .f32⟩
  | 103 => ⟨S1x110, .f32⟩
  | 104 => ⟨S1x110, .f32⟩
  | 105 => ⟨S110x190, .f32⟩
  | 106 => ⟨S1x190, .f32⟩
  | 107 => ⟨S1x190, .f32⟩
  | 108 => ⟨S1x190, .f32⟩
  | 109 => ⟨S_, .f32⟩
  | 110 => ⟨S1x190, .f32⟩
  | 111 => ⟨S1x190, .f32⟩
  | 112 => ⟨S190x270, .f32⟩
  | 113 => ⟨S1x270, .f32⟩
  | 114 => ⟨S1x270, .f32⟩
  | 115 => ⟨S1x270, .f32⟩
  | 116 => ⟨S_, .f32⟩
  | 117 => ⟨S1x270, .f32⟩
  | 118 => ⟨S1x270, .f32⟩
  | 119 => ⟨S270x325, .f32⟩
  | 120 => ⟨S1x325, .f32⟩
  | 121 => ⟨S1x325, .f32⟩
  | 122 => ⟨S1x325, .f32⟩
  | 123 => ⟨S_, .f32⟩
  | 124 => ⟨S1, .f32⟩
  | 125 => ⟨S_, .f32⟩
  | 126 => ⟨S1, .f32⟩
  | 127 => ⟨S1, .f32⟩
  | _ => ⟨S1x14, .f32⟩

abbrev hbmTy0_3 (i : Nat) : BufTy := match i % 128 with
  | 0 => ⟨S1x1, .f32⟩
  | 1 => ⟨S1x325, .f32⟩
  | 2 => ⟨S1x325, .f32⟩
  | 3 => ⟨S1x325, .f32⟩
  | 4 => ⟨S_, .f32⟩
  | 5 => ⟨S1, .f32⟩
  | 6 => ⟨S1x1, .f32⟩
  | 7 => ⟨S1x325, .f32⟩
  | 8 => ⟨S1x325, .f32⟩
  | 9 => ⟨S40x110, .f32⟩
  | 10 => ⟨S1x110, .f32⟩
  | 11 => ⟨S1x110, .f32⟩
  | 12 => ⟨S1x110, .f32⟩
  | 13 => ⟨S_, .f32⟩
  | 14 => ⟨S1x110, .f32⟩
  | 15 => ⟨S1x110, .f32⟩
  | 16 => ⟨S110x190, .f32⟩
  | 17 => ⟨S1x190, .f32⟩
  | 18 => ⟨S1x190, .f32⟩
  | 19 => ⟨S1x190, .f32⟩
  | 20 => ⟨S_, .f32⟩
  | 21 => ⟨S1x190, .f32⟩
  | 22 => ⟨S1x190, .f32⟩
  | 23 => ⟨S190x270, .f32⟩
  | 24 => ⟨S1x270, .f32⟩
  | 25 => ⟨S1x270, .f32⟩
  | 26 => ⟨S1x270, .f32⟩
  | 27 => ⟨S_, .f32⟩
  | 28 => ⟨S1x270, .f32⟩
  | 29 => ⟨S1x270, .f32⟩
  | 30 => ⟨S270x325, .f32⟩
  | 31 => ⟨S1x325, .f32⟩
  | 32 => ⟨S1x325, .f32⟩
  | 33 => ⟨S1x325, .f32⟩
  | 34 => ⟨S_, .f32⟩
  | 35 => ⟨S1, .f32⟩
  | 36 => ⟨S_, .f32⟩
  | 37 => ⟨S1, .f32⟩
  | 38 => ⟨S1, .f32⟩
  | 39 => ⟨S1x1, .f32⟩
  | 40 => ⟨S1x325, .f32⟩
  | 41 => ⟨S1x325, .f32⟩
  | 42 => ⟨S1x325, .f32⟩
  | 43 => ⟨S_, .f32⟩
  | 44 => ⟨S1, .f32⟩
  | 45 => ⟨S1x1, .f32⟩
  | 46 => ⟨S1x325, .f32⟩
  | 47 => ⟨S1x325, .f32⟩
  | 48 => ⟨S1x1, .f32⟩
  | 49 => ⟨S_, .f32⟩
  | 50 => ⟨S1x325, .f32⟩
  | 51 => ⟨S1x325, .f32⟩
  | 52 => ⟨S1x1, .f32⟩
  | 53 => ⟨S_, .f32⟩
  | 54 => ⟨S1x325, .f32⟩
  | 55 => ⟨S1x325, .f32⟩
  | 56 => ⟨S1x325, .f32⟩
  | 57 => ⟨S325x20, .f32⟩
  | 58 => ⟨S1x20, .f32⟩
  | 59 => ⟨S1x20, .f32⟩
  | 60 => ⟨S1x20, .f32⟩
  | 61 => ⟨S1x20, .f32⟩
  | 62 => ⟨S1x20, .f32⟩
  | 63 => ⟨S_, .f32⟩
  | 64 => ⟨S_, .f32⟩
  | 65 => ⟨S1x20, .f32⟩
  | 66 => ⟨S1x20, .f32⟩
  | 67 => ⟨S1x20, .f32⟩
  | 68 => ⟨S1000000x1, .f32⟩
  | 69 => ⟨S1000000x20, .f32⟩
  | _ => ⟨S1x14, .f32⟩

abbrev hbmTy (i : Nat) : BufTy := match i / 128 with
  | 0 => hbmTy0_0 i
  | 1 => hbmTy0_1 i
  | 2 => hbmTy0_2 i
  | 3 => hbmTy0_3 i
  | _ => ⟨S1x14, .f32⟩

abbrev bufTy : (tb : Table) → Fin (tcTables nBuf tb) → BufTy
  | .hbm, ⟨i, _⟩ => hbmTy i
  | .local _ .vmem, ⟨0, _⟩ => ⟨S10000x20, .f32⟩
  | .local _ .vmem, ⟨1, _⟩ => ⟨S10000x20, .f32⟩
  | .local _ .vmem, ⟨2, _⟩ => ⟨S1x20, .f32⟩
  | .local _ .vmem, ⟨3, _⟩ => ⟨S1x20, .f32⟩
  | .local _ .vmem, ⟨4, _⟩ => ⟨S10000x3, .f32⟩
  | .local _ .vmem, ⟨5, _⟩ => ⟨S10000x3, .f32⟩
  | .local _ .vmem, ⟨6, _⟩ => ⟨S10000x20, .f32⟩
  | .local _ .vmem, ⟨7, _⟩ => ⟨S10000x20, .f32⟩
  | .local _ .vmem, ⟨8, _⟩ => ⟨S10000x1, .f32⟩
  | .local _ .vmem, ⟨9, _⟩ => ⟨S10000x1, .f32⟩
  | .local _ .vmem, ⟨10, _⟩ => ⟨S1x1x20, .f32⟩
  | .local _ .vmem, ⟨11, _⟩ => ⟨S1x1x20, .f32⟩
  | .local _ .vmem, ⟨12, _⟩ => ⟨S5000x20, .f32⟩
  | .local _ .vmem, ⟨13, _⟩ => ⟨S5000x20, .f32⟩
  | .local _ .vmem, ⟨14, _⟩ => ⟨S5000x1, .f32⟩
  | .local _ .vmem, ⟨15, _⟩ => ⟨S5000x1, .f32⟩
  | .local _ .vmem, ⟨16, _⟩ => ⟨S1x20, .f32⟩
  | .local _ .vmem, ⟨17, _⟩ => ⟨S1x20, .f32⟩
  | .local _ .vmem, ⟨18, _⟩ => ⟨S5000x20, .f32⟩
  | .local _ .vmem, ⟨19, _⟩ => ⟨S5000x20, .f32⟩
  | _, _ => ⟨S1x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst : Ref sig .tc := ⟨.hbm, 58, rfl⟩
abbrev main_v27 : Ref sig .tc := ⟨.hbm, 59, rfl⟩
abbrev main_v28 : Ref sig .tc := ⟨.hbm, 60, rfl⟩
abbrev main_cst_0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_1 : Ref sig .tc := ⟨.hbm, 76, rfl⟩
abbrev main_v43 : Ref sig .tc := ⟨.hbm, 77, rfl⟩
abbrev main_cst_2 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_3 : Ref sig .tc := ⟨.hbm, 82, rfl⟩
abbrev main_v47 : Ref sig .tc := ⟨.hbm, 83, rfl⟩
abbrev main_cst_4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_5 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_v8 : Ref sig .tc := ⟨.hbm, 106, rfl⟩
abbrev main_v59 : Ref sig .tc := ⟨.hbm, 107, rfl⟩
abbrev main_cst_6 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_v8 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_cst_7 : Ref sig .tc := ⟨.hbm, 131, rfl⟩
abbrev main_v72 : Ref sig .tc := ⟨.hbm, 132, rfl⟩
abbrev main_cst_8 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_9 : Ref sig .tc := ⟨.hbm, 137, rfl⟩
abbrev main_v76 : Ref sig .tc := ⟨.hbm, 138, rfl⟩
abbrev main_cst_10 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_11 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_call2_cst : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_call2_v5 : Ref sig .tc := ⟨.hbm, 158, rfl⟩
abbrev main_call2_v6 : Ref sig .tc := ⟨.hbm, 159, rfl⟩
abbrev main_call2_v7 : Ref sig .tc := ⟨.hbm, 160, rfl⟩
abbrev main_call2_v8 : Ref sig .tc := ⟨.hbm, 161, rfl⟩
abbrev main_v88 : Ref sig .tc := ⟨.hbm, 162, rfl⟩
abbrev main_cst_12 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_call3_cst : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_v6 : Ref sig .tc := ⟨.hbm, 174, rfl⟩
abbrev main_call3_v7 : Ref sig .tc := ⟨.hbm, 175, rfl⟩
abbrev main_call3_v8 : Ref sig .tc := ⟨.hbm, 176, rfl⟩
abbrev main_v92 : Ref sig .tc := ⟨.hbm, 177, rfl⟩
abbrev main_cst_13 : Ref sig .tc := ⟨.hbm, 178, rfl⟩
abbrev main_v93 : Ref sig .tc := ⟨.hbm, 179, rfl⟩
abbrev main_v94 : Ref sig .tc := ⟨.hbm, 180, rfl⟩
abbrev main_cst_14 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_call4_v0 : Ref sig .tc := ⟨.hbm, 188, rfl⟩
abbrev main_call4_cst : Ref sig .tc := ⟨.hbm, 189, rfl⟩
abbrev main_call4_v1 : Ref sig .tc := ⟨.hbm, 190, rfl⟩
abbrev main_v101 : Ref sig .tc := ⟨.hbm, 191, rfl⟩
abbrev main_cst_15 : Ref sig .tc := ⟨.hbm, 192, rfl⟩
abbrev main_v102 : Ref sig .tc := ⟨.hbm, 193, rfl⟩
abbrev main_v103 : Ref sig .tc := ⟨.hbm, 194, rfl⟩
abbrev main_cst_16 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_cst_17 : Ref sig .tc := ⟨.hbm, 205, rfl⟩
abbrev main_v113 : Ref sig .tc := ⟨.hbm, 206, rfl⟩
abbrev main_cst_18 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_cst_19 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_cst_20 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_cst_21 : Ref sig .tc := ⟨.hbm, 248, rfl⟩
abbrev main_v152 : Ref sig .tc := ⟨.hbm, 249, rfl⟩
abbrev main_v153 : Ref sig .tc := ⟨.hbm, 250, rfl⟩
abbrev main_cst_22 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_call5_v0 : Ref sig .tc := ⟨.hbm, 256, rfl⟩
abbrev main_call5_cst : Ref sig .tc := ⟨.hbm, 257, rfl⟩
abbrev main_call5_v1 : Ref sig .tc := ⟨.hbm, 258, rfl⟩
abbrev main_v158 : Ref sig .tc := ⟨.hbm, 259, rfl⟩
abbrev main_cst_23 : Ref sig .tc := ⟨.hbm, 260, rfl⟩
abbrev main_v159 : Ref sig .tc := ⟨.hbm, 261, rfl⟩
abbrev main_v160 : Ref sig .tc := ⟨.hbm, 262, rfl⟩
abbrev main_cst_24 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_cst_25 : Ref sig .tc := ⟨.hbm, 273, rfl⟩
abbrev main_v170 : Ref sig .tc := ⟨.hbm, 274, rfl⟩
abbrev main_cst_26 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_cst_27 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_cst_28 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_cst_29 : Ref sig .tc := ⟨.hbm, 316, rfl⟩
abbrev main_v209 : Ref sig .tc := ⟨.hbm, 317, rfl⟩
abbrev main_v210 : Ref sig .tc := ⟨.hbm, 318, rfl⟩
abbrev main_cst_30 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_cst_31 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_cst_32 : Ref sig .tc := ⟨.hbm, 335, rfl⟩
abbrev main_v225 : Ref sig .tc := ⟨.hbm, 336, rfl⟩
abbrev main_cst_33 : Ref sig .tc := ⟨.hbm, 337, rfl⟩
abbrev main_v226 : Ref sig .tc := ⟨.hbm, 338, rfl⟩
abbrev main_v227 : Ref sig .tc := ⟨.hbm, 339, rfl⟩
abbrev main_cst_34 : Ref sig .tc := ⟨.hbm, 340, rfl⟩
abbrev main_v228 : Ref sig .tc := ⟨.hbm, 341, rfl⟩
abbrev main_cst_35 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_cst_36 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_call6_cst : Ref sig .tc := ⟨.hbm, 358, rfl⟩
abbrev main_call6_v0 : Ref sig .tc := ⟨.hbm, 359, rfl⟩
abbrev main_v243 : Ref sig .tc := ⟨.hbm, 360, rfl⟩
abbrev main_v244 : Ref sig .tc := ⟨.hbm, 361, rfl⟩
abbrev main_v245 : Ref sig .tc := ⟨.hbm, 362, rfl⟩
abbrev main_v246 : Ref sig .tc := ⟨.hbm, 363, rfl⟩
abbrev main_v247 : Ref sig .tc := ⟨.hbm, 364, rfl⟩
abbrev main_call7_cst : Ref sig .tc := ⟨.hbm, 365, rfl⟩
abbrev main_call7_v0 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_v252 : Ref sig .tc := ⟨.hbm, 371, rfl⟩
abbrev main_call8_cst : Ref sig .tc := ⟨.hbm, 372, rfl⟩
abbrev main_call8_v0 : Ref sig .tc := ⟨.hbm, 373, rfl⟩
abbrev main_v253 : Ref sig .tc := ⟨.hbm, 374, rfl⟩
abbrev main_v254 : Ref sig .tc := ⟨.hbm, 375, rfl⟩
abbrev main_v255 : Ref sig .tc := ⟨.hbm, 376, rfl⟩
abbrev main_v256 : Ref sig .tc := ⟨.hbm, 377, rfl⟩
abbrev main_v257 : Ref sig .tc := ⟨.hbm, 378, rfl⟩
abbrev main_cst_37 : Ref sig .tc := ⟨.hbm, 379, rfl⟩
abbrev main_v258 : Ref sig .tc := ⟨.hbm, 380, rfl⟩
abbrev main_cst_38 : Ref sig .tc := ⟨.hbm, 381, rfl⟩
abbrev main_v259 : Ref sig .tc := ⟨.hbm, 382, rfl⟩
abbrev main_v260 : Ref sig .tc := ⟨.hbm, 383, rfl⟩
abbrev main_v261 : Ref sig .tc := ⟨.hbm, 384, rfl⟩
abbrev main_v262 : Ref sig .tc := ⟨.hbm, 385, rfl⟩
abbrev main_v263 : Ref sig .tc := ⟨.hbm, 386, rfl⟩
abbrev main_v264 : Ref sig .tc := ⟨.hbm, 387, rfl⟩
abbrev main_cst_39 : Ref sig .tc := ⟨.hbm, 388, rfl⟩
abbrev main_v265 : Ref sig .tc := ⟨.hbm, 389, rfl⟩
abbrev main_v266 : Ref sig .tc := ⟨.hbm, 390, rfl⟩
abbrev main_v267 : Ref sig .tc := ⟨.hbm, 391, rfl⟩
abbrev main_v268 : Ref sig .tc := ⟨.hbm, 392, rfl⟩
abbrev main_v269 : Ref sig .tc := ⟨.hbm, 393, rfl⟩
abbrev main_v270 : Ref sig .tc := ⟨.hbm, 394, rfl⟩
abbrev main_v271 : Ref sig .tc := ⟨.hbm, 395, rfl⟩
abbrev main_v272 : Ref sig .tc := ⟨.hbm, 396, rfl⟩
abbrev main_call9_cst : Ref sig .tc := ⟨.hbm, 397, rfl⟩
abbrev main_call9_v0 : Ref sig .tc := ⟨.hbm, 398, rfl⟩
abbrev main_v273 : Ref sig .tc := ⟨.hbm, 399, rfl⟩
abbrev main_v274 : Ref sig .tc := ⟨.hbm, 400, rfl⟩
abbrev main_v275 : Ref sig .tc := ⟨.hbm, 401, rfl⟩
abbrev main_v276 : Ref sig .tc := ⟨.hbm, 402, rfl⟩
abbrev main_v277 : Ref sig .tc := ⟨.hbm, 403, rfl⟩
abbrev main_call10_cst : Ref sig .tc := ⟨.hbm, 404, rfl⟩
abbrev main_call10_v0 : Ref sig .tc := ⟨.hbm, 405, rfl⟩
abbrev main_v278 : Ref sig .tc := ⟨.hbm, 406, rfl⟩
abbrev main_v279 : Ref sig .tc := ⟨.hbm, 407, rfl⟩
abbrev main_v280 : Ref sig .tc := ⟨.hbm, 408, rfl⟩
abbrev main_v281 : Ref sig .tc := ⟨.hbm, 409, rfl⟩
abbrev main_v282 : Ref sig .tc := ⟨.hbm, 410, rfl⟩
abbrev main_call11_cst : Ref sig .tc := ⟨.hbm, 411, rfl⟩
abbrev main_call11_v0 : Ref sig .tc := ⟨.hbm, 412, rfl⟩
abbrev main_v283 : Ref sig .tc := ⟨.hbm, 413, rfl⟩
abbrev main_v284 : Ref sig .tc := ⟨.hbm, 414, rfl⟩
abbrev main_v285 : Ref sig .tc := ⟨.hbm, 415, rfl⟩
abbrev main_v286 : Ref sig .tc := ⟨.hbm, 416, rfl⟩
abbrev main_v287 : Ref sig .tc := ⟨.hbm, 417, rfl⟩
abbrev main_cst_40 : Ref sig .tc := ⟨.hbm, 418, rfl⟩
abbrev main_v288 : Ref sig .tc := ⟨.hbm, 419, rfl⟩
abbrev main_cst_41 : Ref sig .tc := ⟨.hbm, 420, rfl⟩
abbrev main_v289 : Ref sig .tc := ⟨.hbm, 421, rfl⟩
abbrev main_v290 : Ref sig .tc := ⟨.hbm, 422, rfl⟩
abbrev main_v291 : Ref sig .tc := ⟨.hbm, 423, rfl⟩
abbrev main_v292 : Ref sig .tc := ⟨.hbm, 424, rfl⟩
abbrev main_v293 : Ref sig .tc := ⟨.hbm, 425, rfl⟩
abbrev main_v294 : Ref sig .tc := ⟨.hbm, 426, rfl⟩
abbrev main_cst_42 : Ref sig .tc := ⟨.hbm, 427, rfl⟩
abbrev main_v295 : Ref sig .tc := ⟨.hbm, 428, rfl⟩
abbrev main_v296 : Ref sig .tc := ⟨.hbm, 429, rfl⟩
abbrev main_v297 : Ref sig .tc := ⟨.hbm, 430, rfl⟩
abbrev main_v298 : Ref sig .tc := ⟨.hbm, 431, rfl⟩
abbrev main_v299 : Ref sig .tc := ⟨.hbm, 432, rfl⟩
abbrev main_v300 : Ref sig .tc := ⟨.hbm, 433, rfl⟩
abbrev main_v301 : Ref sig .tc := ⟨.hbm, 434, rfl⟩
abbrev main_v302 : Ref sig .tc := ⟨.hbm, 435, rfl⟩
abbrev main_v303 : Ref sig .tc := ⟨.hbm, 436, rfl⟩
abbrev main_v304 : Ref sig .tc := ⟨.hbm, 437, rfl⟩
abbrev main_v305 : Ref sig .tc := ⟨.hbm, 438, rfl⟩
abbrev main_v306 : Ref sig .tc := ⟨.hbm, 439, rfl⟩
abbrev main_v307 : Ref sig .tc := ⟨.hbm, 440, rfl⟩
abbrev main_v308 : Ref sig .tc := ⟨.hbm, 441, rfl⟩
abbrev main_v309 : Ref sig .tc := ⟨.hbm, 442, rfl⟩
abbrev main_v310 : Ref sig .tc := ⟨.hbm, 443, rfl⟩
abbrev main_v311 : Ref sig .tc := ⟨.hbm, 444, rfl⟩
abbrev main_v312 : Ref sig .tc := ⟨.hbm, 445, rfl⟩
abbrev main_v313 : Ref sig .tc := ⟨.hbm, 446, rfl⟩
abbrev main_cst_43 : Ref sig .tc := ⟨.hbm, 447, rfl⟩
abbrev main_v314 : Ref sig .tc := ⟨.hbm, 448, rfl⟩
abbrev main_v315 : Ref sig .tc := ⟨.hbm, 449, rfl⟩
abbrev main_v316 : Ref sig .tc := ⟨.hbm, 450, rfl⟩
abbrev main_v317 : Ref sig .tc := ⟨.hbm, 451, rfl⟩
abbrev main_v318 : Ref sig .tc := ⟨.hbm, 452, rfl⟩
abbrev main_v319 : Ref sig .tc := ⟨.hbm, 453, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 50], ![false, false]⟩

def cc1_transform_0 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x20 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x20 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x20 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x20 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S48x14_S14x48_1_0 : S48x14.Transposes [1, 0] S14x48
  bcast_S48_S1x48_1 : S48.BroadcastsInDim S1x48 (![1] : Fin 1 → Fin S1x48.rank)
  transposes_S72x48_S48x72_1_0 : S72x48.Transposes [1, 0] S48x72
  bcast_S72_S1x72_1 : S72.BroadcastsInDim S1x72 (![1] : Fin 1 → Fin S1x72.rank)
  transposes_S92x72_S72x92_1_0 : S92x72.Transposes [1, 0] S72x92
  bcast_S92_S1x92_1 : S92.BroadcastsInDim S1x92 (![1] : Fin 1 → Fin S1x92.rank)
  transposes_S3x72_S72x3_1_0 : S3x72.Transposes [1, 0] S72x3
  bcast_S3_S1x3_1 : S3.BroadcastsInDim S1x3 (![1] : Fin 1 → Fin S1x3.rank)
  slices_S1x92_S1x26_0_0 : S1x92.Slices ![0, 0] S1x26
  shapeCasts_S1x26_S26 : S1x26.ShapeCasts S26
  bcast_S26_S1x26_1 : S26.BroadcastsInDim S1x26 (![1] : Fin 1 → Fin S1x26.rank)
  slices_S1x92_S1x26_0_26 : S1x92.Slices ![0, 26] S1x26
  slices_S1x92_S1x20_0_52 : S1x92.Slices ![0, 52] S1x20
  shapeCasts_S1x20_S20 : S1x20.ShapeCasts S20
  bcast_S20_S1x20_1 : S20.BroadcastsInDim S1x20 (![1] : Fin 1 → Fin S1x20.rank)
  bcast_S_S1x20 : S_.BroadcastsInDim S1x20 (![] : Fin 0 → Fin S1x20.rank)
  slices_S1x92_S1x20_0_72 : S1x92.Slices ![0, 72] S1x20
  slices_S1x26_S1x20_0_0 : S1x26.Slices ![0, 0] S1x20
  slices_S1x26_S1x1_0_20 : S1x26.Slices ![0, 20] S1x1
  shapeCasts_S1x1_S_ : S1x1.ShapeCasts S_
  slices_S1x26_S1x3_0_21 : S1x26.Slices ![0, 21] S1x3
  shapeCasts_S1x3_S3 : S1x3.ShapeCasts S3
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S1x26_S1x1_0_24 : S1x26.Slices ![0, 24] S1x1
  slices_S1x26_S1x1_0_25 : S1x26.Slices ![0, 25] S1x1
  inb_S10000x20_S10000x20_0_0 : ∀ a, (![0, 0] : Fin 2 → Nat) a + S10000x20.size a ≤ S10000x20.size a
  h_S10000x20 : 0 < S10000x20.numel
  reduces_S10000x20_S10000 : S10000x20.Reduces [1] S10000
  shapeCasts_S10000_S10000x1 : S10000.ShapeCasts S10000x1
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S10000x20 : S1x20.Broadcasts S10000x20
  concatenates_S10000x1_S10000x1_S10000x1_S10000x3_d1 : Shape.Concatenates [S10000x1, S10000x1, S10000x1] S10000x3 1
  inb_S10000x3_S10000x3_0_0 : ∀ a, (![0, 0] : Fin 2 → Nat) a + S10000x3.size a ≤ S10000x3.size a
  h_S10000x3 : 0 < S10000x3.numel
  slices_S1000000x3_S1000000x1_0_0 : S1000000x3.Slices ![0, 0] S1000000x1
  slices_S1000000x3_S1000000x1_0_1 : S1000000x3.Slices ![0, 1] S1000000x1
  slices_S1000000x3_S1000000x1_0_2 : S1000000x3.Slices ![0, 2] S1000000x1
  reducesTo_S1x20_S1_d1 : S1x20.ReducesTo [1] S1
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1x1000000 : S1000000x1.ShapeCasts S1x1000000
  reducesTo_S1x1000000_S1_d1 : S1x1000000.ReducesTo [1] S1
  bcast_S1_S1x1_0 : S1.BroadcastsInDim S1x1 (![0] : Fin 1 → Fin S1x1.rank)
  bcast_S1x1_S1x1000000_0_1 : S1x1.BroadcastsInDim S1x1000000 (![0, 1] : Fin 2 → Fin S1x1000000.rank)
  bcast_S_S1x1000000 : S_.BroadcastsInDim S1x1000000 (![] : Fin 0 → Fin S1x1000000.rank)
  slices_S1x1000000_S1x1_0_999999 : S1x1000000.Slices ![0, 999999] S1x1
  slices_S1x1000000_S1x1_0_0 : S1x1000000.Slices ![0, 0] S1x1
  concatenates_S1x1_S1x1000000_S1x1_S1x1000002_d1 : Shape.Concatenates [S1x1, S1x1000000, S1x1] S1x1000002 1
  slices_S3_S1_0 : S3.Slices ![0] S1
  shapeCasts_S1_S_ : S1.ShapeCasts S_
  slices_S1x1000002_S1x1000000_0_0 : S1x1000002.Slices ![0, 0] S1x1000000
  slices_S3_S1_1 : S3.Slices ![1] S1
  slices_S1x1000002_S1x1000000_0_1 : S1x1000002.Slices ![0, 1] S1x1000000
  slices_S3_S1_2 : S3.Slices ![2] S1
  slices_S1x1000002_S1x1000000_0_2 : S1x1000002.Slices ![0, 2] S1x1000000
  bcast_S_S1x1 : S_.BroadcastsInDim S1x1 (![] : Fin 0 → Fin S1x1.rank)
  shapeCasts_S1x1000000_S1000000x1 : S1x1000000.ShapeCasts S1000000x1
  inb_S1x1x20_S1x1x20_0_0_0 : ∀ a, (![0, 0, 0] : Fin 3 → Nat) a + S1x1x20.size a ≤ S1x1x20.size a
  h_S1x1x20 : 0 < S1x1x20.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x20 : S10000x1.Broadcasts S10000x20
  reduces_S10000x20_S20 : S10000x20.Reduces [0] S20
  shapeCasts_S20_S1x20 : S20.ShapeCasts S1x20
  shapeCasts_S1x1x20_S1x1x20 : S1x1x20.ShapeCasts S1x1x20
  shapeCasts_S1x20_S1x1x20 : S1x20.ShapeCasts S1x1x20
  shapeCasts_S2x1x20_S2x20 : S2x1x20.ShapeCasts S2x20
  reducesTo_S2x20_S20_d0 : S2x20.ReducesTo [0] S20
  concatenates_S1x20_S1x20_S1x40_d1 : Shape.Concatenates [S1x20, S1x20] S1x40 1
  slices_S1x3_S1x1_0_0 : S1x3.Slices ![0, 0] S1x1
  slices_S1x3_S1x2_0_1 : S1x3.Slices ![0, 1] S1x2
  reducesTo_S1x2_S1_d1 : S1x2.ReducesTo [1] S1
  bcast_S1x1_S1x2_0_1 : S1x1.BroadcastsInDim S1x2 (![0, 1] : Fin 2 → Fin S1x2.rank)
  transposes_S110x40_S40x110_1_0 : S110x40.Transposes [1, 0] S40x110
  bcast_S110_S1x110_1 : S110.BroadcastsInDim S1x110 (![1] : Fin 1 → Fin S1x110.rank)
  bcast_S_S1x110 : S_.BroadcastsInDim S1x110 (![] : Fin 0 → Fin S1x110.rank)
  transposes_S190x110_S110x190_1_0 : S190x110.Transposes [1, 0] S110x190
  bcast_S190_S1x190_1 : S190.BroadcastsInDim S1x190 (![1] : Fin 1 → Fin S1x190.rank)
  bcast_S_S1x190 : S_.BroadcastsInDim S1x190 (![] : Fin 0 → Fin S1x190.rank)
  transposes_S270x190_S190x270_1_0 : S270x190.Transposes [1, 0] S190x270
  bcast_S270_S1x270_1 : S270.BroadcastsInDim S1x270 (![1] : Fin 1 → Fin S1x270.rank)
  bcast_S_S1x270 : S_.BroadcastsInDim S1x270 (![] : Fin 0 → Fin S1x270.rank)
  transposes_S325x270_S270x325_1_0 : S325x270.Transposes [1, 0] S270x325
  bcast_S325_S1x325_1 : S325.BroadcastsInDim S1x325 (![1] : Fin 1 → Fin S1x325.rank)
  reducesTo_S1x325_S1_d1 : S1x325.ReducesTo [1] S1
  bcast_S1x1_S1x325_0_1 : S1x1.BroadcastsInDim S1x325 (![0, 1] : Fin 2 → Fin S1x325.rank)
  slices_S1x2_S1x1_0_0 : S1x2.Slices ![0, 0] S1x1
  bcast_S_S1x325 : S_.BroadcastsInDim S1x325 (![] : Fin 0 → Fin S1x325.rank)
  slices_S1x2_S1x1_0_1 : S1x2.Slices ![0, 1] S1x1
  transposes_S20x325_S325x20_1_0 : S20x325.Transposes [1, 0] S325x20
  inb_S5000x20_S5000x20_0_0 : ∀ a, (![0, 0] : Fin 2 → Nat) a + S5000x20.size a ≤ S5000x20.size a
  h_S5000x20 : 0 < S5000x20.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S1x20_S5000x20 : S1x20.Broadcasts S5000x20
  broadcasts_S5000x1_S5000x20 : S5000x1.Broadcasts S5000x20
  dot_S1x14_S14x48_S1x48_1_0_0_1_n_n_wf : DotDims.WF S1x14 S14x48 S1x48 [1] [0] [0] [1] [] []
  dot_S1x48_S48x72_S1x72_1_0_0_1_n_n_wf : DotDims.WF S1x48 S48x72 S1x72 [1] [0] [0] [1] [] []
  dot_S1x72_S72x92_S1x92_1_0_0_1_n_n_wf : DotDims.WF S1x72 S72x92 S1x92 [1] [0] [0] [1] [] []
  dot_S1x72_S72x3_S1x3_1_0_0_1_n_n_wf : DotDims.WF S1x72 S72x3 S1x3 [1] [0] [0] [1] [] []
  dot_S1x40_S40x110_S1x110_1_0_0_1_n_n_wf : DotDims.WF S1x40 S40x110 S1x110 [1] [0] [0] [1] [] []
  dot_S1x110_S110x190_S1x190_1_0_0_1_n_n_wf : DotDims.WF S1x110 S110x190 S1x190 [1] [0] [0] [1] [] []
  dot_S1x190_S190x270_S1x270_1_0_0_1_n_n_wf : DotDims.WF S1x190 S190x270 S1x270 [1] [0] [0] [1] [] []
  dot_S1x270_S270x325_S1x325_1_0_0_1_n_n_wf : DotDims.WF S1x270 S270x325 S1x325 [1] [0] [0] [1] [] []
  dot_S1x325_S325x20_S1x20_1_0_0_1_n_n_wf : DotDims.WF S1x325 S325x20 S1x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x20.size a ≤ S1000000x20.size a
  hwx0_0 : ∀ i : grid0.Coords, EltTy.bits .f32 = 32 ∨ (Rect.block (s := S1000000x20) S10000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x20.size a ≤ S1x20.size a
  hwx0_1 : ∀ i : grid0.Coords, EltTy.bits .f32 = 32 ∨ (Rect.block (s := S1x20) S1x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x3.size a ≤ S1000000x3.size a
  hwx0_3 : ∀ i : grid0.Coords, EltTy.bits .f32 = 32 ∨ (Rect.block (s := S1000000x3) S10000x3.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x20.size a ≤ S1000000x20.size a
  hwx1_0 : ∀ i : grid1.Coords, EltTy.bits .f32 = 32 ∨ (Rect.block (s := S1000000x20) S10000x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1000000x1.size a
  hwx1_1 : ∀ i : grid1.Coords, EltTy.bits .f32 = 32 ∨ (Rect.block (s := S1000000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x20.size a ≤ S2x1x20.size a
  hwx1_2 : ∀ i : grid1.Coords, EltTy.bits .f32 = 32 ∨ (Rect.block (s := S2x1x20) S1x1x20.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x20.size a ≤ S1000000x20.size a
  hwx2_0 : ∀ i : grid2.Coords, EltTy.bits .f32 = 32 ∨ (Rect.block (s := S1000000x20) S5000x20.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S1000000x1.size a
  hwx2_1 : ∀ i : grid2.Coords, EltTy.bits .f32 = 32 ∨ (Rect.block (s := S1000000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x20.size a ≤ S1x20.size a
  hwx2_2 : ∀ i : grid2.Coords, EltTy.bits .f32 = 32 ∨ (Rect.block (s := S1x20) S1x20.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x20.size a ≤ S1x20.size a
  hwx2_3 : ∀ i : grid2.Coords, EltTy.bits .f32 = 32 ∨ (Rect.block (s := S1x20) S1x20.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x20.size a ≤ S1000000x20.size a
  hwx2_4 : ∀ i : grid2.Coords, EltTy.bits .f32 = 32 ∨ (Rect.block (s := S1000000x20) S5000x20.size (cc2_transform_4 i) (hinb2_4 i)).WholeWords (EltTy.packing .f32)

variable [Facts₀]

def dot_S1x14_S14x48_S1x48_1_0_0_1_n_n : DotDims S1x14 S14x48 S1x48 where
  lhsContracting := [1]
  rhsContracting := [0]
  lhsNonContracting := [0]
  rhsNonContracting := [1]
  lhsBatch := []
  rhsBatch := []
  wf := dot_S1x14_S14x48_S1x48_1_0_0_1_n_n_wf
def dot_S1x48_S48x72_S1x72_1_0_0_1_n_n : DotDims S1x48 S48x72 S1x72 where
  lhsContracting := [1]
  rhsContracting := [0]
  lhsNonContracting := [0]
  rhsNonContracting := [1]
  lhsBatch := []
  rhsBatch := []
  wf := dot_S1x48_S48x72_S1x72_1_0_0_1_n_n_wf
def dot_S1x72_S72x92_S1x92_1_0_0_1_n_n : DotDims S1x72 S72x92 S1x92 where
  lhsContracting := [1]
  rhsContracting := [0]
  lhsNonContracting := [0]
  rhsNonContracting := [1]
  lhsBatch := []
  rhsBatch := []
  wf := dot_S1x72_S72x92_S1x92_1_0_0_1_n_n_wf
def dot_S1x72_S72x3_S1x3_1_0_0_1_n_n : DotDims S1x72 S72x3 S1x3 where
  lhsContracting := [1]
  rhsContracting := [0]
  lhsNonContracting := [0]
  rhsNonContracting := [1]
  lhsBatch := []
  rhsBatch := []
  wf := dot_S1x72_S72x3_S1x3_1_0_0_1_n_n_wf
def dot_S1x40_S40x110_S1x110_1_0_0_1_n_n : DotDims S1x40 S40x110 S1x110 where
  lhsContracting := [1]
  rhsContracting := [0]
  lhsNonContracting := [0]
  rhsNonContracting := [1]
  lhsBatch := []
  rhsBatch := []
  wf := dot_S1x40_S40x110_S1x110_1_0_0_1_n_n_wf
def dot_S1x110_S110x190_S1x190_1_0_0_1_n_n : DotDims S1x110 S110x190 S1x190 where
  lhsContracting := [1]
  rhsContracting := [0]
  lhsNonContracting := [0]
  rhsNonContracting := [1]
  lhsBatch := []
  rhsBatch := []
  wf := dot_S1x110_S110x190_S1x190_1_0_0_1_n_n_wf
def dot_S1x190_S190x270_S1x270_1_0_0_1_n_n : DotDims S1x190 S190x270 S1x270 where
  lhsContracting := [1]
  rhsContracting := [0]
  lhsNonContracting := [0]
  rhsNonContracting := [1]
  lhsBatch := []
  rhsBatch := []
  wf := dot_S1x190_S190x270_S1x270_1_0_0_1_n_n_wf
def dot_S1x270_S270x325_S1x325_1_0_0_1_n_n : DotDims S1x270 S270x325 S1x325 where
  lhsContracting := [1]
  rhsContracting := [0]
  lhsNonContracting := [0]
  rhsNonContracting := [1]
  lhsBatch := []
  rhsBatch := []
  wf := dot_S1x270_S270x325_S1x325_1_0_0_1_n_n_wf
def dot_S1x325_S325x20_S1x20_1_0_0_1_n_n : DotDims S1x325 S325x20 S1x20 where
  lhsContracting := [1]
  rhsContracting := [0]
  lhsNonContracting := [0]
  rhsNonContracting := [1]
  lhsBatch := []
  rhsBatch := []
  wf := dot_S1x325_S325x20_S1x20_1_0_0_1_n_n_wf

abbrev win0_0 : Pipeline.Window sig grid0 :=
  Pipeline.Window.ofSpec (Memref.whole main_arg3) S10000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v94) S1x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v96) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v97) S10000x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S10000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v215) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v216) S1x1x20.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg3) S5000x20.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v318) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x20.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v317) S1x20.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v319) S5000x20.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1x14 : Shape := ⟨2, ![1, 14]⟩
abbrev S1x1000000 : Shape := ⟨2, ![1, 1000000]⟩
abbrev S1000000x20 : Shape := ⟨2, ![1000000, 20]⟩
abbrev S1x20 : Shape := ⟨2, ![1, 20]⟩
abbrev S48x14 : Shape := ⟨2, ![48, 14]⟩
abbrev S48 : Shape := ⟨1, ![48]⟩
abbrev S72x48 : Shape := ⟨2, ![72, 48]⟩
abbrev S72 : Shape := ⟨1, ![72]⟩
abbrev S92x72 : Shape := ⟨2, ![92, 72]⟩
abbrev S92 : Shape := ⟨1, ![92]⟩
abbrev S3x72 : Shape := ⟨2, ![3, 72]⟩
abbrev S3 : Shape := ⟨1, ![3]⟩
abbrev S20x325 : Shape := ⟨2, ![20, 325]⟩
abbrev S20 : Shape := ⟨1, ![20]⟩
abbrev S110x40 : Shape := ⟨2, ![110, 40]⟩
abbrev S110 : Shape := ⟨1, ![110]⟩
abbrev S190x110 : Shape := ⟨2, ![190, 110]⟩
abbrev S190 : Shape := ⟨1, ![190]⟩
abbrev S270x190 : Shape := ⟨2, ![270, 190]⟩
abbrev S270 : Shape := ⟨1, ![270]⟩
abbrev S325x270 : Shape := ⟨2, ![325, 270]⟩
abbrev S325 : Shape := ⟨1, ![325]⟩
abbrev S14x48 : Shape := ⟨2, ![14, 48]⟩
abbrev S1x48 : Shape := ⟨2, ![1, 48]⟩
abbrev S48x72 : Shape := ⟨2, ![48, 72]⟩
abbrev S1x72 : Shape := ⟨2, ![1, 72]⟩
abbrev S72x92 : Shape := ⟨2, ![72, 92]⟩
abbrev S1x92 : Shape := ⟨2, ![1, 92]⟩
abbrev S72x3 : Shape := ⟨2, ![72, 3]⟩
abbrev S1x3 : Shape := ⟨2, ![1, 3]⟩
abbrev S1x26 : Shape := ⟨2, ![1, 26]⟩
abbrev S26 : Shape := ⟨1, ![26]⟩
abbrev S_ : Shape := ⟨0, ![]⟩
abbrev S1x1 : Shape := ⟨2, ![1, 1]⟩
abbrev S1 : Shape := ⟨1, ![1]⟩
abbrev S20x1 : Shape := ⟨2, ![20, 1]⟩
abbrev S1000000x1 : Shape := ⟨2, ![1000000, 1]⟩
abbrev S1000000 : Shape := ⟨1, ![1000000]⟩
abbrev S1x1000002 : Shape := ⟨2, ![1, 1000002]⟩
abbrev S1x40 : Shape := ⟨2, ![1, 40]⟩
abbrev S1x2 : Shape := ⟨2, ![1, 2]⟩
abbrev S40x110 : Shape := ⟨2, ![40, 110]⟩
abbrev S1x110 : Shape := ⟨2, ![1, 110]⟩
abbrev S110x190 : Shape := ⟨2, ![110, 190]⟩
abbrev S1x190 : Shape := ⟨2, ![1, 190]⟩
abbrev S190x270 : Shape := ⟨2, ![190, 270]⟩
abbrev S1x270 : Shape := ⟨2, ![1, 270]⟩
abbrev S270x325 : Shape := ⟨2, ![270, 325]⟩
abbrev S1x325 : Shape := ⟨2, ![1, 325]⟩
abbrev S325x20 : Shape := ⟨2, ![325, 20]⟩

abbrev nBuf : Space → Nat
  | .hbm => 468
  | .vmem => 0
  | .smem => 0
  | _ => 0

abbrev hbmTy0_0 (i : Nat) : BufTy := match i % 128 with
  | 0 => ⟨S1x14, .f32⟩
  | 1 => ⟨S1x1000000, .f32⟩
  | 2 => ⟨S1x1000000, .f32⟩
  | 3 => ⟨S1000000x20, .f32⟩
  | 4 => ⟨S1x20, .f32⟩
  | 5 => ⟨S48x14, .f32⟩
  | 6 => ⟨S48, .f32⟩
  | 7 => ⟨S72x48, .f32⟩
  | 8 => ⟨S72, .f32⟩
  | 9 => ⟨S92x72, .f32⟩
  | 10 => ⟨S92, .f32⟩
  | 11 => ⟨S3x72, .f32⟩
  | 12 => ⟨S3, .f32⟩
  | 13 => ⟨S20x325, .f32⟩
  | 14 => ⟨S20, .f32⟩
  | 15 => ⟨S110x40, .f32⟩
  | 16 => ⟨S110, .f32⟩
  | 17 => ⟨S190x110, .f32⟩
  | 18 => ⟨S190, .f32⟩
  | 19 => ⟨S270x190, .f32⟩
  | 20 => ⟨S270, .f32⟩
  | 21 => ⟨S325x270, .f32⟩
  | 22 => ⟨S325, .f32⟩
  | 23 => ⟨S110x40, .f32⟩
  | 24 => ⟨S110, .f32⟩
  | 25 => ⟨S190x110, .f32⟩
  | 26 => ⟨S190, .f32⟩
  | 27 => ⟨S270x190, .f32⟩
  | 28 => ⟨S270, .f32⟩
  | 29 => ⟨S325x270, .f32⟩
  | 30 => ⟨S325, .f32⟩
  | 31 => ⟨S14x48, .f32⟩
  | 32 => ⟨S1x48, .f32⟩
  | 33 => ⟨S1x48, .f32⟩
  | 34 => ⟨S1x48, .f32⟩
  | 35 => ⟨S48x72, .f32⟩
  | 36 => ⟨S1x72, .f32⟩
  | 37 => ⟨S1x72, .f32⟩
  | 38 => ⟨S1x72, .f32⟩
  | 39 => ⟨S72x92, .f32⟩
  | 40 => ⟨S1x92, .f32⟩
  | 41 => ⟨S1x92, .f32⟩
  | 42 => ⟨S1x92, .f32⟩
  | 43 => ⟨S72x3, .f32⟩
  | 44 => ⟨S1x3, .f32⟩
  | 45 => ⟨S1x3, .f32⟩
  | 46 => ⟨S1x3, .f32⟩
  | 47 => ⟨S1x26, .f32⟩
  | 48 => ⟨S26, .f32⟩
  | 49 => ⟨S1x26, .f32⟩
  | 50 => ⟨S1x26, .f32⟩
  | 51 => ⟨S26, .f32⟩
  | 52 => ⟨S1x26, .f32⟩
  | 53 => ⟨S1x20, .f32⟩
  | 54 => ⟨S20, .f32⟩
  | 55 => ⟨S1x20, .f32⟩
  | 56 => ⟨S1x20, .f32⟩
  | 57 => ⟨S1x20, .f32⟩
  | 58 => ⟨S_, .f32⟩
  | 59 => ⟨S1x20, .f32⟩
  | 60 => ⟨S1x20, .f32⟩
  | 61 => ⟨S_, .f32⟩
  | 62 => ⟨S1x20, .f32⟩
  | 63 => ⟨S1x20, .f32⟩
  | 64 => ⟨S1x20, .f32⟩
  | 65 => ⟨S20, .f32⟩
  | 66 => ⟨S1x20, .f32⟩
  | 67 => ⟨S1x20, .f32⟩
  | 68 => ⟨S1x20, .f32⟩
  | 69 => ⟨S20, .f32⟩
  | 70 => ⟨S20, .f32⟩
  | 71 => ⟨S1x20, .f32⟩
  | 72 => ⟨S1x1, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S1x3, .f32⟩
  | 81 => ⟨S3, .f32⟩
  | 82 => ⟨S_, .f32⟩
  | 83 => ⟨S_, .f32⟩
  | 84 => ⟨S_, .f32⟩
  | 85 => ⟨S_, .f32⟩
  | 86 => ⟨S1, .f32⟩
  | 87 => ⟨S3, .f32⟩
  | 88 => ⟨S3, .f32⟩
  | 89 => ⟨S3, .f32⟩
  | 90 => ⟨S_, .f32⟩
  | 91 => ⟨S_, .f32⟩
  | 92 => ⟨S1, .f32⟩
  | 93 => ⟨S3, .f32⟩
  | 94 => ⟨S3, .f32⟩
  | 95 => ⟨S1x1, .f32⟩
  | 96 => ⟨S_, .f32⟩
  | 97 => ⟨S_, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S1x1, .f32⟩
  | 111 => ⟨S_, .f32⟩
  | 112 => ⟨S_, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S1000000x20, .f32⟩
  | 125 => ⟨S1000000x20, .f32⟩
  | 126 => ⟨S_, .f32⟩
  | 127 => ⟨S1x20, .f32⟩
  | _ => ⟨S1x14, .f32⟩

abbrev hbmTy0_1 (i : Nat) : BufTy := match i % 128 with
  | 0 => ⟨S1x20, .f32⟩
  | 1 => ⟨S20x1, .f32⟩
  | 2 => ⟨S1000000x1, .f32⟩
  | 3 => ⟨S1000000, .f32⟩
  | 4 => ⟨S1000000x20, .f32⟩
  | 5 => ⟨S_, .f32⟩
  | 6 => ⟨S1000000, .f32⟩
  | 7 => ⟨S1000000, .f32⟩
  | 8 => ⟨S_, .f32⟩
  | 9 => ⟨S1000000, .f32⟩
  | 10 => ⟨S1000000, .f32⟩
  | 11 => ⟨S1x20, .f32⟩
  | 12 => ⟨S_, .f32⟩
  | 13 => ⟨S1, .f32⟩
  | 14 => ⟨S1, .f32⟩
  | 15 => ⟨S_, .f32⟩
  | 16 => ⟨S1, .f32⟩
  | 17 => ⟨S1, .f32⟩
  | 18 => ⟨S1000000, .f32⟩
  | 19 => ⟨S1000000, .f32⟩
  | 20 => ⟨S1000000, .f32⟩
  | 21 => ⟨S1000000, .f32⟩
  | 22 => ⟨S1000000, .f32⟩
  | 23 => ⟨S_, .f32⟩
  | 24 => ⟨S_, .f32⟩
  | 25 => ⟨S_, .f32⟩
  | 26 => ⟨S_, .f32⟩
  | 27 => ⟨S1, .f32⟩
  | 28 => ⟨S1000000, .f32⟩
  | 29 => ⟨S1000000, .f32⟩
  | 30 => ⟨S1000000, .f32⟩
  | 31 => ⟨S_, .f32⟩
  | 32 => ⟨S_, .f32⟩
  | 33 => ⟨S1, .f32⟩
  | 34 => ⟨S1000000, .f32⟩
  | 35 => ⟨S1000000, .f32⟩
  | 36 => ⟨S1000000, .f32⟩
  | 37 => ⟨S1000000, .f32⟩
  | 38 => ⟨S_, .f32⟩
  | 39 => ⟨S_, .f32⟩
  | 40 => ⟨S1x1000000, .f32⟩
  | 41 => ⟨S1x1000000, .f32⟩
  | 42 => ⟨S1x1000000, .f32⟩
  | 43 => ⟨S1x1000000, .f32⟩
  | 44 => ⟨S1x1, .f32⟩
  | 45 => ⟨S1x1, .f32⟩
  | 46 => ⟨S1x1000002, .f32⟩
  | 47 => ⟨S1, .f32⟩
  | 48 => ⟨S_, .f32⟩
  | 49 => ⟨S1x1000000, .f32⟩
  | 50 => ⟨S1x1000000, .f32⟩
  | 51 => ⟨S1x1000000, .f32⟩
  | 52 => ⟨S1, .f32⟩
  | 53 => ⟨S_, .f32⟩
  | 54 => ⟨S1x1000000, .f32⟩
  | 55 => ⟨S1x1000000, .f32⟩
  | 56 => ⟨S1x1000000, .f32⟩
  | 57 => ⟨S1x1000000, .f32⟩
  | 58 => ⟨S1, .f32⟩
  | 59 => ⟨S_, .f32⟩
  | 60 => ⟨S1x1000000, .f32⟩
  | 61 => ⟨S1x1000000, .f32⟩
  | 62 => ⟨S1x1000000, .f32⟩
  | 63 => ⟨S1x1000000, .f32⟩
  | 64 => ⟨S1x1000000, .f32⟩
  | 65 => ⟨S1x1000000, .f32⟩
  | 66 => ⟨S_, .f32⟩
  | 67 => ⟨S1, .f32⟩
  | 68 => ⟨S1x1, .f32⟩
  | 69 => ⟨S_, .f32⟩
  | 70 => ⟨S1x1, .f32⟩
  | 71 => ⟨S1x1, .f32⟩
  | 72 => ⟨S1x1000000, .f32⟩
  | 73 => ⟨S1x1000000, .f32⟩
  | 74 => ⟨S1x20, .f32⟩
  | 75 => ⟨S20, .f32⟩
  | 76 => ⟨S20, .f32⟩
  | 77 => ⟨S1x20, .f32⟩
  | 78 => ⟨S1x1, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S1x3, .f32⟩
  | 87 => ⟨S3, .f32⟩
  | 88 => ⟨S_, .f32⟩
  | 89 => ⟨S_, .f32⟩
  | 90 => ⟨S_, .f32⟩
  | 91 => ⟨S_, .f32⟩
  | 92 => ⟨S1, .f32⟩
  | 93 => ⟨S3, .f32⟩
  | 94 => ⟨S3, .f32⟩
  | 95 => ⟨S3, .f32⟩
  | 96 => ⟨S_, .f32⟩
  | 97 => ⟨S_, .f32⟩
  | 98 => ⟨S1, .f32⟩
  | 99 => ⟨S3, .f32⟩
  | 100 => ⟨S3, .f32⟩
  | 101 => ⟨S1x1, .f32⟩
  | 102 => ⟨S_, .f32⟩
  | 103 => ⟨S_, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S1x1, .f32⟩
  | 117 => ⟨S_, .f32⟩
  | 118 => ⟨S_, .f32⟩
  | 119 => ⟨S_, .f32⟩
  | 120 => ⟨S_, .f32⟩
  | 121 => ⟨S_, .i1⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1x14, .f32⟩

abbrev hbmTy0_2 (i : Nat) : BufTy := match i % 128 with
  | 0 => ⟨S_, .f32⟩
  | 1 => ⟨S_, .f32⟩
  | 2 => ⟨S1000000x20, .f32⟩
  | 3 => ⟨S1000000x20, .f32⟩
  | 4 => ⟨S_, .f32⟩
  | 5 => ⟨S1x20, .f32⟩
  | 6 => ⟨S1x20, .f32⟩
  | 7 => ⟨S20x1, .f32⟩
  | 8 => ⟨S1000000x1, .f32⟩
  | 9 => ⟨S1000000, .f32⟩
  | 10 => ⟨S1000000x20, .f32⟩
  | 11 => ⟨S_, .f32⟩
  | 12 => ⟨S1000000, .f32⟩
  | 13 => ⟨S1000000, .f32⟩
  | 14 => ⟨S_, .f32⟩
  | 15 => ⟨S1000000, .f32⟩
  | 16 => ⟨S1000000, .f32⟩
  | 17 => ⟨S1x20, .f32⟩
  | 18 => ⟨S_, .f32⟩
  | 19 => ⟨S1, .f32⟩
  | 20 => ⟨S1, .f32⟩
  | 21 => ⟨S_, .f32⟩
  | 22 => ⟨S1, .f32⟩
  | 23 => ⟨S1, .f32⟩
  | 24 => ⟨S1000000, .f32⟩
  | 25 => ⟨S1000000, .f32⟩
  | 26 => ⟨S1000000, .f32⟩
  | 27 => ⟨S1000000, .f32⟩
  | 28 => ⟨S1000000, .f32⟩
  | 29 => ⟨S_, .f32⟩
  | 30 => ⟨S_, .f32⟩
  | 31 => ⟨S_, .f32⟩
  | 32 => ⟨S_, .f32⟩
  | 33 => ⟨S1, .f32⟩
  | 34 => ⟨S1000000, .f32⟩
  | 35 => ⟨S1000000, .f32⟩
  | 36 => ⟨S1000000, .f32⟩
  | 37 => ⟨S_, .f32⟩
  | 38 => ⟨S_, .f32⟩
  | 39 => ⟨S1, .f32⟩
  | 40 => ⟨S1000000, .f32⟩
  | 41 => ⟨S1000000, .f32⟩
  | 42 => ⟨S1000000, .f32⟩
  | 43 => ⟨S1000000, .f32⟩
  | 44 => ⟨S_, .f32⟩
  | 45 => ⟨S_, .f32⟩
  | 46 => ⟨S1x1000000, .f32⟩
  | 47 => ⟨S1x1000000, .f32⟩
  | 48 => ⟨S1x1000000, .f32⟩
  | 49 => ⟨S1x1000000, .f32⟩
  | 50 => ⟨S1x1, .f32⟩
  | 51 => ⟨S1x1, .f32⟩
  | 52 => ⟨S1x1000002, .f32⟩
  | 53 => ⟨S1, .f32⟩
  | 54 => ⟨S_, .f32⟩
  | 55 => ⟨S1x1000000, .f32⟩
  | 56 => ⟨S1x1000000, .f32⟩
  | 57 => ⟨S1x1000000, .f32⟩
  | 58 => ⟨S1, .f32⟩
  | 59 => ⟨S_, .f32⟩
  | 60 => ⟨S1x1000000, .f32⟩
  | 61 => ⟨S1x1000000, .f32⟩
  | 62 => ⟨S1x1000000, .f32⟩
  | 63 => ⟨S1x1000000, .f32⟩
  | 64 => ⟨S1, .f32⟩
  | 65 => ⟨S_, .f32⟩
  | 66 => ⟨S1x1000000, .f32⟩
  | 67 => ⟨S1x1000000, .f32⟩
  | 68 => ⟨S1x1000000, .f32⟩
  | 69 => ⟨S1x1000000, .f32⟩
  | 70 => ⟨S1x1000000, .f32⟩
  | 71 => ⟨S1x1000000, .f32⟩
  | 72 => ⟨S_, .f32⟩
  | 73 => ⟨S1, .f32⟩
  | 74 => ⟨S1x1, .f32⟩
  | 75 => ⟨S_, .f32⟩
  | 76 => ⟨S1x1, .f32⟩
  | 77 => ⟨S1x1, .f32⟩
  | 78 => ⟨S1x1000000, .f32⟩
  | 79 => ⟨S1x1000000, .f32⟩
  | 80 => ⟨S1x20, .f32⟩
  | 81 => ⟨S1x40, .f32⟩
  | 82 => ⟨S1x1, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S1x2, .f32⟩
  | 91 => ⟨S_, .f32⟩
  | 92 => ⟨S1, .f32⟩
  | 93 => ⟨S_, .f32⟩
  | 94 => ⟨S1, .f32⟩
  | 95 => ⟨S1, .f32⟩
  | 96 => ⟨S1x1, .f32⟩
  | 97 => ⟨S1x2, .f32⟩
  | 98 => ⟨S1x2, .f32⟩
  | 99 => ⟨S1x2, .f32⟩
  | 100 => ⟨S_, .f32⟩
  | 101 => ⟨S1, .f32⟩
  | 102 => ⟨S1x1, .f32⟩
  | 103 => ⟨S1x2, .f32⟩
  | 104 => ⟨S1x2, .f32⟩
  | 105 => ⟨S40x110, .f32⟩
  | 106 => ⟨S1x110, .f32⟩
  | 107 => ⟨S1x110, .f32⟩
  | 108 => ⟨S1x110, .f32⟩
  | 109 => ⟨S_, .f32⟩
  | 110 => ⟨S1x110, .f32⟩
  | 111 => ⟨S1x110, .f32⟩
  | 112 => ⟨S110x190, .f32⟩
  | 113 => ⟨S1x190, .f32⟩
  | 114 => ⟨S1x190, .f32⟩
  | 115 => ⟨S1x190, .f32⟩
  | 116 => ⟨S_, .f32⟩
  | 117 => ⟨S1x190, .f32⟩
  | 118 => ⟨S1x190, .f32⟩
  | 119 => ⟨S190x270, .f32⟩
  | 120 => ⟨S1x270, .f32⟩
  | 121 => ⟨S1x270, .f32⟩
  | 122 => ⟨S1x270, .f32⟩
  | 123 => ⟨S_, .f32⟩
  | 124 => ⟨S1x270, .f32⟩
  | 125 => ⟨S1x270, .f32⟩
  | 126 => ⟨S270x325, .f32⟩
  | 127 => ⟨S1x325, .f32⟩
  | _ => ⟨S1x14, .f32⟩

abbrev hbmTy0_3 (i : Nat) : BufTy := match i % 128 with
  | 0 => ⟨S1x325, .f32⟩
  | 1 => ⟨S1x325, .f32⟩
  | 2 => ⟨S_, .f32⟩
  | 3 => ⟨S1, .f32⟩
  | 4 => ⟨S_, .f32⟩
  | 5 => ⟨S1, .f32⟩
  | 6 => ⟨S1, .f32⟩
  | 7 => ⟨S1x1, .f32⟩
  | 8 => ⟨S1x325, .f32⟩
  | 9 => ⟨S1x325, .f32⟩
  | 10 => ⟨S1x325, .f32⟩
  | 11 => ⟨S_, .f32⟩
  | 12 => ⟨S1, .f32⟩
  | 13 => ⟨S1x1, .f32⟩
  | 14 => ⟨S1x325, .f32⟩
  | 15 => ⟨S1x325, .f32⟩
  | 16 => ⟨S40x110, .f32⟩
  | 17 => ⟨S1x110, .f32⟩
  | 18 => ⟨S1x110, .f32⟩
  | 19 => ⟨S1x110, .f32⟩
  | 20 => ⟨S_, .f32⟩
  | 21 => ⟨S1x110, .f32⟩
  | 22 => ⟨S1x110, .f32⟩
  | 23 => ⟨S110x190, .f32⟩
  | 24 => ⟨S1x190, .f32⟩
  | 25 => ⟨S1x190, .f32⟩
  | 26 => ⟨S1x190, .f32⟩
  | 27 => ⟨S_, .f32⟩
  | 28 => ⟨S1x190, .f32⟩
  | 29 => ⟨S1x190, .f32⟩
  | 30 => ⟨S190x270, .f32⟩
  | 31 => ⟨S1x270, .f32⟩
  | 32 => ⟨S1x270, .f32⟩
  | 33 => ⟨S1x270, .f32⟩
  | 34 => ⟨S_, .f32⟩
  | 35 => ⟨S1x270, .f32⟩
  | 36 => ⟨S1x270, .f32⟩
  | 37 => ⟨S270x325, .f32⟩
  | 38 => ⟨S1x325, .f32⟩
  | 39 => ⟨S1x325, .f32⟩
  | 40 => ⟨S1x325, .f32⟩
  | 41 => ⟨S_, .f32⟩
  | 42 => ⟨S1, .f32⟩
  | 43 => ⟨S_, .f32⟩
  | 44 => ⟨S1, .f32⟩
  | 45 => ⟨S1, .f32⟩
  | 46 => ⟨S1x1, .f32⟩
  | 47 => ⟨S1x325, .f32⟩
  | 48 => ⟨S1x325, .f32⟩
  | 49 => ⟨S1x325, .f32⟩
  | 50 => ⟨S_, .f32⟩
  | 51 => ⟨S1, .f32⟩
  | 52 => ⟨S1x1, .f32⟩
  | 53 => ⟨S1x325, .f32⟩
  | 54 => ⟨S1x325, .f32⟩
  | 55 => ⟨S1x1, .f32⟩
  | 56 => ⟨S_, .f32⟩
  | 57 => ⟨S1x325, .f32⟩
  | 58 => ⟨S1x325, .f32⟩
  | 59 => ⟨S1x1, .f32⟩
  | 60 => ⟨S_, .f32⟩
  | 61 => ⟨S1x325, .f32⟩
  | 62 => ⟨S1x325, .f32⟩
  | 63 => ⟨S1x325, .f32⟩
  | 64 => ⟨S325x20, .f32⟩
  | 65 => ⟨S1x20, .f32⟩
  | 66 => ⟨S1x20, .f32⟩
  | 67 => ⟨S1x20, .f32⟩
  | 68 => ⟨S1x20, .f32⟩
  | 69 => ⟨S1x20, .f32⟩
  | 70 => ⟨S_, .f32⟩
  | 71 => ⟨S_, .f32⟩
  | 72 => ⟨S1x20, .f32⟩
  | 73 => ⟨S1x20, .f32⟩
  | 74 => ⟨S1x20, .f32⟩
  | 75 => ⟨S1000000x1, .f32⟩
  | 76 => ⟨S1000000x20, .f32⟩
  | 77 => ⟨S_, .f32⟩
  | 78 => ⟨S1000000x20, .f32⟩
  | 79 => ⟨S1000000x20, .f32⟩
  | 80 => ⟨S1000000x20, .f32⟩
  | 81 => ⟨S1000000x1, .f32⟩
  | 82 => ⟨S1000000x20, .f32⟩
  | 83 => ⟨S1000000x20, .f32⟩
  | _ => ⟨S1x14, .f32⟩

abbrev hbmTy (i : Nat) : BufTy := match i / 128 with
  | 0 => hbmTy0_0 i
  | 1 => hbmTy0_1 i
  | 2 => hbmTy0_2 i
  | 3 => hbmTy0_3 i
  | _ => ⟨S1x14, .f32⟩

abbrev bufTy : (tb : Table) → Fin (tcTables nBuf tb) → BufTy
  | .hbm, ⟨i, _⟩ => hbmTy i
  | _, _ => ⟨S1x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst : Ref sig .tc := ⟨.hbm, 58, rfl⟩
abbrev main_v27 : Ref sig .tc := ⟨.hbm, 59, rfl⟩
abbrev main_v28 : Ref sig .tc := ⟨.hbm, 60, rfl⟩
abbrev main_cst_0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_1 : Ref sig .tc := ⟨.hbm, 76, rfl⟩
abbrev main_v43 : Ref sig .tc := ⟨.hbm, 77, rfl⟩
abbrev main_cst_2 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_3 : Ref sig .tc := ⟨.hbm, 82, rfl⟩
abbrev main_v47 : Ref sig .tc := ⟨.hbm, 83, rfl⟩
abbrev main_cst_4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_5 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_v8 : Ref sig .tc := ⟨.hbm, 106, rfl⟩
abbrev main_v59 : Ref sig .tc := ⟨.hbm, 107, rfl⟩
abbrev main_cst_6 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_v8 : Ref sig .tc := ⟨.hbm, 121, rfl⟩
abbrev main_v63 : Ref sig .tc := ⟨.hbm, 122, rfl⟩
abbrev main_cst_7 : Ref sig .tc := ⟨.hbm, 123, rfl⟩
abbrev main_v64 : Ref sig .tc := ⟨.hbm, 124, rfl⟩
abbrev main_v65 : Ref sig .tc := ⟨.hbm, 125, rfl⟩
abbrev main_cst_8 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_call2_v0 : Ref sig .tc := ⟨.hbm, 132, rfl⟩
abbrev main_call2_cst : Ref sig .tc := ⟨.hbm, 133, rfl⟩
abbrev main_call2_v1 : Ref sig .tc := ⟨.hbm, 134, rfl⟩
abbrev main_v71 : Ref sig .tc := ⟨.hbm, 135, rfl⟩
abbrev main_cst_9 : Ref sig .tc := ⟨.hbm, 136, rfl⟩
abbrev main_v72 : Ref sig .tc := ⟨.hbm, 137, rfl⟩
abbrev main_v73 : Ref sig .tc := ⟨.hbm, 138, rfl⟩
abbrev main_call3_v0 : Ref sig .tc := ⟨.hbm, 139, rfl⟩
abbrev main_call3_cst : Ref sig .tc := ⟨.hbm, 140, rfl⟩
abbrev main_call3_v1 : Ref sig .tc := ⟨.hbm, 141, rfl⟩
abbrev main_v74 : Ref sig .tc := ⟨.hbm, 142, rfl⟩
abbrev main_cst_10 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_cst_11 : Ref sig .tc := ⟨.hbm, 151, rfl⟩
abbrev main_v82 : Ref sig .tc := ⟨.hbm, 152, rfl⟩
abbrev main_cst_12 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_cst_13 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_cst_14 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_cst_15 : Ref sig .tc := ⟨.hbm, 194, rfl⟩
abbrev main_v121 : Ref sig .tc := ⟨.hbm, 195, rfl⟩
abbrev main_v122 : Ref sig .tc := ⟨.hbm, 196, rfl⟩
abbrev main_cst_16 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_cst_17 : Ref sig .tc := ⟨.hbm, 210, rfl⟩
abbrev main_v135 : Ref sig .tc := ⟨.hbm, 211, rfl⟩
abbrev main_cst_18 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_cst_19 : Ref sig .tc := ⟨.hbm, 216, rfl⟩
abbrev main_v139 : Ref sig .tc := ⟨.hbm, 217, rfl⟩
abbrev main_cst_20 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_cst_21 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_call4_cst : Ref sig .tc := ⟨.hbm, 231, rfl⟩
abbrev main_call4_v0 : Ref sig .tc := ⟨.hbm, 232, rfl⟩
abbrev main_call4_v1 : Ref sig .tc := ⟨.hbm, 233, rfl⟩
abbrev main_call4_v2 : Ref sig .tc := ⟨.hbm, 234, rfl⟩
abbrev main_call4_v3 : Ref sig .tc := ⟨.hbm, 235, rfl⟩
abbrev main_call4_v4 : Ref sig .tc := ⟨.hbm, 236, rfl⟩
abbrev main_call4_v5 : Ref sig .tc := ⟨.hbm, 237, rfl⟩
abbrev main_call4_v6 : Ref sig .tc := ⟨.hbm, 238, rfl⟩
abbrev main_call4_v7 : Ref sig .tc := ⟨.hbm, 239, rfl⟩
abbrev main_call4_v8 : Ref sig .tc := ⟨.hbm, 240, rfl⟩
abbrev main_v151 : Ref sig .tc := ⟨.hbm, 241, rfl⟩
abbrev main_cst_22 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_call5_cst : Ref sig .tc := ⟨.hbm, 246, rfl⟩
abbrev main_call5_v0 : Ref sig .tc := ⟨.hbm, 247, rfl⟩
abbrev main_call5_v1 : Ref sig .tc := ⟨.hbm, 248, rfl⟩
abbrev main_call5_v2 : Ref sig .tc := ⟨.hbm, 249, rfl⟩
abbrev main_call5_v3 : Ref sig .tc := ⟨.hbm, 250, rfl⟩
abbrev main_call5_v4 : Ref sig .tc := ⟨.hbm, 251, rfl⟩
abbrev main_call5_v5 : Ref sig .tc := ⟨.hbm, 252, rfl⟩
abbrev main_call5_v6 : Ref sig .tc := ⟨.hbm, 253, rfl⟩
abbrev main_call5_v7 : Ref sig .tc := ⟨.hbm, 254, rfl⟩
abbrev main_call5_v8 : Ref sig .tc := ⟨.hbm, 255, rfl⟩
abbrev main_v155 : Ref sig .tc := ⟨.hbm, 256, rfl⟩
abbrev main_cst_23 : Ref sig .tc := ⟨.hbm, 257, rfl⟩
abbrev main_v156 : Ref sig .tc := ⟨.hbm, 258, rfl⟩
abbrev main_v157 : Ref sig .tc := ⟨.hbm, 259, rfl⟩
abbrev main_cst_24 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_call6_v0 : Ref sig .tc := ⟨.hbm, 266, rfl⟩
abbrev main_call6_cst : Ref sig .tc := ⟨.hbm, 267, rfl⟩
abbrev main_call6_v1 : Ref sig .tc := ⟨.hbm, 268, rfl⟩
abbrev main_v163 : Ref sig .tc := ⟨.hbm, 269, rfl⟩
abbrev main_cst_25 : Ref sig .tc := ⟨.hbm, 270, rfl⟩
abbrev main_v164 : Ref sig .tc := ⟨.hbm, 271, rfl⟩
abbrev main_v165 : Ref sig .tc := ⟨.hbm, 272, rfl⟩
abbrev main_call7_v0 : Ref sig .tc := ⟨.hbm, 273, rfl⟩
abbrev main_call7_cst : Ref sig .tc := ⟨.hbm, 274, rfl⟩
abbrev main_call7_v1 : Ref sig .tc := ⟨.hbm, 275, rfl⟩
abbrev main_v166 : Ref sig .tc := ⟨.hbm, 276, rfl⟩
abbrev main_cst_26 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_cst_27 : Ref sig .tc := ⟨.hbm, 285, rfl⟩
abbrev main_v174 : Ref sig .tc := ⟨.hbm, 286, rfl⟩
abbrev main_cst_28 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_cst_29 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_cst_30 : Ref sig .tc := ⟨.hbm, 300, rfl⟩
abbrev main_v186 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_cst_31 : Ref sig .tc := ⟨.hbm, 328, rfl⟩
abbrev main_v213 : Ref sig .tc := ⟨.hbm, 329, rfl⟩
abbrev main_v214 : Ref sig .tc := ⟨.hbm, 330, rfl⟩
abbrev main_cst_32 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_cst_33 : Ref sig .tc := ⟨.hbm, 342, rfl⟩
abbrev main_v225 : Ref sig .tc := ⟨.hbm, 343, rfl⟩
abbrev main_cst_34 : Ref sig .tc := ⟨.hbm, 344, rfl⟩
abbrev main_v226 : Ref sig .tc := ⟨.hbm, 345, rfl⟩
abbrev main_v227 : Ref sig .tc := ⟨.hbm, 346, rfl⟩
abbrev main_cst_35 : Ref sig .tc := ⟨.hbm, 347, rfl⟩
abbrev main_v228 : Ref sig .tc := ⟨.hbm, 348, rfl⟩
abbrev main_cst_36 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_v232 : Ref sig .tc := ⟨.hbm, 353, rfl⟩
abbrev main_v233 : Ref sig .tc := ⟨.hbm, 354, rfl⟩
abbrev main_v234 : Ref sig .tc := ⟨.hbm, 355, rfl⟩
abbrev main_cst_37 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_v242 : Ref sig .tc := ⟨.hbm, 364, rfl⟩
abbrev main_call8_cst : Ref sig .tc := ⟨.hbm, 365, rfl⟩
abbrev main_call8_v0 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_call9_cst : Ref sig .tc := ⟨.hbm, 372, rfl⟩
abbrev main_call9_v0 : Ref sig .tc := ⟨.hbm, 373, rfl⟩
abbrev main_v248 : Ref sig .tc := ⟨.hbm, 374, rfl⟩
abbrev main_v249 : Ref sig .tc := ⟨.hbm, 375, rfl⟩
abbrev main_v250 : Ref sig .tc := ⟨.hbm, 376, rfl⟩
abbrev main_v251 : Ref sig .tc := ⟨.hbm, 377, rfl⟩
abbrev main_v252 : Ref sig .tc := ⟨.hbm, 378, rfl⟩
abbrev main_call10_cst : Ref sig .tc := ⟨.hbm, 379, rfl⟩
abbrev main_call10_v0 : Ref sig .tc := ⟨.hbm, 380, rfl⟩
abbrev main_v253 : Ref sig .tc := ⟨.hbm, 381, rfl⟩
abbrev main_v254 : Ref sig .tc := ⟨.hbm, 382, rfl⟩
abbrev main_v255 : Ref sig .tc := ⟨.hbm, 383, rfl⟩
abbrev main_v256 : Ref sig .tc := ⟨.hbm, 384, rfl⟩
abbrev main_v257 : Ref sig .tc := ⟨.hbm, 385, rfl⟩
abbrev main_cst_38 : Ref sig .tc := ⟨.hbm, 386, rfl⟩
abbrev main_v258 : Ref sig .tc := ⟨.hbm, 387, rfl⟩
abbrev main_cst_39 : Ref sig .tc := ⟨.hbm, 388, rfl⟩
abbrev main_v259 : Ref sig .tc := ⟨.hbm, 389, rfl⟩
abbrev main_v260 : Ref sig .tc := ⟨.hbm, 390, rfl⟩
abbrev main_v261 : Ref sig .tc := ⟨.hbm, 391, rfl⟩
abbrev main_v262 : Ref sig .tc := ⟨.hbm, 392, rfl⟩
abbrev main_v263 : Ref sig .tc := ⟨.hbm, 393, rfl⟩
abbrev main_v264 : Ref sig .tc := ⟨.hbm, 394, rfl⟩
abbrev main_cst_40 : Ref sig .tc := ⟨.hbm, 395, rfl⟩
abbrev main_v265 : Ref sig .tc := ⟨.hbm, 396, rfl⟩
abbrev main_v266 : Ref sig .tc := ⟨.hbm, 397, rfl⟩
abbrev main_v267 : Ref sig .tc := ⟨.hbm, 398, rfl⟩
abbrev main_v268 : Ref sig .tc := ⟨.hbm, 399, rfl⟩
abbrev main_v269 : Ref sig .tc := ⟨.hbm, 400, rfl⟩
abbrev main_v270 : Ref sig .tc := ⟨.hbm, 401, rfl⟩
abbrev main_v271 : Ref sig .tc := ⟨.hbm, 402, rfl⟩
abbrev main_v272 : Ref sig .tc := ⟨.hbm, 403, rfl⟩
abbrev main_call11_cst : Ref sig .tc := ⟨.hbm, 404, rfl⟩
abbrev main_call11_v0 : Ref sig .tc := ⟨.hbm, 405, rfl⟩
abbrev main_v273 : Ref sig .tc := ⟨.hbm, 406, rfl⟩
abbrev main_v274 : Ref sig .tc := ⟨.hbm, 407, rfl⟩
abbrev main_v275 : Ref sig .tc := ⟨.hbm, 408, rfl⟩
abbrev main_v276 : Ref sig .tc := ⟨.hbm, 409, rfl⟩
abbrev main_v277 : Ref sig .tc := ⟨.hbm, 410, rfl⟩
abbrev main_call12_cst : Ref sig .tc := ⟨.hbm, 411, rfl⟩
abbrev main_call12_v0 : Ref sig .tc := ⟨.hbm, 412, rfl⟩
abbrev main_v278 : Ref sig .tc := ⟨.hbm, 413, rfl⟩
abbrev main_v279 : Ref sig .tc := ⟨.hbm, 414, rfl⟩
abbrev main_v280 : Ref sig .tc := ⟨.hbm, 415, rfl⟩
abbrev main_v281 : Ref sig .tc := ⟨.hbm, 416, rfl⟩
abbrev main_v282 : Ref sig .tc := ⟨.hbm, 417, rfl⟩
abbrev main_call13_cst : Ref sig .tc := ⟨.hbm, 418, rfl⟩
abbrev main_call13_v0 : Ref sig .tc := ⟨.hbm, 419, rfl⟩
abbrev main_v283 : Ref sig .tc := ⟨.hbm, 420, rfl⟩
abbrev main_v284 : Ref sig .tc := ⟨.hbm, 421, rfl⟩
abbrev main_v285 : Ref sig .tc := ⟨.hbm, 422, rfl⟩
abbrev main_v286 : Ref sig .tc := ⟨.hbm, 423, rfl⟩
abbrev main_v287 : Ref sig .tc := ⟨.hbm, 424, rfl⟩
abbrev main_cst_41 : Ref sig .tc := ⟨.hbm, 425, rfl⟩
abbrev main_v288 : Ref sig .tc := ⟨.hbm, 426, rfl⟩
abbrev main_cst_42 : Ref sig .tc := ⟨.hbm, 427, rfl⟩
abbrev main_v289 : Ref sig .tc := ⟨.hbm, 428, rfl⟩
abbrev main_v290 : Ref sig .tc := ⟨.hbm, 429, rfl⟩
abbrev main_v291 : Ref sig .tc := ⟨.hbm, 430, rfl⟩
abbrev main_v292 : Ref sig .tc := ⟨.hbm, 431, rfl⟩
abbrev main_v293 : Ref sig .tc := ⟨.hbm, 432, rfl⟩
abbrev main_v294 : Ref sig .tc := ⟨.hbm, 433, rfl⟩
abbrev main_cst_43 : Ref sig .tc := ⟨.hbm, 434, rfl⟩
abbrev main_v295 : Ref sig .tc := ⟨.hbm, 435, rfl⟩
abbrev main_v296 : Ref sig .tc := ⟨.hbm, 436, rfl⟩
abbrev main_v297 : Ref sig .tc := ⟨.hbm, 437, rfl⟩
abbrev main_v298 : Ref sig .tc := ⟨.hbm, 438, rfl⟩
abbrev main_v299 : Ref sig .tc := ⟨.hbm, 439, rfl⟩
abbrev main_v300 : Ref sig .tc := ⟨.hbm, 440, rfl⟩
abbrev main_v301 : Ref sig .tc := ⟨.hbm, 441, rfl⟩
abbrev main_v302 : Ref sig .tc := ⟨.hbm, 442, rfl⟩
abbrev main_v303 : Ref sig .tc := ⟨.hbm, 443, rfl⟩
abbrev main_v304 : Ref sig .tc := ⟨.hbm, 444, rfl⟩
abbrev main_v305 : Ref sig .tc := ⟨.hbm, 445, rfl⟩
abbrev main_v306 : Ref sig .tc := ⟨.hbm, 446, rfl⟩
abbrev main_v307 : Ref sig .tc := ⟨.hbm, 447, rfl⟩
abbrev main_v308 : Ref sig .tc := ⟨.hbm, 448, rfl⟩
abbrev main_v309 : Ref sig .tc := ⟨.hbm, 449, rfl⟩
abbrev main_v310 : Ref sig .tc := ⟨.hbm, 450, rfl⟩
abbrev main_v311 : Ref sig .tc := ⟨.hbm, 451, rfl⟩
abbrev main_v312 : Ref sig .tc := ⟨.hbm, 452, rfl⟩
abbrev main_v313 : Ref sig .tc := ⟨.hbm, 453, rfl⟩
abbrev main_cst_44 : Ref sig .tc := ⟨.hbm, 454, rfl⟩
abbrev main_v314 : Ref sig .tc := ⟨.hbm, 455, rfl⟩
abbrev main_v315 : Ref sig .tc := ⟨.hbm, 456, rfl⟩
abbrev main_v316 : Ref sig .tc := ⟨.hbm, 457, rfl⟩
abbrev main_v317 : Ref sig .tc := ⟨.hbm, 458, rfl⟩
abbrev main_v318 : Ref sig .tc := ⟨.hbm, 459, rfl⟩
abbrev main_v319 : Ref sig .tc := ⟨.hbm, 460, rfl⟩
abbrev main_cst_45 : Ref sig .tc := ⟨.hbm, 461, rfl⟩
abbrev main_v320 : Ref sig .tc := ⟨.hbm, 462, rfl⟩
abbrev main_v321 : Ref sig .tc := ⟨.hbm, 463, rfl⟩
abbrev main_v322 : Ref sig .tc := ⟨.hbm, 464, rfl⟩
abbrev main_v323 : Ref sig .tc := ⟨.hbm, 465, rfl⟩
abbrev main_v324 : Ref sig .tc := ⟨.hbm, 466, rfl⟩
abbrev main_v325 : Ref sig .tc := ⟨.hbm, 467, rfl⟩

abbrev nD : Nat := 1
abbrev τ : Topo := Topo.v7x

variable {F : FTy → Type} [FloatOps F]

class Facts₀ : Prop where
  transposes_S48x14_S14x48_1_0 : S48x14.Transposes [1, 0] S14x48
  bcast_S48_S1x48_1 : S48.BroadcastsInDim S1x48 (![1] : Fin 1 → Fin S1x48.rank)
  transposes_S72x48_S48x72_1_0 : S72x48.Transposes [1, 0] S48x72
  bcast_S72_S1x72_1 : S72.BroadcastsInDim S1x72 (![1] : Fin 1 → Fin S1x72.rank)
  transposes_S92x72_S72x92_1_0 : S92x72.Transposes [1, 0] S72x92
  bcast_S92_S1x92_1 : S92.BroadcastsInDim S1x92 (![1] : Fin 1 → Fin S1x92.rank)
  transposes_S3x72_S72x3_1_0 : S3x72.Transposes [1, 0] S72x3
  bcast_S3_S1x3_1 : S3.BroadcastsInDim S1x3 (![1] : Fin 1 → Fin S1x3.rank)
  slices_S1x92_S1x26_0_0 : S1x92.Slices ![0, 0] S1x26
  shapeCasts_S1x26_S26 : S1x26.ShapeCasts S26
  bcast_S26_S1x26_1 : S26.BroadcastsInDim S1x26 (![1] : Fin 1 → Fin S1x26.rank)
  slices_S1x92_S1x26_0_26 : S1x92.Slices ![0, 26] S1x26
  slices_S1x92_S1x20_0_52 : S1x92.Slices ![0, 52] S1x20
  shapeCasts_S1x20_S20 : S1x20.ShapeCasts S20
  bcast_S20_S1x20_1 : S20.BroadcastsInDim S1x20 (![1] : Fin 1 → Fin S1x20.rank)
  bcast_S_S1x20 : S_.BroadcastsInDim S1x20 (![] : Fin 0 → Fin S1x20.rank)
  slices_S1x92_S1x20_0_72 : S1x92.Slices ![0, 72] S1x20
  slices_S1x26_S1x20_0_0 : S1x26.Slices ![0, 0] S1x20
  slices_S1x26_S1x1_0_20 : S1x26.Slices ![0, 20] S1x1
  shapeCasts_S1x1_S_ : S1x1.ShapeCasts S_
  slices_S1x26_S1x3_0_21 : S1x26.Slices ![0, 21] S1x3
  shapeCasts_S1x3_S3 : S1x3.ShapeCasts S3
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S1x26_S1x1_0_24 : S1x26.Slices ![0, 24] S1x1
  slices_S1x26_S1x1_0_25 : S1x26.Slices ![0, 25] S1x1
  bcast_S_S1000000x20 : S_.BroadcastsInDim S1000000x20 (![] : Fin 0 → Fin S1000000x20.rank)
  transposes_S1x20_S20x1_1_0 : S1x20.Transposes [1, 0] S20x1
  shapeCasts_S1000000x1_S1000000 : S1000000x1.ShapeCasts S1000000
  reducesTo_S1000000x20_S1000000_d1 : S1000000x20.ReducesTo [1] S1000000
  bcast_S_S1000000 : S_.BroadcastsInDim S1000000 (![] : Fin 0 → Fin S1000000.rank)
  reducesTo_S1x20_S1_d1 : S1x20.ReducesTo [1] S1
  bcast_S1_S1000000_0 : S1.BroadcastsInDim S1000000 (![0] : Fin 1 → Fin S1000000.rank)
  reducesTo_S1000000_S_d0 : S1000000.ReducesTo [0] S_
  bcast_S_S1x1000000 : S_.BroadcastsInDim S1x1000000 (![] : Fin 0 → Fin S1x1000000.rank)
  bcast_S1000000_S1x1000000_1 : S1000000.BroadcastsInDim S1x1000000 (![1] : Fin 1 → Fin S1x1000000.rank)
  slices_S1x1000000_S1x1_0_999999 : S1x1000000.Slices ![0, 999999] S1x1
  slices_S1x1000000_S1x1_0_0 : S1x1000000.Slices ![0, 0] S1x1
  concatenates_S1x1_S1x1000000_S1x1_S1x1000002_d1 : Shape.Concatenates [S1x1, S1x1000000, S1x1] S1x1000002 1
  slices_S3_S1_0 : S3.Slices ![0] S1
  shapeCasts_S1_S_ : S1.ShapeCasts S_
  slices_S1x1000002_S1x1000000_0_0 : S1x1000002.Slices ![0, 0] S1x1000000
  slices_S3_S1_1 : S3.Slices ![1] S1
  slices_S1x1000002_S1x1000000_0_1 : S1x1000002.Slices ![0, 1] S1x1000000
  slices_S3_S1_2 : S3.Slices ![2] S1
  slices_S1x1000002_S1x1000000_0_2 : S1x1000002.Slices ![0, 2] S1x1000000
  reducesTo_S1x1000000_S1_d1 : S1x1000000.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x1000000_0_1 : S1x1.BroadcastsInDim S1x1000000 (![0, 1] : Fin 2 → Fin S1x1000000.rank)
  concatenates_S1x20_S1x20_S1x40_d1 : Shape.Concatenates [S1x20, S1x20] S1x40 1
  slices_S1x3_S1x1_0_0 : S1x3.Slices ![0, 0] S1x1
  slices_S1x3_S1x2_0_1 : S1x3.Slices ![0, 1] S1x2
  reducesTo_S1x2_S1_d1 : S1x2.ReducesTo [1] S1
  bcast_S1x1_S1x2_0_1 : S1x1.BroadcastsInDim S1x2 (![0, 1] : Fin 2 → Fin S1x2.rank)
  transposes_S110x40_S40x110_1_0 : S110x40.Transposes [1, 0] S40x110
  bcast_S110_S1x110_1 : S110.BroadcastsInDim S1x110 (![1] : Fin 1 → Fin S1x110.rank)
  bcast_S_S1x110 : S_.BroadcastsInDim S1x110 (![] : Fin 0 → Fin S1x110.rank)
  transposes_S190x110_S110x190_1_0 : S190x110.Transposes [1, 0] S110x190
  bcast_S190_S1x190_1 : S190.BroadcastsInDim S1x190 (![1] : Fin 1 → Fin S1x190.rank)
  bcast_S_S1x190 : S_.BroadcastsInDim S1x190 (![] : Fin 0 → Fin S1x190.rank)
  transposes_S270x190_S190x270_1_0 : S270x190.Transposes [1, 0] S190x270
  bcast_S270_S1x270_1 : S270.BroadcastsInDim S1x270 (![1] : Fin 1 → Fin S1x270.rank)
  bcast_S_S1x270 : S_.BroadcastsInDim S1x270 (![] : Fin 0 → Fin S1x270.rank)
  transposes_S325x270_S270x325_1_0 : S325x270.Transposes [1, 0] S270x325
  bcast_S325_S1x325_1 : S325.BroadcastsInDim S1x325 (![1] : Fin 1 → Fin S1x325.rank)
  reducesTo_S1x325_S1_d1 : S1x325.ReducesTo [1] S1
  bcast_S1x1_S1x325_0_1 : S1x1.BroadcastsInDim S1x325 (![0, 1] : Fin 2 → Fin S1x325.rank)
  slices_S1x2_S1x1_0_0 : S1x2.Slices ![0, 0] S1x1
  bcast_S_S1x325 : S_.BroadcastsInDim S1x325 (![] : Fin 0 → Fin S1x325.rank)
  slices_S1x2_S1x1_0_1 : S1x2.Slices ![0, 1] S1x1
  transposes_S20x325_S325x20_1_0 : S20x325.Transposes [1, 0] S325x20
  transposes_S1x1000000_S1000000x1_1_0 : S1x1000000.Transposes [1, 0] S1000000x1
  dot_S1x14_S14x48_S1x48_1_0_0_1_n_n_wf : DotDims.WF S1x14 S14x48 S1x48 [1] [0] [0] [1] [] []
  dot_S1x48_S48x72_S1x72_1_0_0_1_n_n_wf : DotDims.WF S1x48 S48x72 S1x72 [1] [0] [0] [1] [] []
  dot_S1x72_S72x92_S1x92_1_0_0_1_n_n_wf : DotDims.WF S1x72 S72x92 S1x92 [1] [0] [0] [1] [] []
  dot_S1x72_S72x3_S1x3_1_0_0_1_n_n_wf : DotDims.WF S1x72 S72x3 S1x3 [1] [0] [0] [1] [] []
  dot_S1000000x20_S20x1_S1000000x1_1_0_0_1_n_n_wf : DotDims.WF S1000000x20 S20x1 S1000000x1 [1] [0] [0] [1] [] []
  dot_S1x1000000_S1000000x20_S1x20_1_0_0_1_n_n_wf : DotDims.WF S1x1000000 S1000000x20 S1x20 [1] [0] [0] [1] [] []
  dot_S1x40_S40x110_S1x110_1_0_0_1_n_n_wf : DotDims.WF S1x40 S40x110 S1x110 [1] [0] [0] [1] [] []
  dot_S1x110_S110x190_S1x190_1_0_0_1_n_n_wf : DotDims.WF S1x110 S110x190 S1x190 [1] [0] [0] [1] [] []
  dot_S1x190_S190x270_S1x270_1_0_0_1_n_n_wf : DotDims.WF S1x190 S190x270 S1x270 [1] [0] [0] [1] [] []
  dot_S1x270_S270x325_S1x325_1_0_0_1_n_n_wf : DotDims.WF S1x270 S270x325 S1x325 [1] [0] [0] [1] [] []
  dot_S1x325_S325x20_S1x20_1_0_0_1_n_n_wf : DotDims.WF S1x325 S325x20 S1x20 [1] [0] [0] [1] [] []
  dot_S1000000x1_S1x20_S1000000x20_1_0_0_1_n_n_wf : DotDims.WF S1000000x1 S1x20 S1000000x20 [1] [0] [0] [1] [] []

variable [Facts₀]

def dot_S1x14_S14x48_S1x48_1_0_0_1_n_n : DotDims S1x14 S14x48 S1x48 where
  lhsContracting := [1]
  rhsContracting := [0]
  lhsNonContracting := [0]
  rhsNonContracting := [1]
  lhsBatch := []
  rhsBatch := []
  wf := dot_S1x14_S14x48_S1x48_1_0_0_1_n_n_wf
def dot_S1x48_S48x72_S1x72_1_0_0_1_n_n : DotDims S1x48 S48x72 S1x72 where
  lhsContracting := [1]
  rhsContracting := [0]
  lhsNonContracting := [0]
  rhsNonContracting := [1]
  lhsBatch := []
  rhsBatch := []
  wf := dot_S1x48_S48x72_S1x72_1_0_0_1_n_n_wf
def dot_S1x72_S72x92_S1x92_1_0_0_1_n_n : DotDims S1x72 S72x92 S1x92 where
  lhsContracting := [1]
  rhsContracting := [0]
  lhsNonContracting := [0]
  rhsNonContracting := [1]
  lhsBatch := []
  rhsBatch := []
  wf := dot_S1x72_S72x92_S1x92_1_0_0_1_n_n_wf
def dot_S1x72_S72x3_S1x3_1_0_0_1_n_n : DotDims S1x72 S72x3 S1x3 where
  lhsContracting := [1]
  rhsContracting := [0]
  lhsNonContracting := [0]
  rhsNonContracting := [1]
  lhsBatch := []
  rhsBatch := []
  wf := dot_S1x72_S72x3_S1x3_1_0_0_1_n_n_wf
def dot_S1000000x20_S20x1_S1000000x1_1_0_0_1_n_n : DotDims S1000000x20 S20x1 S1000000x1 where
  lhsContracting := [1]
  rhsContracting := [0]
  lhsNonContracting := [0]
  rhsNonContracting := [1]
  lhsBatch := []
  rhsBatch := []
  wf := dot_S1000000x20_S20x1_S1000000x1_1_0_0_1_n_n_wf
def dot_S1x1000000_S1000000x20_S1x20_1_0_0_1_n_n : DotDims S1x1000000 S1000000x20 S1x20 where
  lhsContracting := [1]
  rhsContracting := [0]
  lhsNonContracting := [0]
  rhsNonContracting := [1]
  lhsBatch := []
  rhsBatch := []
  wf := dot_S1x1000000_S1000000x20_S1x20_1_0_0_1_n_n_wf
def dot_S1x40_S40x110_S1x110_1_0_0_1_n_n : DotDims S1x40 S40x110 S1x110 where
  lhsContracting := [1]
  rhsContracting := [0]
  lhsNonContracting := [0]
  rhsNonContracting := [1]
  lhsBatch := []
  rhsBatch := []
  wf := dot_S1x40_S40x110_S1x110_1_0_0_1_n_n_wf
def dot_S1x110_S110x190_S1x190_1_0_0_1_n_n : DotDims S1x110 S110x190 S1x190 where
  lhsContracting := [1]
  rhsContracting := [0]
  lhsNonContracting := [0]
  rhsNonContracting := [1]
  lhsBatch := []
  rhsBatch := []
  wf := dot_S1x110_S110x190_S1x190_1_0_0_1_n_n_wf
def dot_S1x190_S190x270_S1x270_1_0_0_1_n_n : DotDims S1x190 S190x270 S1x270 where
  lhsContracting := [1]
  rhsContracting := [0]
  lhsNonContracting := [0]
  rhsNonContracting := [1]
  lhsBatch := []
  rhsBatch := []
  wf := dot_S1x190_S190x270_S1x270_1_0_0_1_n_n_wf
def dot_S1x270_S270x325_S1x325_1_0_0_1_n_n : DotDims S1x270 S270x325 S1x325 where
  lhsContracting := [1]
  rhsContracting := [0]
  lhsNonContracting := [0]
  rhsNonContracting := [1]
  lhsBatch := []
  rhsBatch := []
  wf := dot_S1x270_S270x325_S1x325_1_0_0_1_n_n_wf
def dot_S1x325_S325x20_S1x20_1_0_0_1_n_n : DotDims S1x325 S325x20 S1x20 where
  lhsContracting := [1]
  rhsContracting := [0]
  lhsNonContracting := [0]
  rhsNonContracting := [1]
  lhsBatch := []
  rhsBatch := []
  wf := dot_S1x325_S325x20_S1x20_1_0_0_1_n_n_wf
def dot_S1000000x1_S1x20_S1000000x20_1_0_0_1_n_n : DotDims S1000000x1 S1x20 S1000000x20 where
  lhsContracting := [1]
  rhsContracting := [0]
  lhsNonContracting := [0]
  rhsNonContracting := [1]
  lhsBatch := []
  rhsBatch := []
  wf := dot_S1000000x1_S1x20_S1000000x20_1_0_0_1_n_n_wf

class Facts : Prop extends Facts₀ where

variable [Facts]
-- ==== Proof.K.Reg0.lean ====
import proofs.«420955_j27152783245914_3_alg».proof.Proof.Gen.Kernel.Launch
import proofs.«420955_j27152783245914_3_alg».proof.Proof.Gen.Kernel.Skeleton
import proofs.«420955_j27152783245914_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_big : Rect S10000x20 := Rect.unit (s := S10000x20) ![0, 0] S10000x20.size inb_S10000x20_S10000x20_0_0
abbrev r0_key : Rect S1x20 := Rect.unit (s := S1x20) ![0, 0] S1x20.size inb_S1x20_S1x20_0_0
abbrev r0_out : Rect S10000x3 := Rect.unit (s := S10000x3) ![0, 0] S10000x3.size inb_S10000x3_S10000x3_0_0

/-- The output block of one grid point as a function of its three input blocks. -/
def out0_3 (x0 : Vec F S10000x20 .f32) (x1 : Vec F S1x20 .f32) (x2 : Vec F S1x20 .f32) : Vec F S10000x3 .f32 :=
  View.canon [⟨r0_out, k0_pay1 (View.ld x0 r0_big) (View.ld x1 r0_key) (View.ld x2 r0_key)⟩]

/-- At every grid point the three input blocks are returned unchanged and the output block is `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem cover0_3 (p : Vec F S10000x3 .f32) (y : S10000x3.Idx) :
    ∃ pc ∈ ([⟨r0_out, p⟩] : List (View.Piece (Elt F) S10000x3 .f32)), y ∈ pc.1.set :=
  View.cover_of_tiled [⟨r0_out, p⟩] S10000x3.size (by rfl) y

set_option maxHeartbeats 1000000 in
/-- The body computes `out0_3`: it only reads its inputs, and its one store covers the whole output block. -/
theorem sound_kernel0 (c : Dev nD) (E : Set ℕ) (i : grid0.Coords)
    (a0 : Memref sig .tc .vmem S10000x20 .f32) (ha0 : a0.IsWhole) (a1 : Memref sig .tc .vmem S1x20 .f32) (ha1 : a1.IsWhole)
    (a2 : Memref sig .tc .vmem S1x20 .f32) (ha2 : a2.IsWhole) (a3 : Memref sig .tc .vmem S10000x3 .f32) (ha3 : a3.IsWhole)
    (x0 : Vec F S10000x20 .f32) (x1 : Vec F S1x20 .f32) (x2 : Vec F S1x20 .f32) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ (iprop(owns (c : Thread nD τ) a0 fullShare x0 ∗ owns (c : Thread nD τ) a1 fullShare x1
            ∗ owns (c : Thread nD τ) a2 fullShare x2 ∗ owns (c : Thread nD τ) a3 fullShare (out0_3 x0 x1 x2)) -∗ K ⟨⟩))
      ⊢ wp frame (wpE (defs₀ (F := F)) Variants.none c none) E (cc0__addr_kernel i a0 ha0 a1 ha1 a2 ha2 a3 ha3) K := by
  simp only [cc0__addr_kernel_eq_skeleton]; unfold cc0__addr_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«420955_j27152783245914_3_alg».proof.Proof.Gen.Kernel.Launch
import proofs.«420955_j27152783245914_3_alg».proof.Proof.Gen.Kernel.Skeleton
import proofs.«420955_j27152783245914_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_big : Rect S10000x20 := Rect.unit (s := S10000x20) ![0, 0] S10000x20.size inb_S10000x20_S10000x20_0_0
abbrev r1_col : Rect S10000x1 := Rect.unit (s := S10000x1) ![0, 0] S10000x1.size inb_S10000x1_S10000x1_0_0
abbrev r1_acc : Rect S1x1x20 := Rect.unit (s := S1x1x20) ![0, 0, 0] S1x1x20.size inb_S1x1x20_S1x1x20_0_0_0

/-- One grid point's update of the accumulator: the previous value plus this tile's weighted column sums. -/
def acc1 (x0 : Vec F S10000x20 .f32) (x1 : Vec F S10000x1 .f32) (prev : Vec F S1x1x20 .f32) : Vec F S1x1x20 .f32 :=
  View.canon [⟨r1_acc, k1_pay2 (View.ld x0 r1_big) (View.ld x1 r1_col) (View.ld prev r1_acc)⟩]

def zero1 : Vec F S1x1x20 .f32 := View.canon [⟨r1_acc, k1_pay1 (F := F)⟩]

/-- The accumulator after point n: started afresh at every fiftieth point, carried on from the point before otherwise. -/
def outsAt1 (c : Dev nD) : (n : ℕ) → n < cfg1.N → Vec F S1x1x20 .f32
  | 0, hn => acc1 (iblk1 V c 0 ⟨0, hn⟩) (iblk1 V c 1 ⟨0, hn⟩) (zero1 (F := F))
  | n + 1, hn =>
    if (n + 1) % 50 = 0 then acc1 (iblk1 V c 0 ⟨n + 1, hn⟩) (iblk1 V c 1 ⟨n + 1, hn⟩) (zero1 (F := F))
    else acc1 (iblk1 V c 0 ⟨n + 1, hn⟩) (iblk1 V c 1 ⟨n + 1, hn⟩) (outsAt1 c n (Nat.lt_of_succ_lt hn))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2_kept (c : Dev nD) (t : Fin cfg1.N) (h0 : ¬t.val % 50 = 0) (d) :
    (dat1 V c).before 2 t d = outsAt1 V c (t.val - 1) (Nat.lt_of_le_of_lt (Nat.sub_le _ _) t.isLt) := by
  have hN : t.val < 100 := lt_of_lt_of_eq t.isLt (show cfg1.N = 100 from N_1)
  rw [Dat.before_out_kept _ 2 rfl t (by omega)
    (Bool.eq_false_iff.mpr fun h => by have := (flush1_2 _).mp h; dsimp only at this; omega)
    (fun _ => rfl) (fun _ _ => rfl)]
  dsimp only [dat1]

theorem outsAt1_first (c : Dev nD) (t : Fin cfg1.N) (h0 : t.val % 50 = 0) :
    outsAt1 V c t.val t.isLt = acc1 (iblk1 V c 0 t) (iblk1 V c 1 t) (zero1 (F := F)) := by
  obtain ⟨n, hn⟩ := t
  cases n with
  | zero => rfl
  | succ n => exact (if_pos h0).trans rfl

theorem outsAt1_later (c : Dev nD) (t : Fin cfg1.N) (h0 : ¬t.val % 50 = 0) :
    outsAt1 V c t.val t.isLt = acc1 (iblk1 V c 0 t) (iblk1 V c 1 t)
      (outsAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

abbrev cond1 (i : grid1.Coords) : Prop :=
  (Scalar.cmpi .ne (Scalar.extui (Scalar.cmpi .eq (BitVec.ofNat 32 (i 1).val) 0#32)) 0#32) = 1#1

/-- The body's branch condition holds exactly at the points where a half of the rows begins. -/
theorem hcond1 : ∀ t : Fin cfg1.N, cond1 (grid1.coords t) ↔ t.val % 50 = 0 :=
  (by decide +kernel : ∀ t : Fin grid1.N, cond1 (grid1.coords t) ↔ t.val % 50 = 0)

theorem hz1_acc : (![0, 0, 0] : Fin 3 → Nat) = fun _ => 0 := funext fun a => by fin_cases a <;> rfl

theorem cover1_acc (p : r1_acc.shape.Idx → Elt F .f32) (L : List (View.Piece (Elt F) S1x1x20 .f32)) (y : S1x1x20.Idx) :
    ∃ pc ∈ ((⟨r1_acc, p⟩ : View.Piece (Elt F) S1x1x20 .f32) :: L), y ∈ pc.1.set :=
  ⟨_, List.mem_cons_self, View.mem_set_unit_zero hz1_acc inb_S1x1x20_S1x1x20_0_0_0 y⟩

set_option maxHeartbeats 1000000 in
theorem sound_kernel1_later (c : Dev nD) (E : Set ℕ) (i : grid1.Coords)
    (arg2 : Memref sig .tc .vmem S10000x20 .f32) (harg2 : arg2.IsWhole)
    (arg3 : Memref sig .tc .vmem S10000x1 .f32) (harg3 : arg3.IsWhole)
    (arg4 : Memref sig .tc .vmem S1x1x20 .f32) (harg4 : arg4.IsWhole) (hc : ¬cond1 i)
    (x0 : Vec F S10000x20 .f32) (x1 : Vec F S10000x1 .f32) (prev : Vec F S1x1x20 .f32) (K : PUnit → sProp 𝕄) :
    iprop(owns (c : Thread nD τ) arg2 fullShare x0 ∗ owns (c : Thread nD τ) arg3 fullShare x1
        ∗ owns (c : Thread nD τ) arg4 fullShare prev
        ∗ (iprop(owns (c : Thread nD τ) arg2 fullShare x0 ∗ owns (c : Thread nD τ) arg3 fullShare x1
            ∗ owns (c : Thread nD τ) arg4 fullShare (acc1 x0 x1 prev)) -∗ K ⟨⟩))
      ⊢ wp frame (wpE (defs₀ (F := F)) Variants.none c none) E (cc1__readhead_kernel i arg2 harg2 arg3 harg3 arg4 harg4) K := by
  simp only [cc1__readhead_kernel_eq_skeleton]; unfold cc1__readhead_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_acc _ _)

set_option maxHeartbeats 1000000 in
theorem sound_kernel1_first (c : Dev nD) (E : Set ℕ) (i : grid1.Coords)
    (arg2 : Memref sig .tc .vmem S10000x20 .f32) (harg2 : arg2.IsWhole)
    (arg3 : Memref sig .tc .vmem S10000x1 .f32) (harg3 : arg3.IsWhole)
    (arg4 : Memref sig .tc .vmem S1x1x20 .f32) (harg4 : arg4.IsWhole) (hc : cond1 i)
    (x0 : Vec F S10000x20 .f32) (x1 : Vec F S10000x1 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (acc1 x0 x1 (zero1 (F := F)))) -∗ K ⟨⟩))
      ⊢ wp frame (wpE (defs₀ (F := F)) Variants.none c none) E (cc1__readhead_kernel i arg2 harg2 arg3 harg3 arg4 harg4) K := by
  simp only [cc1__readhead_kernel_eq_skeleton]; unfold cc1__readhead_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  rw [View.read_writes_eq_canon _ _ _ (cover1_acc _ _), View.canon_cons_unit_zero (S := S1x1x20) hz1_acc,
    View.readCov_unit_zero (S := S1x1x20) _ hz1_acc]
  unfold acc1 zero1
  rw [View.canon_unit_zero (S := S1x1x20) hz1_acc, View.canon_unit_zero (S := S1x1x20) hz1_acc,
    View.ld_unit_zero (S := S1x1x20) hz1_acc]
  rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 50 = 0
  · rw [outsAt1_first V c t h0]
    iintro ⟨HΦ, Ho, ⟨%d0, H0⟩, ⟨%d1, H1⟩, ⟨%d2, H2⟩⟩
    iapply (sound_kernel1_first c Set.univ (grid1.coords t) _ _ _ _ _ _ ((hcond1 t).mpr h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_later V c t h0]
    simp only [before1_2_kept V c t h0]
    iintro ⟨HΦ, Ho, ⟨%d0, H0⟩, ⟨%d1, H1⟩, ⟨%d2, H2⟩⟩
    iapply (sound_kernel1_later c Set.univ (grid1.coords t) _ _ _ _ _ _ (fun h => h0 ((hcond1 t).mp h)) (iblk1 V c 0 t) (iblk1 V c 1 t)
      (outsAt1 V c (t.val - 1) (Nat.lt_of_le_of_lt (Nat.sub_le _ _) t.isLt)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«420955_j27152783245914_3_alg».proof.Proof.Gen.Kernel.Launch
import proofs.«420955_j27152783245914_3_alg».proof.Proof.Gen.Kernel.Skeleton
import proofs.«420955_j27152783245914_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_big : Rect S5000x20 := Rect.unit (s := S5000x20) ![0, 0] S5000x20.size inb_S5000x20_S5000x20_0_0
abbrev r2_col : Rect S5000x1 := Rect.unit (s := S5000x1) ![0, 0] S5000x1.size inb_S5000x1_S5000x1_0_0
abbrev r2_row : Rect S1x20 := Rect.unit (s := S1x20) ![0, 0] S1x20.size inb_S1x20_S1x20_0_0

def out2_4 (x0 : Vec F S5000x20 .f32) (x1 : Vec F S5000x1 .f32) (x2 : Vec F S1x20 .f32) (x3 : Vec F S1x20 .f32) : Vec F S5000x20 .f32 :=
  View.canon [⟨r2_big, k2_pay1 (View.ld x0 r2_big) (View.ld x1 r2_col) (View.ld x2 r2_row) (View.ld x3 r2_row)⟩]

/-- At every grid point the four input blocks are returned unchanged and the output block is the body's value of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

theorem cover2_4 (p : Vec F S5000x20 .f32) (y : S5000x20.Idx) :
    ∃ pc ∈ ([⟨r2_big, p⟩] : List (View.Piece (Elt F) S5000x20 .f32)), y ∈ pc.1.set :=
  View.cover_of_tiled [⟨r2_big, p⟩] S5000x20.size (by rfl) y

set_option maxHeartbeats 1000000 in
theorem sound_kernel2 (c : Dev nD) (E : Set ℕ) (i : grid2.Coords)
    (a0 : Memref sig .tc .vmem S5000x20 .f32) (ha0 : a0.IsWhole) (a1 : Memref sig .tc .vmem S5000x1 .f32) (ha1 : a1.IsWhole)
    (a2 : Memref sig .tc .vmem S1x20 .f32) (ha2 : a2.IsWhole) (a3 : Memref sig .tc .vmem S1x20 .f32) (ha3 : a3.IsWhole)
    (a4 : Memref sig .tc .vmem S5000x20 .f32) (ha4 : a4.IsWhole)
    (x0 : Vec F S5000x20 .f32) (x1 : Vec F S5000x1 .f32) (x2 : Vec F S1x20 .f32) (x3 : Vec F S1x20 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out2_4 x0 x1 x2 x3)) -∗ K ⟨⟩))
      ⊢ wp frame (wpE (defs₀ (F := F)) Variants.none c none) E (cc2__update_kernel i a0 ha0 a1 ha1 a2 ha2 a3 ha3 a4 ha4) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Vals.lean ====
import proofs.«420955_j27152783245914_3_alg».proof.Proof.K.Reg0
import proofs.«420955_j27152783245914_3_alg».proof.Proof.K.Reg1
import proofs.«420955_j27152783245914_3_alg».proof.Proof.K.Reg2

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-! The contents of every unscoped buffer of a core at each boundary between two items of the program: the launch
    memory, then after each stretch of host operations their fold over the contents before, and after each kernel region
    the contents before with the region's arrays at what its write-backs leave. -/

/-- Core c's buffers at launch. -/
abbrev W0 : Dev nD → Valuation τ sig (Elt F) := fun c b => (s₀ m ρ).mem ((c : Dev nD), b)
/-- After the stretch `hostOps0`. -/
abbrev W1 : Dev nD → Valuation τ sig (Elt F) := fun c => StableHlo.after hostOps0 (W0 m ρ c)
/-- After the stretch `hostOps0_1`. -/
abbrev W2 : Dev nD → Valuation τ sig (Elt F) := fun c => StableHlo.after hostOps0_1 (W1 m ρ c)
/-- After the stretch `hostOps0_2`. -/
abbrev W3 : Dev nD → Valuation τ sig (Elt F) := fun c => StableHlo.after hostOps0_2 (W2 m ρ c)
/-- After the stretch `hostOps0_3`. -/
abbrev W4 : Dev nD → Valuation τ sig (Elt F) := fun c => StableHlo.after hostOps0_3 (W3 m ρ c)
/-- After the stretch `hostOps0_4`. -/
abbrev W5 : Dev nD → Valuation τ sig (Elt F) := fun c => StableHlo.after hostOps0_4 (W4 m ρ c)
/-- After the stretch `hostOps0_5`. -/
abbrev W6 : Dev nD → Valuation τ sig (Elt F) := fun c => StableHlo.after hostOps0_5 (W5 m ρ c)
/-- After the stretch `hostOps0_6`. -/
abbrev W7 : Dev nD → Valuation τ sig (Elt F) := fun c => StableHlo.after hostOps0_6 (W6 m ρ c)
/-- After the stretch `hostOps0_7`. -/
abbrev W8 : Dev nD → Valuation τ sig (Elt F) := fun c => StableHlo.after hostOps0_7 (W7 m ρ c)
/-- After the stretch `hostOps0_8`. -/
abbrev W9 : Dev nD → Valuation τ sig (Elt F) := fun c => StableHlo.after hostOps0_8 (W8 m ρ c)
/-- The same read at the TensorCore's references: what region 0 is entered from. -/
abbrev V9 : (c : Dev nD) → (b : Ref sig .tc) → Buf (Elt F) ((c : Thread nD τ).loc b) := fun c b => W9 m ρ c b
/-- At region 0's exit: its arrays at what the pipeline leaves, every other buffer as entered. -/
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
/-- The same read at the TensorCore's references: region 0's exit contents. -/
abbrev V10 : (c : Dev nD) → (b : Ref sig .tc) → Buf (Elt F) ((c : Thread nD τ).loc b) := fun c b => W10 m ρ c b
theorem hF0 (c : Dev nD) (w : Fin cfg0.W) : (dat0 (V9 m ρ) c).arrAt w cfg0.N = V10 m ρ c (Pipeline.arrRef spec0 w) :=
  (W10_arr m ρ c w).symm
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)
/-- After the stretch `hostOps1`. -/
abbrev W11 : Dev nD → Valuation τ sig (Elt F) := fun c => StableHlo.after hostOps1 (W10 m ρ c)
/-- After the stretch `hostOps1_1`. -/
abbrev W12 : Dev nD → Valuation τ sig (Elt F) := fun c => StableHlo.after hostOps1_1 (W11 m ρ c)
/-- After the stretch `hostOps1_2`. -/
abbrev W13 : Dev nD → Valuation τ sig (Elt F) := fun c => StableHlo.after hostOps1_2 (W12 m ρ c)
/-- After the stretch `hostOps1_3`. -/
abbrev W14 : Dev nD → Valuation τ sig (Elt F) := fun c => StableHlo.after hostOps1_3 (W13 m ρ c)
/-- After the stretch `hostOps1_4`. -/
abbrev W15 : Dev nD → Valuation τ sig (Elt F) := fun c => StableHlo.after hostOps1_4 (W14 m ρ c)
/-- The same read at the TensorCore's references: what region 1 is entered from. -/
abbrev V15 : (c : Dev nD) → (b : Ref sig .tc) → Buf (Elt F) ((c : Thread nD τ).loc b) := fun c b => W15 m ρ c b
/-- At region 1's exit: its arrays at what the pipeline leaves, every other buffer as entered. -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
/-- The same read at the TensorCore's references: region 1's exit contents. -/
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)
/-- After the stretch `hostOps2`. -/
abbrev W17 : Dev nD → Valuation τ sig (Elt F) := fun c => StableHlo.after hostOps2 (W16 m ρ c)
/-- After the stretch `hostOps2_1`. -/
abbrev W18 : Dev nD → Valuation τ sig (Elt F) := fun c => StableHlo.after hostOps2_1 (W17 m ρ c)
/-- After the stretch `hostOps2_2`. -/
abbrev W19 : Dev nD → Valuation τ sig (Elt F) := fun c => StableHlo.after hostOps2_2 (W18 m ρ c)
/-- After the stretch `hostOps2_3`. -/
abbrev W20 : Dev nD → Valuation τ sig (Elt F) := fun c => StableHlo.after hostOps2_3 (W19 m ρ c)
/-- After the stretch `hostOps2_4`. -/
abbrev W21 : Dev nD → Valuation τ sig (Elt F) := fun c => StableHlo.after hostOps2_4 (W20 m ρ c)
/-- After the stretch `hostOps2_5`. -/
abbrev W22 : Dev nD → Valuation τ sig (Elt F) := fun c => StableHlo.after hostOps2_5 (W21 m ρ c)
/-- After the stretch `hostOps2_6`. -/
abbrev W23 : Dev nD → Valuation τ sig (Elt F) := fun c => StableHlo.after hostOps2_6 (W22 m ρ c)
/-- After the stretch `hostOps2_7`. -/
abbrev W24 : Dev nD → Valuation τ sig (Elt F) := fun c => StableHlo.after hostOps2_7 (W23 m ρ c)
/-- After the stretch `hostOps2_8`. -/
abbrev W25 : Dev nD → Valuation τ sig (Elt F) := fun c => StableHlo.after hostOps2_8 (W24 m ρ c)
/-- After the stretch `hostOps2_9`. -/
abbrev W26 : Dev nD → Valuation τ sig (Elt F) := fun c => StableHlo.after hostOps2_9 (W25 m ρ c)
/-- After the stretch `hostOps2_10`. -/
abbrev W27 : Dev nD → Valuation τ sig (Elt F) := fun c => StableHlo.after hostOps2_10 (W26 m ρ c)
/-- After the stretch `hostOps2_11`. -/
abbrev W28 : Dev nD → Valuation τ sig (Elt F) := fun c => StableHlo.after hostOps2_11 (W27 m ρ c)
/-- After the stretch `hostOps2_12`. -/
abbrev W29 : Dev nD → Valuation τ sig (Elt F) := fun c => StableHlo.after hostOps2_12 (W28 m ρ c)
/-- The same read at the TensorCore's references: what region 2 is entered from. -/
abbrev V29 : (c : Dev nD) → (b : Ref sig .tc) → Buf (Elt F) ((c : Thread nD τ).loc b) := fun c b => W29 m ρ c b
/-- At region 2's exit: its arrays at what the pipeline leaves, every other buffer as entered. -/
def W30 (c : Dev nD) : Valuation τ sig (Elt F) :=
  Pipeline.withArrays spec2 c (W29 m ρ c) fun w => (dat2 (V29 m ρ) c).arrAt w cfg2.N
theorem W30_arr (c : Dev nD) (w : Fin cfg2.W) :
    W30 m ρ c (Proc.devRef .tc (Pipeline.arrRef spec2 w)) = (dat2 (V29 m ρ) c).arrAt w cfg2.N := by
  unfold W30; exact Pipeline.withArrays_arr spec2 launch2.win.arr_inj c _ _ w
theorem W30_of_ne (c : Dev nD) (b : Ref sig .tc) (hb : ∀ w, Pipeline.arrRef spec2 w ≠ b) :
    W30 m ρ c (Proc.devRef .tc b) = W29 m ρ c (Proc.devRef .tc b) := by
  unfold W30; exact Pipeline.withArrays_of_ne spec2 c _ _ b hb
/-- The same read at the TensorCore's references: region 2's exit contents. -/
abbrev V30 : (c : Dev nD) → (b : Ref sig .tc) → Buf (Elt F) ((c : Thread nD τ).loc b) := fun c b => W30 m ρ c b
theorem hF2 (c : Dev nD) (w : Fin cfg2.W) : (dat2 (V29 m ρ) c).arrAt w cfg2.N = V30 m ρ c (Pipeline.arrRef spec2 w) :=
  (W30_arr m ρ c w).symm
theorem hrest2 (c : Dev nD) : ∀ b, b ∉ Finset.univ.image (Pipeline.arrRef spec2) → V30 m ρ c b = V29 m ρ c b :=
  fun b hb => W30_of_ne m ρ c b fun w e => hb (Finset.mem_image.mpr ⟨w, Finset.mem_univ _, e⟩)
/-- The contents at the end of the program. -/
abbrev Wfin : Dev nD → Valuation τ sig (Elt F) := W30 m ρ

end Cert.Kernel.Hand

end
-- ==== Proof.K.Skip.lean ====
import proofs.«420955_j27152783245914_3_alg».proof.Proof.K.Vals

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- `V'` agrees with `V` at every reference outside `l`. -/
def Keeps (V V' : Valuation τ sig (Elt F)) (l : List (Ref sig .tc)) : Prop :=
  ∀ r, r ∉ l → V' (Proc.devRef .tc r) = V (Proc.devRef .tc r)

theorem Keeps.trans {V V' V'' : Valuation τ sig (Elt F)} {l l' : List (Ref sig .tc)} (h : Keeps V V' l)
    (h' : Keeps V' V'' l') : Keeps V V'' (l ++ l') :=
  fun r hr => (h' r fun x => hr (List.mem_append_right _ x)).trans (h r fun x => hr (List.mem_append_left _ x))

-- operations that write one reference of `l` each change nothing outside `l`
theorem host_keeps {ops : List (HloOp τ sig (Elt F))} {l : List (Ref sig .tc)} (V : Valuation τ sig (Elt F))
    (h : ops.map HloOp.writes = l.map fun y => {Proc.devRef .tc y}) : Keeps V (StableHlo.after ops V) l :=
  fun r hr => StableHlo.after_of_forall_not_mem ops V fun op hop hb => by
    obtain ⟨y, hy, e⟩ := List.mem_map.mp (h ▸ List.mem_map_of_mem (f := HloOp.writes) hop)
    rw [← e, Finset.mem_singleton] at hb
    exact hr (Proc.devRef_injective _ hb ▸ hy)

abbrev wr1 : List (Ref sig .tc) := [
  main_v0, main_v1, main_v2, main_v3, main_v4, main_v5, main_v6, main_v7, main_v8, main_v9, main_v10, main_v11,
  main_v12, main_v13, main_v14, main_v15, main_v16, main_v17, main_v18, main_v19, main_v20, main_v21, main_v22,
  main_v23, main_v24, main_v25, main_v26, main_cst, main_v27, main_v28, main_cst_0, main_v29, main_v30, main_v31,
  main_v32, main_v33, main_v34, main_v35, main_v36, main_v37, main_v38, main_v39, main_v40, main_v41, main_v42,
  main_cst_1, main_v43, main_cst_2, main_v44, main_v45, main_v46, main_cst_3, main_v47, main_cst_4, main_v48,
  main_v49, main_v50, main_v51, main_v52, main_cst_5, main_v53, main_v54, main_v55, main_v56, main_v57, main_v58]
theorem step1 (c : Dev nD) : Keeps (W0 m ρ c) (W1 m ρ c) wr1 := host_keeps _ rfl

abbrev wr2 : List (Ref sig .tc) := [
  main_call0_cst, main_call0_v0, main_call0_v1, main_call0_v2, main_call0_v3, main_call0_v4, main_call0_v5,
  main_call0_v6, main_call0_v7, main_call0_v8, main_v59]
theorem step2 (c : Dev nD) : Keeps (W1 m ρ c) (W2 m ρ c) wr2 := host_keeps _ rfl

abbrev wr3 : List (Ref sig .tc) := [
  main_cst_6, main_v60, main_v61, main_v62]
theorem step3 (c : Dev nD) : Keeps (W2 m ρ c) (W3 m ρ c) wr3 := host_keeps _ rfl

abbrev wr4 : List (Ref sig .tc) := [
  main_call1_cst, main_call1_v0, main_call1_v1, main_call1_v2, main_call1_v3, main_call1_v4, main_call1_v5,
  main_call1_v6, main_call1_v7, main_call1_v8, main_v63]
theorem step4 (c : Dev nD) : Keeps (W3 m ρ c) (W4 m ρ c) wr4 := host_keeps _ rfl

abbrev wr5 : List (Ref sig .tc) := [
  main_v64, main_v65, main_v66, main_v67, main_v68, main_v69, main_v70, main_v71, main_cst_7, main_v72, main_cst_8,
  main_v73, main_v74, main_v75, main_cst_9, main_v76, main_cst_10, main_v77, main_v78, main_v79, main_v80, main_v81,
  main_cst_11, main_v82, main_v83, main_v84, main_v85, main_v86, main_v87]
theorem step5 (c : Dev nD) : Keeps (W4 m ρ c) (W5 m ρ c) wr5 := host_keeps _ rfl

abbrev wr6 : List (Ref sig .tc) := [
  main_call2_cst, main_call2_v0, main_call2_v1, main_call2_v2, main_call2_v3, main_call2_v4, main_call2_v5,
  main_call2_v6, main_call2_v7, main_call2_v8, main_v88]
theorem step6 (c : Dev nD) : Keeps (W5 m ρ c) (W6 m ρ c) wr6 := host_keeps _ rfl

abbrev wr7 : List (Ref sig .tc) := [
  main_cst_12, main_v89, main_v90, main_v91]
theorem step7 (c : Dev nD) : Keeps (W6 m ρ c) (W7 m ρ c) wr7 := host_keeps _ rfl

abbrev wr8 : List (Ref sig .tc) := [
  main_call3_cst, main_call3_v0, main_call3_v1, main_call3_v2, main_call3_v3, main_call3_v4, main_call3_v5,
  main_call3_v6, main_call3_v7, main_call3_v8, main_v92]
theorem step8 (c : Dev nD) : Keeps (W7 m ρ c) (W8 m ρ c) wr8 := host_keeps _ rfl

abbrev wr9 : List (Ref sig .tc) := [
  main_cst_13, main_v93, main_v94, main_cst_14, main_v95, main_v96]
theorem step9 (c : Dev nD) : Keeps (W8 m ρ c) (W9 m ρ c) wr9 := host_keeps _ rfl

abbrev wr11 : List (Ref sig .tc) := [
  main_v98, main_v99, main_v100]
theorem step11 (c : Dev nD) : Keeps (W10 m ρ c) (W11 m ρ c) wr11 := host_keeps _ rfl

abbrev wr12 : List (Ref sig .tc) := [
  main_call4_v0, main_call4_cst, main_call4_v1, main_v101]
theorem step12 (c : Dev nD) : Keeps (W11 m ρ c) (W12 m ρ c) wr12 := host_keeps _ rfl

abbrev wr13 : List (Ref sig .tc) := [
  main_cst_15, main_v102, main_v103, main_cst_16, main_v104, main_v105, main_v106, main_v107, main_v108, main_v109,
  main_v110, main_v111, main_v112, main_cst_17, main_v113, main_cst_18, main_v114, main_v115, main_v116, main_v117,
  main_v118, main_v119, main_cst_19, main_v120, main_v121, main_v122, main_v123, main_v124, main_v125, main_cst_20,
  main_v126, main_v127, main_v128, main_v129, main_v130, main_v131, main_v132, main_v133, main_v134, main_v135,
  main_v136, main_v137, main_v138, main_v139, main_v140, main_v141, main_v142, main_v143, main_v144, main_v145,
  main_v146, main_v147, main_v148, main_v149, main_v150, main_v151, main_cst_21, main_v152, main_v153, main_cst_22,
  main_v154, main_v155, main_v156, main_v157]
theorem step13 (c : Dev nD) : Keeps (W12 m ρ c) (W13 m ρ c) wr13 := host_keeps _ rfl

abbrev wr14 : List (Ref sig .tc) := [
  main_call5_v0, main_call5_cst, main_call5_v1, main_v158]
theorem step14 (c : Dev nD) : Keeps (W13 m ρ c) (W14 m ρ c) wr14 := host_keeps _ rfl

abbrev wr15 : List (Ref sig .tc) := [
  main_cst_23, main_v159, main_v160, main_cst_24, main_v161, main_v162, main_v163, main_v164, main_v165, main_v166,
  main_v167, main_v168, main_v169, main_cst_25, main_v170, main_cst_26, main_v171, main_v172, main_v173, main_v174,
  main_v175, main_v176, main_cst_27, main_v177, main_v178, main_v179, main_v180, main_v181, main_v182, main_cst_28,
  main_v183, main_v184, main_v185, main_v186, main_v187, main_v188, main_v189, main_v190, main_v191, main_v192,
  main_v193, main_v194, main_v195, main_v196, main_v197, main_v198, main_v199, main_v200, main_v201, main_v202,
  main_v203, main_v204, main_v205, main_v206, main_v207, main_v208, main_cst_29, main_v209, main_v210, main_cst_30,
  main_v211, main_v212, main_v213, main_v214, main_v215]
theorem step15 (c : Dev nD) : Keeps (W14 m ρ c) (W15 m ρ c) wr15 := host_keeps _ rfl

abbrev wr17 : List (Ref sig .tc) := [
  main_v217, main_cst_31, main_v218, main_v219, main_v220, main_v221, main_v222, main_v223, main_v224, main_cst_32,
  main_v225, main_cst_33, main_v226, main_v227, main_cst_34, main_v228, main_cst_35, main_v229, main_v230, main_v231,
  main_v232, main_v233, main_v234, main_cst_36, main_v235, main_v236, main_v237, main_v238, main_v239, main_v240,
  main_v241, main_v242]
theorem step17 (c : Dev nD) : Keeps (W16 m ρ c) (W17 m ρ c) wr17 := host_keeps _ rfl

abbrev wr18 : List (Ref sig .tc) := [
  main_call6_cst, main_call6_v0, main_v243]
theorem step18 (c : Dev nD) : Keeps (W17 m ρ c) (W18 m ρ c) wr18 := host_keeps _ rfl

abbrev wr19 : List (Ref sig .tc) := [
  main_v244, main_v245, main_v246, main_v247]
theorem step19 (c : Dev nD) : Keeps (W18 m ρ c) (W19 m ρ c) wr19 := host_keeps _ rfl

abbrev wr20 : List (Ref sig .tc) := [
  main_call7_cst, main_call7_v0, main_v248]
theorem step20 (c : Dev nD) : Keeps (W19 m ρ c) (W20 m ρ c) wr20 := host_keeps _ rfl

abbrev wr21 : List (Ref sig .tc) := [
  main_v249, main_v250, main_v251, main_v252]
theorem step21 (c : Dev nD) : Keeps (W20 m ρ c) (W21 m ρ c) wr21 := host_keeps _ rfl

abbrev wr22 : List (Ref sig .tc) := [
  main_call8_cst, main_call8_v0, main_v253]
theorem step22 (c : Dev nD) : Keeps (W21 m ρ c) (W22 m ρ c) wr22 := host_keeps _ rfl

abbrev wr23 : List (Ref sig .tc) := [
  main_v254, main_v255, main_v256, main_v257, main_cst_37, main_v258, main_cst_38, main_v259, main_v260, main_v261,
  main_v262, main_v263, main_v264, main_cst_39, main_v265, main_v266, main_v267, main_v268, main_v269, main_v270,
  main_v271, main_v272]
theorem step23 (c : Dev nD) : Keeps (W22 m ρ c) (W23 m ρ c) wr23 := host_keeps _ rfl

abbrev wr24 : List (Ref sig .tc) := [
  main_call9_cst, main_call9_v0, main_v273]
theorem step24 (c : Dev nD) : Keeps (W23 m ρ c) (W24 m ρ c) wr24 := host_keeps _ rfl

abbrev wr25 : List (Ref sig .tc) := [
  main_v274, main_v275, main_v276, main_v277]
theorem step25 (c : Dev nD) : Keeps (W24 m ρ c) (W25 m ρ c) wr25 := host_keeps _ rfl

abbrev wr26 : List (Ref sig .tc) := [
  main_call10_cst, main_call10_v0, main_v278]
theorem step26 (c : Dev nD) : Keeps (W25 m ρ c) (W26 m ρ c) wr26 := host_keeps _ rfl

abbrev wr27 : List (Ref sig .tc) := [
  main_v279, main_v280, main_v281, main_v282]
theorem step27 (c : Dev nD) : Keeps (W26 m ρ c) (W27 m ρ c) wr27 := host_keeps _ rfl

abbrev wr28 : List (Ref sig .tc) := [
  main_call11_cst, main_call11_v0, main_v283]
theorem step28 (c : Dev nD) : Keeps (W27 m ρ c) (W28 m ρ c) wr28 := host_keeps _ rfl

abbrev wr29 : List (Ref sig .tc) := [
  main_v284, main_v285, main_v286, main_v287, main_cst_40, main_v288, main_cst_41, main_v289, main_v290, main_v291,
  main_v292, main_v293, main_v294, main_cst_42, main_v295, main_v296, main_v297, main_v298, main_v299, main_v300,
  main_v301, main_v302, main_v303, main_v304, main_v305, main_v306, main_v307, main_v308, main_v309, main_v310,
  main_v311, main_v312, main_v313, main_cst_43, main_v314, main_v315, main_v316, main_v317, main_v318]
theorem step29 (c : Dev nD) : Keeps (W28 m ρ c) (W29 m ρ c) wr29 := host_keeps _ rfl

-- of a region's arrays only the output window's changes: the others are inputs (`Dat.arrAt_in`)
theorem step10 (c : Dev nD) : Keeps (W9 m ρ c) (W10 m ρ c) [main_v97] := fun r h => by
  by_cases hr : ∃ w, Pipeline.arrRef spec0 w = r
  · obtain ⟨w, rfl⟩ := hr
    exact (W10_arr m ρ c w).trans
      (((dat0 (V9 m ρ) c).arrAt_in w (by revert w; decide) _).trans (A_eq0 (V9 m ρ) c w))
  · exact W10_of_ne m ρ c r fun w e => hr ⟨w, e⟩
theorem step16 (c : Dev nD) : Keeps (W15 m ρ c) (W16 m ρ c) [main_v216] := fun r h => by
  by_cases hr : ∃ w, Pipeline.arrRef spec1 w = r
  · obtain ⟨w, rfl⟩ := hr
    exact (W16_arr m ρ c w).trans
      (((dat1 (V15 m ρ) c).arrAt_in w (by revert w; decide) _).trans (A_eq1 (V15 m ρ) c w))
  · exact W16_of_ne m ρ c r fun w e => hr ⟨w, e⟩
theorem step30 (c : Dev nD) : Keeps (W29 m ρ c) (W30 m ρ c) [main_v319] := fun r h => by
  by_cases hr : ∃ w, Pipeline.arrRef spec2 w = r
  · obtain ⟨w, rfl⟩ := hr
    exact (W30_arr m ρ c w).trans
      (((dat2 (V29 m ρ) c).arrAt_in w (by revert w; decide) _).trans (A_eq2 (V29 m ρ) c w))
  · exact W30_of_ne m ρ c r fun w e => hr ⟨w, e⟩

/-- The contents at boundary `i`. -/
def Ws : ℕ → Dev nD → Valuation τ sig (Elt F)
  | 0 => W0 m ρ | 1 => W1 m ρ | 2 => W2 m ρ | 3 => W3 m ρ | 4 => W4 m ρ | 5 => W5 m ρ | 6 => W6 m ρ
  | 7 => W7 m ρ | 8 => W8 m ρ | 9 => W9 m ρ | 10 => W10 m ρ | 11 => W11 m ρ | 12 => W12 m ρ | 13 => W13 m ρ
  | 14 => W14 m ρ | 15 => W15 m ρ | 16 => W16 m ρ | 17 => W17 m ρ | 18 => W18 m ρ | 19 => W19 m ρ
  | 20 => W20 m ρ | 21 => W21 m ρ | 22 => W22 m ρ | 23 => W23 m ρ | 24 => W24 m ρ | 25 => W25 m ρ
  | 26 => W26 m ρ | 27 => W27 m ρ | 28 => W28 m ρ | 29 => W29 m ρ
  | _ => W30 m ρ

/-- The references item `i` may change. -/
noncomputable def wrs : ℕ → List (Ref sig .tc)
  | 1 => wr1 | 2 => wr2 | 3 => wr3 | 4 => wr4 | 5 => wr5 | 6 => wr6 | 7 => wr7 | 8 => wr8 | 9 => wr9
  | 10 => [main_v97] | 11 => wr11 | 12 => wr12 | 13 => wr13 | 14 => wr14 | 15 => wr15 | 16 => [main_v216]
  | 17 => wr17 | 18 => wr18 | 19 => wr19 | 20 => wr20 | 21 => wr21 | 22 => wr22 | 23 => wr23 | 24 => wr24
  | 25 => wr25 | 26 => wr26 | 27 => wr27 | 28 => wr28 | 29 => wr29 | 30 => [main_v319]
  | _ => []

theorem step (c : Dev nD) : ∀ i, Keeps (Ws m ρ i c) (Ws m ρ (i + 1) c) (wrs (i + 1))
  | 0 => step1 m ρ c | 1 => step2 m ρ c | 2 => step3 m ρ c | 3 => step4 m ρ c | 4 => step5 m ρ c
  | 5 => step6 m ρ c | 6 => step7 m ρ c | 7 => step8 m ρ c | 8 => step9 m ρ c | 9 => step10 m ρ c
  | 10 => step11 m ρ c | 11 => step12 m ρ c | 12 => step13 m ρ c | 13 => step14 m ρ c | 14 => step15 m ρ c
  | 15 => step16 m ρ c | 16 => step17 m ρ c | 17 => step18 m ρ c | 18 => step19 m ρ c | 19 => step20 m ρ c
  | 20 => step21 m ρ c | 21 => step22 m ρ c | 22 => step23 m ρ c | 23 => step24 m ρ c | 24 => step25 m ρ c
  | 25 => step26 m ρ c | 26 => step27 m ρ c | 27 => step28 m ρ c | 28 => step29 m ρ c | 29 => step30 m ρ c
  | _ + 30 => fun _ _ => rfl

/-- The references items `i + 1 … i + n` may change. -/
def span (i : ℕ) : ℕ → List (Ref sig .tc)
  | 0 => []
  | n + 1 => span i n ++ wrs (i + n + 1)

/-- A reference none of items `i + 1 … i + n` may change holds at boundary `i + n` what it held at boundary `i`. -/
theorem keep (c : Dev nD) (i : ℕ) : ∀ n, Keeps (Ws m ρ i c) (Ws m ρ (i + n) c) (span i n)
  | 0 => fun _ _ => rfl
  | n + 1 => (keep c i n).trans (step m ρ c (i + n))

/-- A reference none of the first ten items may change holds at region 0's exit what the launch memory held. -/
theorem at10 (c : Dev nD) (r : Ref sig .tc) (h : r ∉ span 0 10) :
    W10 m ρ c (Proc.devRef .tc r) = m ((c.tc : Thread nD τ).loc r) :=
  keep m ρ c 0 10 r h
/-- And likewise for the first sixteen at region 1's exit. -/
theorem at16 (c : Dev nD) (r : Ref sig .tc) (h : r ∉ span 0 16) :
    W16 m ρ c (Proc.devRef .tc r) = m ((c.tc : Thread nD τ).loc r) :=
  keep m ρ c 0 16 r h

end Cert.Kernel.Hand

end
-- ==== Proof.K.Run.lean ====
import proofs.«420955_j27152783245914_3_alg».proof.Proof.K.Skip

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V15 m ρ) c
  | ⟨2, _⟩ => fun c => dat2 (V29 m ρ) c
abbrev 𝒱₀ : Variants := Variants.none
abbrev L : GSem nD τ sig → Finset Unit := fun _ => ∅
abbrev lv : GSem nD τ sig → Unit → ℕ := fun _ _ => 0
abbrev Gn (c : Dev nD) : sProp 𝕄 := iprop(∃ r, prngReg c r)
abbrev Due (c : Dev nD) : sProp 𝕄 := iprop(∃ W, owes (c : Thread nD τ) (0 : CellTallies nD τ sig Unit) W)
abbrev R (c : Dev nD) : sProp 𝕄 := iprop(Gn c ∗ Due c)
abbrev St (W : Dev nD → Valuation τ sig (Elt F)) (c : Dev nD) : sProp 𝕄 :=
  iprop(StableHlo.held (c : Thread nD τ) (Pipeline.ucRefs τ sig) (W c) ∗ R c)

section Region

variable {cfg : Cfg sig Λ₀} {c : Dev nD} (d : Dat τ (Elt F) Unit ℕ (UR sig nD τ) ℕ cfg c)

theorem owesAt_of_due (t : Fin (cfg.N + 1)) (h0 : d.owed t = 0) (hrec : d.recorded t = Set.univ) :
    (Due c : sProp 𝕄) ⊢ d.owesAt () t := by
  show _ ⊢ iprop(∃ W, ⌜↑W ⊆ d.bound () t⌝ ∗ owes (c : Thread nD τ) (d.owed t) W)
  rw [h0]
  iintro ⟨%W, H⟩
  iexists W
  isplitr
  · ipureintro
    exact fun x _ => Or.inl (hrec ▸ Set.mem_univ x)
  · iexact H

theorem due_of_owesAt (t : Fin (cfg.N + 1)) (h0 : d.owed t = 0) : d.owesAt () t ⊢ (Due c : sProp 𝕄) := by
  show iprop(∃ W, ⌜↑W ⊆ d.bound () t⌝ ∗ owes (c : Thread nD τ) (d.owed t) W) ⊢ _
  rw [h0]
  iintro ⟨%W, -, H⟩
  iexists W
  iexact H

end Region

theorem prefHeld_none (c : Dev nD) (q : Fin 0 → PosShare TreeShare) (V : (Pipeline.Prefetch.none (sig := sig)).Contents (Elt F)) :
    (Pipeline.prefHeld (Ix := Unit) (Name := ℕ) (U := UR sig nD τ) (Lvl := ℕ) Pipeline.Prefetch.none c q V : sProp 𝕄) = BI.emp := by
  unfold Pipeline.prefHeld
  rw [show (Finset.univ : Finset (Fin (Pipeline.Prefetch.none (sig := sig)).K)) = ∅ from rfl, BI.bigSep_empty]

set_option backward.isDefEq.respectTransparency.types false in
def regionSeg (p : Fin 3) (lf : Pipeline.LaunchFacts (nD := nD) (τ := τ) cfgs p)
    (Wi Wo : Dev nD → Valuation τ sig (Elt F))
    (hbody : ∀ c, BodyObligation (pdats m ρ p c) (defs₀ (F := F)) Variants.none () Set.univ)
    (hq : ∀ c w, (pdats m ρ p c).q w = fullShare)
    (hA : ∀ c w, (pdats m ρ p c).A w = Wi c (Pipeline.arrRef (cfgs p).spec w))
    (hΦ : ∀ c t, (pdats m ρ p c).Φ t = Pipeline.ΦA (cfgs p).spec c)
    (howed : ∀ c t, (pdats m ρ p c).owed t = 0)
    (hrec : ∀ c t, (pdats m ρ p c).recorded t = Set.univ)
    (hF : ∀ c w, (pdats m ρ p c).arrAt w (cfgs p).N = Wo c (Pipeline.arrRef (cfgs p).spec w))
    (hrest : ∀ c (b : Ref sig .tc), b ∉ Finset.univ.image (Pipeline.arrRef (cfgs p).spec) → Wo c b = Wi c b) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X := Gn
  Y := Gn
  Z c := Pipeline.unscopedRest (Ix := Unit) (Name := ℕ) (U := UR sig nD τ) (Lvl := ℕ) (cfgs p).spec c (fun b => Wi c b)
  hentry c := by
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    rw [prefHeld_none]
    iintro ⟨⟨Hbufs, Hgen, Hdue⟩, -, -⟩
    imodintro
    ihave Hparts := hsplit $$ Hbufs
    icases Hparts with ⟨Harr, Hrest⟩
    ihave Hdue' := (owesAt_of_due (pdats m ρ p c) 0 (howed c 0) (hrec c 0)) $$ Hdue
    iframe Harr Hdue' Hgen Hrest
    iempintro
  hin c := by
    rw [hΦ c 0, prefHeld_none]
    unfold Pipeline.ΦA
    iintro ⟨Hgen, -, Hscoped⟩
    iframe Hscoped Hgen
  hout c := by
    rw [hΦ c (Fin.last _), Pipeline.ownSems0_none]
    unfold Pipeline.ΦA
    iintro ⟨Hscoped, Hgen⟩
    iframe Hgen Hscoped
    iempintro
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (cfgs p).N) (hF c) (hrest c)
    rw [Pipeline.unscopedBufs_held] at hjoin
    iintro ⟨Harr, Hdue, Hgen, Hrest⟩
    imodintro
    ihave Hbufs := hjoin $$ [Harr Hrest]
    · iframe Harr Hrest
    ihave Hdue' := (due_of_owesAt (pdats m ρ p c) (Fin.last _) (howed c _)) $$ Hdue
    isplitl [Hbufs]
    · iexact Hbufs
    isplitl [Hgen]
    · iexact Hgen
    · iexact Hdue'

def reg0 : Pipeline.RegionSeg (pcfgs (F := F)) adm (pdats m ρ) () defs₀ 𝒱₀ L lv 0 :=
  regionSeg m ρ 0 launch0 (W9 m ρ) (W10 m ρ) (fun c => body_obligation0 (V9 m ρ) c)
    (fun _ _ => rfl) (fun _ _ => rfl) (fun _ _ => rfl) (fun _ _ => rfl) (fun _ _ => rfl) (hF0 m ρ) (hrest0 m ρ)
def reg1 : Pipeline.RegionSeg (pcfgs (F := F)) adm (pdats m ρ) () defs₀ 𝒱₀ L lv 1 :=
  regionSeg m ρ 1 launch1 (W15 m ρ) (W16 m ρ) (fun c => body_obligation1 (V15 m ρ) c)
    (fun _ _ => rfl) (fun _ _ => rfl) (fun _ _ => rfl) (fun _ _ => rfl) (fun _ _ => rfl) (hF1 m ρ) (hrest1 m ρ)
def reg2 : Pipeline.RegionSeg (pcfgs (F := F)) adm (pdats m ρ) () defs₀ 𝒱₀ L lv 2 :=
  regionSeg m ρ 2 launch2 (W29 m ρ) (W30 m ρ) (fun c => body_obligation2 (V29 m ρ) c)
    (fun _ _ => rfl) (fun _ _ => rfl) (fun _ _ => rfl) (fun _ _ => rfl) (fun _ _ => rfl) (hF2 m ρ) (hrest2 m ρ)

-- a stretch none of whose operations allocates: their `fresh` sets are all empty
theorem fresh_of {ops : List (HloOp τ sig (Elt F))} (h : ops.map HloOp.fresh = ops.map fun _ => ∅) :
    ∀ op ∈ ops, op.fresh = ∅ := fun op hop => by
  obtain ⟨_, _, e⟩ := List.mem_map.mp (h ▸ List.mem_map_of_mem (f := HloOp.fresh) hop)
  exact e.symm

abbrev hseg (ops : List (HloOp τ sig (Elt F))) (hsub : ops.Forall fun op => op.bufs ⊆ StableHlo.tcRefs τ sig)
    (hfresh : ops.map HloOp.fresh = ops.map fun _ => ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fresh_of hfresh) W R

abbrev segs : List (Pipeline.Seg (pcfgs (F := F)) adm (pdats m ρ) () defs₀ 𝒱₀ L lv) :=
  [ .host (hseg hostOps0 hostOps0_sub rfl (W0 m ρ)),
    .host (hseg hostOps0_1 hostOps0_1_sub rfl (W1 m ρ)),
    .host (hseg hostOps0_2 hostOps0_2_sub rfl (W2 m ρ)),
    .host (hseg hostOps0_3 hostOps0_3_sub rfl (W3 m ρ)),
    .host (hseg hostOps0_4 hostOps0_4_sub rfl (W4 m ρ)),
    .host (hseg hostOps0_5 hostOps0_5_sub rfl (W5 m ρ)),
    .host (hseg hostOps0_6 hostOps0_6_sub rfl (W6 m ρ)),
    .host (hseg hostOps0_7 hostOps0_7_sub rfl (W7 m ρ)),
    .host (hseg hostOps0_8 hostOps0_8_sub rfl (W8 m ρ)),
    .region (reg0 m ρ),
    .host (hseg hostOps1 hostOps1_sub rfl (W10 m ρ)),
    .host (hseg hostOps1_1 hostOps1_1_sub rfl (W11 m ρ)),
    .host (hseg hostOps1_2 hostOps1_2_sub rfl (W12 m ρ)),
    .host (hseg hostOps1_3 hostOps1_3_sub rfl (W13 m ρ)),
    .host (hseg hostOps1_4 hostOps1_4_sub rfl (W14 m ρ)),
    .region (reg1 m ρ),
    .host (hseg hostOps2 hostOps2_sub rfl (W16 m ρ)),
    .host (hseg hostOps2_1 hostOps2_1_sub rfl (W17 m ρ)),
    .host (hseg hostOps2_2 hostOps2_2_sub rfl (W18 m ρ)),
    .host (hseg hostOps2_3 hostOps2_3_sub rfl (W19 m ρ)),
    .host (hseg hostOps2_4 hostOps2_4_sub rfl (W20 m ρ)),
    .host (hseg hostOps2_5 hostOps2_5_sub rfl (W21 m ρ)),
    .host (hseg hostOps2_6 hostOps2_6_sub rfl (W22 m ρ)),
    .host (hseg hostOps2_7 hostOps2_7_sub rfl (W23 m ρ)),
    .host (hseg hostOps2_8 hostOps2_8_sub rfl (W24 m ρ)),
    .host (hseg hostOps2_9 hostOps2_9_sub rfl (W25 m ρ)),
    .host (hseg hostOps2_10 hostOps2_10_sub rfl (W26 m ρ)),
    .host (hseg hostOps2_11 hostOps2_11_sub rfl (W27 m ρ)),
    .host (hseg hostOps2_12 hostOps2_12_sub rfl (W28 m ρ)),
    .region (reg2 m ρ) ]

theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem held_read (c : Dev nD) (W : Valuation τ sig (Elt F)) (s' : Phys nD τ sig (Elt F)) :
    iprop(StableHlo.held (c : Thread nD τ) (Pipeline.ucRefs τ sig) W ∗ SI s')
      ⊢ (iprop(⌜∀ b ∈ Pipeline.ucRefs τ sig, s'.mem.mem (((c : Thread nD τ)).1, b) = W b⌝ ∗ SI s') : sProp 𝕄) := by
  unfold StableHlo.held
  exact pointsTo_read_all (Pipeline.ucRefs τ sig) (fun b => (((c : Thread nD τ)).1, b)) W s'

abbrev Tₙ (c : Dev nD) : sProp 𝕄 := iprop(StableHlo.held (c : Thread nD τ) (Pipeline.ucRefs τ sig) (Wfin m ρ c) ∗ Gn c)

theorem last_state (c : Dev nD) : St (Wfin m ρ) c ⊢ iprop(Tₙ m ρ c ∗ Due c) := sep_assoc.2

theorem emp_all : (BI.emp : sProp 𝕄) ⊢ bigSep Finset.univ fun _ : Dev nD => (BI.emp : sProp 𝕄) :=
  .of_eq (BI.bigSep_emp_const Finset.univ).symm

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (emp_all (F := F)); iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m ρ c⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdue, -, Hgen, -⟩, -⟩
      imodintro
      isplitl [Hbufs]
      · iexact Hbufs
      isplitl [Hgen]
      · iexists _; iexact Hgen
      · iexists ∅; iexact Hdue)
    (QY := fun c s => ∀ b ∈ Pipeline.ucRefs τ sig, s.mem (((c : Thread nD τ)).1, b) = Wfin m ρ c b)
    (hfin := fun c s' => by
      iintro ⟨⟨Hbufs, -⟩, HSI⟩
      imodintro
      iapply (held_read c (Wfin m ρ c) s')
      iframe Hbufs HSI)
    (hQ := fun _ h => h)

theorem Wfin_of (c : Dev nD) (r : Ref sig .tc) (h : r ∉ span 0 30) :
    Wfin m ρ c (Proc.devRef .tc r) = m ((c : Thread nD τ).loc r) :=
  keep m ρ c 0 30 r h

abbrev args : List (Ref sig .tc) := [
  main_arg0, main_arg1, main_arg2, main_arg3, main_arg4, main_arg5, main_arg6, main_arg7, main_arg8, main_arg9,
  main_arg10, main_arg11, main_arg12, main_arg13, main_arg14, main_arg15, main_arg16, main_arg17, main_arg18,
  main_arg19, main_arg20, main_arg21, main_arg22, main_arg23, main_arg24, main_arg25, main_arg26, main_arg27,
  main_arg28, main_arg29, main_arg30]

-- no item changes an argument, so a final state that holds `Wfin` holds every argument as launched
theorem args_end (c : Dev nD) {s : MemSt nD τ sig (Elt F)}
    (h : ∀ b ∈ Pipeline.ucRefs τ sig, s.mem (((c : Thread nD τ)).1, b) = Wfin m ρ c b) :
    args.Forall fun a => s.mem ((c.tc : Thread nD τ).loc a) = m ((c.tc : Thread nD τ).loc a) :=
  List.forall_iff_forall_mem.mpr fun a ha =>
    (h _ (mem_uc a ((by decide : ∀ a ∈ args, ¬ (Proc.devRef .tc a : DevRef τ sig).isScoped) a ha))).trans
      (Wfin_of m ρ c a ((by decide : ∀ a ∈ args, a ∉ span 0 30) a ha))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c => args_end m ρ c (h c)) (run_all m ρ)

end Cert.Kernel.Hand

end
-- ==== Proof.KI.Reg0.lean ====
import proofs.«420955_j27152783245914_3_alg».proof.Proof.Gen.KernelIdeal.Launch
import proofs.«420955_j27152783245914_3_alg».proof.Proof.Gen.KernelIdeal.Skeleton
import proofs.«420955_j27152783245914_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_big : Rect S10000x20 := Rect.unit (s := S10000x20) ![0, 0] S10000x20.size inb_S10000x20_S10000x20_0_0
abbrev r0_key : Rect S1x20 := Rect.unit (s := S1x20) ![0, 0] S1x20.size inb_S1x20_S1x20_0_0
abbrev r0_out : Rect S10000x3 := Rect.unit (s := S10000x3) ![0, 0] S10000x3.size inb_S10000x3_S10000x3_0_0

/-- The output block of one grid point as a function of its three input blocks. -/
def out0_3 (x0 : Vec F S10000x20 .f32) (x1 : Vec F S1x20 .f32) (x2 : Vec F S1x20 .f32) : Vec F S10000x3 .f32 :=
  View.canon [⟨r0_out, k0_pay1 (View.ld x0 r0_big) (View.ld x1 r0_key) (View.ld x2 r0_key)⟩]

/-- At every grid point the three input blocks are returned unchanged and the output block is `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem cover0_3 (p : Vec F S10000x3 .f32) (y : S10000x3.Idx) :
    ∃ pc ∈ ([⟨r0_out, p⟩] : List (View.Piece (Elt F) S10000x3 .f32)), y ∈ pc.1.set :=
  View.cover_of_tiled [⟨r0_out, p⟩] S10000x3.size (by rfl) y

set_option maxHeartbeats 1000000 in
/-- The body computes `out0_3`: it only reads its inputs, and its one store covers the whole output block. -/
theorem sound_kernel0 (c : Dev nD) (E : Set ℕ) (i : grid0.Coords)
    (a0 : Memref sig .tc .vmem S10000x20 .f32) (ha0 : a0.IsWhole) (a1 : Memref sig .tc .vmem S1x20 .f32) (ha1 : a1.IsWhole)
    (a2 : Memref sig .tc .vmem S1x20 .f32) (ha2 : a2.IsWhole) (a3 : Memref sig .tc .vmem S10000x3 .f32) (ha3 : a3.IsWhole)
    (x0 : Vec F S10000x20 .f32) (x1 : Vec F S1x20 .f32) (x2 : Vec F S1x20 .f32) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ (iprop(owns (c : Thread nD τ) a0 fullShare x0 ∗ owns (c : Thread nD τ) a1 fullShare x1
            ∗ owns (c : Thread nD τ) a2 fullShare x2 ∗ owns (c : Thread nD τ) a3 fullShare (out0_3 x0 x1 x2)) -∗ K ⟨⟩))
      ⊢ wp frame (wpE (defs₀ (F := F)) Variants.none c none) E (cc0__addr_kernel i a0 ha0 a1 ha1 a2 ha2 a3 ha3) K := by
  simp only [cc0__addr_kernel_eq_skeleton]; unfold cc0__addr_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«420955_j27152783245914_3_alg».proof.Proof.Gen.KernelIdeal.Launch
import proofs.«420955_j27152783245914_3_alg».proof.Proof.Gen.KernelIdeal.Skeleton
import proofs.«420955_j27152783245914_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_big : Rect S10000x20 := Rect.unit (s := S10000x20) ![0, 0] S10000x20.size inb_S10000x20_S10000x20_0_0
abbrev r1_col : Rect S10000x1 := Rect.unit (s := S10000x1) ![0, 0] S10000x1.size inb_S10000x1_S10000x1_0_0
abbrev r1_acc : Rect S1x1x20 := Rect.unit (s := S1x1x20) ![0, 0, 0] S1x1x20.size inb_S1x1x20_S1x1x20_0_0_0

/-- One grid point's update of the accumulator: the previous value plus this tile's weighted column sums. -/
def acc1 (x0 : Vec F S10000x20 .f32) (x1 : Vec F S10000x1 .f32) (prev : Vec F S1x1x20 .f32) : Vec F S1x1x20 .f32 :=
  View.canon [⟨r1_acc, k1_pay2 (View.ld x0 r1_big) (View.ld x1 r1_col) (View.ld prev r1_acc)⟩]

def zero1 : Vec F S1x1x20 .f32 := View.canon [⟨r1_acc, k1_pay1 (F := F)⟩]

/-- The accumulator after point n: started afresh at every fiftieth point, carried on from the point before otherwise. -/
def outsAt1 (c : Dev nD) : (n : ℕ) → n < cfg1.N → Vec F S1x1x20 .f32
  | 0, hn => acc1 (iblk1 V c 0 ⟨0, hn⟩) (iblk1 V c 1 ⟨0, hn⟩) (zero1 (F := F))
  | n + 1, hn =>
    if (n + 1) % 50 = 0 then acc1 (iblk1 V c 0 ⟨n + 1, hn⟩) (iblk1 V c 1 ⟨n + 1, hn⟩) (zero1 (F := F))
    else acc1 (iblk1 V c 0 ⟨n + 1, hn⟩) (iblk1 V c 1 ⟨n + 1, hn⟩) (outsAt1 c n (Nat.lt_of_succ_lt hn))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2_kept (c : Dev nD) (t : Fin cfg1.N) (h0 : ¬t.val % 50 = 0) (d) :
    (dat1 V c).before 2 t d = outsAt1 V c (t.val - 1) (Nat.lt_of_le_of_lt (Nat.sub_le _ _) t.isLt) := by
  have hN : t.val < 100 := lt_of_lt_of_eq t.isLt (show cfg1.N = 100 from N_1)
  rw [Dat.before_out_kept _ 2 rfl t (by omega)
    (Bool.eq_false_iff.mpr fun h => by have := (flush1_2 _).mp h; dsimp only at this; omega)
    (fun _ => rfl) (fun _ _ => rfl)]
  dsimp only [dat1]

theorem outsAt1_first (c : Dev nD) (t : Fin cfg1.N) (h0 : t.val % 50 = 0) :
    outsAt1 V c t.val t.isLt = acc1 (iblk1 V c 0 t) (iblk1 V c 1 t) (zero1 (F := F)) := by
  obtain ⟨n, hn⟩ := t
  cases n with
  | zero => rfl
  | succ n => exact (if_pos h0).trans rfl

theorem outsAt1_later (c : Dev nD) (t : Fin cfg1.N) (h0 : ¬t.val % 50 = 0) :
    outsAt1 V c t.val t.isLt = acc1 (iblk1 V c 0 t) (iblk1 V c 1 t)
      (outsAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

abbrev cond1 (i : grid1.Coords) : Prop :=
  (Scalar.cmpi .ne (Scalar.extui (Scalar.cmpi .eq (BitVec.ofNat 32 (i 1).val) 0#32)) 0#32) = 1#1

/-- The body's branch condition holds exactly at the points where a half of the rows begins. -/
theorem hcond1 : ∀ t : Fin cfg1.N, cond1 (grid1.coords t) ↔ t.val % 50 = 0 :=
  (by decide +kernel : ∀ t : Fin grid1.N, cond1 (grid1.coords t) ↔ t.val % 50 = 0)

theorem hz1_acc : (![0, 0, 0] : Fin 3 → Nat) = fun _ => 0 := funext fun a => by fin_cases a <;> rfl

theorem cover1_acc (p : r1_acc.shape.Idx → Elt F .f32) (L : List (View.Piece (Elt F) S1x1x20 .f32)) (y : S1x1x20.Idx) :
    ∃ pc ∈ ((⟨r1_acc, p⟩ : View.Piece (Elt F) S1x1x20 .f32) :: L), y ∈ pc.1.set :=
  ⟨_, List.mem_cons_self, View.mem_set_unit_zero hz1_acc inb_S1x1x20_S1x1x20_0_0_0 y⟩

set_option maxHeartbeats 1000000 in
theorem sound_kernel1_later (c : Dev nD) (E : Set ℕ) (i : grid1.Coords)
    (arg2 : Memref sig .tc .vmem S10000x20 .f32) (harg2 : arg2.IsWhole)
    (arg3 : Memref sig .tc .vmem S10000x1 .f32) (harg3 : arg3.IsWhole)
    (arg4 : Memref sig .tc .vmem S1x1x20 .f32) (harg4 : arg4.IsWhole) (hc : ¬cond1 i)
    (x0 : Vec F S10000x20 .f32) (x1 : Vec F S10000x1 .f32) (prev : Vec F S1x1x20 .f32) (K : PUnit → sProp 𝕄) :
    iprop(owns (c : Thread nD τ) arg2 fullShare x0 ∗ owns (c : Thread nD τ) arg3 fullShare x1
        ∗ owns (c : Thread nD τ) arg4 fullShare prev
        ∗ (iprop(owns (c : Thread nD τ) arg2 fullShare x0 ∗ owns (c : Thread nD τ) arg3 fullShare x1
            ∗ owns (c : Thread nD τ) arg4 fullShare (acc1 x0 x1 prev)) -∗ K ⟨⟩))
      ⊢ wp frame (wpE (defs₀ (F := F)) Variants.none c none) E (cc1__readhead_kernel i arg2 harg2 arg3 harg3 arg4 harg4) K := by
  simp only [cc1__readhead_kernel_eq_skeleton]; unfold cc1__readhead_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_acc _ _)

set_option maxHeartbeats 1000000 in
theorem sound_kernel1_first (c : Dev nD) (E : Set ℕ) (i : grid1.Coords)
    (arg2 : Memref sig .tc .vmem S10000x20 .f32) (harg2 : arg2.IsWhole)
    (arg3 : Memref sig .tc .vmem S10000x1 .f32) (harg3 : arg3.IsWhole)
    (arg4 : Memref sig .tc .vmem S1x1x20 .f32) (harg4 : arg4.IsWhole) (hc : cond1 i)
    (x0 : Vec F S10000x20 .f32) (x1 : Vec F S10000x1 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (acc1 x0 x1 (zero1 (F := F)))) -∗ K ⟨⟩))
      ⊢ wp frame (wpE (defs₀ (F := F)) Variants.none c none) E (cc1__readhead_kernel i arg2 harg2 arg3 harg3 arg4 harg4) K := by
  simp only [cc1__readhead_kernel_eq_skeleton]; unfold cc1__readhead_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  rw [View.read_writes_eq_canon _ _ _ (cover1_acc _ _), View.canon_cons_unit_zero (S := S1x1x20) hz1_acc,
    View.readCov_unit_zero (S := S1x1x20) _ hz1_acc]
  unfold acc1 zero1
  rw [View.canon_unit_zero (S := S1x1x20) hz1_acc, View.canon_unit_zero (S := S1x1x20) hz1_acc,
    View.ld_unit_zero (S := S1x1x20) hz1_acc]
  rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 50 = 0
  · rw [outsAt1_first V c t h0]
    iintro ⟨HΦ, Ho, ⟨%d0, H0⟩, ⟨%d1, H1⟩, ⟨%d2, H2⟩⟩
    iapply (sound_kernel1_first c Set.univ (grid1.coords t) _ _ _ _ _ _ ((hcond1 t).mpr h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_later V c t h0]
    simp only [before1_2_kept V c t h0]
    iintro ⟨HΦ, Ho, ⟨%d0, H0⟩, ⟨%d1, H1⟩, ⟨%d2, H2⟩⟩
    iapply (sound_kernel1_later c Set.univ (grid1.coords t) _ _ _ _ _ _ (fun h => h0 ((hcond1 t).mp h)) (iblk1 V c 0 t) (iblk1 V c 1 t)
      (outsAt1 V c (t.val - 1) (Nat.lt_of_le_of_lt (Nat.sub_le _ _) t.isLt)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«420955_j27152783245914_3_alg».proof.Proof.Gen.KernelIdeal.Launch
import proofs.«420955_j27152783245914_3_alg».proof.Proof.Gen.KernelIdeal.Skeleton
import proofs.«420955_j27152783245914_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_big : Rect S5000x20 := Rect.unit (s := S5000x20) ![0, 0] S5000x20.size inb_S5000x20_S5000x20_0_0
abbrev r2_col : Rect S5000x1 := Rect.unit (s := S5000x1) ![0, 0] S5000x1.size inb_S5000x1_S5000x1_0_0
abbrev r2_row : Rect S1x20 := Rect.unit (s := S1x20) ![0, 0] S1x20.size inb_S1x20_S1x20_0_0

def out2_4 (x0 : Vec F S5000x20 .f32) (x1 : Vec F S5000x1 .f32) (x2 : Vec F S1x20 .f32) (x3 : Vec F S1x20 .f32) : Vec F S5000x20 .f32 :=
  View.canon [⟨r2_big, k2_pay1 (View.ld x0 r2_big) (View.ld x1 r2_col) (View.ld x2 r2_row) (View.ld x3 r2_row)⟩]

/-- At every grid point the four input blocks are returned unchanged and the output block is the body's value of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

theorem cover2_4 (p : Vec F S5000x20 .f32) (y : S5000x20.Idx) :
    ∃ pc ∈ ([⟨r2_big, p⟩] : List (View.Piece (Elt F) S5000x20 .f32)), y ∈ pc.1.set :=
  View.cover_of_tiled [⟨r2_big, p⟩] S5000x20.size (by rfl) y

set_option maxHeartbeats 1000000 in
theorem sound_kernel2 (c : Dev nD) (E : Set ℕ) (i : grid2.Coords)
    (a0 : Memref sig .tc .vmem S5000x20 .f32) (ha0 : a0.IsWhole) (a1 : Memref sig .tc .vmem S5000x1 .f32) (ha1 : a1.IsWhole)
    (a2 : Memref sig .tc .vmem S1x20 .f32) (ha2 : a2.IsWhole) (a3 : Memref sig .tc .vmem S1x20 .f32) (ha3 : a3.IsWhole)
    (a4 : Memref sig .tc .vmem S5000x20 .f32) (ha4 : a4.IsWhole)
    (x0 : Vec F S5000x20 .f32) (x1 : Vec F S5000x1 .f32) (x2 : Vec F S1x20 .f32) (x3 : Vec F S1x20 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out2_4 x0 x1 x2 x3)) -∗ K ⟨⟩))
      ⊢ wp frame (wpE (defs₀ (F := F)) Variants.none c none) E (cc2__update_kernel i a0 ha0 a1 ha1 a2 ha2 a3 ha3 a4 ha4) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Vals.lean ====
import proofs.«420955_j27152783245914_3_alg».proof.Proof.KI.Reg0
import proofs.«420955_j27152783245914_3_alg».proof.Proof.KI.Reg1
import proofs.«420955_j27152783245914_3_alg».proof.Proof.KI.Reg2

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-! The contents of every unscoped buffer of a core at each boundary between two items of the program: the launch
    memory, then after each stretch of host operations their fold over the contents before, and after each kernel region
    the contents before with the region's arrays at what its write-backs leave. -/

/-- Core c's buffers at launch. -/
abbrev W0 : Dev nD → Valuation τ sig (Elt F) := fun c b => (s₀ m ρ).mem ((c : Dev nD), b)
/-- After the stretch `hostOps0`. -/
abbrev W1 : Dev nD → Valuation τ sig (Elt F) := fun c => StableHlo.after hostOps0 (W0 m ρ c)
/-- After the stretch `hostOps0_1`. -/
abbrev W2 : Dev nD → Valuation τ sig (Elt F) := fun c => StableHlo.after hostOps0_1 (W1 m ρ c)
/-- After the stretch `hostOps0_2`. -/
abbrev W3 : Dev nD → Valuation τ sig (Elt F) := fun c => StableHlo.after hostOps0_2 (W2 m ρ c)
/-- After the stretch `hostOps0_3`. -/
abbrev W4 : Dev nD → Valuation τ sig (Elt F) := fun c => StableHlo.after hostOps0_3 (W3 m ρ c)
/-- After the stretch `hostOps0_4`. -/
abbrev W5 : Dev nD → Valuation τ sig (Elt F) := fun c => StableHlo.after hostOps0_4 (W4 m ρ c)
/-- After the stretch `hostOps0_5`. -/
abbrev W6 : Dev nD → Valuation τ sig (Elt F) := fun c => StableHlo.after hostOps0_5 (W5 m ρ c)
/-- After the stretch `hostOps0_6`. -/
abbrev W7 : Dev nD → Valuation τ sig (Elt F) := fun c => StableHlo.after hostOps0_6 (W6 m ρ c)
/-- After the stretch `hostOps0_7`. -/
abbrev W8 : Dev nD → Valuation τ sig (Elt F) := fun c => StableHlo.after hostOps0_7 (W7 m ρ c)
/-- After the stretch `hostOps0_8`. -/
abbrev W9 : Dev nD → Valuation τ sig (Elt F) := fun c => StableHlo.after hostOps0_8 (W8 m ρ c)
/-- The same read at the TensorCore's references: what region 0 is entered from. -/
abbrev V9 : (c : Dev nD) → (b : Ref sig .tc) → Buf (Elt F) ((c : Thread nD τ).loc b) := fun c b => W9 m ρ c b
/-- At region 0's exit: its arrays at what the pipeline leaves, every other buffer as entered. -/
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
/-- The same read at the TensorCore's references: region 0's exit contents. -/
abbrev V10 : (c : Dev nD) → (b : Ref sig .tc) → Buf (Elt F) ((c : Thread nD τ).loc b) := fun c b => W10 m ρ c b
theorem hF0 (c : Dev nD) (w : Fin cfg0.W) : (dat0 (V9 m ρ) c).arrAt w cfg0.N = V10 m ρ c (Pipeline.arrRef spec0 w) :=
  (W10_arr m ρ c w).symm
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)
/-- After the stretch `hostOps1`. -/
abbrev W11 : Dev nD → Valuation τ sig (Elt F) := fun c => StableHlo.after hostOps1 (W10 m ρ c)
/-- After the stretch `hostOps1_1`. -/
abbrev W12 : Dev nD → Valuation τ sig (Elt F) := fun c => StableHlo.after hostOps1_1 (W11 m ρ c)
/-- After the stretch `hostOps1_2`. -/
abbrev W13 : Dev nD → Valuation τ sig (Elt F) := fun c => StableHlo.after hostOps1_2 (W12 m ρ c)
/-- After the stretch `hostOps1_3`. -/
abbrev W14 : Dev nD → Valuation τ sig (Elt F) := fun c => StableHlo.after hostOps1_3 (W13 m ρ c)
/-- After the stretch `hostOps1_4`. -/
abbrev W15 : Dev nD → Valuation τ sig (Elt F) := fun c => StableHlo.after hostOps1_4 (W14 m ρ c)
/-- The same read at the TensorCore's references: what region 1 is entered from. -/
abbrev V15 : (c : Dev nD) → (b : Ref sig .tc) → Buf (Elt F) ((c : Thread nD τ).loc b) := fun c b => W15 m ρ c b
/-- At region 1's exit: its arrays at what the pipeline leaves, every other buffer as entered. -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
/-- The same read at the TensorCore's references: region 1's exit contents. -/
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)
/-- After the stretch `hostOps2`. -/
abbrev W17 : Dev nD → Valuation τ sig (Elt F) := fun c => StableHlo.after hostOps2 (W16 m ρ c)
/-- After the stretch `hostOps2_1`. -/
abbrev W18 : Dev nD → Valuation τ sig (Elt F) := fun c => StableHlo.after hostOps2_1 (W17 m ρ c)
/-- After the stretch `hostOps2_2`. -/
abbrev W19 : Dev nD → Valuation τ sig (Elt F) := fun c => StableHlo.after hostOps2_2 (W18 m ρ c)
/-- After the stretch `hostOps2_3`. -/
abbrev W20 : Dev nD → Valuation τ sig (Elt F) := fun c => StableHlo.after hostOps2_3 (W19 m ρ c)
/-- After the stretch `hostOps2_4`. -/
abbrev W21 : Dev nD → Valuation τ sig (Elt F) := fun c => StableHlo.after hostOps2_4 (W20 m ρ c)
/-- After the stretch `hostOps2_5`. -/
abbrev W22 : Dev nD → Valuation τ sig (Elt F) := fun c => StableHlo.after hostOps2_5 (W21 m ρ c)
/-- After the stretch `hostOps2_6`. -/
abbrev W23 : Dev nD → Valuation τ sig (Elt F) := fun c => StableHlo.after hostOps2_6 (W22 m ρ c)
/-- After the stretch `hostOps2_7`. -/
abbrev W24 : Dev nD → Valuation τ sig (Elt F) := fun c => StableHlo.after hostOps2_7 (W23 m ρ c)
/-- After the stretch `hostOps2_8`. -/
abbrev W25 : Dev nD → Valuation τ sig (Elt F) := fun c => StableHlo.after hostOps2_8 (W24 m ρ c)
/-- After the stretch `hostOps2_9`. -/
abbrev W26 : Dev nD → Valuation τ sig (Elt F) := fun c => StableHlo.after hostOps2_9 (W25 m ρ c)
/-- After the stretch `hostOps2_10`. -/
abbrev W27 : Dev nD → Valuation τ sig (Elt F) := fun c => StableHlo.after hostOps2_10 (W26 m ρ c)
/-- After the stretch `hostOps2_11`. -/
abbrev W28 : Dev nD → Valuation τ sig (Elt F) := fun c => StableHlo.after hostOps2_11 (W27 m ρ c)
/-- After the stretch `hostOps2_12`. -/
abbrev W29 : Dev nD → Valuation τ sig (Elt F) := fun c => StableHlo.after hostOps2_12 (W28 m ρ c)
/-- The same read at the TensorCore's references: what region 2 is entered from. -/
abbrev V29 : (c : Dev nD) → (b : Ref sig .tc) → Buf (Elt F) ((c : Thread nD τ).loc b) := fun c b => W29 m ρ c b
/-- At region 2's exit: its arrays at what the pipeline leaves, every other buffer as entered. -/
def W30 (c : Dev nD) : Valuation τ sig (Elt F) :=
  Pipeline.withArrays spec2 c (W29 m ρ c) fun w => (dat2 (V29 m ρ) c).arrAt w cfg2.N
theorem W30_arr (c : Dev nD) (w : Fin cfg2.W) :
    W30 m ρ c (Proc.devRef .tc (Pipeline.arrRef spec2 w)) = (dat2 (V29 m ρ) c).arrAt w cfg2.N := by
  unfold W30; exact Pipeline.withArrays_arr spec2 launch2.win.arr_inj c _ _ w
theorem W30_of_ne (c : Dev nD) (b : Ref sig .tc) (hb : ∀ w, Pipeline.arrRef spec2 w ≠ b) :
    W30 m ρ c (Proc.devRef .tc b) = W29 m ρ c (Proc.devRef .tc b) := by
  unfold W30; exact Pipeline.withArrays_of_ne spec2 c _ _ b hb
/-- The same read at the TensorCore's references: region 2's exit contents. -/
abbrev V30 : (c : Dev nD) → (b : Ref sig .tc) → Buf (Elt F) ((c : Thread nD τ).loc b) := fun c b => W30 m ρ c b
theorem hF2 (c : Dev nD) (w : Fin cfg2.W) : (dat2 (V29 m ρ) c).arrAt w cfg2.N = V30 m ρ c (Pipeline.arrRef spec2 w) :=
  (W30_arr m ρ c w).symm
theorem hrest2 (c : Dev nD) : ∀ b, b ∉ Finset.univ.image (Pipeline.arrRef spec2) → V30 m ρ c b = V29 m ρ c b :=
  fun b hb => W30_of_ne m ρ c b fun w e => hb (Finset.mem_image.mpr ⟨w, Finset.mem_univ _, e⟩)
/-- The contents at the end of the program. -/
abbrev Wfin : Dev nD → Valuation τ sig (Elt F) := W30 m ρ

end Cert.KernelIdeal.Hand

end
-- ==== Proof.Ref.Stages.lean ====
import proofs.«420955_j27152783245914_3_alg».proof.Proof.Gen.ReferenceIdeal
import Idealize.ShloMosaic.Lib.Pipeline.Value

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

variable (x0 : (⟨S1x14, .f32⟩ : BufTy).Contents (Elt F))
  (x1 x2 : (⟨S1x1000000, .f32⟩ : BufTy).Contents (Elt F))
  (x3 : (⟨S1000000x20, .f32⟩ : BufTy).Contents (Elt F))
  (x4 : (⟨S1x20, .f32⟩ : BufTy).Contents (Elt F))
  (x5 : (⟨S48x14, .f32⟩ : BufTy).Contents (Elt F))
  (x6 : (⟨S48, .f32⟩ : BufTy).Contents (Elt F))
  (x7 : (⟨S72x48, .f32⟩ : BufTy).Contents (Elt F))
  (x8 : (⟨S72, .f32⟩ : BufTy).Contents (Elt F))
  (x9 : (⟨S92x72, .f32⟩ : BufTy).Contents (Elt F))
  (x10 : (⟨S92, .f32⟩ : BufTy).Contents (Elt F))
  (x11 : (⟨S3x72, .f32⟩ : BufTy).Contents (Elt F))
  (x12 : (⟨S3, .f32⟩ : BufTy).Contents (Elt F))
  (x13 : (⟨S20x325, .f32⟩ : BufTy).Contents (Elt F))
  (x14 : (⟨S20, .f32⟩ : BufTy).Contents (Elt F))
  (x15 : (⟨S110x40, .f32⟩ : BufTy).Contents (Elt F))
  (x16 : (⟨S110, .f32⟩ : BufTy).Contents (Elt F))
  (x17 : (⟨S190x110, .f32⟩ : BufTy).Contents (Elt F))
  (x18 : (⟨S190, .f32⟩ : BufTy).Contents (Elt F))
  (x19 : (⟨S270x190, .f32⟩ : BufTy).Contents (Elt F))
  (x20 : (⟨S270, .f32⟩ : BufTy).Contents (Elt F))
  (x21 : (⟨S325x270, .f32⟩ : BufTy).Contents (Elt F))
  (x22 : (⟨S325, .f32⟩ : BufTy).Contents (Elt F))
  (x23 : (⟨S110x40, .f32⟩ : BufTy).Contents (Elt F))
  (x24 : (⟨S110, .f32⟩ : BufTy).Contents (Elt F))
  (x25 : (⟨S190x110, .f32⟩ : BufTy).Contents (Elt F))
  (x26 : (⟨S190, .f32⟩ : BufTy).Contents (Elt F))
  (x27 : (⟨S270x190, .f32⟩ : BufTy).Contents (Elt F))
  (x28 : (⟨S270, .f32⟩ : BufTy).Contents (Elt F))
  (x29 : (⟨S325x270, .f32⟩ : BufTy).Contents (Elt F))
  (x30 : (⟨S325, .f32⟩ : BufTy).Contents (Elt F))

def val_main_v0 : (⟨S14x48, .f32⟩ : BufTy).Contents (Elt F) :=
  transpose S14x48 [1, 0] (x5) transposes_S48x14_S14x48_1_0
def val_main_v1 : (⟨S1x48, .f32⟩ : BufTy).Contents (Elt F) :=
  Host.dotGeneral dot_S1x14_S14x48_S1x48_1_0_0_1_n_n none (x0) (val_main_v0 (F := F) x5)
def val_main_v2 : (⟨S1x48, .f32⟩ : BufTy).Contents (Elt F) :=
  broadcastInDim S1x48 ![1] bcast_S48_S1x48_1 (x6)
def val_main_v3 : (⟨S1x48, .f32⟩ : BufTy).Contents (Elt F) :=
  addf (val_main_v1 (F := F) x0 x5) (val_main_v2 (F := F) x6)
def val_main_v4 : (⟨S48x72, .f32⟩ : BufTy).Contents (Elt F) :=
  transpose S48x72 [1, 0] (x7) transposes_S72x48_S48x72_1_0
def val_main_v5 : (⟨S1x72, .f32⟩ : BufTy).Contents (Elt F) :=
  Host.dotGeneral dot_S1x48_S48x72_S1x72_1_0_0_1_n_n none (val_main_v3 (F := F) x0 x5 x6) (val_main_v4 (F := F) x7)
def val_main_v6 : (⟨S1x72, .f32⟩ : BufTy).Contents (Elt F) :=
  broadcastInDim S1x72 ![1] bcast_S72_S1x72_1 (x8)
def val_main_v7 : (⟨S1x72, .f32⟩ : BufTy).Contents (Elt F) :=
  addf (val_main_v5 (F := F) x0 x5 x6 x7) (val_main_v6 (F := F) x8)
def val_main_v8 : (⟨S72x92, .f32⟩ : BufTy).Contents (Elt F) :=
  transpose S72x92 [1, 0] (x9) transposes_S92x72_S72x92_1_0
def val_main_v9 : (⟨S1x92, .f32⟩ : BufTy).Contents (Elt F) :=
  Host.dotGeneral dot_S1x72_S72x92_S1x92_1_0_0_1_n_n none (val_main_v7 (F := F) x0 x5 x6 x7 x8) (val_main_v8 (F := F) x9)
def val_main_v10 : (⟨S1x92, .f32⟩ : BufTy).Contents (Elt F) :=
  broadcastInDim S1x92 ![1] bcast_S92_S1x92_1 (x10)
def val_main_v11 : (⟨S1x92, .f32⟩ : BufTy).Contents (Elt F) :=
  addf (val_main_v9 (F := F) x0 x5 x6 x7 x8 x9) (val_main_v10 (F := F) x10)
def val_main_v12 : (⟨S72x3, .f32⟩ : BufTy).Contents (Elt F) :=
  transpose S72x3 [1, 0] (x11) transposes_S3x72_S72x3_1_0
def val_main_v13 : (⟨S1x3, .f32⟩ : BufTy).Contents (Elt F) :=
  Host.dotGeneral dot_S1x72_S72x3_S1x3_1_0_0_1_n_n none (val_main_v7 (F := F) x0 x5 x6 x7 x8) (val_main_v12 (F := F) x11)
def val_main_v14 : (⟨S1x3, .f32⟩ : BufTy).Contents (Elt F) :=
  broadcastInDim S1x3 ![1] bcast_S3_S1x3_1 (x12)
def val_main_v15 : (⟨S1x3, .f32⟩ : BufTy).Contents (Elt F) :=
  addf (val_main_v13 (F := F) x0 x5 x6 x7 x8 x11) (val_main_v14 (F := F) x12)
def val_main_v16 : (⟨S1x26, .f32⟩ : BufTy).Contents (Elt F) :=
  extractStridedSlice S1x26 ![0, 0] (val_main_v11 (F := F) x0 x5 x6 x7 x8 x9 x10) slices_S1x92_S1x26_0_0
def val_main_v17 : (⟨S26, .f32⟩ : BufTy).Contents (Elt F) :=
  shapeCast _ (val_main_v16 (F := F) x0 x5 x6 x7 x8 x9 x10) shapeCasts_S1x26_S26
def val_main_v18 : (⟨S1x26, .f32⟩ : BufTy).Contents (Elt F) :=
  broadcastInDim S1x26 ![1] bcast_S26_S1x26_1 (val_main_v17 (F := F) x0 x5 x6 x7 x8 x9 x10)
def val_main_v19 : (⟨S1x26, .f32⟩ : BufTy).Contents (Elt F) :=
  extractStridedSlice S1x26 ![0, 26] (val_main_v11 (F := F) x0 x5 x6 x7 x8 x9 x10) slices_S1x92_S1x26_0_26
def val_main_v20 : (⟨S26, .f32⟩ : BufTy).Contents (Elt F) :=
  shapeCast _ (val_main_v19 (F := F) x0 x5 x6 x7 x8 x9 x10) shapeCasts_S1x26_S26
def val_main_v21 : (⟨S1x26, .f32⟩ : BufTy).Contents (Elt F) :=
  broadcastInDim S1x26 ![1] bcast_S26_S1x26_1 (val_main_v20 (F := F) x0 x5 x6 x7 x8 x9 x10)
def val_main_v22 : (⟨S1x20, .f32⟩ : BufTy).Contents (Elt F) :=
  extractStridedSlice S1x20 ![0, 52] (val_main_v11 (F := F) x0 x5 x6 x7 x8 x9 x10) slices_S1x92_S1x20_0_52
def val_main_v23 : (⟨S20, .f32⟩ : BufTy).Contents (Elt F) :=
  shapeCast _ (val_main_v22 (F := F) x0 x5 x6 x7 x8 x9 x10) shapeCasts_S1x20_S20
def val_main_v24 : (⟨S1x20, .f32⟩ : BufTy).Contents (Elt F) :=
  broadcastInDim S1x20 ![1] bcast_S20_S1x20_1 (val_main_v23 (F := F) x0 x5 x6 x7 x8 x9 x10)
def val_main_v25 : (⟨S1x20, .f32⟩ : BufTy).Contents (Elt F) :=
  Host.negf (val_main_v24 (F := F) x0 x5 x6 x7 x8 x9 x10)
def val_main_v26 : (⟨S1x20, .f32⟩ : BufTy).Contents (Elt F) :=
  Host.exp (val_main_v25 (F := F) x0 x5 x6 x7 x8 x9 x10)
def val_main_cst : (⟨S_, .f32⟩ : BufTy).Contents (Elt F) :=
  constant S_ .f32 0x3F800000#32
def val_main_v27 : (⟨S1x20, .f32⟩ : BufTy).Contents (Elt F) :=
  broadcastInDim S1x20 ![] bcast_S_S1x20 (val_main_cst (F := F))
def val_main_v28 : (⟨S1x20, .f32⟩ : BufTy).Contents (Elt F) :=
  addf (val_main_v27 (F := F)) (val_main_v26 (F := F) x0 x5 x6 x7 x8 x9 x10)
def val_main_cst_0 : (⟨S_, .f32⟩ : BufTy).Contents (Elt F) :=
  constant S_ .f32 0x3F800000#32
def val_main_v29 : (⟨S1x20, .f32⟩ : BufTy).Contents (Elt F) :=
  broadcastInDim S1x20 ![] bcast_S_S1x20 (val_main_cst_0 (F := F))
def val_main_v30 : (⟨S1x20, .f32⟩ : BufTy).Contents (Elt F) :=
  Host.divf (val_main_v29 (F := F)) (val_main_v28 (F := F) x0 x5 x6 x7 x8 x9 x10)
def val_main_v31 : (⟨S1x20, .f32⟩ : BufTy).Contents (Elt F) :=
  extractStridedSlice S1x20 ![0, 72] (val_main_v11 (F := F) x0 x5 x6 x7 x8 x9 x10) slices_S1x92_S1x20_0_72
def val_main_v32 : (⟨S20, .f32⟩ : BufTy).Contents (Elt F) :=
  shapeCast _ (val_main_v31 (F := F) x0 x5 x6 x7 x8 x9 x10) shapeCasts_S1x20_S20
def val_main_v33 : (⟨S1x20, .f32⟩ : BufTy).Contents (Elt F) :=
  broadcastInDim S1x20 ![1] bcast_S20_S1x20_1 (val_main_v32 (F := F) x0 x5 x6 x7 x8 x9 x10)
def val_main_v34 : (⟨S1x20, .f32⟩ : BufTy).Contents (Elt F) :=
  Host.tanh (val_main_v33 (F := F) x0 x5 x6 x7 x8 x9 x10)
def val_main_v35 : (⟨S1x20, .f32⟩ : BufTy).Contents (Elt F) :=
  extractStridedSlice S1x20 ![0, 0] (val_main_v18 (F := F) x0 x5 x6 x7 x8 x9 x10) slices_S1x26_S1x20_0_0
def val_main_v36 : (⟨S20, .f32⟩ : BufTy).Contents (Elt F) :=
  shapeCast _ (val_main_v35 (F := F) x0 x5 x6 x7 x8 x9 x10) shapeCasts_S1x20_S20
def val_main_v37 : (⟨S20, .f32⟩ : BufTy).Contents (Elt F) :=
  Host.tanh (val_main_v36 (F := F) x0 x5 x6 x7 x8 x9 x10)
def val_main_v38 : (⟨S1x20, .f32⟩ : BufTy).Contents (Elt F) :=
  broadcastInDim S1x20 ![1] bcast_S20_S1x20_1 (val_main_v37 (F := F) x0 x5 x6 x7 x8 x9 x10)
def val_main_v39 : (⟨S1x1, .f32⟩ : BufTy).Contents (Elt F) :=
  extractStridedSlice S1x1 ![0, 20] (val_main_v18 (F := F) x0 x5 x6 x7 x8 x9 x10) slices_S1x26_S1x1_0_20
def val_main_v40 : (⟨S_, .f32⟩ : BufTy).Contents (Elt F) :=
  shapeCast _ (val_main_v39 (F := F) x0 x5 x6 x7 x8 x9 x10) shapeCasts_S1x1_S_
def val_main_v41 : (⟨S_, .f32⟩ : BufTy).Contents (Elt F) :=
  Host.negf (val_main_v40 (F := F) x0 x5 x6 x7 x8 x9 x10)
def val_main_v42 : (⟨S_, .f32⟩ : BufTy).Contents (Elt F) :=
  Host.exp (val_main_v41 (F := F) x0 x5 x6 x7 x8 x9 x10)
def val_main_cst_1 : (⟨S_, .f32⟩ : BufTy).Contents (Elt F) :=
  constant S_ .f32 0x3F800000#32
def val_main_v43 : (⟨S_, .f32⟩ : BufTy).Contents (Elt F) :=
  addf (val_main_cst_1 (F := F)) (val_main_v42 (F := F) x0 x5 x6 x7 x8 x9 x10)
def val_main_cst_2 : (⟨S_, .f32⟩ : BufTy).Contents (Elt F) :=
  constant S_ .f32 0x3F800000#32
def val_main_v44 : (⟨S_, .f32⟩ : BufTy).Contents (Elt F) :=
  Host.divf (val_main_cst_2 (F := F)) (val_main_v43 (F := F) x0 x5 x6 x7 x8 x9 x10)
def val_main_v45 : (⟨S1x3, .f32⟩ : BufTy).Contents (Elt F) :=
  extractStridedSlice S1x3 ![0, 21] (val_main_v18 (F := F) x0 x5 x6 x7 x8 x9 x10) slices_S1x26_S1x3_0_21
def val_main_v46 : (⟨S3, .f32⟩ : BufTy).Contents (Elt F) :=
  shapeCast _ (val_main_v45 (F := F) x0 x5 x6 x7 x8 x9 x10) shapeCasts_S1x3_S3
def val_main_cst_3 : (⟨S_, .f32⟩ : BufTy).Contents (Elt F) :=
  constant S_ .f32 0xFF800000#32
def val_main_v47 : (⟨S_, .f32⟩ : BufTy).Contents (Elt F) :=
  Host.reduce FloatOps.maximumf (val_main_v46 (F := F) x0 x5 x6 x7 x8 x9 x10) (val_main_cst_3 (F := F)) reducesTo_S3_S_d0 h_S_
def val_main_cst_4 : (⟨S_, .f32⟩ : BufTy).Contents (Elt F) :=
  constant S_ .f32 0xFF800000#32
def val_main_v48 : (⟨S_, .f32⟩ : BufTy).Contents (Elt F) :=
  maximumf (val_main_cst_4 (F := F)) (val_main_v47 (F := F) x0 x5 x6 x7 x8 x9 x10)
def val_main_v49 : (⟨S1, .f32⟩ : BufTy).Contents (Elt F) :=
  broadcastInDim S1 ![] bcast_S_S1 (val_main_v48 (F := F) x0 x5 x6 x7 x8 x9 x10)
def val_main_v50 : (⟨S3, .f32⟩ : BufTy).Contents (Elt F) :=
  broadcastInDim S3 ![0] bcast_S1_S3_0 (val_main_v49 (F := F) x0 x5 x6 x7 x8 x9 x10)
def val_main_v51 : (⟨S3, .f32⟩ : BufTy).Contents (Elt F) :=
  subf (val_main_v46 (F := F) x0 x5 x6 x7 x8 x9 x10) (val_main_v50 (F := F) x0 x5 x6 x7 x8 x9 x10)
def val_main_v52 : (⟨S3, .f32⟩ : BufTy).Contents (Elt F) :=
  Host.exp (val_main_v51 (F := F) x0 x5 x6 x7 x8 x9 x10)
def val_main_cst_5 : (⟨S_, .f32⟩ : BufTy).Contents (Elt F) :=
  constant S_ .f32 0x00000000#32
def val_main_v53 : (⟨S_, .f32⟩ : BufTy).Contents (Elt F) :=
  Host.reduceAdd (val_main_v52 (F := F) x0 x5 x6 x7 x8 x9 x10) (val_main_cst_5 (F := F)) reducesTo_S3_S_d0 h_S_
def val_main_v54 : (⟨S1, .f32⟩ : BufTy).Contents (Elt F) :=
  broadcastInDim S1 ![] bcast_S_S1 (val_main_v53 (F := F) x0 x5 x6 x7 x8 x9 x10)
def val_main_v55 : (⟨S3, .f32⟩ : BufTy).Contents (Elt F) :=
  broadcastInDim S3 ![0] bcast_S1_S3_0 (val_main_v54 (F := F) x0 x5 x6 x7 x8 x9 x10)
def val_main_v56 : (⟨S3, .f32⟩ : BufTy).Contents (Elt F) :=
  Host.divf (val_main_v52 (F := F) x0 x5 x6 x7 x8 x9 x10) (val_main_v55 (F := F) x0 x5 x6 x7 x8 x9 x10)
def val_main_v57 : (⟨S1x1, .f32⟩ : BufTy).Contents (Elt F) :=
  extractStridedSlice S1x1 ![0, 24] (val_main_v18 (F := F) x0 x5 x6 x7 x8 x9 x10) slices_S1x26_S1x1_0_24
def val_main_v58 : (⟨S_, .f32⟩ : BufTy).Contents (Elt F) :=
  shapeCast _ (val_main_v57 (F := F) x0 x5 x6 x7 x8 x9 x10) shapeCasts_S1x1_S_
def val_main_call0_cst : (⟨S_, .f32⟩ : BufTy).Contents (Elt F) :=
  constant S_ .f32 0x00000000#32
def val_main_call0_v0 : (⟨S_, .f32⟩ : BufTy).Contents (Elt F) :=
  maximumf (val_main_v58 (F := F) x0 x5 x6 x7 x8 x9 x10) (val_main_call0_cst (F := F))
def val_main_call0_v1 : (⟨S_, .f32⟩ : BufTy).Contents (Elt F) :=
  subf (val_main_v58 (F := F) x0 x5 x6 x7 x8 x9 x10) (val_main_call0_cst (F := F))
def val_main_call0_v2 : (⟨S_, .i1⟩ : BufTy).Contents (Elt F) :=
  cmpf .une (val_main_call0_v1 (F := F) x0 x5 x6 x7 x8 x9 x10) (val_main_call0_v1 (F := F) x0 x5 x6 x7 x8 x9 x10)
def val_main_call0_v3 : (⟨S_, .f32⟩ : BufTy).Contents (Elt F) :=
  addf (val_main_v58 (F := F) x0 x5 x6 x7 x8 x9 x10) (val_main_call0_cst (F := F))
def val_main_call0_v4 : (⟨S_, .f32⟩ : BufTy).Contents (Elt F) :=
  Host.absf (val_main_call0_v1 (F := F) x0 x5 x6 x7 x8 x9 x10)
def val_main_call0_v5 : (⟨S_, .f32⟩ : BufTy).Contents (Elt F) :=
  Host.negf (val_main_call0_v4 (F := F) x0 x5 x6 x7 x8 x9 x10)
def val_main_call0_v6 : (⟨S_, .f32⟩ : BufTy).Contents (Elt F) :=
  Host.exp (val_main_call0_v5 (F := F) x0 x5 x6 x7 x8 x9 x10)
def val_main_call0_v7 : (⟨S_, .f32⟩ : BufTy).Contents (Elt F) :=
  Host.log1p (val_main_call0_v6 (F := F) x0 x5 x6 x7 x8 x9 x10)
def val_main_call0_v8 : (⟨S_, .f32⟩ : BufTy).Contents (Elt F) :=
  addf (val_main_call0_v0 (F := F) x0 x5 x6 x7 x8 x9 x10) (val_main_call0_v7 (F := F) x0 x5 x6 x7 x8 x9 x10)
def val_main_v59 : (⟨S_, .f32⟩ : BufTy).Contents (Elt F) :=
  select (val_main_call0_v2 (F := F) x0 x5 x6 x7 x8 x9 x10) (val_main_call0_v3 (F := F) x0 x5 x6 x7 x8 x9 x10) (val_main_call0_v8 (F := F) x0 x5 x6 x7 x8 x9 x10)
def val_main_cst_6 : (⟨S_, .f32⟩ : BufTy).Contents (Elt F) :=
  constant S_ .f32 0x3F800000#32
def val_main_v60 : (⟨S_, .f32⟩ : BufTy).Contents (Elt F) :=
  addf (val_main_cst_6 (F := F)) (val_main_v59 (F := F) x0 x5 x6 x7 x8 x9 x10)
def val_main_v61 : (⟨S1x1, .f32⟩ : BufTy).Contents (Elt F) :=
  extractStridedSlice S1x1 ![0, 25] (val_main_v18 (F := F) x0 x5 x6 x7 x8 x9 x10) slices_S1x26_S1x1_0_25
def val_main_v62 : (⟨S_, .f32⟩ : BufTy).Contents (Elt F) :=
  shapeCast _ (val_main_v61 (F := F) x0 x5 x6 x7 x8 x9 x10) shapeCasts_S1x1_S_
def val_main_call1_cst : (⟨S_, .f32⟩ : BufTy).Contents (Elt F) :=
  constant S_ .f32 0x00000000#32
def val_main_call1_v0 : (⟨S_, .f32⟩ : BufTy).Contents (Elt F) :=
  maximumf (val_main_v62 (F := F) x0 x5 x6 x7 x8 x9 x10) (val_main_call1_cst (F := F))
def val_main_call1_v1 : (⟨S_, .f32⟩ : BufTy).Contents (Elt F) :=
  subf (val_main_v62 (F := F) x0 x5 x6 x7 x8 x9 x10) (val_main_call1_cst (F := F))
def val_main_call1_v2 : (⟨S_, .i1⟩ : BufTy).Contents (Elt F) :=
  cmpf .une (val_main_call1_v1 (F := F) x0 x5 x6 x7 x8 x9 x10) (val_main_call1_v1 (F := F) x0 x5 x6 x7 x8 x9 x10)
def val_main_call1_v3 : (⟨S_, .f32⟩ : BufTy).Contents (Elt F) :=
  addf (val_main_v62 (F := F) x0 x5 x6 x7 x8 x9 x10) (val_main_call1_cst (F := F))
def val_main_call1_v4 : (⟨S_, .f32⟩ : BufTy).Contents (Elt F) :=
  Host.absf (val_main_call1_v1 (F := F) x0 x5 x6 x7 x8 x9 x10)
def val_main_call1_v5 : (⟨S_, .f32⟩ : BufTy).Contents (Elt F) :=
  Host.negf (val_main_call1_v4 (F := F) x0 x5 x6 x7 x8 x9 x10)
def val_main_call1_v6 : (⟨S_, .f32⟩ : BufTy).Contents (Elt F) :=
  Host.exp (val_main_call1_v5 (F := F) x0 x5 x6 x7 x8 x9 x10)
def val_main_call1_v7 : (⟨S_, .f32⟩ : BufTy).Contents (Elt F) :=
  Host.log1p (val_main_call1_v6 (F := F) x0 x5 x6 x7 x8 x9 x10)
def val_main_call1_v8 : (⟨S_, .f32⟩ : BufTy).Contents (Elt F) :=
  addf (val_main_call1_v0 (F := F) x0 x5 x6 x7 x8 x9 x10) (val_main_call1_v7 (F := F) x0 x5 x6 x7 x8 x9 x10)
def val_main_v63 : (⟨S_, .f32⟩ : BufTy).Contents (Elt F) :=
  select (val_main_call1_v2 (F := F) x0 x5 x6 x7 x8 x9 x10) (val_main_call1_v3 (F := F) x0 x5 x6 x7 x8 x9 x10) (val_main_call1_v8 (F := F) x0 x5 x6 x7 x8 x9 x10)
def val_main_cst_7 : (⟨S_, .f32⟩ : BufTy).Contents (Elt F) :=
  constant S_ .f32 0x24E69595#32
def val_main_v64 : (⟨S1000000x20, .f32⟩ : BufTy).Contents (Elt F) :=
  broadcastInDim S1000000x20 ![] bcast_S_S1000000x20 (val_main_cst_7 (F := F))
def val_main_v65 : (⟨S1000000x20, .f32⟩ : BufTy).Contents (Elt F) :=
  addf (x3) (val_main_v64 (F := F))
def val_main_cst_8 : (⟨S_, .f32⟩ : BufTy).Contents (Elt F) :=
  constant S_ .f32 0x24E69595#32
def val_main_v66 : (⟨S1x20, .f32⟩ : BufTy).Contents (Elt F) :=
  broadcastInDim S1x20 ![] bcast_S_S1x20 (val_main_cst_8 (F := F))
def val_main_v67 : (⟨S1x20, .f32⟩ : BufTy).Contents (Elt F) :=
  addf (val_main_v38 (F := F) x0 x5 x6 x7 x8 x9 x10) (val_main_v66 (F := F))
def val_main_v68 : (⟨S20x1, .f32⟩ : BufTy).Contents (Elt F) :=
  transpose S20x1 [1, 0] (val_main_v67 (F := F) x0 x5 x6 x7 x8 x9 x10) transposes_S1x20_S20x1_1_0
def val_main_v69 : (⟨S1000000x1, .f32⟩ : BufTy).Contents (Elt F) :=
  Host.dotGeneral dot_S1000000x20_S20x1_S1000000x1_1_0_0_1_n_n none (val_main_v65 (F := F) x3) (val_main_v68 (F := F) x0 x5 x6 x7 x8 x9 x10)
def val_main_v70 : (⟨S1000000, .f32⟩ : BufTy).Contents (Elt F) :=
  shapeCast _ (val_main_v69 (F := F) x0 x3 x5 x6 x7 x8 x9 x10) shapeCasts_S1000000x1_S1000000
def val_main_call2_v0 : (⟨S1000000x20, .f32⟩ : BufTy).Contents (Elt F) :=
  mulf (val_main_v65 (F := F) x3) (val_main_v65 (F := F) x3)
def val_main_call2_cst : (⟨S_, .f32⟩ : BufTy).Contents (Elt F) :=
  constant S_ .f32 0x00000000#32
def val_main_call2_v1 : (⟨S1000000, .f32⟩ : BufTy).Contents (Elt F) :=
  Host.reduceAdd (val_main_call2_v0 (F := F) x3) (val_main_call2_cst (F := F)) reducesTo_S1000000x20_S1000000_d1 h_S_
def val_main_v71 : (⟨S1000000, .f32⟩ : BufTy).Contents (Elt F) :=
  Host.sqrt (val_main_call2_v1 (F := F) x3)
def val_main_cst_9 : (⟨S_, .f32⟩ : BufTy).Contents (Elt F) :=
  constant S_ .f32 0x322BCC77#32
def val_main_v72 : (⟨S1000000, .f32⟩ : BufTy).Contents (Elt F) :=
  broadcastInDim S1000000 ![] bcast_S_S1000000 (val_main_cst_9 (F := F))
def val_main_v73 : (⟨S1000000, .f32⟩ : BufTy).Contents (Elt F) :=
  maximumf (val_main_v71 (F := F) x3) (val_main_v72 (F := F))
def val_main_call3_v0 : (⟨S1x20, .f32⟩ : BufTy).Contents (Elt F) :=
  mulf (val_main_v67 (F := F) x0 x5 x6 x7 x8 x9 x10) (val_main_v67 (F := F) x0 x5 x6 x7 x8 x9 x10)
def val_main_call3_cst : (⟨S_, .f32⟩ : BufTy).Contents (Elt F) :=
  constant S_ .f32 0x00000000#32
def val_main_call3_v1 : (⟨S1, .f32⟩ : BufTy).Contents (Elt F) :=
  Host.reduceAdd (val_main_call3_v0 (F := F) x0 x5 x6 x7 x8 x9 x10) (val_main_call3_cst (F := F)) reducesTo_S1x20_S1_d1 h_S_
def val_main_v74 : (⟨S1, .f32⟩ : BufTy).Contents (Elt F) :=
  Host.sqrt (val_main_call3_v1 (F := F) x0 x5 x6 x7 x8 x9 x10)
def val_main_cst_10 : (⟨S_, .f32⟩ : BufTy).Contents (Elt F) :=
  constant S_ .f32 0x322BCC77#32
def val_main_v75 : (⟨S1, .f32⟩ : BufTy).Contents (Elt F) :=
  broadcastInDim S1 ![] bcast_S_S1 (val_main_cst_10 (F := F))
def val_main_v76 : (⟨S1, .f32⟩ : BufTy).Contents (Elt F) :=
  maximumf (val_main_v74 (F := F) x0 x5 x6 x7 x8 x9 x10) (val_main_v75 (F := F))
def val_main_v77 : (⟨S1000000, .f32⟩ : BufTy).Contents (Elt F) :=
  broadcastInDim S1000000 ![0] bcast_S1_S1000000_0 (val_main_v76 (F := F) x0 x5 x6 x7 x8 x9 x10)
def val_main_v78 : (⟨S1000000, .f32⟩ : BufTy).Contents (Elt F) :=
  mulf (val_main_v73 (F := F) x3) (val_main_v77 (F := F) x0 x5 x6 x7 x8 x9 x10)
def val_main_v79 : (⟨S1000000, .f32⟩ : BufTy).Contents (Elt F) :=
  Host.divf (val_main_v70 (F := F) x0 x3 x5 x6 x7 x8 x9 x10) (val_main_v78 (F := F) x0 x3 x5 x6 x7 x8 x9 x10)
def val_main_v80 : (⟨S1000000, .f32⟩ : BufTy).Contents (Elt F) :=
  broadcastInDim S1000000 ![] bcast_S_S1000000 (val_main_v63 (F := F) x0 x5 x6 x7 x8 x9 x10)
def val_main_v81 : (⟨S1000000, .f32⟩ : BufTy).Contents (Elt F) :=
  mulf (val_main_v79 (F := F) x0 x3 x5 x6 x7 x8 x9 x10) (val_main_v80 (F := F) x0 x5 x6 x7 x8 x9 x10)
def val_main_cst_11 : (⟨S_, .f32⟩ : BufTy).Contents (Elt F) :=
  constant S_ .f32 0xFF800000#32
def val_main_v82 : (⟨S_, .f32⟩ : BufTy).Contents (Elt F) :=
  Host.reduce FloatOps.maximumf (val_main_v81 (F := F) x0 x3 x5 x6 x7 x8 x9 x10) (val_main_cst_11 (F := F)) reducesTo_S1000000_S_d0 h_S_
def val_main_cst_12 : (⟨S_, .f32⟩ : BufTy).Contents (Elt F) :=
  constant S_ .f32 0xFF800000#32
def val_main_v83 : (⟨S_, .f32⟩ : BufTy).Contents (Elt F) :=
  maximumf (val_main_cst_12 (F := F)) (val_main_v82 (F := F) x0 x3 x5 x6 x7 x8 x9 x10)
def val_main_v84 : (⟨S1, .f32⟩ : BufTy).Contents (Elt F) :=
  broadcastInDim S1 ![] bcast_S_S1 (val_main_v83 (F := F) x0 x3 x5 x6 x7 x8 x9 x10)
def val_main_v85 : (⟨S1000000, .f32⟩ : BufTy).Contents (Elt F) :=
  broadcastInDim S1000000 ![0] bcast_S1_S1000000_0 (val_main_v84 (F := F) x0 x3 x5 x6 x7 x8 x9 x10)
def val_main_v86 : (⟨S1000000, .f32⟩ : BufTy).Contents (Elt F) :=
  subf (val_main_v81 (F := F) x0 x3 x5 x6 x7 x8 x9 x10) (val_main_v85 (F := F) x0 x3 x5 x6 x7 x8 x9 x10)
def val_main_v87 : (⟨S1000000, .f32⟩ : BufTy).Contents (Elt F) :=
  Host.exp (val_main_v86 (F := F) x0 x3 x5 x6 x7 x8 x9 x10)
def val_main_cst_13 : (⟨S_, .f32⟩ : BufTy).Contents (Elt F) :=
  constant S_ .f32 0x00000000#32
def val_main_v88 : (⟨S_, .f32⟩ : BufTy).Contents (Elt F) :=
  Host.reduceAdd (val_main_v87 (F := F) x0 x3 x5 x6 x7 x8 x9 x10) (val_main_cst_13 (F := F)) reducesTo_S1000000_S_d0 h_S_
def val_main_v89 : (⟨S1, .f32⟩ : BufTy).Contents (Elt F) :=
  broadcastInDim S1 ![] bcast_S_S1 (val_main_v88 (F := F) x0 x3 x5 x6 x7 x8 x9 x10)
def val_main_v90 : (⟨S1000000, .f32⟩ : BufTy).Contents (Elt F) :=
  broadcastInDim S1000000 ![0] bcast_S1_S1000000_0 (val_main_v89 (F := F) x0 x3 x5 x6 x7 x8 x9 x10)
def val_main_v91 : (⟨S1000000, .f32⟩ : BufTy).Contents (Elt F) :=
  Host.divf (val_main_v87 (F := F) x0 x3 x5 x6 x7 x8 x9 x10) (val_main_v90 (F := F) x0 x3 x5 x6 x7 x8 x9 x10)
def val_main_v92 : (⟨S1000000, .f32⟩ : BufTy).Contents (Elt F) :=
  broadcastInDim S1000000 ![] bcast_S_S1000000 (val_main_v44 (F := F) x0 x5 x6 x7 x8 x9 x10)
def val_main_v93 : (⟨S1000000, .f32⟩ : BufTy).Contents (Elt F) :=
  mulf (val_main_v92 (F := F) x0 x5 x6 x7 x8 x9 x10) (val_main_v91 (F := F) x0 x3 x5 x6 x7 x8 x9 x10)
def val_main_cst_14 : (⟨S_, .f32⟩ : BufTy).Contents (Elt F) :=
  constant S_ .f32 0x3F800000#32
def val_main_v94 : (⟨S_, .f32⟩ : BufTy).Contents (Elt F) :=
  subf (val_main_cst_14 (F := F)) (val_main_v44 (F := F) x0 x5 x6 x7 x8 x9 x10)
def val_main_v95 : (⟨S1x1000000, .f32⟩ : BufTy).Contents (Elt F) :=
  broadcastInDim S1x1000000 ![] bcast_S_S1x1000000 (val_main_v94 (F := F) x0 x5 x6 x7 x8 x9 x10)
def val_main_v96 : (⟨S1x1000000, .f32⟩ : BufTy).Contents (Elt F) :=
  mulf (val_main_v95 (F := F) x0 x5 x6 x7 x8 x9 x10) (x1)
def val_main_v97 : (⟨S1x1000000, .f32⟩ : BufTy).Contents (Elt F) :=
  broadcastInDim S1x1000000 ![1] bcast_S1000000_S1x1000000_1 (val_main_v93 (F := F) x0 x3 x5 x6 x7 x8 x9 x10)
def val_main_v98 : (⟨S1x1000000, .f32⟩ : BufTy).Contents (Elt F) :=
  addf (val_main_v97 (F := F) x0 x3 x5 x6 x7 x8 x9 x10) (val_main_v96 (F := F) x0 x1 x5 x6 x7 x8 x9 x10)
def val_main_v99 : (⟨S1x1, .f32⟩ : BufTy).Contents (Elt F) :=
  extractStridedSlice S1x1 ![0, 999999] (val_main_v98 (F := F) x0 x1 x3 x5 x6 x7 x8 x9 x10) slices_S1x1000000_S1x1_0_999999
def val_main_v100 : (⟨S1x1, .f32⟩ : BufTy).Contents (Elt F) :=
  extractStridedSlice S1x1 ![0, 0] (val_main_v98 (F := F) x0 x1 x3 x5 x6 x7 x8 x9 x10) slices_S1x1000000_S1x1_0_0
def val_main_v101 : (⟨S1x1000002, .f32⟩ : BufTy).Contents (Elt F) :=
  concatenate S1x1000002 1 [⟨S1x1, (val_main_v99 (F := F) x0 x1 x3 x5 x6 x7 x8 x9 x10)⟩, ⟨S1x1000000, (val_main_v98 (F := F) x0 x1 x3 x5 x6 x7 x8 x9 x10)⟩, ⟨S1x1, (val_main_v100 (F := F) x0 x1 x3 x5 x6 x7 x8 x9 x10)⟩] concatenates_S1x1_S1x1000000_S1x1_S1x1000002_d1
def val_main_v102 : (⟨S1, .f32⟩ : BufTy).Contents (Elt F) :=
  extractStridedSlice S1 ![0] (val_main_v56 (F := F) x0 x5 x6 x7 x8 x9 x10) slices_S3_S1_0
def val_main_v103 : (⟨S_, .f32⟩ : BufTy).Contents (Elt F) :=
  shapeCast _ (val_main_v102 (F := F) x0 x5 x6 x7 x8 x9 x10) shapeCasts_S1_S_
def val_main_v104 : (⟨S1x1000000, .f32⟩ : BufTy).Contents (Elt F) :=
  extractStridedSlice S1x1000000 ![0, 0] (val_main_v101 (F := F) x0 x1 x3 x5 x6 x7 x8 x9 x10) slices_S1x1000002_S1x1000000_0_0
def val_main_v105 : (⟨S1x1000000, .f32⟩ : BufTy).Contents (Elt F) :=
  broadcastInDim S1x1000000 ![] bcast_S_S1x1000000 (val_main_v103 (F := F) x0 x5 x6 x7 x8 x9 x10)
def val_main_v106 : (⟨S1x1000000, .f32⟩ : BufTy).Contents (Elt F) :=
  mulf (val_main_v105 (F := F) x0 x5 x6 x7 x8 x9 x10) (val_main_v104 (F := F) x0 x1 x3 x5 x6 x7 x8 x9 x10)
def val_main_v107 : (⟨S1, .f32⟩ : BufTy).Contents (Elt F) :=
  extractStridedSlice S1 ![1] (val_main_v56 (F := F) x0 x5 x6 x7 x8 x9 x10) slices_S3_S1_1
def val_main_v108 : (⟨S_, .f32⟩ : BufTy).Contents (Elt F) :=
  shapeCast _ (val_main_v107 (F := F) x0 x5 x6 x7 x8 x9 x10) shapeCasts_S1_S_
def val_main_v109 : (⟨S1x1000000, .f32⟩ : BufTy).Contents (Elt F) :=
  extractStridedSlice S1x1000000 ![0, 1] (val_main_v101 (F := F) x0 x1 x3 x5 x6 x7 x8 x9 x10) slices_S1x1000002_S1x1000000_0_1
def val_main_v110 : (⟨S1x1000000, .f32⟩ : BufTy).Contents (Elt F) :=
  broadcastInDim S1x1000000 ![] bcast_S_S1x1000000 (val_main_v108 (F := F) x0 x5 x6 x7 x8 x9 x10)
def val_main_v111 : (⟨S1x1000000, .f32⟩ : BufTy).Contents (Elt F) :=
  mulf (val_main_v110 (F := F) x0 x5 x6 x7 x8 x9 x10) (val_main_v109 (F := F) x0 x1 x3 x5 x6 x7 x8 x9 x10)
def val_main_v112 : (⟨S1x1000000, .f32⟩ : BufTy).Contents (Elt F) :=
  addf (val_main_v106 (F := F) x0 x1 x3 x5 x6 x7 x8 x9 x10) (val_main_v111 (F := F) x0 x1 x3 x5 x6 x7 x8 x9 x10)
def val_main_v113 : (⟨S1, .f32⟩ : BufTy).Contents (Elt F) :=
  extractStridedSlice S1 ![2] (val_main_v56 (F := F) x0 x5 x6 x7 x8 x9 x10) slices_S3_S1_2
def val_main_v114 : (⟨S_, .f32⟩ : BufTy).Contents (Elt F) :=
  shapeCast _ (val_main_v113 (F := F) x0 x5 x6 x7 x8 x9 x10) shapeCasts_S1_S_
def val_main_v115 : (⟨S1x1000000, .f32⟩ : BufTy).Contents (Elt F) :=
  extractStridedSlice S1x1000000 ![0, 2] (val_main_v101 (F := F) x0 x1 x3 x5 x6 x7 x8 x9 x10) slices_S1x1000002_S1x1000000_0_2
def val_main_v116 : (⟨S1x1000000, .f32⟩ : BufTy).Contents (Elt F) :=
  broadcastInDim S1x1000000 ![] bcast_S_S1x1000000 (val_main_v114 (F := F) x0 x5 x6 x7 x8 x9 x10)
def val_main_v117 : (⟨S1x1000000, .f32⟩ : BufTy).Contents (Elt F) :=
  mulf (val_main_v116 (F := F) x0 x5 x6 x7 x8 x9 x10) (val_main_v115 (F := F) x0 x1 x3 x5 x6 x7 x8 x9 x10)
def val_main_v118 : (⟨S1x1000000, .f32⟩ : BufTy).Contents (Elt F) :=
  addf (val_main_v112 (F := F) x0 x1 x3 x5 x6 x7 x8 x9 x10) (val_main_v117 (F := F) x0 x1 x3 x5 x6 x7 x8 x9 x10)
def val_main_v119 : (⟨S1x1000000, .f32⟩ : BufTy).Contents (Elt F) :=
  broadcastInDim S1x1000000 ![] bcast_S_S1x1000000 (val_main_v60 (F := F) x0 x5 x6 x7 x8 x9 x10)
def val_main_v120 : (⟨S1x1000000, .f32⟩ : BufTy).Contents (Elt F) :=
  Host.powf (val_main_v118 (F := F) x0 x1 x3 x5 x6 x7 x8 x9 x10) (val_main_v119 (F := F) x0 x5 x6 x7 x8 x9 x10)
def val_main_cst_15 : (⟨S_, .f32⟩ : BufTy).Contents (Elt F) :=
  constant S_ .f32 0x00000000#32
def val_main_v121 : (⟨S1, .f32⟩ : BufTy).Contents (Elt F) :=
  Host.reduceAdd (val_main_v120 (F := F) x0 x1 x3 x5 x6 x7 x8 x9 x10) (val_main_cst_15 (F := F)) reducesTo_S1x1000000_S1_d1 h_S_
def val_main_v122 : (⟨S1x1, .f32⟩ : BufTy).Contents (Elt F) :=
  broadcastInDim S1x1 ![0] bcast_S1_S1x1_0 (val_main_v121 (F := F) x0 x1 x3 x5 x6 x7 x8 x9 x10)
def val_main_cst_16 : (⟨S_, .f32⟩ : BufTy).Contents (Elt F) :=
  constant S_ .f32 0x24E69595#32
def val_main_v123 : (⟨S1x1, .f32⟩ : BufTy).Contents (Elt F) :=
  broadcastInDim S1x1 ![] bcast_S_S1x1 (val_main_cst_16 (F := F))
def val_main_v124 : (⟨S1x1, .f32⟩ : BufTy).Contents (Elt F) :=
  addf (val_main_v122 (F := F) x0 x1 x3 x5 x6 x7 x8 x9 x10) (val_main_v123 (F := F))
def val_main_v125 : (⟨S1x1000000, .f32⟩ : BufTy).Contents (Elt F) :=
  broadcastInDim S1x1000000 ![0, 1] bcast_S1x1_S1x1000000_0_1 (val_main_v124 (F := F) x0 x1 x3 x5 x6 x7 x8 x9 x10)
def val_main_v126 : (⟨S1x1000000, .f32⟩ : BufTy).Contents (Elt F) :=
  Host.divf (val_main_v120 (F := F) x0 x1 x3 x5 x6 x7 x8 x9 x10) (val_main_v125 (F := F) x0 x1 x3 x5 x6 x7 x8 x9 x10)
def val_main_v127 : (⟨S1x20, .f32⟩ : BufTy).Contents (Elt F) :=
  extractStridedSlice S1x20 ![0, 0] (val_main_v21 (F := F) x0 x5 x6 x7 x8 x9 x10) slices_S1x26_S1x20_0_0
def val_main_v128 : (⟨S20, .f32⟩ : BufTy).Contents (Elt F) :=
  shapeCast _ (val_main_v127 (F := F) x0 x5 x6 x7 x8 x9 x10) shapeCasts_S1x20_S20
def val_main_v129 : (⟨S20, .f32⟩ : BufTy).Contents (Elt F) :=
  Host.tanh (val_main_v128 (F := F) x0 x5 x6 x7 x8 x9 x10)
def val_main_v130 : (⟨S1x20, .f32⟩ : BufTy).Contents (Elt F) :=
  broadcastInDim S1x20 ![1] bcast_S20_S1x20_1 (val_main_v129 (F := F) x0 x5 x6 x7 x8 x9 x10)
def val_main_v131 : (⟨S1x1, .f32⟩ : BufTy).Contents (Elt F) :=
  extractStridedSlice S1x1 ![0, 20] (val_main_v21 (F := F) x0 x5 x6 x7 x8 x9 x10) slices_S1x26_S1x1_0_20
def val_main_v132 : (⟨S_, .f32⟩ : BufTy).Contents (Elt F) :=
  shapeCast _ (val_main_v131 (F := F) x0 x5 x6 x7 x8 x9 x10) shapeCasts_S1x1_S_
def val_main_v133 : (⟨S_, .f32⟩ : BufTy).Contents (Elt F) :=
  Host.negf (val_main_v132 (F := F) x0 x5 x6 x7 x8 x9 x10)
def val_main_v134 : (⟨S_, .f32⟩ : BufTy).Contents (Elt F) :=
  Host.exp (val_main_v133 (F := F) x0 x5 x6 x7 x8 x9 x10)
def val_main_cst_17 : (⟨S_, .f32⟩ : BufTy).Contents (Elt F) :=
  constant S_ .f32 0x3F800000#32
def val_main_v135 : (⟨S_, .f32⟩ : BufTy).Contents (Elt F) :=
  addf (val_main_cst_17 (F := F)) (val_main_v134 (F := F) x0 x5 x6 x7 x8 x9 x10)
def val_main_cst_18 : (⟨S_, .f32⟩ : BufTy).Contents (Elt F) :=
  constant S_ .f32 0x3F800000#32
def val_main_v136 : (⟨S_, .f32⟩ : BufTy).Contents (Elt F) :=
  Host.divf (val_main_cst_18 (F := F)) (val_main_v135 (F := F) x0 x5 x6 x7 x8 x9 x10)
def val_main_v137 : (⟨S1x3, .f32⟩ : BufTy).Contents (Elt F) :=
  extractStridedSlice S1x3 ![0, 21] (val_main_v21 (F := F) x0 x5 x6 x7 x8 x9 x10) slices_S1x26_S1x3_0_21
def val_main_v138 : (⟨S3, .f32⟩ : BufTy).Contents (Elt F) :=
  shapeCast _ (val_main_v137 (F := F) x0 x5 x6 x7 x8 x9 x10) shapeCasts_S1x3_S3
def val_main_cst_19 : (⟨S_, .f32⟩ : BufTy).Contents (Elt F) :=
  constant S_ .f32 0xFF800000#32
def val_main_v139 : (⟨S_, .f32⟩ : BufTy).Contents (Elt F) :=
  Host.reduce FloatOps.maximumf (val_main_v138 (F := F) x0 x5 x6 x7 x8 x9 x10) (val_main_cst_19 (F := F)) reducesTo_S3_S_d0 h_S_
def val_main_cst_20 : (⟨S_, .f32⟩ : BufTy).Contents (Elt F) :=
  constant S_ .f32 0xFF800000#32
def val_main_v140 : (⟨S_, .f32⟩ : BufTy).Contents (Elt F) :=
  maximumf (val_main_cst_20 (F := F)) (val_main_v139 (F := F) x0 x5 x6 x7 x8 x9 x10)
def val_main_v141 : (⟨S1, .f32⟩ : BufTy).Contents (Elt F) :=
  broadcastInDim S1 ![] bcast_S_S1 (val_main_v140 (F := F) x0 x5 x6 x7 x8 x9 x10)
def val_main_v142 : (⟨S3, .f32⟩ : BufTy).Contents (Elt F) :=
  broadcastInDim S3 ![0] bcast_S1_S3_0 (val_main_v141 (F := F) x0 x5 x6 x7 x8 x9 x10)
def val_main_v143 : (⟨S3, .f32⟩ : BufTy).Contents (Elt F) :=
  subf (val_main_v138 (F := F) x0 x5 x6 x7 x8 x9 x10) (val_main_v142 (F := F) x0 x5 x6 x7 x8 x9 x10)
def val_main_v144 : (⟨S3, .f32⟩ : BufTy).Contents (Elt F) :=
  Host.exp (val_main_v143 (F := F) x0 x5 x6 x7 x8 x9 x10)
def val_main_cst_21 : (⟨S_, .f32⟩ : BufTy).Contents (Elt F) :=
  constant S_ .f32 0x00000000#32
def val_main_v145 : (⟨S_, .f32⟩ : BufTy).Contents (Elt F) :=
  Host.reduceAdd (val_main_v144 (F := F) x0 x5 x6 x7 x8 x9 x10) (val_main_cst_21 (F := F)) reducesTo_S3_S_d0 h_S_
def val_main_v146 : (⟨S1, .f32⟩ : BufTy).Contents (Elt F) :=
  broadcastInDim S1 ![] bcast_S_S1 (val_main_v145 (F := F) x0 x5 x6 x7 x8 x9 x10)
def val_main_v147 : (⟨S3, .f32⟩ : BufTy).Contents (Elt F) :=
  broadcastInDim S3 ![0] bcast_S1_S3_0 (val_main_v146 (F := F) x0 x5 x6 x7 x8 x9 x10)
def val_main_v148 : (⟨S3, .f32⟩ : BufTy).Contents (Elt F) :=
  Host.divf (val_main_v144 (F := F) x0 x5 x6 x7 x8 x9 x10) (val_main_v147 (F := F) x0 x5 x6 x7 x8 x9 x10)
def val_main_v149 : (⟨S1x1, .f32⟩ : BufTy).Contents (Elt F) :=
  extractStridedSlice S1x1 ![0, 24] (val_main_v21 (F := F) x0 x5 x6 x7 x8 x9 x10) slices_S1x26_S1x1_0_24
def val_main_v150 : (⟨S_, .f32⟩ : BufTy).Contents (Elt F) :=
  shapeCast _ (val_main_v149 (F := F) x0 x5 x6 x7 x8 x9 x10) shapeCasts_S1x1_S_
def val_main_call4_cst : (⟨S_, .f32⟩ : BufTy).Contents (Elt F) :=
  constant S_ .f32 0x00000000#32
def val_main_call4_v0 : (⟨S_, .f32⟩ : BufTy).Contents (Elt F) :=
  maximumf (val_main_v150 (F := F) x0 x5 x6 x7 x8 x9 x10) (val_main_call4_cst (F := F))
def val_main_call4_v1 : (⟨S_, .f32⟩ : BufTy).Contents (Elt F) :=
  subf (val_main_v150 (F := F) x0 x5 x6 x7 x8 x9 x10) (val_main_call4_cst (F := F))
def val_main_call4_v2 : (⟨S_, .i1⟩ : BufTy).Contents (Elt F) :=
  cmpf .une (val_main_call4_v1 (F := F) x0 x5 x6 x7 x8 x9 x10) (val_main_call4_v1 (F := F) x0 x5 x6 x7 x8 x9 x10)
def val_main_call4_v3 : (⟨S_, .f32⟩ : BufTy).Contents (Elt F) :=
  addf (val_main_v150 (F := F) x0 x5 x6 x7 x8 x9 x10) (val_main_call4_cst (F := F))
def val_main_call4_v4 : (⟨S_, .f32⟩ : BufTy).Contents (Elt F) :=
  Host.absf (val_main_call4_v1 (F := F) x0 x5 x6 x7 x8 x9 x10)
def val_main_call4_v5 : (⟨S_, .f32⟩ : BufTy).Contents (Elt F) :=
  Host.negf (val_main_call4_v4 (F := F) x0 x5 x6 x7 x8 x9 x10)
def val_main_call4_v6 : (⟨S_, .f32⟩ : BufTy).Contents (Elt F) :=
  Host.exp (val_main_call4_v5 (F := F) x0 x5 x6 x7 x8 x9 x10)
def val_main_call4_v7 : (⟨S_, .f32⟩ : BufTy).Contents (Elt F) :=
  Host.log1p (val_main_call4_v6 (F := F) x0 x5 x6 x7 x8 x9 x10)
def val_main_call4_v8 : (⟨S_, .f32⟩ : BufTy).Contents (Elt F) :=
  addf (val_main_call4_v0 (F := F) x0 x5 x6 x7 x8 x9 x10) (val_main_call4_v7 (F := F) x0 x5 x6 x7 x8 x9 x10)
def val_main_v151 : (⟨S_, .f32⟩ : BufTy).Contents (Elt F) :=
  select (val_main_call4_v2 (F := F) x0 x5 x6 x7 x8 x9 x10) (val_main_call4_v3 (F := F) x0 x5 x6 x7 x8 x9 x10) (val_main_call4_v8 (F := F) x0 x5 x6 x7 x8 x9 x10)
def val_main_cst_22 : (⟨S_, .f32⟩ : BufTy).Contents (Elt F) :=
  constant S_ .f32 0x3F800000#32
def val_main_v152 : (⟨S_, .f32⟩ : BufTy).Contents (Elt F) :=
  addf (val_main_cst_22 (F := F)) (val_main_v151 (F := F) x0 x5 x6 x7 x8 x9 x10)
def val_main_v153 : (⟨S1x1, .f32⟩ : BufTy).Contents (Elt F) :=
  extractStridedSlice S1x1 ![0, 25] (val_main_v21 (F := F) x0 x5 x6 x7 x8 x9 x10) slices_S1x26_S1x1_0_25
def val_main_v154 : (⟨S_, .f32⟩ : BufTy).Contents (Elt F) :=
  shapeCast _ (val_main_v153 (F := F) x0 x5 x6 x7 x8 x9 x10) shapeCasts_S1x1_S_
def val_main_call5_cst : (⟨S_, .f32⟩ : BufTy).Contents (Elt F) :=
  constant S_ .f32 0x00000000#32
def val_main_call5_v0 : (⟨S_, .f32⟩ : BufTy).Contents (Elt F) :=
  maximumf (val_main_v154 (F := F) x0 x5 x6 x7 x8 x9 x10) (val_main_call5_cst (F := F))
def val_main_call5_v1 : (⟨S_, .f32⟩ : BufTy).Contents (Elt F) :=
  subf (val_main_v154 (F := F) x0 x5 x6 x7 x8 x9 x10) (val_main_call5_cst (F := F))
def val_main_call5_v2 : (⟨S_, .i1⟩ : BufTy).Contents (Elt F) :=
  cmpf .une (val_main_call5_v1 (F := F) x0 x5 x6 x7 x8 x9 x10) (val_main_call5_v1 (F := F) x0 x5 x6 x7 x8 x9 x10)
def val_main_call5_v3 : (⟨S_, .f32⟩ : BufTy).Contents (Elt F) :=
  addf (val_main_v154 (F := F) x0 x5 x6 x7 x8 x9 x10) (val_main_call5_cst (F := F))
def val_main_call5_v4 : (⟨S_, .f32⟩ : BufTy).Contents (Elt F) :=
  Host.absf (val_main_call5_v1 (F := F) x0 x5 x6 x7 x8 x9 x10)
def val_main_call5_v5 : (⟨S_, .f32⟩ : BufTy).Contents (Elt F) :=
  Host.negf (val_main_call5_v4 (F := F) x0 x5 x6 x7 x8 x9 x10)
def val_main_call5_v6 : (⟨S_, .f32⟩ : BufTy).Contents (Elt F) :=
  Host.exp (val_main_call5_v5 (F := F) x0 x5 x6 x7 x8 x9 x10)
def val_main_call5_v7 : (⟨S_, .f32⟩ : BufTy).Contents (Elt F) :=
  Host.log1p (val_main_call5_v6 (F := F) x0 x5 x6 x7 x8 x9 x10)
def val_main_call5_v8 : (⟨S_, .f32⟩ : BufTy).Contents (Elt F) :=
  addf (val_main_call5_v0 (F := F) x0 x5 x6 x7 x8 x9 x10) (val_main_call5_v7 (F := F) x0 x5 x6 x7 x8 x9 x10)
def val_main_v155 : (⟨S_, .f32⟩ : BufTy).Contents (Elt F) :=
  select (val_main_call5_v2 (F := F) x0 x5 x6 x7 x8 x9 x10) (val_main_call5_v3 (F := F) x0 x5 x6 x7 x8 x9 x10) (val_main_call5_v8 (F := F) x0 x5 x6 x7 x8 x9 x10)
def val_main_cst_23 : (⟨S_, .f32⟩ : BufTy).Contents (Elt F) :=
  constant S_ .f32 0x24E69595#32
def val_main_v156 : (⟨S1000000x20, .f32⟩ : BufTy).Contents (Elt F) :=
  broadcastInDim S1000000x20 ![] bcast_S_S1000000x20 (val_main_cst_23 (F := F))
def val_main_v157 : (⟨S1000000x20, .f32⟩ : BufTy).Contents (Elt F) :=
  addf (x3) (val_main_v156 (F := F))
def val_main_cst_24 : (⟨S_, .f32⟩ : BufTy).Contents (Elt F) :=
  constant S_ .f32 0x24E69595#32
def val_main_v158 : (⟨S1x20, .f32⟩ : BufTy).Contents (Elt F) :=
  broadcastInDim S1x20 ![] bcast_S_S1x20 (val_main_cst_24 (F := F))
def val_main_v159 : (⟨S1x20, .f32⟩ : BufTy).Contents (Elt F) :=
  addf (val_main_v130 (F := F) x0 x5 x6 x7 x8 x9 x10) (val_main_v158 (F := F))
def val_main_v160 : (⟨S20x1, .f32⟩ : BufTy).Contents (Elt F) :=
  transpose S20x1 [1, 0] (val_main_v159 (F := F) x0 x5 x6 x7 x8 x9 x10) transposes_S1x20_S20x1_1_0
def val_main_v161 : (⟨S1000000x1, .f32⟩ : BufTy).Contents (Elt F) :=
  Host.dotGeneral dot_S1000000x20_S20x1_S1000000x1_1_0_0_1_n_n none (val_main_v157 (F := F) x3) (val_main_v160 (F := F) x0 x5 x6 x7 x8 x9 x10)
def val_main_v162 : (⟨S1000000, .f32⟩ : BufTy).Contents (Elt F) :=
  shapeCast _ (val_main_v161 (F := F) x0 x3 x5 x6 x7 x8 x9 x10) shapeCasts_S1000000x1_S1000000
def val_main_call6_v0 : (⟨S1000000x20, .f32⟩ : BufTy).Contents (Elt F) :=
  mulf (val_main_v157 (F := F) x3) (val_main_v157 (F := F) x3)
def val_main_call6_cst : (⟨S_, .f32⟩ : BufTy).Contents (Elt F) :=
  constant S_ .f32 0x00000000#32
def val_main_call6_v1 : (⟨S1000000, .f32⟩ : BufTy).Contents (Elt F) :=
  Host.reduceAdd (val_main_call6_v0 (F := F) x3) (val_main_call6_cst (F := F)) reducesTo_S1000000x20_S1000000_d1 h_S_
def val_main_v163 : (⟨S1000000, .f32⟩ : BufTy).Contents (Elt F) :=
  Host.sqrt (val_main_call6_v1 (F := F) x3)
def val_main_cst_25 : (⟨S_, .f32⟩ : BufTy).Contents (Elt F) :=
  constant S_ .f32 0x322BCC77#32
def val_main_v164 : (⟨S1000000, .f32⟩ : BufTy).Contents (Elt F) :=
  broadcastInDim S1000000 ![] bcast_S_S1000000 (val_main_cst_25 (F := F))
def val_main_v165 : (⟨S1000000, .f32⟩ : BufTy).Contents (Elt F) :=
  maximumf (val_main_v163 (F := F) x3) (val_main_v164 (F := F))
def val_main_call7_v0 : (⟨S1x20, .f32⟩ : BufTy).Contents (Elt F) :=
  mulf (val_main_v159 (F := F) x0 x5 x6 x7 x8 x9 x10) (val_main_v159 (F := F) x0 x5 x6 x7 x8 x9 x10)
def val_main_call7_cst : (⟨S_, .f32⟩ : BufTy).Contents (Elt F) :=
  constant S_ .f32 0x00000000#32
def val_main_call7_v1 : (⟨S1, .f32⟩ : BufTy).Contents (Elt F) :=
  Host.reduceAdd (val_main_call7_v0 (F := F) x0 x5 x6 x7 x8 x9 x10) (val_main_call7_cst (F := F)) reducesTo_S1x20_S1_d1 h_S_
def val_main_v166 : (⟨S1, .f32⟩ : BufTy).Contents (Elt F) :=
  Host.sqrt (val_main_call7_v1 (F := F) x0 x5 x6 x7 x8 x9 x10)
def val_main_cst_26 : (⟨S_, .f32⟩ : BufTy).Contents (Elt F) :=
  constant S_ .f32 0x322BCC77#32
def val_main_v167 : (⟨S1, .f32⟩ : BufTy).Contents (Elt F) :=
  broadcastInDim S1 ![] bcast_S_S1 (val_main_cst_26 (F := F))
def val_main_v168 : (⟨S1, .f32⟩ : BufTy).Contents (Elt F) :=
  maximumf (val_main_v166 (F := F) x0 x5 x6 x7 x8 x9 x10) (val_main_v167 (F := F))
def val_main_v169 : (⟨S1000000, .f32⟩ : BufTy).Contents (Elt F) :=
  broadcastInDim S1000000 ![0] bcast_S1_S1000000_0 (val_main_v168 (F := F) x0 x5 x6 x7 x8 x9 x10)
def val_main_v170 : (⟨S1000000, .f32⟩ : BufTy).Contents (Elt F) :=
  mulf (val_main_v165 (F := F) x3) (val_main_v169 (F := F) x0 x5 x6 x7 x8 x9 x10)
def val_main_v171 : (⟨S1000000, .f32⟩ : BufTy).Contents (Elt F) :=
  Host.divf (val_main_v162 (F := F) x0 x3 x5 x6 x7 x8 x9 x10) (val_main_v170 (F := F) x0 x3 x5 x6 x7 x8 x9 x10)
def val_main_v172 : (⟨S1000000, .f32⟩ : BufTy).Contents (Elt F) :=
  broadcastInDim S1000000 ![] bcast_S_S1000000 (val_main_v155 (F := F) x0 x5 x6 x7 x8 x9 x10)
def val_main_v173 : (⟨S1000000, .f32⟩ : BufTy).Contents (Elt F) :=
  mulf (val_main_v171 (F := F) x0 x3 x5 x6 x7 x8 x9 x10) (val_main_v172 (F := F) x0 x5 x6 x7 x8 x9 x10)
def val_main_cst_27 : (⟨S_, .f32⟩ : BufTy).Contents (Elt F) :=
  constant S_ .f32 0xFF800000#32
def val_main_v174 : (⟨S_, .f32⟩ : BufTy).Contents (Elt F) :=
  Host.reduce FloatOps.maximumf (val_main_v173 (F := F) x0 x3 x5 x6 x7 x8 x9 x10) (val_main_cst_27 (F := F)) reducesTo_S1000000_S_d0 h_S_
def val_main_cst_28 : (⟨S_, .f32⟩ : BufTy).Contents (Elt F) :=
  constant S_ .f32 0xFF800000#32
def val_main_v175 : (⟨S_, .f32⟩ : BufTy).Contents (Elt F) :=
  maximumf (val_main_cst_28 (F := F)) (val_main_v174 (F := F) x0 x3 x5 x6 x7 x8 x9 x10)
def val_main_v176 : (⟨S1, .f32⟩ : BufTy).Contents (Elt F) :=
  broadcastInDim S1 ![] bcast_S_S1 (val_main_v175 (F := F) x0 x3 x5 x6 x7 x8 x9 x10)
def val_main_v177 : (⟨S1000000, .f32⟩ : BufTy).Contents (Elt F) :=
  broadcastInDim S1000000 ![0] bcast_S1_S1000000_0 (val_main_v176 (F := F) x0 x3 x5 x6 x7 x8 x9 x10)
def val_main_v178 : (⟨S1000000, .f32⟩ : BufTy).Contents (Elt F) :=
  subf (val_main_v173 (F := F) x0 x3 x5 x6 x7 x8 x9 x10) (val_main_v177 (F := F) x0 x3 x5 x6 x7 x8 x9 x10)
def val_main_v179 : (⟨S1000000, .f32⟩ : BufTy).Contents (Elt F) :=
  Host.exp (val_main_v178 (F := F) x0 x3 x5 x6 x7 x8 x9 x10)
def val_main_cst_29 : (⟨S_, .f32⟩ : BufTy).Contents (Elt F) :=
  constant S_ .f32 0x00000000#32
def val_main_v180 : (⟨S_, .f32⟩ : BufTy).Contents (Elt F) :=
  Host.reduceAdd (val_main_v179 (F := F) x0 x3 x5 x6 x7 x8 x9 x10) (val_main_cst_29 (F := F)) reducesTo_S1000000_S_d0 h_S_
def val_main_v181 : (⟨S1, .f32⟩ : BufTy).Contents (Elt F) :=
  broadcastInDim S1 ![] bcast_S_S1 (val_main_v180 (F := F) x0 x3 x5 x6 x7 x8 x9 x10)
def val_main_v182 : (⟨S1000000, .f32⟩ : BufTy).Contents (Elt F) :=
  broadcastInDim S1000000 ![0] bcast_S1_S1000000_0 (val_main_v181 (F := F) x0 x3 x5 x6 x7 x8 x9 x10)
def val_main_v183 : (⟨S1000000, .f32⟩ : BufTy).Contents (Elt F) :=
  Host.divf (val_main_v179 (F := F) x0 x3 x5 x6 x7 x8 x9 x10) (val_main_v182 (F := F) x0 x3 x5 x6 x7 x8 x9 x10)
def val_main_v184 : (⟨S1000000, .f32⟩ : BufTy).Contents (Elt F) :=
  broadcastInDim S1000000 ![] bcast_S_S1000000 (val_main_v136 (F := F) x0 x5 x6 x7 x8 x9 x10)
def val_main_v185 : (⟨S1000000, .f32⟩ : BufTy).Contents (Elt F) :=
  mulf (val_main_v184 (F := F) x0 x5 x6 x7 x8 x9 x10) (val_main_v183 (F := F) x0 x3 x5 x6 x7 x8 x9 x10)
def val_main_cst_30 : (⟨S_, .f32⟩ : BufTy).Contents (Elt F) :=
  constant S_ .f32 0x3F800000#32
def val_main_v186 : (⟨S_, .f32⟩ : BufTy).Contents (Elt F) :=
  subf (val_main_cst_30 (F := F)) (val_main_v136 (F := F) x0 x5 x6 x7 x8 x9 x10)
def val_main_v187 : (⟨S1x1000000, .f32⟩ : BufTy).Contents (Elt F) :=
  broadcastInDim S1x1000000 ![] bcast_S_S1x1000000 (val_main_v186 (F := F) x0 x5 x6 x7 x8 x9 x10)
def val_main_v188 : (⟨S1x1000000, .f32⟩ : BufTy).Contents (Elt F) :=
  mulf (val_main_v187 (F := F) x0 x5 x6 x7 x8 x9 x10) (x2)
def val_main_v189 : (⟨S1x1000000, .f32⟩ : BufTy).Contents (Elt F) :=
  broadcastInDim S1x1000000 ![1] bcast_S1000000_S1x1000000_1 (val_main_v185 (F := F) x0 x3 x5 x6 x7 x8 x9 x10)
def val_main_v190 : (⟨S1x1000000, .f32⟩ : BufTy).Contents (Elt F) :=
  addf (val_main_v189 (F := F) x0 x3 x5 x6 x7 x8 x9 x10) (val_main_v188 (F := F) x0 x2 x5 x6 x7 x8 x9 x10)
def val_main_v191 : (⟨S1x1, .f32⟩ : BufTy).Contents (Elt F) :=
  extractStridedSlice S1x1 ![0, 999999] (val_main_v190 (F := F) x0 x2 x3 x5 x6 x7 x8 x9 x10) slices_S1x1000000_S1x1_0_999999
def val_main_v192 : (⟨S1x1, .f32⟩ : BufTy).Contents (Elt F) :=
  extractStridedSlice S1x1 ![0, 0] (val_main_v190 (F := F) x0 x2 x3 x5 x6 x7 x8 x9 x10) slices_S1x1000000_S1x1_0_0
def val_main_v193 : (⟨S1x1000002, .f32⟩ : BufTy).Contents (Elt F) :=
  concatenate S1x1000002 1 [⟨S1x1, (val_main_v191 (F := F) x0 x2 x3 x5 x6 x7 x8 x9 x10)⟩, ⟨S1x1000000, (val_main_v190 (F := F) x0 x2 x3 x5 x6 x7 x8 x9 x10)⟩, ⟨S1x1, (val_main_v192 (F := F) x0 x2 x3 x5 x6 x7 x8 x9 x10)⟩] concatenates_S1x1_S1x1000000_S1x1_S1x1000002_d1
def val_main_v194 : (⟨S1, .f32⟩ : BufTy).Contents (Elt F) :=
  extractStridedSlice S1 ![0] (val_main_v148 (F := F) x0 x5 x6 x7 x8 x9 x10) slices_S3_S1_0
def val_main_v195 : (⟨S_, .f32⟩ : BufTy).Contents (Elt F) :=
  shapeCast _ (val_main_v194 (F := F) x0 x5 x6 x7 x8 x9 x10) shapeCasts_S1_S_
def val_main_v196 : (⟨S1x1000000, .f32⟩ : BufTy).Contents (Elt F) :=
  extractStridedSlice S1x1000000 ![0, 0] (val_main_v193 (F := F) x0 x2 x3 x5 x6 x7 x8 x9 x10) slices_S1x1000002_S1x1000000_0_0
def val_main_v197 : (⟨S1x1000000, .f32⟩ : BufTy).Contents (Elt F) :=
  broadcastInDim S1x1000000 ![] bcast_S_S1x1000000 (val_main_v195 (F := F) x0 x5 x6 x7 x8 x9 x10)
def val_main_v198 : (⟨S1x1000000, .f32⟩ : BufTy).Contents (Elt F) :=
  mulf (val_main_v197 (F := F) x0 x5 x6 x7 x8 x9 x10) (val_main_v196 (F := F) x0 x2 x3 x5 x6 x7 x8 x9 x10)
def val_main_v199 : (⟨S1, .f32⟩ : BufTy).Contents (Elt F) :=
  extractStridedSlice S1 ![1] (val_main_v148 (F := F) x0 x5 x6 x7 x8 x9 x10) slices_S3_S1_1
def val_main_v200 : (⟨S_, .f32⟩ : BufTy).Contents (Elt F) :=
  shapeCast _ (val_main_v199 (F := F) x0 x5 x6 x7 x8 x9 x10) shapeCasts_S1_S_
def val_main_v201 : (⟨S1x1000000, .f32⟩ : BufTy).Contents (Elt F) :=
  extractStridedSlice S1x1000000 ![0, 1] (val_main_v193 (F := F) x0 x2 x3 x5 x6 x7 x8 x9 x10) slices_S1x1000002_S1x1000000_0_1
def val_main_v202 : (⟨S1x1000000, .f32⟩ : BufTy).Contents (Elt F) :=
  broadcastInDim S1x1000000 ![] bcast_S_S1x1000000 (val_main_v200 (F := F) x0 x5 x6 x7 x8 x9 x10)
def val_main_v203 : (⟨S1x1000000, .f32⟩ : BufTy).Contents (Elt F) :=
  mulf (val_main_v202 (F := F) x0 x5 x6 x7 x8 x9 x10) (val_main_v201 (F := F) x0 x2 x3 x5 x6 x7 x8 x9 x10)
def val_main_v204 : (⟨S1x1000000, .f32⟩ : BufTy).Contents (Elt F) :=
  addf (val_main_v198 (F := F) x0 x2 x3 x5 x6 x7 x8 x9 x10) (val_main_v203 (F := F) x0 x2 x3 x5 x6 x7 x8 x9 x10)
def val_main_v205 : (⟨S1, .f32⟩ : BufTy).Contents (Elt F) :=
  extractStridedSlice S1 ![2] (val_main_v148 (F := F) x0 x5 x6 x7 x8 x9 x10) slices_S3_S1_2
def val_main_v206 : (⟨S_, .f32⟩ : BufTy).Contents (Elt F) :=
  shapeCast _ (val_main_v205 (F := F) x0 x5 x6 x7 x8 x9 x10) shapeCasts_S1_S_
def val_main_v207 : (⟨S1x1000000, .f32⟩ : BufTy).Contents (Elt F) :=
  extractStridedSlice S1x1000000 ![0, 2] (val_main_v193 (F := F) x0 x2 x3 x5 x6 x7 x8 x9 x10) slices_S1x1000002_S1x1000000_0_2
def val_main_v208 : (⟨S1x1000000, .f32⟩ : BufTy).Contents (Elt F) :=
  broadcastInDim S1x1000000 ![] bcast_S_S1x1000000 (val_main_v206 (F := F) x0 x5 x6 x7 x8 x9 x10)
def val_main_v209 : (⟨S1x1000000, .f32⟩ : BufTy).Contents (Elt F) :=
  mulf (val_main_v208 (F := F) x0 x5 x6 x7 x8 x9 x10) (val_main_v207 (F := F) x0 x2 x3 x5 x6 x7 x8 x9 x10)
def val_main_v210 : (⟨S1x1000000, .f32⟩ : BufTy).Contents (Elt F) :=
  addf (val_main_v204 (F := F) x0 x2 x3 x5 x6 x7 x8 x9 x10) (val_main_v209 (F := F) x0 x2 x3 x5 x6 x7 x8 x9 x10)
def val_main_v211 : (⟨S1x1000000, .f32⟩ : BufTy).Contents (Elt F) :=
  broadcastInDim S1x1000000 ![] bcast_S_S1x1000000 (val_main_v152 (F := F) x0 x5 x6 x7 x8 x9 x10)
def val_main_v212 : (⟨S1x1000000, .f32⟩ : BufTy).Contents (Elt F) :=
  Host.powf (val_main_v210 (F := F) x0 x2 x3 x5 x6 x7 x8 x9 x10) (val_main_v211 (F := F) x0 x5 x6 x7 x8 x9 x10)
def val_main_cst_31 : (⟨S_, .f32⟩ : BufTy).Contents (Elt F) :=
  constant S_ .f32 0x00000000#32
def val_main_v213 : (⟨S1, .f32⟩ : BufTy).Contents (Elt F) :=
  Host.reduceAdd (val_main_v212 (F := F) x0 x2 x3 x5 x6 x7 x8 x9 x10) (val_main_cst_31 (F := F)) reducesTo_S1x1000000_S1_d1 h_S_
def val_main_v214 : (⟨S1x1, .f32⟩ : BufTy).Contents (Elt F) :=
  broadcastInDim S1x1 ![0] bcast_S1_S1x1_0 (val_main_v213 (F := F) x0 x2 x3 x5 x6 x7 x8 x9 x10)
def val_main_cst_32 : (⟨S_, .f32⟩ : BufTy).Contents (Elt F) :=
  constant S_ .f32 0x24E69595#32
def val_main_v215 : (⟨S1x1, .f32⟩ : BufTy).Contents (Elt F) :=
  broadcastInDim S1x1 ![] bcast_S_S1x1 (val_main_cst_32 (F := F))
def val_main_v216 : (⟨S1x1, .f32⟩ : BufTy).Contents (Elt F) :=
  addf (val_main_v214 (F := F) x0 x2 x3 x5 x6 x7 x8 x9 x10) (val_main_v215 (F := F))
def val_main_v217 : (⟨S1x1000000, .f32⟩ : BufTy).Contents (Elt F) :=
  broadcastInDim S1x1000000 ![0, 1] bcast_S1x1_S1x1000000_0_1 (val_main_v216 (F := F) x0 x2 x3 x5 x6 x7 x8 x9 x10)
def val_main_v218 : (⟨S1x1000000, .f32⟩ : BufTy).Contents (Elt F) :=
  Host.divf (val_main_v212 (F := F) x0 x2 x3 x5 x6 x7 x8 x9 x10) (val_main_v217 (F := F) x0 x2 x3 x5 x6 x7 x8 x9 x10)
def val_main_v219 : (⟨S1x20, .f32⟩ : BufTy).Contents (Elt F) :=
  Host.dotGeneral dot_S1x1000000_S1000000x20_S1x20_1_0_0_1_n_n none (val_main_v126 (F := F) x0 x1 x3 x5 x6 x7 x8 x9 x10) (x3)
def val_main_v220 : (⟨S1x40, .f32⟩ : BufTy).Contents (Elt F) :=
  concatenate S1x40 1 [⟨S1x20, (x4)⟩, ⟨S1x20, (val_main_v219 (F := F) x0 x1 x3 x5 x6 x7 x8 x9 x10)⟩] concatenates_S1x20_S1x20_S1x40_d1
def val_main_v221 : (⟨S1x1, .f32⟩ : BufTy).Contents (Elt F) :=
  extractStridedSlice S1x1 ![0, 0] (val_main_v15 (F := F) x0 x5 x6 x7 x8 x11 x12) slices_S1x3_S1x1_0_0
def val_main_v222 : (⟨S_, .f32⟩ : BufTy).Contents (Elt F) :=
  shapeCast _ (val_main_v221 (F := F) x0 x5 x6 x7 x8 x11 x12) shapeCasts_S1x1_S_
def val_main_v223 : (⟨S_, .f32⟩ : BufTy).Contents (Elt F) :=
  Host.negf (val_main_v222 (F := F) x0 x5 x6 x7 x8 x11 x12)
def val_main_v224 : (⟨S_, .f32⟩ : BufTy).Contents (Elt F) :=
  Host.exp (val_main_v223 (F := F) x0 x5 x6 x7 x8 x11 x12)
def val_main_cst_33 : (⟨S_, .f32⟩ : BufTy).Contents (Elt F) :=
  constant S_ .f32 0x3F800000#32
def val_main_v225 : (⟨S_, .f32⟩ : BufTy).Contents (Elt F) :=
  addf (val_main_cst_33 (F := F)) (val_main_v224 (F := F) x0 x5 x6 x7 x8 x11 x12)
def val_main_cst_34 : (⟨S_, .f32⟩ : BufTy).Contents (Elt F) :=
  constant S_ .f32 0x3F800000#32
def val_main_v226 : (⟨S_, .f32⟩ : BufTy).Contents (Elt F) :=
  Host.divf (val_main_cst_34 (F := F)) (val_main_v225 (F := F) x0 x5 x6 x7 x8 x11 x12)
def val_main_v227 : (⟨S1x2, .f32⟩ : BufTy).Contents (Elt F) :=
  extractStridedSlice S1x2 ![0, 1] (val_main_v15 (F := F) x0 x5 x6 x7 x8 x11 x12) slices_S1x3_S1x2_0_1
def val_main_cst_35 : (⟨S_, .f32⟩ : BufTy).Contents (Elt F) :=
  constant S_ .f32 0xFF800000#32
def val_main_v228 : (⟨S1, .f32⟩ : BufTy).Contents (Elt F) :=
  Host.reduce FloatOps.maximumf (val_main_v227 (F := F) x0 x5 x6 x7 x8 x11 x12) (val_main_cst_35 (F := F)) reducesTo_S1x2_S1_d1 h_S_
def val_main_cst_36 : (⟨S_, .f32⟩ : BufTy).Contents (Elt F) :=
  constant S_ .f32 0xFF800000#32
def val_main_v229 : (⟨S1, .f32⟩ : BufTy).Contents (Elt F) :=
  broadcastInDim S1 ![] bcast_S_S1 (val_main_cst_36 (F := F))
def val_main_v230 : (⟨S1, .f32⟩ : BufTy).Contents (Elt F) :=
  maximumf (val_main_v229 (F := F)) (val_main_v228 (F := F) x0 x5 x6 x7 x8 x11 x12)
def val_main_v231 : (⟨S1x1, .f32⟩ : BufTy).Contents (Elt F) :=
  broadcastInDim S1x1 ![0] bcast_S1_S1x1_0 (val_main_v230 (F := F) x0 x5 x6 x7 x8 x11 x12)
def val_main_v232 : (⟨S1x2, .f32⟩ : BufTy).Contents (Elt F) :=
  broadcastInDim S1x2 ![0, 1] bcast_S1x1_S1x2_0_1 (val_main_v231 (F := F) x0 x5 x6 x7 x8 x11 x12)
def val_main_v233 : (⟨S1x2, .f32⟩ : BufTy).Contents (Elt F) :=
  subf (val_main_v227 (F := F) x0 x5 x6 x7 x8 x11 x12) (val_main_v232 (F := F) x0 x5 x6 x7 x8 x11 x12)
def val_main_v234 : (⟨S1x2, .f32⟩ : BufTy).Contents (Elt F) :=
  Host.exp (val_main_v233 (F := F) x0 x5 x6 x7 x8 x11 x12)
def val_main_cst_37 : (⟨S_, .f32⟩ : BufTy).Contents (Elt F) :=
  constant S_ .f32 0x00000000#32
def val_main_v235 : (⟨S1, .f32⟩ : BufTy).Contents (Elt F) :=
  Host.reduceAdd (val_main_v234 (F := F) x0 x5 x6 x7 x8 x11 x12) (val_main_cst_37 (F := F)) reducesTo_S1x2_S1_d1 h_S_
def val_main_v236 : (⟨S1x1, .f32⟩ : BufTy).Contents (Elt F) :=
  broadcastInDim S1x1 ![0] bcast_S1_S1x1_0 (val_main_v235 (F := F) x0 x5 x6 x7 x8 x11 x12)
def val_main_v237 : (⟨S1x2, .f32⟩ : BufTy).Contents (Elt F) :=
  broadcastInDim S1x2 ![0, 1] bcast_S1x1_S1x2_0_1 (val_main_v236 (F := F) x0 x5 x6 x7 x8 x11 x12)
def val_main_v238 : (⟨S1x2, .f32⟩ : BufTy).Contents (Elt F) :=
  Host.divf (val_main_v234 (F := F) x0 x5 x6 x7 x8 x11 x12) (val_main_v237 (F := F) x0 x5 x6 x7 x8 x11 x12)
def val_main_v239 : (⟨S40x110, .f32⟩ : BufTy).Contents (Elt F) :=
  transpose S40x110 [1, 0] (x15) transposes_S110x40_S40x110_1_0
def val_main_v240 : (⟨S1x110, .f32⟩ : BufTy).Contents (Elt F) :=
  Host.dotGeneral dot_S1x40_S40x110_S1x110_1_0_0_1_n_n none (val_main_v220 (F := F) x0 x1 x3 x4 x5 x6 x7 x8 x9 x10) (val_main_v239 (F := F) x15)
def val_main_v241 : (⟨S1x110, .f32⟩ : BufTy).Contents (Elt F) :=
  broadcastInDim S1x110 ![1] bcast_S110_S1x110_1 (x16)
def val_main_v242 : (⟨S1x110, .f32⟩ : BufTy).Contents (Elt F) :=
  addf (val_main_v240 (F := F) x0 x1 x3 x4 x5 x6 x7 x8 x9 x10 x15) (val_main_v241 (F := F) x16)
def val_main_call8_cst : (⟨S_, .f32⟩ : BufTy).Contents (Elt F) :=
  constant S_ .f32 0x00000000#32
def val_main_call8_v0 : (⟨S1x110, .f32⟩ : BufTy).Contents (Elt F) :=
  broadcastInDim S1x110 ![] bcast_S_S1x110 (val_main_call8_cst (F := F))
def val_main_v243 : (⟨S1x110, .f32⟩ : BufTy).Contents (Elt F) :=
  maximumf (val_main_v242 (F := F) x0 x1 x3 x4 x5 x6 x7 x8 x9 x10 x15 x16) (val_main_call8_v0 (F := F))
def val_main_v244 : (⟨S110x190, .f32⟩ : BufTy).Contents (Elt F) :=
  transpose S110x190 [1, 0] (x17) transposes_S190x110_S110x190_1_0
def val_main_v245 : (⟨S1x190, .f32⟩ : BufTy).Contents (Elt F) :=
  Host.dotGeneral dot_S1x110_S110x190_S1x190_1_0_0_1_n_n none (val_main_v243 (F := F) x0 x1 x3 x4 x5 x6 x7 x8 x9 x10 x15 x16) (val_main_v244 (F := F) x17)
def val_main_v246 : (⟨S1x190, .f32⟩ : BufTy).Contents (Elt F) :=
  broadcastInDim S1x190 ![1] bcast_S190_S1x190_1 (x18)
def val_main_v247 : (⟨S1x190, .f32⟩ : BufTy).Contents (Elt F) :=
  addf (val_main_v245 (F := F) x0 x1 x3 x4 x5 x6 x7 x8 x9 x10 x15 x16 x17) (val_main_v246 (F := F) x18)
def val_main_call9_cst : (⟨S_, .f32⟩ : BufTy).Contents (Elt F) :=
  constant S_ .f32 0x00000000#32
def val_main_call9_v0 : (⟨S1x190, .f32⟩ : BufTy).Contents (Elt F) :=
  broadcastInDim S1x190 ![] bcast_S_S1x190 (val_main_call9_cst (F := F))
def val_main_v248 : (⟨S1x190, .f32⟩ : BufTy).Contents (Elt F) :=
  maximumf (val_main_v247 (F := F) x0 x1 x3 x4 x5 x6 x7 x8 x9 x10 x15 x16 x17 x18) (val_main_call9_v0 (F := F))
def val_main_v249 : (⟨S190x270, .f32⟩ : BufTy).Contents (Elt F) :=
  transpose S190x270 [1, 0] (x19) transposes_S270x190_S190x270_1_0
def val_main_v250 : (⟨S1x270, .f32⟩ : BufTy).Contents (Elt F) :=
  Host.dotGeneral dot_S1x190_S190x270_S1x270_1_0_0_1_n_n none (val_main_v248 (F := F) x0 x1 x3 x4 x5 x6 x7 x8 x9 x10 x15 x16 x17 x18) (val_main_v249 (F := F) x19)
def val_main_v251 : (⟨S1x270, .f32⟩ : BufTy).Contents (Elt F) :=
  broadcastInDim S1x270 ![1] bcast_S270_S1x270_1 (x20)
def val_main_v252 : (⟨S1x270, .f32⟩ : BufTy).Contents (Elt F) :=
  addf (val_main_v250 (F := F) x0 x1 x3 x4 x5 x6 x7 x8 x9 x10 x15 x16 x17 x18 x19) (val_main_v251 (F := F) x20)
def val_main_call10_cst : (⟨S_, .f32⟩ : BufTy).Contents (Elt F) :=
  constant S_ .f32 0x00000000#32
def val_main_call10_v0 : (⟨S1x270, .f32⟩ : BufTy).Contents (Elt F) :=
  broadcastInDim S1x270 ![] bcast_S_S1x270 (val_main_call10_cst (F := F))
def val_main_v253 : (⟨S1x270, .f32⟩ : BufTy).Contents (Elt F) :=
  maximumf (val_main_v252 (F := F) x0 x1 x3 x4 x5 x6 x7 x8 x9 x10 x15 x16 x17 x18 x19 x20) (val_main_call10_v0 (F := F))
def val_main_v254 : (⟨S270x325, .f32⟩ : BufTy).Contents (Elt F) :=
  transpose S270x325 [1, 0] (x21) transposes_S325x270_S270x325_1_0
def val_main_v255 : (⟨S1x325, .f32⟩ : BufTy).Contents (Elt F) :=
  Host.dotGeneral dot_S1x270_S270x325_S1x325_1_0_0_1_n_n none (val_main_v253 (F := F) x0 x1 x3 x4 x5 x6 x7 x8 x9 x10 x15 x16 x17 x18 x19 x20) (val_main_v254 (F := F) x21)
def val_main_v256 : (⟨S1x325, .f32⟩ : BufTy).Contents (Elt F) :=
  broadcastInDim S1x325 ![1] bcast_S325_S1x325_1 (x22)
def val_main_v257 : (⟨S1x325, .f32⟩ : BufTy).Contents (Elt F) :=
  addf (val_main_v255 (F := F) x0 x1 x3 x4 x5 x6 x7 x8 x9 x10 x15 x16 x17 x18 x19 x20 x21) (val_main_v256 (F := F) x22)
def val_main_cst_38 : (⟨S_, .f32⟩ : BufTy).Contents (Elt F) :=
  constant S_ .f32 0xFF800000#32
def val_main_v258 : (⟨S1, .f32⟩ : BufTy).Contents (Elt F) :=
  Host.reduce FloatOps.maximumf (val_main_v257 (F := F) x0 x1 x3 x4 x5 x6 x7 x8 x9 x10 x15 x16 x17 x18 x19 x20 x21 x22) (val_main_cst_38 (F := F)) reducesTo_S1x325_S1_d1 h_S_
def val_main_cst_39 : (⟨S_, .f32⟩ : BufTy).Contents (Elt F) :=
  constant S_ .f32 0xFF800000#32
def val_main_v259 : (⟨S1, .f32⟩ : BufTy).Contents (Elt F) :=
  broadcastInDim S1 ![] bcast_S_S1 (val_main_cst_39 (F := F))
def val_main_v260 : (⟨S1, .f32⟩ : BufTy).Contents (Elt F) :=
  maximumf (val_main_v259 (F := F)) (val_main_v258 (F := F) x0 x1 x3 x4 x5 x6 x7 x8 x9 x10 x15 x16 x17 x18 x19 x20 x21 x22)
def val_main_v261 : (⟨S1x1, .f32⟩ : BufTy).Contents (Elt F) :=
  broadcastInDim S1x1 ![0] bcast_S1_S1x1_0 (val_main_v260 (F := F) x0 x1 x3 x4 x5 x6 x7 x8 x9 x10 x15 x16 x17 x18 x19 x20 x21 x22)
def val_main_v262 : (⟨S1x325, .f32⟩ : BufTy).Contents (Elt F) :=
  broadcastInDim S1x325 ![0, 1] bcast_S1x1_S1x325_0_1 (val_main_v261 (F := F) x0 x1 x3 x4 x5 x6 x7 x8 x9 x10 x15 x16 x17 x18 x19 x20 x21 x22)
def val_main_v263 : (⟨S1x325, .f32⟩ : BufTy).Contents (Elt F) :=
  subf (val_main_v257 (F := F) x0 x1 x3 x4 x5 x6 x7 x8 x9 x10 x15 x16 x17 x18 x19 x20 x21 x22) (val_main_v262 (F := F) x0 x1 x3 x4 x5 x6 x7 x8 x9 x10 x15 x16 x17 x18 x19 x20 x21 x22)
def val_main_v264 : (⟨S1x325, .f32⟩ : BufTy).Contents (Elt F) :=
  Host.exp (val_main_v263 (F := F) x0 x1 x3 x4 x5 x6 x7 x8 x9 x10 x15 x16 x17 x18 x19 x20 x21 x22)
def val_main_cst_40 : (⟨S_, .f32⟩ : BufTy).Contents (Elt F) :=
  constant S_ .f32 0x00000000#32
def val_main_v265 : (⟨S1, .f32⟩ : BufTy).Contents (Elt F) :=
  Host.reduceAdd (val_main_v264 (F := F) x0 x1 x3 x4 x5 x6 x7 x8 x9 x10 x15 x16 x17 x18 x19 x20 x21 x22) (val_main_cst_40 (F := F)) reducesTo_S1x325_S1_d1 h_S_
def val_main_v266 : (⟨S1x1, .f32⟩ : BufTy).Contents (Elt F) :=
  broadcastInDim S1x1 ![0] bcast_S1_S1x1_0 (val_main_v265 (F := F) x0 x1 x3 x4 x5 x6 x7 x8 x9 x10 x15 x16 x17 x18 x19 x20 x21 x22)
def val_main_v267 : (⟨S1x325, .f32⟩ : BufTy).Contents (Elt F) :=
  broadcastInDim S1x325 ![0, 1] bcast_S1x1_S1x325_0_1 (val_main_v266 (F := F) x0 x1 x3 x4 x5 x6 x7 x8 x9 x10 x15 x16 x17 x18 x19 x20 x21 x22)
def val_main_v268 : (⟨S1x325, .f32⟩ : BufTy).Contents (Elt F) :=
  Host.divf (val_main_v264 (F := F) x0 x1 x3 x4 x5 x6 x7 x8 x9 x10 x15 x16 x17 x18 x19 x20 x21 x22) (val_main_v267 (F := F) x0 x1 x3 x4 x5 x6 x7 x8 x9 x10 x15 x16 x17 x18 x19 x20 x21 x22)
def val_main_v269 : (⟨S40x110, .f32⟩ : BufTy).Contents (Elt F) :=
  transpose S40x110 [1, 0] (x23) transposes_S110x40_S40x110_1_0
def val_main_v270 : (⟨S1x110, .f32⟩ : BufTy).Contents (Elt F) :=
  Host.dotGeneral dot_S1x40_S40x110_S1x110_1_0_0_1_n_n none (val_main_v220 (F := F) x0 x1 x3 x4 x5 x6 x7 x8 x9 x10) (val_main_v269 (F := F) x23)
def val_main_v271 : (⟨S1x110, .f32⟩ : BufTy).Contents (Elt F) :=
  broadcastInDim S1x110 ![1] bcast_S110_S1x110_1 (x24)
def val_main_v272 : (⟨S1x110, .f32⟩ : BufTy).Contents (Elt F) :=
  addf (val_main_v270 (F := F) x0 x1 x3 x4 x5 x6 x7 x8 x9 x10 x23) (val_main_v271 (F := F) x24)
def val_main_call11_cst : (⟨S_, .f32⟩ : BufTy).Contents (Elt F) :=
  constant S_ .f32 0x00000000#32
def val_main_call11_v0 : (⟨S1x110, .f32⟩ : BufTy).Contents (Elt F) :=
  broadcastInDim S1x110 ![] bcast_S_S1x110 (val_main_call11_cst (F := F))
def val_main_v273 : (⟨S1x110, .f32⟩ : BufTy).Contents (Elt F) :=
  maximumf (val_main_v272 (F := F) x0 x1 x3 x4 x5 x6 x7 x8 x9 x10 x23 x24) (val_main_call11_v0 (F := F))
def val_main_v274 : (⟨S110x190, .f32⟩ : BufTy).Contents (Elt F) :=
  transpose S110x190 [1, 0] (x25) transposes_S190x110_S110x190_1_0
def val_main_v275 : (⟨S1x190, .f32⟩ : BufTy).Contents (Elt F) :=
  Host.dotGeneral dot_S1x110_S110x190_S1x190_1_0_0_1_n_n none (val_main_v273 (F := F) x0 x1 x3 x4 x5 x6 x7 x8 x9 x10 x23 x24) (val_main_v274 (F := F) x25)
def val_main_v276 : (⟨S1x190, .f32⟩ : BufTy).Contents (Elt F) :=
  broadcastInDim S1x190 ![1] bcast_S190_S1x190_1 (x26)
def val_main_v277 : (⟨S1x190, .f32⟩ : BufTy).Contents (Elt F) :=
  addf (val_main_v275 (F := F) x0 x1 x3 x4 x5 x6 x7 x8 x9 x10 x23 x24 x25) (val_main_v276 (F := F) x26)
def val_main_call12_cst : (⟨S_, .f32⟩ : BufTy).Contents (Elt F) :=
  constant S_ .f32 0x00000000#32
def val_main_call12_v0 : (⟨S1x190, .f32⟩ : BufTy).Contents (Elt F) :=
  broadcastInDim S1x190 ![] bcast_S_S1x190 (val_main_call12_cst (F := F))
def val_main_v278 : (⟨S1x190, .f32⟩ : BufTy).Contents (Elt F) :=
  maximumf (val_main_v277 (F := F) x0 x1 x3 x4 x5 x6 x7 x8 x9 x10 x23 x24 x25 x26) (val_main_call12_v0 (F := F))
def val_main_v279 : (⟨S190x270, .f32⟩ : BufTy).Contents (Elt F) :=
  transpose S190x270 [1, 0] (x27) transposes_S270x190_S190x270_1_0
def val_main_v280 : (⟨S1x270, .f32⟩ : BufTy).Contents (Elt F) :=
  Host.dotGeneral dot_S1x190_S190x270_S1x270_1_0_0_1_n_n none (val_main_v278 (F := F) x0 x1 x3 x4 x5 x6 x7 x8 x9 x10 x23 x24 x25 x26) (val_main_v279 (F := F) x27)
def val_main_v281 : (⟨S1x270, .f32⟩ : BufTy).Contents (Elt F) :=
  broadcastInDim S1x270 ![1] bcast_S270_S1x270_1 (x28)
def val_main_v282 : (⟨S1x270, .f32⟩ : BufTy).Contents (Elt F) :=
  addf (val_main_v280 (F := F) x0 x1 x3 x4 x5 x6 x7 x8 x9 x10 x23 x24 x25 x26 x27) (val_main_v281 (F := F) x28)
def val_main_call13_cst : (⟨S_, .f32⟩ : BufTy).Contents (Elt F) :=
  constant S_ .f32 0x00000000#32
def val_main_call13_v0 : (⟨S1x270, .f32⟩ : BufTy).Contents (Elt F) :=
  broadcastInDim S1x270 ![] bcast_S_S1x270 (val_main_call13_cst (F := F))
def val_main_v283 : (⟨S1x270, .f32⟩ : BufTy).Contents (Elt F) :=
  maximumf (val_main_v282 (F := F) x0 x1 x3 x4 x5 x6 x7 x8 x9 x10 x23 x24 x25 x26 x27 x28) (val_main_call13_v0 (F := F))
def val_main_v284 : (⟨S270x325, .f32⟩ : BufTy).Contents (Elt F) :=
  transpose S270x325 [1, 0] (x29) transposes_S325x270_S270x325_1_0
def val_main_v285 : (⟨S1x325, .f32⟩ : BufTy).Contents (Elt F) :=
  Host.dotGeneral dot_S1x270_S270x325_S1x325_1_0_0_1_n_n none (val_main_v283 (F := F) x0 x1 x3 x4 x5 x6 x7 x8 x9 x10 x23 x24 x25 x26 x27 x28) (val_main_v284 (F := F) x29)
def val_main_v286 : (⟨S1x325, .f32⟩ : BufTy).Contents (Elt F) :=
  broadcastInDim S1x325 ![1] bcast_S325_S1x325_1 (x30)
def val_main_v287 : (⟨S1x325, .f32⟩ : BufTy).Contents (Elt F) :=
  addf (val_main_v285 (F := F) x0 x1 x3 x4 x5 x6 x7 x8 x9 x10 x23 x24 x25 x26 x27 x28 x29) (val_main_v286 (F := F) x30)
def val_main_cst_41 : (⟨S_, .f32⟩ : BufTy).Contents (Elt F) :=
  constant S_ .f32 0xFF800000#32
def val_main_v288 : (⟨S1, .f32⟩ : BufTy).Contents (Elt F) :=
  Host.reduce FloatOps.maximumf (val_main_v287 (F := F) x0 x1 x3 x4 x5 x6 x7 x8 x9 x10 x23 x24 x25 x26 x27 x28 x29 x30) (val_main_cst_41 (F := F)) reducesTo_S1x325_S1_d1 h_S_
def val_main_cst_42 : (⟨S_, .f32⟩ : BufTy).Contents (Elt F) :=
  constant S_ .f32 0xFF800000#32
def val_main_v289 : (⟨S1, .f32⟩ : BufTy).Contents (Elt F) :=
  broadcastInDim S1 ![] bcast_S_S1 (val_main_cst_42 (F := F))
def val_main_v290 : (⟨S1, .f32⟩ : BufTy).Contents (Elt F) :=
  maximumf (val_main_v289 (F := F)) (val_main_v288 (F := F) x0 x1 x3 x4 x5 x6 x7 x8 x9 x10 x23 x24 x25 x26 x27 x28 x29 x30)
def val_main_v291 : (⟨S1x1, .f32⟩ : BufTy).Contents (Elt F) :=
  broadcastInDim S1x1 ![0] bcast_S1_S1x1_0 (val_main_v290 (F := F) x0 x1 x3 x4 x5 x6 x7 x8 x9 x10 x23 x24 x25 x26 x27 x28 x29 x30)
def val_main_v292 : (⟨S1x325, .f32⟩ : BufTy).Contents (Elt F) :=
  broadcastInDim S1x325 ![0, 1] bcast_S1x1_S1x325_0_1 (val_main_v291 (F := F) x0 x1 x3 x4 x5 x6 x7 x8 x9 x10 x23 x24 x25 x26 x27 x28 x29 x30)
def val_main_v293 : (⟨S1x325, .f32⟩ : BufTy).Contents (Elt F) :=
  subf (val_main_v287 (F := F) x0 x1 x3 x4 x5 x6 x7 x8 x9 x10 x23 x24 x25 x26 x27 x28 x29 x30) (val_main_v292 (F := F) x0 x1 x3 x4 x5 x6 x7 x8 x9 x10 x23 x24 x25 x26 x27 x28 x29 x30)
def val_main_v294 : (⟨S1x325, .f32⟩ : BufTy).Contents (Elt F) :=
  Host.exp (val_main_v293 (F := F) x0 x1 x3 x4 x5 x6 x7 x8 x9 x10 x23 x24 x25 x26 x27 x28 x29 x30)
def val_main_cst_43 : (⟨S_, .f32⟩ : BufTy).Contents (Elt F) :=
  constant S_ .f32 0x00000000#32
def val_main_v295 : (⟨S1, .f32⟩ : BufTy).Contents (Elt F) :=
  Host.reduceAdd (val_main_v294 (F := F) x0 x1 x3 x4 x5 x6 x7 x8 x9 x10 x23 x24 x25 x26 x27 x28 x29 x30) (val_main_cst_43 (F := F)) reducesTo_S1x325_S1_d1 h_S_
def val_main_v296 : (⟨S1x1, .f32⟩ : BufTy).Contents (Elt F) :=
  broadcastInDim S1x1 ![0] bcast_S1_S1x1_0 (val_main_v295 (F := F) x0 x1 x3 x4 x5 x6 x7 x8 x9 x10 x23 x24 x25 x26 x27 x28 x29 x30)
def val_main_v297 : (⟨S1x325, .f32⟩ : BufTy).Contents (Elt F) :=
  broadcastInDim S1x325 ![0, 1] bcast_S1x1_S1x325_0_1 (val_main_v296 (F := F) x0 x1 x3 x4 x5 x6 x7 x8 x9 x10 x23 x24 x25 x26 x27 x28 x29 x30)
def val_main_v298 : (⟨S1x325, .f32⟩ : BufTy).Contents (Elt F) :=
  Host.divf (val_main_v294 (F := F) x0 x1 x3 x4 x5 x6 x7 x8 x9 x10 x23 x24 x25 x26 x27 x28 x29 x30) (val_main_v297 (F := F) x0 x1 x3 x4 x5 x6 x7 x8 x9 x10 x23 x24 x25 x26 x27 x28 x29 x30)
def val_main_v299 : (⟨S1x1, .f32⟩ : BufTy).Contents (Elt F) :=
  extractStridedSlice S1x1 ![0, 0] (val_main_v238 (F := F) x0 x5 x6 x7 x8 x11 x12) slices_S1x2_S1x1_0_0
def val_main_v300 : (⟨S_, .f32⟩ : BufTy).Contents (Elt F) :=
  shapeCast _ (val_main_v299 (F := F) x0 x5 x6 x7 x8 x11 x12) shapeCasts_S1x1_S_
def val_main_v301 : (⟨S1x325, .f32⟩ : BufTy).Contents (Elt F) :=
  broadcastInDim S1x325 ![] bcast_S_S1x325 (val_main_v300 (F := F) x0 x5 x6 x7 x8 x11 x12)
def val_main_v302 : (⟨S1x325, .f32⟩ : BufTy).Contents (Elt F) :=
  mulf (val_main_v301 (F := F) x0 x5 x6 x7 x8 x11 x12) (val_main_v268 (F := F) x0 x1 x3 x4 x5 x6 x7 x8 x9 x10 x15 x16 x17 x18 x19 x20 x21 x22)
def val_main_v303 : (⟨S1x1, .f32⟩ : BufTy).Contents (Elt F) :=
  extractStridedSlice S1x1 ![0, 1] (val_main_v238 (F := F) x0 x5 x6 x7 x8 x11 x12) slices_S1x2_S1x1_0_1
def val_main_v304 : (⟨S_, .f32⟩ : BufTy).Contents (Elt F) :=
  shapeCast _ (val_main_v303 (F := F) x0 x5 x6 x7 x8 x11 x12) shapeCasts_S1x1_S_
def val_main_v305 : (⟨S1x325, .f32⟩ : BufTy).Contents (Elt F) :=
  broadcastInDim S1x325 ![] bcast_S_S1x325 (val_main_v304 (F := F) x0 x5 x6 x7 x8 x11 x12)
def val_main_v306 : (⟨S1x325, .f32⟩ : BufTy).Contents (Elt F) :=
  mulf (val_main_v305 (F := F) x0 x5 x6 x7 x8 x11 x12) (val_main_v298 (F := F) x0 x1 x3 x4 x5 x6 x7 x8 x9 x10 x23 x24 x25 x26 x27 x28 x29 x30)
def val_main_v307 : (⟨S1x325, .f32⟩ : BufTy).Contents (Elt F) :=
  addf (val_main_v302 (F := F) x0 x1 x3 x4 x5 x6 x7 x8 x9 x10 x11 x12 x15 x16 x17 x18 x19 x20 x21 x22) (val_main_v306 (F := F) x0 x1 x3 x4 x5 x6 x7 x8 x9 x10 x11 x12 x23 x24 x25 x26 x27 x28 x29 x30)
def val_main_v308 : (⟨S325x20, .f32⟩ : BufTy).Contents (Elt F) :=
  transpose S325x20 [1, 0] (x13) transposes_S20x325_S325x20_1_0
def val_main_v309 : (⟨S1x20, .f32⟩ : BufTy).Contents (Elt F) :=
  Host.dotGeneral dot_S1x325_S325x20_S1x20_1_0_0_1_n_n none (val_main_v307 (F := F) x0 x1 x3 x4 x5 x6 x7 x8 x9 x10 x11 x12 x15 x16 x17 x18 x19 x20 x21 x22 x23 x24 x25 x26 x27 x28 x29 x30) (val_main_v308 (F := F) x13)
def val_main_v310 : (⟨S1x20, .f32⟩ : BufTy).Contents (Elt F) :=
  broadcastInDim S1x20 ![1] bcast_S20_S1x20_1 (x14)
def val_main_v311 : (⟨S1x20, .f32⟩ : BufTy).Contents (Elt F) :=
  addf (val_main_v309 (F := F) x0 x1 x3 x4 x5 x6 x7 x8 x9 x10 x11 x12 x13 x15 x16 x17 x18 x19 x20 x21 x22 x23 x24 x25 x26 x27 x28 x29 x30) (val_main_v310 (F := F) x14)
def val_main_v312 : (⟨S1x20, .f32⟩ : BufTy).Contents (Elt F) :=
  broadcastInDim S1x20 ![] bcast_S_S1x20 (val_main_v226 (F := F) x0 x5 x6 x7 x8 x11 x12)
def val_main_v313 : (⟨S1x20, .f32⟩ : BufTy).Contents (Elt F) :=
  mulf (val_main_v312 (F := F) x0 x5 x6 x7 x8 x11 x12) (val_main_v34 (F := F) x0 x5 x6 x7 x8 x9 x10)
def val_main_cst_44 : (⟨S_, .f32⟩ : BufTy).Contents (Elt F) :=
  constant S_ .f32 0x3F800000#32
def val_main_v314 : (⟨S_, .f32⟩ : BufTy).Contents (Elt F) :=
  subf (val_main_cst_44 (F := F)) (val_main_v226 (F := F) x0 x5 x6 x7 x8 x11 x12)
def val_main_v315 : (⟨S1x20, .f32⟩ : BufTy).Contents (Elt F) :=
  broadcastInDim S1x20 ![] bcast_S_S1x20 (val_main_v314 (F := F) x0 x5 x6 x7 x8 x11 x12)
def val_main_v316 : (⟨S1x20, .f32⟩ : BufTy).Contents (Elt F) :=
  mulf (val_main_v315 (F := F) x0 x5 x6 x7 x8 x11 x12) (val_main_v311 (F := F) x0 x1 x3 x4 x5 x6 x7 x8 x9 x10 x11 x12 x13 x14 x15 x16 x17 x18 x19 x20 x21 x22 x23 x24 x25 x26 x27 x28 x29 x30)
def val_main_v317 : (⟨S1x20, .f32⟩ : BufTy).Contents (Elt F) :=
  addf (val_main_v313 (F := F) x0 x5 x6 x7 x8 x9 x10 x11 x12) (val_main_v316 (F := F) x0 x1 x3 x4 x5 x6 x7 x8 x9 x10 x11 x12 x13 x14 x15 x16 x17 x18 x19 x20 x21 x22 x23 x24 x25 x26 x27 x28 x29 x30)
def val_main_v318 : (⟨S1000000x1, .f32⟩ : BufTy).Contents (Elt F) :=
  transpose S1000000x1 [1, 0] (val_main_v218 (F := F) x0 x2 x3 x5 x6 x7 x8 x9 x10) transposes_S1x1000000_S1000000x1_1_0
def val_main_v319 : (⟨S1000000x20, .f32⟩ : BufTy).Contents (Elt F) :=
  Host.dotGeneral dot_S1000000x1_S1x20_S1000000x20_1_0_0_1_n_n none (val_main_v318 (F := F) x0 x2 x3 x5 x6 x7 x8 x9 x10) (val_main_v30 (F := F) x0 x5 x6 x7 x8 x9 x10)
def val_main_cst_45 : (⟨S_, .f32⟩ : BufTy).Contents (Elt F) :=
  constant S_ .f32 0x3F800000#32
def val_main_v320 : (⟨S1000000x20, .f32⟩ : BufTy).Contents (Elt F) :=
  broadcastInDim S1000000x20 ![] bcast_S_S1000000x20 (val_main_cst_45 (F := F))
def val_main_v321 : (⟨S1000000x20, .f32⟩ : BufTy).Contents (Elt F) :=
  subf (val_main_v320 (F := F)) (val_main_v319 (F := F) x0 x2 x3 x5 x6 x7 x8 x9 x10)
def val_main_v322 : (⟨S1000000x20, .f32⟩ : BufTy).Contents (Elt F) :=
  mulf (x3) (val_main_v321 (F := F) x0 x2 x3 x5 x6 x7 x8 x9 x10)
def val_main_v323 : (⟨S1000000x1, .f32⟩ : BufTy).Contents (Elt F) :=
  transpose S1000000x1 [1, 0] (val_main_v218 (F := F) x0 x2 x3 x5 x6 x7 x8 x9 x10) transposes_S1x1000000_S1000000x1_1_0
def val_main_v324 : (⟨S1000000x20, .f32⟩ : BufTy).Contents (Elt F) :=
  Host.dotGeneral dot_S1000000x1_S1x20_S1000000x20_1_0_0_1_n_n none (val_main_v323 (F := F) x0 x2 x3 x5 x6 x7 x8 x9 x10) (val_main_v317 (F := F) x0 x1 x3 x4 x5 x6 x7 x8 x9 x10 x11 x12 x13 x14 x15 x16 x17 x18 x19 x20 x21 x22 x23 x24 x25 x26 x27 x28 x29 x30)
def val_main_v325 : (⟨S1000000x20, .f32⟩ : BufTy).Contents (Elt F) :=
  addf (val_main_v322 (F := F) x0 x2 x3 x5 x6 x7 x8 x9 x10) (val_main_v324 (F := F) x0 x1 x2 x3 x4 x5 x6 x7 x8 x9 x10 x11 x12 x13 x14 x15 x16 x17 x18 x19 x20 x21 x22 x23 x24 x25 x26 x27 x28 x29 x30)

end Cert.ReferenceIdeal.Read

end
-- ==== Proof.KI.JH0.lean ====
import proofs.«420955_j27152783245914_3_alg».proof.Proof.KI.Vals
import proofs.«420955_j27152783245914_3_alg».proof.Proof.Ref.Stages
import Idealize.ShloMosaic.PureOps.Ideal

set_option maxRecDepth 16384

namespace Cert.KernelIdeal.Hand

open Cert.KernelIdeal Cert.KernelIdeal.Gen Cert.ReferenceIdeal.Read Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Argument `k` as launched on core `c`. -/
abbrev inp (k : Ref sig .tc) := m ((c.tc : Thread nD τ).loc k)

theorem j0_main_v94 : W9 m ρ c (Proc.devRef .tc main_v94) = val_main_v67 (F := Ideal) (inp m c main_arg0) (inp m c main_arg5) (inp m c main_arg6) (inp m c main_arg7) (inp m c main_arg8) (inp m c main_arg9) (inp m c main_arg10) := by
  dsimp only [W9, W8, W7, W6, W5, W4, W3, W2, W1]; after_results_simp; rfl

theorem j0_main_v96 : W9 m ρ c (Proc.devRef .tc main_v96) = val_main_v159 (F := Ideal) (inp m c main_arg0) (inp m c main_arg5) (inp m c main_arg6) (inp m c main_arg7) (inp m c main_arg8) (inp m c main_arg9) (inp m c main_arg10) := by
  dsimp only [W9, W8, W7, W6, W5, W4, W3, W2, W1]; after_results_simp; rfl

theorem j0_main_v63 : W9 m ρ c (Proc.devRef .tc main_v63) = val_main_v63 (F := Ideal) (inp m c main_arg0) (inp m c main_arg5) (inp m c main_arg6) (inp m c main_arg7) (inp m c main_arg8) (inp m c main_arg9) (inp m c main_arg10) := by
  dsimp only [W9, W8, W7, W6, W5, W4, W3, W2, W1]; after_results_simp; rfl

theorem j0_main_v44 : W9 m ρ c (Proc.devRef .tc main_v44) = val_main_v44 (F := Ideal) (inp m c main_arg0) (inp m c main_arg5) (inp m c main_arg6) (inp m c main_arg7) (inp m c main_arg8) (inp m c main_arg9) (inp m c main_arg10) := by
  dsimp only [W9, W8, W7, W6, W5, W4, W3, W2, W1]; after_results_simp; rfl

theorem j0_main_v56 : W9 m ρ c (Proc.devRef .tc main_v56) = val_main_v56 (F := Ideal) (inp m c main_arg0) (inp m c main_arg5) (inp m c main_arg6) (inp m c main_arg7) (inp m c main_arg8) (inp m c main_arg9) (inp m c main_arg10) := by
  dsimp only [W9, W8, W7, W6, W5, W4, W3, W2, W1]; after_results_simp; rfl

theorem j0_main_v60 : W9 m ρ c (Proc.devRef .tc main_v60) = val_main_v60 (F := Ideal) (inp m c main_arg0) (inp m c main_arg5) (inp m c main_arg6) (inp m c main_arg7) (inp m c main_arg8) (inp m c main_arg9) (inp m c main_arg10) := by
  dsimp only [W9, W8, W7, W6, W5, W4, W3, W2, W1]; after_results_simp; rfl

theorem j0_main_v92 : W9 m ρ c (Proc.devRef .tc main_v92) = val_main_v155 (F := Ideal) (inp m c main_arg0) (inp m c main_arg5) (inp m c main_arg6) (inp m c main_arg7) (inp m c main_arg8) (inp m c main_arg9) (inp m c main_arg10) := by
  dsimp only [W9, W8, W7, W6, W5, W4, W3, W2, W1]; after_results_simp; rfl

theorem j0_main_v73 : W9 m ρ c (Proc.devRef .tc main_v73) = val_main_v136 (F := Ideal) (inp m c main_arg0) (inp m c main_arg5) (inp m c main_arg6) (inp m c main_arg7) (inp m c main_arg8) (inp m c main_arg9) (inp m c main_arg10) := by
  dsimp only [W9, W8, W7, W6, W5, W4, W3, W2, W1]; after_results_simp; rfl

theorem j0_main_v85 : W9 m ρ c (Proc.devRef .tc main_v85) = val_main_v148 (F := Ideal) (inp m c main_arg0) (inp m c main_arg5) (inp m c main_arg6) (inp m c main_arg7) (inp m c main_arg8) (inp m c main_arg9) (inp m c main_arg10) := by
  dsimp only [W9, W8, W7, W6, W5, W4, W3, W2, W1]; after_results_simp; rfl

theorem j0_main_v89 : W9 m ρ c (Proc.devRef .tc main_v89) = val_main_v152 (F := Ideal) (inp m c main_arg0) (inp m c main_arg5) (inp m c main_arg6) (inp m c main_arg7) (inp m c main_arg8) (inp m c main_arg9) (inp m c main_arg10) := by
  dsimp only [W9, W8, W7, W6, W5, W4, W3, W2, W1]; after_results_simp; rfl

theorem j0_main_v15 : W9 m ρ c (Proc.devRef .tc main_v15) = val_main_v15 (F := Ideal) (inp m c main_arg0) (inp m c main_arg5) (inp m c main_arg6) (inp m c main_arg7) (inp m c main_arg8) (inp m c main_arg11) (inp m c main_arg12) := by
  dsimp only [W9, W8, W7, W6, W5, W4, W3, W2, W1]; after_results_simp; rfl

theorem j0_main_v34 : W9 m ρ c (Proc.devRef .tc main_v34) = val_main_v34 (F := Ideal) (inp m c main_arg0) (inp m c main_arg5) (inp m c main_arg6) (inp m c main_arg7) (inp m c main_arg8) (inp m c main_arg9) (inp m c main_arg10) := by
  dsimp only [W9, W8, W7, W6, W5, W4, W3, W2, W1]; after_results_simp; rfl

theorem j0_main_v30 : W9 m ρ c (Proc.devRef .tc main_v30) = val_main_v30 (F := Ideal) (inp m c main_arg0) (inp m c main_arg5) (inp m c main_arg6) (inp m c main_arg7) (inp m c main_arg8) (inp m c main_arg9) (inp m c main_arg10) := by
  dsimp only [W9, W8, W7, W6, W5, W4, W3, W2, W1]; after_results_simp; rfl

end Cert.KernelIdeal.Hand
-- ==== Proof.KI.Skip.lean ====
import proofs.«420955_j27152783245914_3_alg».proof.Proof.KI.Vals

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- `V'` agrees with `V` at every reference outside `l`. -/
def Keeps (V V' : Valuation τ sig (Elt F)) (l : List (Ref sig .tc)) : Prop :=
  ∀ r, r ∉ l → V' (Proc.devRef .tc r) = V (Proc.devRef .tc r)

theorem Keeps.trans {V V' V'' : Valuation τ sig (Elt F)} {l l' : List (Ref sig .tc)} (h : Keeps V V' l)
    (h' : Keeps V' V'' l') : Keeps V V'' (l ++ l') :=
  fun r hr => (h' r fun x => hr (List.mem_append_right _ x)).trans (h r fun x => hr (List.mem_append_left _ x))

-- operations that write one reference of `l` each change nothing outside `l`
theorem host_keeps {ops : List (HloOp τ sig (Elt F))} {l : List (Ref sig .tc)} (V : Valuation τ sig (Elt F))
    (h : ops.map HloOp.writes = l.map fun y => {Proc.devRef .tc y}) : Keeps V (StableHlo.after ops V) l :=
  fun r hr => StableHlo.after_of_forall_not_mem ops V fun op hop hb => by
    obtain ⟨y, hy, e⟩ := List.mem_map.mp (h ▸ List.mem_map_of_mem (f := HloOp.writes) hop)
    rw [← e, Finset.mem_singleton] at hb
    exact hr (Proc.devRef_injective _ hb ▸ hy)

abbrev wr1 : List (Ref sig .tc) := [
  main_v0, main_v1, main_v2, main_v3, main_v4, main_v5, main_v6, main_v7, main_v8, main_v9, main_v10, main_v11,
  main_v12, main_v13, main_v14, main_v15, main_v16, main_v17, main_v18, main_v19, main_v20, main_v21, main_v22,
  main_v23, main_v24, main_v25, main_v26, main_cst, main_v27, main_v28, main_cst_0, main_v29, main_v30, main_v31,
  main_v32, main_v33, main_v34, main_v35, main_v36, main_v37, main_v38, main_v39, main_v40, main_v41, main_v42,
  main_cst_1, main_v43, main_cst_2, main_v44, main_v45, main_v46, main_cst_3, main_v47, main_cst_4, main_v48,
  main_v49, main_v50, main_v51, main_v52, main_cst_5, main_v53, main_v54, main_v55, main_v56, main_v57, main_v58]
theorem step1 (c : Dev nD) : Keeps (W0 m ρ c) (W1 m ρ c) wr1 := host_keeps _ rfl

abbrev wr2 : List (Ref sig .tc) := [
  main_call0_cst, main_call0_v0, main_call0_v1, main_call0_v2, main_call0_v3, main_call0_v4, main_call0_v5,
  main_call0_v6, main_call0_v7, main_call0_v8, main_v59]
theorem step2 (c : Dev nD) : Keeps (W1 m ρ c) (W2 m ρ c) wr2 := host_keeps _ rfl

abbrev wr3 : List (Ref sig .tc) := [
  main_cst_6, main_v60, main_v61, main_v62]
theorem step3 (c : Dev nD) : Keeps (W2 m ρ c) (W3 m ρ c) wr3 := host_keeps _ rfl

abbrev wr4 : List (Ref sig .tc) := [
  main_call1_cst, main_call1_v0, main_call1_v1, main_call1_v2, main_call1_v3, main_call1_v4, main_call1_v5,
  main_call1_v6, main_call1_v7, main_call1_v8, main_v63]
theorem step4 (c : Dev nD) : Keeps (W3 m ρ c) (W4 m ρ c) wr4 := host_keeps _ rfl

abbrev wr5 : List (Ref sig .tc) := [
  main_v64, main_v65, main_v66, main_v67, main_v68, main_v69, main_v70, main_v71, main_cst_7, main_v72, main_cst_8,
  main_v73, main_v74, main_v75, main_cst_9, main_v76, main_cst_10, main_v77, main_v78, main_v79, main_v80, main_v81,
  main_cst_11, main_v82, main_v83, main_v84, main_v85, main_v86, main_v87]
theorem step5 (c : Dev nD) : Keeps (W4 m ρ c) (W5 m ρ c) wr5 := host_keeps _ rfl

abbrev wr6 : List (Ref sig .tc) := [
  main_call2_cst, main_call2_v0, main_call2_v1, main_call2_v2, main_call2_v3, main_call2_v4, main_call2_v5,
  main_call2_v6, main_call2_v7, main_call2_v8, main_v88]
theorem step6 (c : Dev nD) : Keeps (W5 m ρ c) (W6 m ρ c) wr6 := host_keeps _ rfl

abbrev wr7 : List (Ref sig .tc) := [
  main_cst_12, main_v89, main_v90, main_v91]
theorem step7 (c : Dev nD) : Keeps (W6 m ρ c) (W7 m ρ c) wr7 := host_keeps _ rfl

abbrev wr8 : List (Ref sig .tc) := [
  main_call3_cst, main_call3_v0, main_call3_v1, main_call3_v2, main_call3_v3, main_call3_v4, main_call3_v5,
  main_call3_v6, main_call3_v7, main_call3_v8, main_v92]
theorem step8 (c : Dev nD) : Keeps (W7 m ρ c) (W8 m ρ c) wr8 := host_keeps _ rfl

abbrev wr9 : List (Ref sig .tc) := [
  main_cst_13, main_v93, main_v94, main_cst_14, main_v95, main_v96]
theorem step9 (c : Dev nD) : Keeps (W8 m ρ c) (W9 m ρ c) wr9 := host_keeps _ rfl

abbrev wr11 : List (Ref sig .tc) := [
  main_v98, main_v99, main_v100]
theorem step11 (c : Dev nD) : Keeps (W10 m ρ c) (W11 m ρ c) wr11 := host_keeps _ rfl

abbrev wr12 : List (Ref sig .tc) := [
  main_call4_v0, main_call4_cst, main_call4_v1, main_v101]
theorem step12 (c : Dev nD) : Keeps (W11 m ρ c) (W12 m ρ c) wr12 := host_keeps _ rfl

abbrev wr13 : List (Ref sig .tc) := [
  main_cst_15, main_v102, main_v103, main_cst_16, main_v104, main_v105, main_v106, main_v107, main_v108, main_v109,
  main_v110, main_v111, main_v112, main_cst_17, main_v113, main_cst_18, main_v114, main_v115, main_v116, main_v117,
  main_v118, main_v119, main_cst_19, main_v120, main_v121, main_v122, main_v123, main_v124, main_v125, main_cst_20,
  main_v126, main_v127, main_v128, main_v129, main_v130, main_v131, main_v132, main_v133, main_v134, main_v135,
  main_v136, main_v137, main_v138, main_v139, main_v140, main_v141, main_v142, main_v143, main_v144, main_v145,
  main_v146, main_v147, main_v148, main_v149, main_v150, main_v151, main_cst_21, main_v152, main_v153, main_cst_22,
  main_v154, main_v155, main_v156, main_v157]
theorem step13 (c : Dev nD) : Keeps (W12 m ρ c) (W13 m ρ c) wr13 := host_keeps _ rfl

abbrev wr14 : List (Ref sig .tc) := [
  main_call5_v0, main_call5_cst, main_call5_v1, main_v158]
theorem step14 (c : Dev nD) : Keeps (W13 m ρ c) (W14 m ρ c) wr14 := host_keeps _ rfl

abbrev wr15 : List (Ref sig .tc) := [
  main_cst_23, main_v159, main_v160, main_cst_24, main_v161, main_v162, main_v163, main_v164, main_v165, main_v166,
  main_v167, main_v168, main_v169, main_cst_25, main_v170, main_cst_26, main_v171, main_v172, main_v173, main_v174,
  main_v175, main_v176, main_cst_27, main_v177, main_v178, main_v179, main_v180, main_v181, main_v182, main_cst_28,
  main_v183, main_v184, main_v185, main_v186, main_v187, main_v188, main_v189, main_v190, main_v191, main_v192,
  main_v193, main_v194, main_v195, main_v196, main_v197, main_v198, main_v199, main_v200, main_v201, main_v202,
  main_v203, main_v204, main_v205, main_v206, main_v207, main_v208, main_cst_29, main_v209, main_v210, main_cst_30,
  main_v211, main_v212, main_v213, main_v214, main_v215]
theorem step15 (c : Dev nD) : Keeps (W14 m ρ c) (W15 m ρ c) wr15 := host_keeps _ rfl

abbrev wr17 : List (Ref sig .tc) := [
  main_v217, main_cst_31, main_v218, main_v219, main_v220, main_v221, main_v222, main_v223, main_v224, main_cst_32,
  main_v225, main_cst_33, main_v226, main_v227, main_cst_34, main_v228, main_cst_35, main_v229, main_v230, main_v231,
  main_v232, main_v233, main_v234, main_cst_36, main_v235, main_v236, main_v237, main_v238, main_v239, main_v240,
  main_v241, main_v242]
theorem step17 (c : Dev nD) : Keeps (W16 m ρ c) (W17 m ρ c) wr17 := host_keeps _ rfl

abbrev wr18 : List (Ref sig .tc) := [
  main_call6_cst, main_call6_v0, main_v243]
theorem step18 (c : Dev nD) : Keeps (W17 m ρ c) (W18 m ρ c) wr18 := host_keeps _ rfl

abbrev wr19 : List (Ref sig .tc) := [
  main_v244, main_v245, main_v246, main_v247]
theorem step19 (c : Dev nD) : Keeps (W18 m ρ c) (W19 m ρ c) wr19 := host_keeps _ rfl

abbrev wr20 : List (Ref sig .tc) := [
  main_call7_cst, main_call7_v0, main_v248]
theorem step20 (c : Dev nD) : Keeps (W19 m ρ c) (W20 m ρ c) wr20 := host_keeps _ rfl

abbrev wr21 : List (Ref sig .tc) := [
  main_v249, main_v250, main_v251, main_v252]
theorem step21 (c : Dev nD) : Keeps (W20 m ρ c) (W21 m ρ c) wr21 := host_keeps _ rfl

abbrev wr22 : List (Ref sig .tc) := [
  main_call8_cst, main_call8_v0, main_v253]
theorem step22 (c : Dev nD) : Keeps (W21 m ρ c) (W22 m ρ c) wr22 := host_keeps _ rfl

abbrev wr23 : List (Ref sig .tc) := [
  main_v254, main_v255, main_v256, main_v257, main_cst_37, main_v258, main_cst_38, main_v259, main_v260, main_v261,
  main_v262, main_v263, main_v264, main_cst_39, main_v265, main_v266, main_v267, main_v268, main_v269, main_v270,
  main_v271, main_v272]
theorem step23 (c : Dev nD) : Keeps (W22 m ρ c) (W23 m ρ c) wr23 := host_keeps _ rfl

abbrev wr24 : List (Ref sig .tc) := [
  main_call9_cst, main_call9_v0, main_v273]
theorem step24 (c : Dev nD) : Keeps (W23 m ρ c) (W24 m ρ c) wr24 := host_keeps _ rfl

abbrev wr25 : List (Ref sig .tc) := [
  main_v274, main_v275, main_v276, main_v277]
theorem step25 (c : Dev nD) : Keeps (W24 m ρ c) (W25 m ρ c) wr25 := host_keeps _ rfl

abbrev wr26 : List (Ref sig .tc) := [
  main_call10_cst, main_call10_v0, main_v278]
theorem step26 (c : Dev nD) : Keeps (W25 m ρ c) (W26 m ρ c) wr26 := host_keeps _ rfl

abbrev wr27 : List (Ref sig .tc) := [
  main_v279, main_v280, main_v281, main_v282]
theorem step27 (c : Dev nD) : Keeps (W26 m ρ c) (W27 m ρ c) wr27 := host_keeps _ rfl

abbrev wr28 : List (Ref sig .tc) := [
  main_call11_cst, main_call11_v0, main_v283]
theorem step28 (c : Dev nD) : Keeps (W27 m ρ c) (W28 m ρ c) wr28 := host_keeps _ rfl

abbrev wr29 : List (Ref sig .tc) := [
  main_v284, main_v285, main_v286, main_v287, main_cst_40, main_v288, main_cst_41, main_v289, main_v290, main_v291,
  main_v292, main_v293, main_v294, main_cst_42, main_v295, main_v296, main_v297, main_v298, main_v299, main_v300,
  main_v301, main_v302, main_v303, main_v304, main_v305, main_v306, main_v307, main_v308, main_v309, main_v310,
  main_v311, main_v312, main_v313, main_cst_43, main_v314, main_v315, main_v316, main_v317, main_v318]
theorem step29 (c : Dev nD) : Keeps (W28 m ρ c) (W29 m ρ c) wr29 := host_keeps _ rfl

-- of a region's arrays only the output window's changes: the others are inputs (`Dat.arrAt_in`)
theorem step10 (c : Dev nD) : Keeps (W9 m ρ c) (W10 m ρ c) [main_v97] := fun r h => by
  by_cases hr : ∃ w, Pipeline.arrRef spec0 w = r
  · obtain ⟨w, rfl⟩ := hr
    exact (W10_arr m ρ c w).trans
      (((dat0 (V9 m ρ) c).arrAt_in w (by revert w; decide) _).trans (A_eq0 (V9 m ρ) c w))
  · exact W10_of_ne m ρ c r fun w e => hr ⟨w, e⟩
theorem step16 (c : Dev nD) : Keeps (W15 m ρ c) (W16 m ρ c) [main_v216] := fun r h => by
  by_cases hr : ∃ w, Pipeline.arrRef spec1 w = r
  · obtain ⟨w, rfl⟩ := hr
    exact (W16_arr m ρ c w).trans
      (((dat1 (V15 m ρ) c).arrAt_in w (by revert w; decide) _).trans (A_eq1 (V15 m ρ) c w))
  · exact W16_of_ne m ρ c r fun w e => hr ⟨w, e⟩
theorem step30 (c : Dev nD) : Keeps (W29 m ρ c) (W30 m ρ c) [main_v319] := fun r h => by
  by_cases hr : ∃ w, Pipeline.arrRef spec2 w = r
  · obtain ⟨w, rfl⟩ := hr
    exact (W30_arr m ρ c w).trans
      (((dat2 (V29 m ρ) c).arrAt_in w (by revert w; decide) _).trans (A_eq2 (V29 m ρ) c w))
  · exact W30_of_ne m ρ c r fun w e => hr ⟨w, e⟩

/-- The contents at boundary `i`. -/
def Ws : ℕ → Dev nD → Valuation τ sig (Elt F)
  | 0 => W0 m ρ | 1 => W1 m ρ | 2 => W2 m ρ | 3 => W3 m ρ | 4 => W4 m ρ | 5 => W5 m ρ | 6 => W6 m ρ
  | 7 => W7 m ρ | 8 => W8 m ρ | 9 => W9 m ρ | 10 => W10 m ρ | 11 => W11 m ρ | 12 => W12 m ρ | 13 => W13 m ρ
  | 14 => W14 m ρ | 15 => W15 m ρ | 16 => W16 m ρ | 17 => W17 m ρ | 18 => W18 m ρ | 19 => W19 m ρ
  | 20 => W20 m ρ | 21 => W21 m ρ | 22 => W22 m ρ | 23 => W23 m ρ | 24 => W24 m ρ | 25 => W25 m ρ
  | 26 => W26 m ρ | 27 => W27 m ρ | 28 => W28 m ρ | 29 => W29 m ρ
  | _ => W30 m ρ

/-- The references item `i` may change. -/
noncomputable def wrs : ℕ → List (Ref sig .tc)
  | 1 => wr1 | 2 => wr2 | 3 => wr3 | 4 => wr4 | 5 => wr5 | 6 => wr6 | 7 => wr7 | 8 => wr8 | 9 => wr9
  | 10 => [main_v97] | 11 => wr11 | 12 => wr12 | 13 => wr13 | 14 => wr14 | 15 => wr15 | 16 => [main_v216]
  | 17 => wr17 | 18 => wr18 | 19 => wr19 | 20 => wr20 | 21 => wr21 | 22 => wr22 | 23 => wr23 | 24 => wr24
  | 25 => wr25 | 26 => wr26 | 27 => wr27 | 28 => wr28 | 29 => wr29 | 30 => [main_v319]
  | _ => []

theorem step (c : Dev nD) : ∀ i, Keeps (Ws m ρ i c) (Ws m ρ (i + 1) c) (wrs (i + 1))
  | 0 => step1 m ρ c | 1 => step2 m ρ c | 2 => step3 m ρ c | 3 => step4 m ρ c | 4 => step5 m ρ c
  | 5 => step6 m ρ c | 6 => step7 m ρ c | 7 => step8 m ρ c | 8 => step9 m ρ c | 9 => step10 m ρ c
  | 10 => step11 m ρ c | 11 => step12 m ρ c | 12 => step13 m ρ c | 13 => step14 m ρ c | 14 => step15 m ρ c
  | 15 => step16 m ρ c | 16 => step17 m ρ c | 17 => step18 m ρ c | 18 => step19 m ρ c | 19 => step20 m ρ c
  | 20 => step21 m ρ c | 21 => step22 m ρ c | 22 => step23 m ρ c | 23 => step24 m ρ c | 24 => step25 m ρ c
  | 25 => step26 m ρ c | 26 => step27 m ρ c | 27 => step28 m ρ c | 28 => step29 m ρ c | 29 => step30 m ρ c
  | _ + 30 => fun _ _ => rfl

/-- The references items `i + 1 … i + n` may change. -/
def span (i : ℕ) : ℕ → List (Ref sig .tc)
  | 0 => []
  | n + 1 => span i n ++ wrs (i + n + 1)

/-- A reference none of items `i + 1 … i + n` may change holds at boundary `i + n` what it held at boundary `i`. -/
theorem keep (c : Dev nD) (i : ℕ) : ∀ n, Keeps (Ws m ρ i c) (Ws m ρ (i + n) c) (span i n)
  | 0 => fun _ _ => rfl
  | n + 1 => (keep c i n).trans (step m ρ c (i + n))

/-- A reference none of the first ten items may change holds at region 0's exit what the launch memory held. -/
theorem at10 (c : Dev nD) (r : Ref sig .tc) (h : r ∉ span 0 10) :
    W10 m ρ c (Proc.devRef .tc r) = m ((c.tc : Thread nD τ).loc r) :=
  keep m ρ c 0 10 r h
/-- And likewise for the first sixteen at region 1's exit. -/
theorem at16 (c : Dev nD) (r : Ref sig .tc) (h : r ∉ span 0 16) :
    W16 m ρ c (Proc.devRef .tc r) = m ((c.tc : Thread nD τ).loc r) :=
  keep m ρ c 0 16 r h

end Cert.KernelIdeal.Hand

end
-- ==== Proof.KI.Val0.lean ====
import proofs.«420955_j27152783245914_3_alg».proof.Proof.KI.Skip
import proofs.«420955_j27152783245914_3_alg».proof.ReferenceIdeal
import proofs.«420955_j27152783245914_3_alg».proof.Proof.Gen.ReferenceIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.Lib.KernelVsHost
import Idealize.ShloMosaic.Lib.StackMember

set_option maxRecDepth 16384

noncomputable section

namespace Cert.KernelIdeal.Hand

open Cert.KernelIdeal Cert.KernelIdeal.Gen
open Idealize.ShloMosaic Idealize.ShloMosaic.TcCoe Idealize.SL Idealize.SL.Sem Idealize.ShloMosaic.StableHlo Idealize.ShloMosaic.ValueIdx

variable (m : (ℓ : Loc nD τ sig) → Buf (Elt Ideal) ℓ) (ρ : Dev nD → PrngReg)

abbrev refRowNorm (M : FVec Ideal Cert.ReferenceIdeal.S1000000x20 .f32) : FVec Ideal Cert.ReferenceIdeal.S1000000 .f32 :=
  (Host.sqrt (Host.reduceAdd (mulf (addf M (broadcastInDim Cert.ReferenceIdeal.S1000000x20 ![] Cert.ReferenceIdeal.Facts₀.bcast_S_S1000000x20 (constant Cert.ReferenceIdeal.S_ .f32 0x24E69595#32))) (addf M (broadcastInDim Cert.ReferenceIdeal.S1000000x20 ![] Cert.ReferenceIdeal.Facts₀.bcast_S_S1000000x20 (constant Cert.ReferenceIdeal.S_ .f32 0x24E69595#32)))) (constant Cert.ReferenceIdeal.S_ .f32 0x00000000#32) Cert.ReferenceIdeal.Facts₀.reducesTo_S1000000x20_S1000000_d1 Cert.ReferenceIdeal.Facts₀.h_S_))

abbrev refRowDot (M : FVec Ideal Cert.ReferenceIdeal.S1000000x20 .f32) (ke : FVec Ideal Cert.ReferenceIdeal.S1x20 .f32) : FVec Ideal Cert.ReferenceIdeal.S1000000 .f32 :=
  (shapeCast Cert.ReferenceIdeal.S1000000 (Host.dotGeneral Cert.ReferenceIdeal.dot_S1000000x20_S20x1_S1000000x1_1_0_0_1_n_n none (addf M (broadcastInDim Cert.ReferenceIdeal.S1000000x20 ![] Cert.ReferenceIdeal.Facts₀.bcast_S_S1000000x20 (constant Cert.ReferenceIdeal.S_ .f32 0x24E69595#32))) (transpose Cert.ReferenceIdeal.S20x1 [1, 0] ke Cert.ReferenceIdeal.Facts₀.transposes_S1x20_S20x1_1_0)) Cert.ReferenceIdeal.Facts₀.shapeCasts_S1000000x1_S1000000)

abbrev shift0 : Ideal .f32 := Ideal.ofBits .f32 0x24E69595#32

-- what a row contributes: the root of the shifted row's sum of squares and its inner products with two keys
def rowFeat (r k1 k2 : Fin 20 → Ideal .f32) : Fin 3 → Ideal .f32
  | 0 => Ideal.sqrt (∑ k, (r k + shift0) * (r k + shift0))
  | 1 => ∑ k, (r k + shift0) * k1 k
  | 2 => ∑ k, (r k + shift0) * k2 k

theorem cat3_col {α : Type} (c0 c1 c2 : S10000x1.Idx → α) (p : Fin 10000) (q : Fin 3) :
    concatenate S10000x3 1 [⟨S10000x1, c0⟩, ⟨S10000x1, c1⟩, ⟨S10000x1, c2⟩]
      concatenates_S10000x1_S10000x1_S10000x1_S10000x3_d1 (ix2 p q) = ![c0, c1, c2] q (ix2 p 0) :=
  concatenate_apply_piece (t := S10000x3) (1 : Fin 2) [⟨S10000x1, c0⟩, ⟨S10000x1, c1⟩, ⟨S10000x1, c2⟩]
    concatenates_S10000x1_S10000x1_S10000x1_S10000x3_d1 (ix2 p q) q.val q.isLt S10000x1 (![c0, c1, c2] q)
    (by fin_cases q <;> rfl) rfl q.val (by fin_cases q <;> rfl) (ix2 p 0)
    (fun b hb => by match b with | ⟨0, _⟩ => rfl | ⟨1, _⟩ => exact absurd rfl hb) rfl

theorem laneSum_col (v : FVec Ideal S10000x20 .f32) (hφ : FKind.Formats .f32)
    (hacc : (0x00000000#32 : BitVec 32) = 0x00000000#32) (p : Fin 10000) :
    shapeCast S10000x1 (multiReduction .add [1] S10000 v 0x00000000#32 reduces_S10000x20_S10000 hφ hacc)
      shapeCasts_S10000_S10000x1 (ix2 p 0) = ∑ k : Fin 20, v (ix2 p k) := by
  refine (shapeCast_apply _ shapeCasts_S10000_S10000x1 (ix2 p 0) (ix1 p)
    (by rw [Shape.rowMajor_val_one, Shape.rowMajor_val_two]; show p.val = p.val * 1 + 0; omega)).trans ?_
  refine (Ideal.multiReduction_add_single v 0x00000000#32 reduces_S10000x20_S10000 hφ hacc (ix1 p)).trans ?_
  refine Finset.sum_congr rfl fun k _ => congrArg v (funext fun a => Fin.ext ?_)
  match a with
  | ⟨0, _⟩ => rfl
  | ⟨1, _⟩ => rfl

theorem keyRow_bcast (x : Vec Ideal S1x20 .f32) (p : Fin 10000) (k : Fin 20) :
    broadcastTo S10000x20 (shapeCast S1x20 x shapeCasts_S1x20_S1x20) broadcasts_S1x20_S10000x20 (ix2 p k)
      = x (ix2 (0 : Fin 1) k) := by
  rw [shapeCast_self, broadcastTo_1b_ab_apply]

theorem pay_apply0 (x0 : Vec Ideal S10000x20 .f32) (x1 x2 : Vec Ideal S1x20 .f32) (p : Fin 10000) (q : Fin 3) :
    k0_pay1 x0 x1 x2 (ix2 p q)
      = rowFeat (fun k => x0 (ix2 p k)) (fun k => x1 (ix2 (0 : Fin 1) k)) (fun k => x2 (ix2 (0 : Fin 1) k)) q := by
  unfold k0_pay1
  dsimp only
  rw [cat3_col]
  match q with
  | 0 => exact congrArg Ideal.sqrt (laneSum_col _ (.inl rfl) rfl p)
  | 1 => exact (laneSum_col _ (.inl rfl) rfl p).trans (Finset.sum_congr rfl fun k _ => by rw [mulf_apply, keyRow_bcast]; rfl)
  | 2 => exact (laneSum_col _ (.inl rfl) rfl p).trans (Finset.sum_congr rfl fun k _ => by rw [mulf_apply, keyRow_bcast]; rfl)

theorem hostRowSum_apply (y0 : FVec Ideal Cert.ReferenceIdeal.S1000000x20 .f32) (i : Fin 1000000) :
    Host.reduceAdd y0 (constant (F := Ideal) Cert.ReferenceIdeal.S_ .f32 0x00000000#32)
      Cert.ReferenceIdeal.Facts₀.reducesTo_S1000000x20_S1000000_d1 Cert.ReferenceIdeal.Facts₀.h_S_ (ix1 i)
      = ∑ k : Fin 20, y0 (ix2 i k) := by
  refine (hostReduceAdd_apply _ _ _ _ (ix1 i)).trans ?_
  refine (Ideal.hostReduceAdd_single Cert.ReferenceIdeal.Facts₀.reducesTo_S1000000x20_S1000000_d1 (by decide) _ _ (ix1 i)).trans ?_
  rw [constant_apply, Ideal.ofBits_zero_f32, zero_add]
  exact Finset.sum_congr rfl fun k _ => congrArg y0 (funext fun a => Fin.ext (by match a with | ⟨0, _⟩ => rfl | ⟨1, _⟩ => rfl))

theorem refRowNorm_apply (M : FVec Ideal Cert.ReferenceIdeal.S1000000x20 .f32) (i : Fin 1000000) :
    refRowNorm M (ix1 i) = Ideal.sqrt (∑ k : Fin 20, (M (ix2 i k) + shift0) * (M (ix2 i k) + shift0)) := by
  simp only [Host.sqrt, Ideal.hostUnary_sqrt_def]
  refine congrArg Ideal.sqrt ((hostRowSum_apply _ i).trans (Finset.sum_congr rfl fun k _ => ?_))
  rw [mulf_apply, addf_apply, broadcastInDim_scalar_apply, constant_apply]

theorem refRowDot_apply (M : FVec Ideal Cert.ReferenceIdeal.S1000000x20 .f32) (ke : FVec Ideal Cert.ReferenceIdeal.S1x20 .f32) (i : Fin 1000000) :
    refRowDot M ke (ix1 i) = ∑ k : Fin 20, (M (ix2 i k) + shift0) * ke (ix2 (0 : Fin 1) k) := by
  refine (shapeCast_apply _ Cert.ReferenceIdeal.Facts₀.shapeCasts_S1000000x1_S1000000 (ix1 i) (ix2 i (0 : Fin 1))
    (by rw [Shape.rowMajor_val_one, Shape.rowMajor_val_two]; show i.val * 1 + 0 = i.val; omega)).trans ?_
  refine (StackMember.dotGeneral_plain_apply none _ _ i 0).trans (Finset.sum_congr rfl fun k _ => ?_)
  rw [addf_apply, broadcastInDim_scalar_apply, constant_apply, transpose_ix2_apply]

theorem hz0 : (![0, 0] : Fin 2 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

def feat0 (M : S1000000x20.Idx → Ideal .f32) (K1 K2 : S1x20.Idx → Ideal .f32) : S1000000x3.Idx → Ideal .f32 := fun j =>
  rowFeat (fun k => M (ix2 (j 0) k)) (fun k => K1 (ix2 (0 : Fin 1) k)) (fun k => K2 (ix2 (0 : Fin 1) k)) (j 1)

theorem flushed0_3_eq (c : Dev nD) (t : Fin cfg0.N) :
    (dat0 (V9 m ρ) c).flushed 3 t = ((cfg0.win 3).blk t).view.read (Elt Ideal)
      (feat0 (V9 m ρ c main_arg3) (V9 m ρ c main_v94) (V9 m ρ c main_v96)) := by
  show (cfg0.win 3).cut (grid0.coords t) ((dat0 (V9 m ρ) c).after 3 t) = _
  rw [after0_3]
  unfold out0_3
  rw [View.canon_unit_zero hz0]
  simp only [View.ld_unit_zero (S := S10000x20) hz0, View.ld_unit_zero (S := S1x20) hz0]
  obtain ⟨e00, e01, e10, e11, e20, e21, e30, e31⟩ := idx_facts0 t
  funext y
  refine ((congrArg _ (eq_ix2 y)).trans (pay_apply0 _ _ _ (y 0) (y 1))).trans
    (congr (congr (congr (congrArg rowFeat (funext fun k => ?_)) (funext fun k => ?_)) (funext fun k => ?_)) (Fin.ext ?_))
  · show V9 m ρ c main_arg3 (((cfg0.win 0).blk t).view.emb (ix2 (y 0) k)) = V9 m ρ c main_arg3 (ix2 ((((cfg0.win 3).blk t).view.emb y) 0) k)
    refine congrArg _ (funext fun a => Fin.ext ?_)
    match a with
    | ⟨0, _⟩ => show win0_0.index t (0 : Fin 2) * 10000 + 1 * (y 0).val = win0_3.index t (0 : Fin 2) * 10000 + 1 * (y 0).val; rw [e00, e30]
    | ⟨1, _⟩ => show win0_0.index t (1 : Fin 2) * 20 + 1 * k.val = k.val; rw [e01]; omega
  · show V9 m ρ c main_v94 (((cfg0.win 1).blk t).view.emb (ix2 (0 : Fin 1) k)) = V9 m ρ c main_v94 (ix2 (0 : Fin 1) k)
    refine congrArg _ (funext fun a => Fin.ext ?_)
    match a with
    | ⟨0, _⟩ => show win0_1.index t (0 : Fin 2) * 1 + 1 * 0 = 0; rw [e10]
    | ⟨1, _⟩ => show win0_1.index t (1 : Fin 2) * 20 + 1 * k.val = k.val; rw [e11]; omega
  · show V9 m ρ c main_v96 (((cfg0.win 2).blk t).view.emb (ix2 (0 : Fin 1) k)) = V9 m ρ c main_v96 (ix2 (0 : Fin 1) k)
    refine congrArg _ (funext fun a => Fin.ext ?_)
    match a with
    | ⟨0, _⟩ => show win0_2.index t (0 : Fin 2) * 1 + 1 * 0 = 0; rw [e20]
    | ⟨1, _⟩ => show win0_2.index t (1 : Fin 2) * 20 + 1 * k.val = k.val; rw [e21]; omega
  · show (y 1).val = win0_3.index t (1 : Fin 2) * 3 + 1 * (y 1).val
    rw [e31]; omega

theorem cover0_3_arr (i : S1000000x3.Idx) :
    ∃ t : Fin cfg0.N, (cfg0.win 3).flush t = true ∧ i ∈ ((cfg0.win 3).blk t).view.set := by
  have hi0 : (i 0).val < 1000000 := (i 0).isLt
  have hi1 : (i 1).val < 3 := (i 1).isLt
  have hN : cfg0.N = 100 := N_0
  obtain ⟨t, ht⟩ : ∃ t : Fin cfg0.N, t.val = (i 0).val / 10000 := ⟨⟨(i 0).val / 10000, by rw [hN]; omega⟩, rfl⟩
  obtain ⟨-, -, -, -, -, -, e30, e31⟩ := idx_facts0 t
  refine ⟨t, flush0_3 t, ?_⟩
  show i ∈ ((View.whole main_v97).slice (win0_3.rect t)).set
  rw [View.set_slice_whole, Rect.mem_set_unit]
  intro a
  match a with
  | ⟨0, _⟩ => show win0_3.index t (0 : Fin 2) * 10000 ≤ (i 0).val ∧ (i 0).val < win0_3.index t (0 : Fin 2) * 10000 + 10000; rw [e30, ht]; omega
  | ⟨1, _⟩ => show win0_3.index t (1 : Fin 2) * 3 ≤ (i 1).val ∧ (i 1).val < win0_3.index t (1 : Fin 2) * 3 + 3; rw [e31]; omega

theorem final0_3 (c : Dev nD) :
    (dat0 (V9 m ρ) c).arrAt 3 cfg0.N = feat0 (V9 m ρ c main_arg3) (V9 m ρ c main_v94) (V9 m ρ c main_v96) :=
  (dat0 (V9 m ρ) c).arrAt_eq_of_cover 3 _ (fun t _ => flushed0_3_eq m ρ c t) cover0_3_arr

theorem feat_norm (c : Dev nD) (i : Fin 1000000) :
    (extractStridedSlice S1000000x1 ![0, 0] (W10 m ρ c (Proc.devRef .tc main_v97)) slices_S1000000x3_S1000000x1_0_0) (ix2 i 0)
      = refRowNorm (m ((c.tc : Thread nD τ).loc main_arg3)) (ix1 i) := by
  refine (slice2_axis1_apply 0 _ _ i (0 : Fin 1) (0 : Fin 3) rfl).trans ?_
  rw [show W10 m ρ c (Proc.devRef .tc main_v97) = (dat0 (V9 m ρ) c).arrAt 3 cfg0.N from W10_arr m ρ c 3, final0_3,
    refRowNorm_apply, show V9 m ρ c main_arg3 = _ from keep m ρ c 0 9 main_arg3 (by decide)]
  rfl

theorem feat_num_read (c : Dev nD) (i : Fin 1000000) :
    (extractStridedSlice S1000000x1 ![0, 1] (W10 m ρ c (Proc.devRef .tc main_v97)) slices_S1000000x3_S1000000x1_0_1) (ix2 i 0)
      = refRowDot (m ((c.tc : Thread nD τ).loc main_arg3)) (W9 m ρ c (Proc.devRef .tc main_v94)) (ix1 i) := by
  refine (slice2_axis1_apply 1 _ _ i (0 : Fin 1) (1 : Fin 3) rfl).trans ?_
  rw [show W10 m ρ c (Proc.devRef .tc main_v97) = (dat0 (V9 m ρ) c).arrAt 3 cfg0.N from W10_arr m ρ c 3, final0_3,
    refRowDot_apply, show V9 m ρ c main_arg3 = _ from keep m ρ c 0 9 main_arg3 (by decide)]
  rfl

theorem feat_num_write (c : Dev nD) (i : Fin 1000000) :
    (extractStridedSlice S1000000x1 ![0, 2] (W10 m ρ c (Proc.devRef .tc main_v97)) slices_S1000000x3_S1000000x1_0_2) (ix2 i 0)
      = refRowDot (m ((c.tc : Thread nD τ).loc main_arg3)) (W9 m ρ c (Proc.devRef .tc main_v96)) (ix1 i) := by
  refine (slice2_axis1_apply 2 _ _ i (0 : Fin 1) (2 : Fin 3) rfl).trans ?_
  rw [show W10 m ρ c (Proc.devRef .tc main_v97) = (dat0 (V9 m ρ) c).arrAt 3 cfg0.N from W10_arr m ρ c 3, final0_3,
    refRowDot_apply, show V9 m ρ c main_arg3 = _ from keep m ρ c 0 9 main_arg3 (by decide)]
  rfl

end Cert.KernelIdeal.Hand

end
-- ==== Proof.KI.Softmax.lean ====
import proofs.«420955_j27152783245914_3_alg».proof.Proof.KI.Vals
import proofs.«420955_j27152783245914_3_alg».proof.ReferenceIdeal
import proofs.«420955_j27152783245914_3_alg».proof.Proof.Gen.ReferenceIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.Lib.KernelVsHost
import Idealize.ShloMosaic.Lib.ValueIdxRank1

set_option maxRecDepth 16384

noncomputable section

namespace Cert.KernelIdeal.Hand

open Cert.KernelIdeal Cert.KernelIdeal.Gen
open Idealize.ShloMosaic Idealize.ShloMosaic.TcCoe Idealize.SL Idealize.SL.Sem Idealize.ShloMosaic.StableHlo Idealize.ShloMosaic.ValueIdx

abbrev kerScore (numcol rncol : FVec Ideal S1000000x1 .f32) (nk : FVec Ideal S1 .f32) (beta : FVec Ideal S_ .f32) : FVec Ideal S1x1000000 .f32 :=
  (shapeCast S1x1000000 (mulf (Host.divf numcol (mulf (maximumf rncol (broadcastInDim S1000000x1 ![] bcast_S_S1000000x1 (constant S_ .f32 0x322BCC77#32))) (broadcastInDim S1000000x1 ![0, 1] bcast_S1x1_S1000000x1_0_1 (broadcastInDim S1x1 ![1] bcast_S1_S1x1_1 nk)))) (broadcastInDim S1000000x1 ![] bcast_S_S1000000x1 beta)) shapeCasts_S1000000x1_S1x1000000)

abbrev refScore (numvec rnvec : FVec Ideal Cert.ReferenceIdeal.S1000000 .f32) (nk : FVec Ideal Cert.ReferenceIdeal.S1 .f32) (beta : FVec Ideal Cert.ReferenceIdeal.S_ .f32) : FVec Ideal Cert.ReferenceIdeal.S1000000 .f32 :=
  (mulf (Host.divf numvec (mulf (maximumf rnvec (broadcastInDim Cert.ReferenceIdeal.S1000000 ![] Cert.ReferenceIdeal.Facts₀.bcast_S_S1000000 (constant Cert.ReferenceIdeal.S_ .f32 0x322BCC77#32))) (broadcastInDim Cert.ReferenceIdeal.S1000000 ![0] Cert.ReferenceIdeal.Facts₀.bcast_S1_S1000000_0 nk))) (broadcastInDim Cert.ReferenceIdeal.S1000000 ![] Cert.ReferenceIdeal.Facts₀.bcast_S_S1000000 beta))

abbrev kerGatedSoftmax (xK : FVec Ideal S1x1000000 .f32) (g : FVec Ideal S_ .f32) : FVec Ideal S1x1000000 .f32 :=
  (mulf (broadcastInDim S1x1000000 ![] bcast_S_S1x1000000 g) (Host.divf (Host.exp (subf xK (broadcastInDim S1x1000000 ![0, 1] bcast_S1x1_S1x1000000_0_1 (broadcastInDim S1x1 ![0] bcast_S1_S1x1_0 (maximumf (broadcastInDim S1 ![] bcast_S_S1 (constant S_ .f32 0xFF800000#32)) (Host.reduce FloatOps.maximumf xK (constant S_ .f32 0xFF800000#32) reducesTo_S1x1000000_S1_d1 h_S_)))))) (broadcastInDim S1x1000000 ![0, 1] bcast_S1x1_S1x1000000_0_1 (broadcastInDim S1x1 ![0] bcast_S1_S1x1_0 (Host.reduceAdd (Host.exp (subf xK (broadcastInDim S1x1000000 ![0, 1] bcast_S1x1_S1x1000000_0_1 (broadcastInDim S1x1 ![0] bcast_S1_S1x1_0 (maximumf (broadcastInDim S1 ![] bcast_S_S1 (constant S_ .f32 0xFF800000#32)) (Host.reduce FloatOps.maximumf xK (constant S_ .f32 0xFF800000#32) reducesTo_S1x1000000_S1_d1 h_S_)))))) (constant S_ .f32 0x00000000#32) reducesTo_S1x1000000_S1_d1 h_S_)))))

abbrev refGatedSoftmax (xR : FVec Ideal Cert.ReferenceIdeal.S1000000 .f32) (g : FVec Ideal Cert.ReferenceIdeal.S_ .f32) : FVec Ideal Cert.ReferenceIdeal.S1x1000000 .f32 :=
  (broadcastInDim Cert.ReferenceIdeal.S1x1000000 ![1] Cert.ReferenceIdeal.Facts₀.bcast_S1000000_S1x1000000_1 (mulf (broadcastInDim Cert.ReferenceIdeal.S1000000 ![] Cert.ReferenceIdeal.Facts₀.bcast_S_S1000000 g) (Host.divf (Host.exp (subf xR (broadcastInDim Cert.ReferenceIdeal.S1000000 ![0] Cert.ReferenceIdeal.Facts₀.bcast_S1_S1000000_0 (broadcastInDim Cert.ReferenceIdeal.S1 ![] Cert.ReferenceIdeal.Facts₀.bcast_S_S1 (maximumf (constant Cert.ReferenceIdeal.S_ .f32 0xFF800000#32) (Host.reduce FloatOps.maximumf xR (constant Cert.ReferenceIdeal.S_ .f32 0xFF800000#32) Cert.ReferenceIdeal.Facts₀.reducesTo_S1000000_S_d0 Cert.ReferenceIdeal.Facts₀.h_S_)))))) (broadcastInDim Cert.ReferenceIdeal.S1000000 ![0] Cert.ReferenceIdeal.Facts₀.bcast_S1_S1000000_0 (broadcastInDim Cert.ReferenceIdeal.S1 ![] Cert.ReferenceIdeal.Facts₀.bcast_S_S1 (Host.reduceAdd (Host.exp (subf xR (broadcastInDim Cert.ReferenceIdeal.S1000000 ![0] Cert.ReferenceIdeal.Facts₀.bcast_S1_S1000000_0 (broadcastInDim Cert.ReferenceIdeal.S1 ![] Cert.ReferenceIdeal.Facts₀.bcast_S_S1 (maximumf (constant Cert.ReferenceIdeal.S_ .f32 0xFF800000#32) (Host.reduce FloatOps.maximumf xR (constant Cert.ReferenceIdeal.S_ .f32 0xFF800000#32) Cert.ReferenceIdeal.Facts₀.reducesTo_S1000000_S_d0 Cert.ReferenceIdeal.Facts₀.h_S_)))))) (constant Cert.ReferenceIdeal.S_ .f32 0x00000000#32) Cert.ReferenceIdeal.Facts₀.reducesTo_S1000000_S_d0 Cert.ReferenceIdeal.Facts₀.h_S_))))))

theorem idx_S1_eq (j k : (⟨1, ![1]⟩ : Shape).Idx) : j = k :=
  (eq_ix1 j).trans ((congrArg ix1 (Subsingleton.elim (α := Fin 1) _ _)).trans (eq_ix1 k).symm)

theorem hostExp_apply {s : Shape} {φ : FTy} (x : FVec Ideal s φ) (i : s.Idx) :
    Host.exp x i = FloatOps.hostUnary .exp (x i) := rfl

theorem bcast_S1_row_apply (v : FVec Ideal S1 .f32) (a : Fin 1) (b : Fin 1000000) :
    broadcastInDim S1x1000000 ![0, 1] bcast_S1x1_S1x1000000_0_1 (broadcastInDim S1x1 ![0] bcast_S1_S1x1_0 v) (ix2 a b)
      = v (ix1 0) := by
  unfold broadcastInDim
  exact congrArg v (idx_S1_eq _ _)

theorem bcast_S_vec_apply (v : FVec Ideal Cert.ReferenceIdeal.S_ .f32) (b : Fin 1000000) :
    broadcastInDim Cert.ReferenceIdeal.S1000000 ![0] Cert.ReferenceIdeal.Facts₀.bcast_S1_S1000000_0
        (broadcastInDim Cert.ReferenceIdeal.S1 ![] Cert.ReferenceIdeal.Facts₀.bcast_S_S1 v) (ix1 b)
      = v ix0 := by
  unfold broadcastInDim
  exact congrArg v (funext fun a => a.elim0)

theorem lift_row (hK : S1x1000000.Reduces [1] S1) (j : S1.Idx) (k : Fin 1000000) : hK.lift j k = ix2 0 k :=
  (eq_ix2 _).trans (congrArg₂ ix2 (Subsingleton.elim (α := Fin 1) _ _) rfl)

theorem max_bridge (xK : FVec Ideal S1x1000000 .f32) (xR : FVec Ideal Cert.ReferenceIdeal.S1000000 .f32)
    (h : ∀ i : Fin 1000000, xK (ix2 0 i) = xR (ix1 i)) (j : S1.Idx) :
    maximumf (broadcastInDim S1 ![] bcast_S_S1 (constant S_ .f32 0xFF800000#32))
        (Host.reduce FloatOps.maximumf xK (constant S_ .f32 0xFF800000#32) reducesTo_S1x1000000_S1_d1 h_S_) j
      = maximumf (constant Cert.ReferenceIdeal.S_ .f32 0xFF800000#32)
        (Host.reduce FloatOps.maximumf xR (constant Cert.ReferenceIdeal.S_ .f32 0xFF800000#32)
          Cert.ReferenceIdeal.Facts₀.reducesTo_S1000000_S_d0 Cert.ReferenceIdeal.Facts₀.h_S_) ix0 := by
  have hK : S1x1000000.Reduces [1] S1 := by decide
  rw [maximumf_apply, maximumf_apply]
  refine congrArg₂ max rfl ?_
  rw [Host.reduce_eq_fold_single FloatOps.maximumf xK _ reducesTo_S1x1000000_S1_d1 hK h_S_ j,
    Host.reduce_eq_fold FloatOps.maximumf xR _ Cert.ReferenceIdeal.Facts₀.reducesTo_S1000000_S_d0
      Cert.ReferenceIdeal.Facts₀.h_S_ ix0,
    Finset.filter_true_of_mem (fun i _ => funext fun a => a.elim0),
    ← Finset.map_univ_equiv (idxEquiv1 (n := 1000000)).symm, Finset.fold_map]
  have hf : (fun k : Fin 1000000 => xK (hK.lift j k)) = fun k : Fin 1000000 => xR (ix1 k) :=
    funext fun k => by rw [lift_row]; exact h k
  exact congrArg (fun f : Fin 1000000 → EReal =>
    (Finset.univ : Finset (Fin 1000000)).fold FloatOps.maximumf (Ideal.ofBits .f32 0xFF800000#32) f) hf

theorem exp_bridge (xK : FVec Ideal S1x1000000 .f32) (xR : FVec Ideal Cert.ReferenceIdeal.S1000000 .f32)
    (h : ∀ i : Fin 1000000, xK (ix2 0 i) = xR (ix1 i))
    (mK : FVec Ideal S1 .f32) (mR : FVec Ideal Cert.ReferenceIdeal.S_ .f32) (hm : ∀ j, mK j = mR ix0)
    (a : Fin 1) (b : Fin 1000000) :
    Host.exp (subf xK (broadcastInDim S1x1000000 ![0, 1] bcast_S1x1_S1x1000000_0_1
        (broadcastInDim S1x1 ![0] bcast_S1_S1x1_0 mK))) (ix2 a b)
      = Host.exp (subf xR (broadcastInDim Cert.ReferenceIdeal.S1000000 ![0] Cert.ReferenceIdeal.Facts₀.bcast_S1_S1000000_0
        (broadcastInDim Cert.ReferenceIdeal.S1 ![] Cert.ReferenceIdeal.Facts₀.bcast_S_S1 mR))) (ix1 b) := by
  obtain rfl : a = 0 := Subsingleton.elim (α := Fin 1) _ _
  rw [hostExp_apply, hostExp_apply, subf_apply, subf_apply, bcast_S1_row_apply, bcast_S_vec_apply, hm, h b]

theorem sum_bridge (eK : FVec Ideal S1x1000000 .f32) (eR : FVec Ideal Cert.ReferenceIdeal.S1000000 .f32)
    (he : ∀ i : Fin 1000000, eK (ix2 0 i) = eR (ix1 i)) (j : S1.Idx) :
    Host.reduceAdd eK (constant S_ .f32 0x00000000#32) reducesTo_S1x1000000_S1_d1 h_S_ j
      = Host.reduceAdd eR (constant Cert.ReferenceIdeal.S_ .f32 0x00000000#32)
        Cert.ReferenceIdeal.Facts₀.reducesTo_S1000000_S_d0 Cert.ReferenceIdeal.Facts₀.h_S_ ix0 := by
  have hK : S1x1000000.Reduces [1] S1 := by decide
  rw [hostReduceAdd_apply, hostReduceAdd_apply, Ideal.hostReduceAdd_single _ hK,
    Ideal.hostReduceAdd_total _ (fun b => b.elim0), ← Equiv.sum_comp (idxEquiv1 (n := 1000000)).symm]
  refine congrArg₂ (· + ·) rfl ?_
  refine Finset.sum_congr rfl fun k _ => ?_
  exact (congrArg eK (lift_row hK j k)).trans (he k)

theorem score_bridge (numcol rncol : FVec Ideal S1000000x1 .f32) (numvec rnvec : FVec Ideal Cert.ReferenceIdeal.S1000000 .f32)
    (nk : FVec Ideal S1 .f32) (beta : FVec Ideal S_ .f32)
    (hnum : ∀ i : Fin 1000000, numcol (ix2 i 0) = numvec (ix1 i)) (hrn : ∀ i : Fin 1000000, rncol (ix2 i 0) = rnvec (ix1 i))
    (i : Fin 1000000) :
    kerScore numcol rncol nk beta (ix2 0 i) = refScore numvec rnvec nk beta (ix1 i) := by
  have hsc : ∀ X : FVec Ideal S1000000x1 .f32,
      shapeCast S1x1000000 X shapeCasts_S1000000x1_S1x1000000 (ix2 0 i) = X (ix2 i 0) := fun X =>
    shapeCast_apply X _ _ _ (by
      rw [Shape.rowMajor_val_two, Shape.rowMajor_val_two]
      show i.val * 1 + 0 = 0 * 1000000 + i.val
      omega)
  unfold kerScore refScore
  rw [hsc]
  simp only [mulf_apply, hostDivf_apply, maximumf_apply, constant_apply]
  rw [hnum i, hrn i]

  have e1 : broadcastInDim S1000000x1 ![0, 1] bcast_S1x1_S1000000x1_0_1 (broadcastInDim S1x1 ![1] bcast_S1_S1x1_1 nk) (ix2 i 0)
      = broadcastInDim Cert.ReferenceIdeal.S1000000 ![0] Cert.ReferenceIdeal.Facts₀.bcast_S1_S1000000_0 nk (ix1 i) := by
    unfold broadcastInDim
    exact congrArg nk (idx_S1_eq _ _)

  have e2 : broadcastInDim S1000000x1 ![] bcast_S_S1000000x1 beta (ix2 i 0)
      = broadcastInDim Cert.ReferenceIdeal.S1000000 ![] Cert.ReferenceIdeal.Facts₀.bcast_S_S1000000 beta (ix1 i) := by
    unfold broadcastInDim
    exact congrArg beta (funext fun a => a.elim0)
  rw [e1, e2]
  rfl

theorem softmax_bridge (xK : FVec Ideal S1x1000000 .f32) (xR : FVec Ideal Cert.ReferenceIdeal.S1000000 .f32) (g : FVec Ideal S_ .f32)
    (h : ∀ i : Fin 1000000, xK (ix2 0 i) = xR (ix1 i)) :
    kerGatedSoftmax xK g = refGatedSoftmax xR g := by
  funext j
  obtain ⟨a, b, rfl⟩ : ∃ a b, j = ix2 a b := ⟨_, _, eq_ix2 j⟩
  unfold kerGatedSoftmax refGatedSoftmax

  rw [broadcastInDim_apply _ Cert.ReferenceIdeal.Facts₀.bcast_S1000000_S1x1000000_1 _ (ix2 a b) (ix1 b) (fun c => by
    match c with
    | ⟨0, h0⟩ =>
      have hne : ¬ (Cert.ReferenceIdeal.S1000000.size ⟨0, h0⟩ = 1) := fun e => by
        have e' : (1000000 : ℕ) = 1 := e
        omega
      rw [if_neg hne]
      rfl)]
  rw [mulf_apply, mulf_apply, hostDivf_apply, hostDivf_apply]
  refine congrArg₂ (· * ·) ?_ (congrArg₂ Ideal.div ?_ ?_)
  ·
    unfold broadcastInDim
    exact congrArg g (funext fun c => c.elim0)
  ·
    exact exp_bridge xK xR h _ _ (max_bridge xK xR h) a b
  ·
    rw [bcast_S1_row_apply, bcast_S_vec_apply]
    exact sum_bridge _ _ (fun i => exp_bridge xK xR h _ _ (max_bridge xK xR h) 0 i) _

end Cert.KernelIdeal.Hand

end
-- ==== Proof.KI.JH1a.lean ====
import proofs.«420955_j27152783245914_3_alg».proof.Proof.KI.JH0
import proofs.«420955_j27152783245914_3_alg».proof.Proof.KI.Val0
import proofs.«420955_j27152783245914_3_alg».proof.Proof.KI.Softmax
import proofs.«420955_j27152783245914_3_alg».proof.Proof.KI.Skip

set_option maxRecDepth 16384

namespace Cert.KernelIdeal.Hand

open Cert.KernelIdeal Cert.KernelIdeal.Gen Cert.ReferenceIdeal.Read Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

theorem num_read (i : Fin 1000000) : (extractStridedSlice S1000000x1 ![0, 1] (W10 m ρ c (Proc.devRef .tc main_v97)) slices_S1000000x3_S1000000x1_0_1) (ix2 i 0) = val_main_v70 (F := Ideal) (inp m c main_arg0) (inp m c main_arg3) (inp m c main_arg5) (inp m c main_arg6) (inp m c main_arg7) (inp m c main_arg8) (inp m c main_arg9) (inp m c main_arg10) (ix1 i) := by
  rw [feat_num_read m ρ c i, j0_main_v94 m ρ c]; rfl

theorem norm_read (i : Fin 1000000) : (extractStridedSlice S1000000x1 ![0, 0] (W10 m ρ c (Proc.devRef .tc main_v97)) slices_S1000000x3_S1000000x1_0_0) (ix2 i 0) = val_main_v71 (F := Ideal) (inp m c main_arg3) (ix1 i) := by
  rw [feat_norm m ρ c i]; rfl

-- the program's chain on columns and a row is the reference's on vectors
theorem j1_read :
    kerGatedSoftmax (kerScore (extractStridedSlice S1000000x1 ![0, 1] (W10 m ρ c (Proc.devRef .tc main_v97)) slices_S1000000x3_S1000000x1_0_1) (extractStridedSlice S1000000x1 ![0, 0] (W10 m ρ c (Proc.devRef .tc main_v97)) slices_S1000000x3_S1000000x1_0_0)
        (maximumf (Host.sqrt (Host.reduceAdd (mulf (val_main_v67 (F := Ideal) (inp m c main_arg0) (inp m c main_arg5) (inp m c main_arg6) (inp m c main_arg7) (inp m c main_arg8) (inp m c main_arg9) (inp m c main_arg10)) (val_main_v67 (F := Ideal) (inp m c main_arg0) (inp m c main_arg5) (inp m c main_arg6) (inp m c main_arg7) (inp m c main_arg8) (inp m c main_arg9) (inp m c main_arg10))) (constant S_ .f32 0x00000000#32) reducesTo_S1x20_S1_d1 h_S_)) (broadcastInDim S1 ![] bcast_S_S1 (constant S_ .f32 0x322BCC77#32)))
        (val_main_v63 (F := Ideal) (inp m c main_arg0) (inp m c main_arg5) (inp m c main_arg6) (inp m c main_arg7) (inp m c main_arg8) (inp m c main_arg9) (inp m c main_arg10))) (val_main_v44 (F := Ideal) (inp m c main_arg0) (inp m c main_arg5) (inp m c main_arg6) (inp m c main_arg7) (inp m c main_arg8) (inp m c main_arg9) (inp m c main_arg10))
      = val_main_v97 (F := Ideal) (inp m c main_arg0) (inp m c main_arg3) (inp m c main_arg5) (inp m c main_arg6) (inp m c main_arg7) (inp m c main_arg8) (inp m c main_arg9) (inp m c main_arg10) :=
  softmax_bridge _ _ _ (score_bridge _ _ _ _ _ _ (num_read m ρ c) (norm_read m ρ c))

theorem num_write (i : Fin 1000000) : (extractStridedSlice S1000000x1 ![0, 2] (W10 m ρ c (Proc.devRef .tc main_v97)) slices_S1000000x3_S1000000x1_0_2) (ix2 i 0) = val_main_v162 (F := Ideal) (inp m c main_arg0) (inp m c main_arg3) (inp m c main_arg5) (inp m c main_arg6) (inp m c main_arg7) (inp m c main_arg8) (inp m c main_arg9) (inp m c main_arg10) (ix1 i) := by
  rw [feat_num_write m ρ c i, j0_main_v96 m ρ c]; rfl

theorem norm_write (i : Fin 1000000) : (extractStridedSlice S1000000x1 ![0, 0] (W10 m ρ c (Proc.devRef .tc main_v97)) slices_S1000000x3_S1000000x1_0_0) (ix2 i 0) = val_main_v163 (F := Ideal) (inp m c main_arg3) (ix1 i) := by
  rw [feat_norm m ρ c i]; rfl

-- the program's chain on columns and a row is the reference's on vectors
theorem j1_write :
    kerGatedSoftmax (kerScore (extractStridedSlice S1000000x1 ![0, 2] (W10 m ρ c (Proc.devRef .tc main_v97)) slices_S1000000x3_S1000000x1_0_2) (extractStridedSlice S1000000x1 ![0, 0] (W10 m ρ c (Proc.devRef .tc main_v97)) slices_S1000000x3_S1000000x1_0_0)
        (maximumf (Host.sqrt (Host.reduceAdd (mulf (val_main_v159 (F := Ideal) (inp m c main_arg0) (inp m c main_arg5) (inp m c main_arg6) (inp m c main_arg7) (inp m c main_arg8) (inp m c main_arg9) (inp m c main_arg10)) (val_main_v159 (F := Ideal) (inp m c main_arg0) (inp m c main_arg5) (inp m c main_arg6) (inp m c main_arg7) (inp m c main_arg8) (inp m c main_arg9) (inp m c main_arg10))) (constant S_ .f32 0x00000000#32) reducesTo_S1x20_S1_d1 h_S_)) (broadcastInDim S1 ![] bcast_S_S1 (constant S_ .f32 0x322BCC77#32)))
        (val_main_v155 (F := Ideal) (inp m c main_arg0) (inp m c main_arg5) (inp m c main_arg6) (inp m c main_arg7) (inp m c main_arg8) (inp m c main_arg9) (inp m c main_arg10))) (val_main_v136 (F := Ideal) (inp m c main_arg0) (inp m c main_arg5) (inp m c main_arg6) (inp m c main_arg7) (inp m c main_arg8) (inp m c main_arg9) (inp m c main_arg10))
      = val_main_v189 (F := Ideal) (inp m c main_arg0) (inp m c main_arg3) (inp m c main_arg5) (inp m c main_arg6) (inp m c main_arg7) (inp m c main_arg8) (inp m c main_arg9) (inp m c main_arg10) :=
  softmax_bridge _ _ _ (score_bridge _ _ _ _ _ _ (num_write m ρ c) (norm_write m ρ c))

theorem at10_main_v94 : W10 m ρ c (Proc.devRef .tc main_v94) = val_main_v67 (F := Ideal) (inp m c main_arg0) (inp m c main_arg5) (inp m c main_arg6) (inp m c main_arg7) (inp m c main_arg8) (inp m c main_arg9) (inp m c main_arg10) :=
  (step10 m ρ c main_v94 (by decide)).trans (j0_main_v94 m ρ c)

theorem at10_main_v63 : W10 m ρ c (Proc.devRef .tc main_v63) = val_main_v63 (F := Ideal) (inp m c main_arg0) (inp m c main_arg5) (inp m c main_arg6) (inp m c main_arg7) (inp m c main_arg8) (inp m c main_arg9) (inp m c main_arg10) :=
  (step10 m ρ c main_v63 (by decide)).trans (j0_main_v63 m ρ c)

theorem at10_main_v44 : W10 m ρ c (Proc.devRef .tc main_v44) = val_main_v44 (F := Ideal) (inp m c main_arg0) (inp m c main_arg5) (inp m c main_arg6) (inp m c main_arg7) (inp m c main_arg8) (inp m c main_arg9) (inp m c main_arg10) :=
  (step10 m ρ c main_v44 (by decide)).trans (j0_main_v44 m ρ c)

theorem at10_main_v56 : W10 m ρ c (Proc.devRef .tc main_v56) = val_main_v56 (F := Ideal) (inp m c main_arg0) (inp m c main_arg5) (inp m c main_arg6) (inp m c main_arg7) (inp m c main_arg8) (inp m c main_arg9) (inp m c main_arg10) :=
  (step10 m ρ c main_v56 (by decide)).trans (j0_main_v56 m ρ c)

theorem at10_main_v60 : W10 m ρ c (Proc.devRef .tc main_v60) = val_main_v60 (F := Ideal) (inp m c main_arg0) (inp m c main_arg5) (inp m c main_arg6) (inp m c main_arg7) (inp m c main_arg8) (inp m c main_arg9) (inp m c main_arg10) :=
  (step10 m ρ c main_v60 (by decide)).trans (j0_main_v60 m ρ c)

theorem at10_main_v96 : W10 m ρ c (Proc.devRef .tc main_v96) = val_main_v159 (F := Ideal) (inp m c main_arg0) (inp m c main_arg5) (inp m c main_arg6) (inp m c main_arg7) (inp m c main_arg8) (inp m c main_arg9) (inp m c main_arg10) :=
  (step10 m ρ c main_v96 (by decide)).trans (j0_main_v96 m ρ c)

theorem at10_main_v92 : W10 m ρ c (Proc.devRef .tc main_v92) = val_main_v155 (F := Ideal) (inp m c main_arg0) (inp m c main_arg5) (inp m c main_arg6) (inp m c main_arg7) (inp m c main_arg8) (inp m c main_arg9) (inp m c main_arg10) :=
  (step10 m ρ c main_v92 (by decide)).trans (j0_main_v92 m ρ c)

theorem at10_main_v73 : W10 m ρ c (Proc.devRef .tc main_v73) = val_main_v136 (F := Ideal) (inp m c main_arg0) (inp m c main_arg5) (inp m c main_arg6) (inp m c main_arg7) (inp m c main_arg8) (inp m c main_arg9) (inp m c main_arg10) :=
  (step10 m ρ c main_v73 (by decide)).trans (j0_main_v73 m ρ c)

theorem at10_main_v85 : W10 m ρ c (Proc.devRef .tc main_v85) = val_main_v148 (F := Ideal) (inp m c main_arg0) (inp m c main_arg5) (inp m c main_arg6) (inp m c main_arg7) (inp m c main_arg8) (inp m c main_arg9) (inp m c main_arg10) :=
  (step10 m ρ c main_v85 (by decide)).trans (j0_main_v85 m ρ c)

theorem at10_main_v89 : W10 m ρ c (Proc.devRef .tc main_v89) = val_main_v152 (F := Ideal) (inp m c main_arg0) (inp m c main_arg5) (inp m c main_arg6) (inp m c main_arg7) (inp m c main_arg8) (inp m c main_arg9) (inp m c main_arg10) :=
  (step10 m ρ c main_v89 (by decide)).trans (j0_main_v89 m ρ c)

end Cert.KernelIdeal.Hand
-- ==== Proof.KI.Cat.lean ====
import proofs.«420955_j27152783245914_3_alg».proof.Proof.Gen.KernelIdeal
import Idealize.ShloMosaic.Lib.StableHlo.Run

noncomputable section

namespace Cert.KernelIdeal.Hand

open Cert.KernelIdeal Cert.KernelIdeal.Gen Idealize.ShloMosaic Idealize.ShloMosaic.TcCoe Idealize.SL.Sem

variable {F : FTy → Type} [FloatOps F]

def cat3_main_v132 (p : main_v130.ty.Contents (Elt F)) (q : main_v129.ty.Contents (Elt F)) (r : main_v131.ty.Contents (Elt F)) : main_v132.ty.Contents (Elt F) :=
  concatenate S1x1000002 1 [⟨S1x1, p⟩, ⟨S1x1000000, q⟩, ⟨S1x1, r⟩] concatenates_S1x1_S1x1000000_S1x1_S1x1000002_d1

theorem cat_main_v132 (V : Valuation τ sig (Elt F)) :
    (StableHlo.nary ![main_v130, main_v129, main_v131] main_v132 (fun u => concatenate S1x1000002 1 [⟨S1x1, u 0⟩, ⟨S1x1000000, u 1⟩, ⟨S1x1, u 2⟩] concatenates_S1x1_S1x1000000_S1x1_S1x1000002_d1)).result V (no_index (Proc.devRef .tc main_v132))
      = cat3_main_v132 (V (Proc.devRef .tc main_v130)) (V (Proc.devRef .tc main_v129)) (V (Proc.devRef .tc main_v131)) :=
  StableHlo.nary_result _ _ _ _ _ V

def cat3_main_v189 (p : main_v187.ty.Contents (Elt F)) (q : main_v186.ty.Contents (Elt F)) (r : main_v188.ty.Contents (Elt F)) : main_v189.ty.Contents (Elt F) :=
  concatenate S1x1000002 1 [⟨S1x1, p⟩, ⟨S1x1000000, q⟩, ⟨S1x1, r⟩] concatenates_S1x1_S1x1000000_S1x1_S1x1000002_d1

theorem cat_main_v189 (V : Valuation τ sig (Elt F)) :
    (StableHlo.nary ![main_v187, main_v186, main_v188] main_v189 (fun u => concatenate S1x1000002 1 [⟨S1x1, u 0⟩, ⟨S1x1000000, u 1⟩, ⟨S1x1, u 2⟩] concatenates_S1x1_S1x1000000_S1x1_S1x1000002_d1)).result V (no_index (Proc.devRef .tc main_v189))
      = cat3_main_v189 (V (Proc.devRef .tc main_v187)) (V (Proc.devRef .tc main_v186)) (V (Proc.devRef .tc main_v188)) :=
  StableHlo.nary_result _ _ _ _ _ V

def cat2_main_v220 (p : main_arg4.ty.Contents (Elt F)) (q : main_v219.ty.Contents (Elt F)) : main_v220.ty.Contents (Elt F) :=
  concatenate S1x40 1 [⟨S1x20, p⟩, ⟨S1x20, q⟩] concatenates_S1x20_S1x20_S1x40_d1

theorem cat_main_v220 (V : Valuation τ sig (Elt F)) :
    (StableHlo.binary main_arg4 main_v219 main_v220 ((fun a b => concatenate S1x40 1 [⟨S1x20, a⟩, ⟨S1x20, b⟩] concatenates_S1x20_S1x20_S1x40_d1) : (⟨S1x20, .f32⟩ : BufTy).Contents (Elt F) → (⟨S1x20, .f32⟩ : BufTy).Contents (Elt F) → (⟨S1x40, .f32⟩ : BufTy).Contents (Elt F))).result V (no_index (Proc.devRef .tc main_v220))
      = cat2_main_v220 (V (Proc.devRef .tc main_arg4)) (V (Proc.devRef .tc main_v219)) :=
  StableHlo.binary_result _ _ _ _ _ _ _ V

macro "after_results_kcat" : tactic =>
  `(tactic| (simp (disch := decide) only [StableHlo.after_cons, StableHlo.after_nil,
      StableHlo.nullary_result', StableHlo.unary_result', StableHlo.binary_result', StableHlo.ternary_result', StableHlo.quaternary_result', StableHlo.reshape_result', cat_main_v132, cat_main_v189, ↓cat_main_v220,
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']))

end Cert.KernelIdeal.Hand

end
-- ==== Proof.KI.JH1.lean ====
import proofs.«420955_j27152783245914_3_alg».proof.Proof.KI.JH1a
import proofs.«420955_j27152783245914_3_alg».proof.Proof.KI.Cat

set_option maxRecDepth 16384

namespace Cert.KernelIdeal.Hand

open Cert.KernelIdeal Cert.KernelIdeal.Gen Cert.ReferenceIdeal.Read Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

set_option maxHeartbeats 4000000 in
theorem j1_rw : W15 m ρ c (Proc.devRef .tc main_v157) = val_main_v126 (F := Ideal) (inp m c main_arg0) (inp m c main_arg1) (inp m c main_arg3) (inp m c main_arg5) (inp m c main_arg6) (inp m c main_arg7) (inp m c main_arg8) (inp m c main_arg9) (inp m c main_arg10) := by
  dsimp only [W15, W14, W13, W12, W11]
  after_results_kcat
  try simp only [TRef.ofBuf, TRef.toBuf, cast_eq]
  simp only [at10_main_v94 m ρ c, at10_main_v63 m ρ c, at10_main_v44 m ρ c, at10_main_v56 m ρ c, at10_main_v60 m ρ c, at10_main_v96 m ρ c, at10_main_v92 m ρ c, at10_main_v73 m ρ c, at10_main_v85 m ρ c, at10_main_v89 m ρ c, at10 m ρ c main_arg1 (by decide), at10 m ρ c main_arg2 (by decide)]
  simp only [val_main_v126, val_main_v125, val_main_v124, val_main_v122, val_main_v121, val_main_v120, val_main_v119, val_main_v118, val_main_v117, val_main_v115, val_main_v101, val_main_v100, val_main_v98, val_main_v96, val_main_v95, val_main_v94, val_main_v99, val_main_v116, val_main_v114, val_main_v113, val_main_v112, val_main_v111, val_main_v109, val_main_v110, val_main_v108, val_main_v107, val_main_v106, val_main_v104, val_main_v105, val_main_v103, val_main_v102]
  have h := j1_read m ρ c
  generalize val_main_v97 (F := Ideal) (inp m c main_arg0) (inp m c main_arg3) (inp m c main_arg5) (inp m c main_arg6) (inp m c main_arg7) (inp m c main_arg8) (inp m c main_arg9) (inp m c main_arg10) = v at h ⊢
  subst h
  rfl

set_option maxHeartbeats 4000000 in
theorem j1_ww : W15 m ρ c (Proc.devRef .tc main_v214) = val_main_v218 (F := Ideal) (inp m c main_arg0) (inp m c main_arg2) (inp m c main_arg3) (inp m c main_arg5) (inp m c main_arg6) (inp m c main_arg7) (inp m c main_arg8) (inp m c main_arg9) (inp m c main_arg10) := by
  dsimp only [W15, W14, W13, W12, W11]
  after_results_kcat
  try simp only [TRef.ofBuf, TRef.toBuf, cast_eq]
  simp only [at10_main_v94 m ρ c, at10_main_v63 m ρ c, at10_main_v44 m ρ c, at10_main_v56 m ρ c, at10_main_v60 m ρ c, at10_main_v96 m ρ c, at10_main_v92 m ρ c, at10_main_v73 m ρ c, at10_main_v85 m ρ c, at10_main_v89 m ρ c, at10 m ρ c main_arg1 (by decide), at10 m ρ c main_arg2 (by decide)]
  simp only [val_main_v218, val_main_v217, val_main_v216, val_main_v214, val_main_v213, val_main_v212, val_main_v211, val_main_v210, val_main_v209, val_main_v207, val_main_v193, val_main_v192, val_main_v190, val_main_v188, val_main_v187, val_main_v186, val_main_v191, val_main_v208, val_main_v206, val_main_v205, val_main_v204, val_main_v203, val_main_v201, val_main_v202, val_main_v200, val_main_v199, val_main_v198, val_main_v196, val_main_v197, val_main_v195, val_main_v194]
  have h := j1_write m ρ c
  generalize val_main_v189 (F := Ideal) (inp m c main_arg0) (inp m c main_arg3) (inp m c main_arg5) (inp m c main_arg6) (inp m c main_arg7) (inp m c main_arg8) (inp m c main_arg9) (inp m c main_arg10) = v at h ⊢
  subst h
  rfl

end Cert.KernelIdeal.Hand
-- ==== Proof.KI.JointRH.lean ====
import proofs.«420955_j27152783245914_3_alg».proof.Proof.KI.Skip
import proofs.«420955_j27152783245914_3_alg».proof.ReferenceIdeal
import proofs.«420955_j27152783245914_3_alg».proof.Proof.Gen.ReferenceIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.Lib.KernelVsHost
import Idealize.ShloMosaic.Lib.StackMember

set_option maxRecDepth 16384

noncomputable section

namespace Cert.KernelIdeal.Hand

open Cert.KernelIdeal Cert.KernelIdeal.Gen
open Idealize.ShloMosaic Idealize.ShloMosaic.TcCoe Idealize.SL Idealize.SL.Sem Idealize.ShloMosaic.StableHlo Idealize.ShloMosaic.ValueIdx

variable (m : (ℓ : Loc nD τ sig) → Buf (Elt Ideal) ℓ) (ρ : Dev nD → PrngReg)

abbrev refReadHead (rw : FVec Ideal Cert.ReferenceIdeal.S1x1000000 .f32) (M : FVec Ideal Cert.ReferenceIdeal.S1000000x20 .f32) : FVec Ideal Cert.ReferenceIdeal.S1x20 .f32 :=
  (Host.dotGeneral Cert.ReferenceIdeal.dot_S1x1000000_S1000000x20_S1x20_1_0_0_1_n_n none rw M)

namespace RH

theorem rh_z3 : (![0, 0, 0] : Fin 3 → Nat) = fun _ => 0 := funext fun a => by fin_cases a <;> rfl
theorem rh_z2 : (![0, 0] : Fin 2 → Nat) = fun _ => 0 := funext fun a => by fin_cases a <;> rfl

theorem lift0 {n : ℕ} (h : Shape.Reduces ⟨2, ![n, 20]⟩ [0] S20) (d : Fin 20) (k : Fin n) :
    h.lift (ix1 d) k = ix2 k d := by
  funext a
  apply Fin.ext
  match a with
  | ⟨0, _⟩ => rfl
  | ⟨1, _⟩ => rfl

theorem acc1_apply (x0 : Vec Ideal S10000x20 .f32) (x1 : Vec Ideal S10000x1 .f32) (prev : Vec Ideal S1x1x20 .f32) (d : Fin 20) :
    acc1 x0 x1 prev (ix3 0 0 d) = prev (ix3 0 0 d) + ∑ k : Fin 10000, x0 (ix2 k d) * x1 (ix2 k 0) := by
  unfold acc1
  rw [View.canon_unit_zero (S := S1x1x20) rh_z3]
  simp only [View.ld_unit_zero (S := S1x1x20) rh_z3, View.ld_unit_zero (S := S10000x20) rh_z2, View.ld_unit_zero (S := S10000x1) rh_z2]
  unfold k1_pay2
  refine (addf_apply _ _ _).trans ?_
  refine congrArg₂ (fun a b : EReal => a + b) ?_ ?_
  · exact congrFun (shapeCast_self prev _) _
  · refine (shapeCast_apply _ _ (ix3 0 0 d) (ix2 0 d) ?_).trans ?_
    · rw [Shape.rowMajor_val_two, Shape.rowMajor_val_three]; rfl
    refine (shapeCast_apply _ _ (ix2 0 d) (ix1 d) ?_).trans ?_
    · rw [Shape.rowMajor_val_one, Shape.rowMajor_val_two]; simp
    refine (Ideal.multiReduction_add_single _ _ reduces_S10000x20_S20 _ _ (ix1 d)).trans ?_
    refine Finset.sum_congr rfl fun (k : Fin 10000) _ => ?_
    rw [lift0 reduces_S10000x20_S20 d k]
    refine (mulf_apply _ _ _).trans ?_
    refine congrArg (fun b : EReal => x0 (ix2 k d) * b) ?_
    refine (broadcastTo_apply _ _ (ix2 k d) (ix2 k 0) ?_).trans ?_
    · intro a
      match a with
      | ⟨0, _⟩ => rfl
      | ⟨1, _⟩ => rfl
    exact congrFun (shapeCast_self x1 _) _

theorem after_eq_getLast {Val : EltTy → Type} : ∀ (ops : List (HloOp τ sig Val)) (h : ops ≠ []) (V : Valuation τ sig Val),
    StableHlo.after ops V = (ops.getLast h).result (StableHlo.after ops.dropLast V)
  | [], h, _ => absurd rfl h
  | [op], _, _ => rfl
  | op :: op' :: ops, _, V => by
    rw [StableHlo.after_cons, after_eq_getLast (op' :: ops) (List.cons_ne_nil _ _)]
    rfl

theorem rh_col_eq (c : Dev nD) :
    W15 m ρ c (Proc.devRef .tc main_v215)
      = shapeCast S1000000x1 (W15 m ρ c (Proc.devRef .tc main_v157)) shapeCasts_S1x1000000_S1000000x1 := by
  show StableHlo.after hostOps1_4 (W14 m ρ c) (Proc.devRef .tc main_v215)
    = shapeCast S1000000x1 (StableHlo.after hostOps1_4 (W14 m ρ c) (Proc.devRef .tc main_v157)) shapeCasts_S1x1000000_S1000000x1
  rw [after_eq_getLast _ (List.cons_ne_nil _ _), show (hostOps1_4 : List (HloOp τ sig (Elt Ideal))).getLast (List.cons_ne_nil _ _)
    = StableHlo.reshape main_v157 main_v215 rfl shapeCasts_S1x1000000_S1000000x1 from rfl, StableHlo.reshape_result, StableHlo.reshape_result_ne]
  · rfl
  · decide

theorem rh_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = t.val / 50 ∧ win1_2.index t (1 : Fin 3) = 0 ∧ win1_2.index t (2 : Fin 3) = 0 :=
  (by decide +kernel : ∀ t : Fin grid1.N, _)

theorem tile0_apply (V : (c : Dev nD) → (b : Ref sig .tc) → Buf (Elt Ideal) ((c : Thread nD τ).loc b))
    (c : Dev nD) (t : Fin cfg1.N) (k : Fin 10000) (d : Fin 20) (h : 10000 * t.val + k.val < 1000000) :
    (iblk1 V c 0 t : Vec Ideal S10000x20 .f32) (ix2 k d)
      = (V c main_arg3 : Vec Ideal S1000000x20 .f32) (ix2 ⟨10000 * t.val + k.val, h⟩ d) := by
  obtain ⟨e0, e1, -⟩ := rh_idx t
  show ((cfg1.win 0).blk t).view.read (Elt Ideal) (V c main_arg3) (ix2 k d) = _
  rw [View.read_apply]
  show V c main_arg3 _ = V c main_arg3 _
  congr 1
  funext a
  apply Fin.ext
  match a with
  | ⟨0, _⟩ => show win1_0.index t 0 * 10000 + 1 * k.val = 10000 * t.val + k.val; rw [e0]; omega
  | ⟨1, _⟩ => show win1_0.index t 1 * 20 + 1 * d.val = d.val; rw [e1]; omega

theorem tile1_apply (V : (c : Dev nD) → (b : Ref sig .tc) → Buf (Elt Ideal) ((c : Thread nD τ).loc b))
    (c : Dev nD) (t : Fin cfg1.N) (k : Fin 10000) (h : 10000 * t.val + k.val < 1000000) :
    (iblk1 V c 1 t : Vec Ideal S10000x1 .f32) (ix2 k 0)
      = (V c main_v215 : Vec Ideal S1000000x1 .f32) (ix2 ⟨10000 * t.val + k.val, h⟩ 0) := by
  obtain ⟨-, -, e0, e1, -⟩ := rh_idx t
  show ((cfg1.win 1).blk t).view.read (Elt Ideal) (V c main_v215) (ix2 k 0) = _
  rw [View.read_apply]
  show V c main_v215 _ = V c main_v215 _
  congr 1
  funext a
  apply Fin.ext
  match a with
  | ⟨0, _⟩ => show win1_1.index t 0 * 10000 + 1 * k.val = 10000 * t.val + k.val; rw [e0]; omega
  | ⟨1, _⟩ => show win1_1.index t 1 * 1 + 1 * 0 = 0; rw [e1]

abbrev memArr (c : Dev nD) : Vec Ideal S1000000x20 .f32 := V15 m ρ c main_arg3
abbrev wgtArr (c : Dev nD) : Vec Ideal S1000000x1 .f32 := V15 m ρ c main_v215
abbrev memTile (c : Dev nD) (t : Fin cfg1.N) : Vec Ideal S10000x20 .f32 := iblk1 (V15 m ρ) c 0 t
abbrev wgtTile (c : Dev nD) (t : Fin cfg1.N) : Vec Ideal S10000x1 .f32 := iblk1 (V15 m ρ) c 1 t

theorem memTile_apply (c : Dev nD) (t : Fin cfg1.N) (k : Fin 10000) (d : Fin 20) (h : 10000 * t.val + k.val < 1000000) :
    memTile m ρ c t (ix2 k d) = memArr m ρ c (ix2 ⟨10000 * t.val + k.val, h⟩ d) :=
  tile0_apply (V15 m ρ) c t k d h

theorem wgtTile_apply (c : Dev nD) (t : Fin cfg1.N) (k : Fin 10000) (h : 10000 * t.val + k.val < 1000000) :
    wgtTile m ρ c t (ix2 k 0) = wgtArr m ρ c (ix2 ⟨10000 * t.val + k.val, h⟩ 0) :=
  tile1_apply (V15 m ρ) c t k h

theorem zero1_apply (i : S1x1x20.Idx) : zero1 (F := Ideal) i = 0 := by
  unfold zero1
  rw [View.canon_unit_zero (S := S1x1x20) rh_z3]
  exact Ideal.ofBits_zero_f32

def tileSum (c : Dev nD) (n : ℕ) (d : Fin 20) : EReal :=
  if h : n < cfg1.N then ∑ k : Fin 10000, memTile m ρ c ⟨n, h⟩ (ix2 k d) * wgtTile m ρ c ⟨n, h⟩ (ix2 k 0) else 0

theorem rh_step_apply (c : Dev nD) (n : ℕ) (h : n < cfg1.N) (prev : Vec Ideal S1x1x20 .f32) (i : S1x1x20.Idx) :
    acc1 (memTile m ρ c ⟨n, h⟩) (wgtTile m ρ c ⟨n, h⟩) prev i = prev i + tileSum m ρ c n (i 2) := by
  obtain ⟨a, b, d, rfl⟩ : ∃ (a : Fin 1) (b : Fin 1) (d : Fin 20), i = ix3 a b d := ⟨i 0, i 1, i 2, eq_ix3 i⟩
  obtain rfl : a = 0 := Subsingleton.elim _ _
  obtain rfl : b = 0 := Subsingleton.elim _ _
  rw [acc1_apply]
  unfold tileSum
  rw [dif_pos h]

theorem rh_outs_at (c : Dev nD) (n : ℕ) (h : n < cfg1.N) (h49 : n % 50 = 49) (i : S1x1x20.Idx) :
    outsAt1 (V15 m ρ) c n h i = 0 + ∑ s ∈ Finset.range 50, tileSum m ρ c (50 * (n / 50) + s) (i 2) := by
  have h' : 50 * (n / 50) + n % 50 < cfg1.N := by rw [Nat.div_add_mod]; exact h
  rw [Pipeline.eq_accAt_of_mod (fun n h => outsAt1 (V15 m ρ) c n h) 50
    (fun n h => acc1 (memTile m ρ c ⟨n, h⟩) (wgtTile m ρ c ⟨n, h⟩) (zero1 (F := Ideal)))
    (fun n h prev => acc1 (memTile m ρ c ⟨n, h⟩) (wgtTile m ρ c ⟨n, h⟩) prev)
    (fun n h h0 => by
      cases n with
      | zero => rfl
      | succ n => exact (if_pos h0).trans rfl)
    (fun n h hne => (if_neg hne).trans rfl) (by decide) n h h']
  rw [Pipeline.accAt_add_apply _ _ (fun _ => (0 : EReal)) (fun n (i : S1x1x20.Idx) => tileSum m ρ c n (i 2)) (50 * (n / 50)) 49
    (fun h i => by rw [rh_step_apply, zero1_apply])
    (fun n h acc i _ _ => rh_step_apply m ρ c n h acc i) (n % 50) (by omega) h' i, h49]

def halfSums (c : Dev nD) : Vec Ideal S2x1x20 .f32 :=
  fun i => 0 + ∑ s ∈ Finset.range 50, tileSum m ρ c (50 * (i 0).val + s) (i 2)

theorem rh_flushed (c : Dev nD) (t : Fin cfg1.N) (hf : (cfg1.win 2).flush t = true) :
    (dat1 (V15 m ρ) c).flushed 2 t = ((cfg1.win 2).blk t).view.read (Elt Ideal) (halfSums m ρ c) := by
  have h49 : t.val % 50 = 49 := (flush1_2 t).mp hf
  obtain ⟨-, -, -, -, e0, e1, e2⟩ := rh_idx t
  show (cfg1.win 2).cut (grid1.coords t) ((dat1 (V15 m ρ) c).after 2 t) = _
  funext y
  rw [View.read_apply]
  show outsAt1 (V15 m ρ) c t.val t.isLt ((cfg1.win 2).xinj (grid1.coords t) y)
    = 0 + ∑ s ∈ Finset.range 50, tileSum m ρ c (50 * ((((cfg1.win 2).blk t).view.emb y) 0).val + s) ((((cfg1.win 2).blk t).view.emb y) 2)
  have hy0 : (y 0).val < 1 := (y 0).isLt
  have a0 : ((((cfg1.win 2).blk t).view.emb y) 0).val = t.val / 50 := by
    show win1_2.index t 0 * 1 + 1 * (y 0).val = _
    rw [e0]; omega
  have a2 : (((cfg1.win 2).blk t).view.emb y) 2 = ((cfg1.win 2).xinj (grid1.coords t) y) 2 :=
    Fin.ext (by show win1_2.index t 2 * 20 + 1 * (y 2).val = (y 2).val; rw [e2]; omega)
  rw [a0, a2]
  exact rh_outs_at m ρ c t.val t.isLt h49 _

theorem rh_cover (i : S2x1x20.Idx) :
    ∃ t : Fin cfg1.N, (cfg1.win 2).flush t = true ∧ i ∈ ((cfg1.win 2).blk t).view.set := by
  have hi0 : (i 0).val < 2 := (i 0).isLt
  have hi1 : (i 1).val < 1 := (i 1).isLt
  have hi2 : (i 2).val < 20 := (i 2).isLt
  obtain ⟨t, ht⟩ : ∃ t : Fin cfg1.N, t.val = 50 * (i 0).val + 49 :=
    ⟨⟨50 * (i 0).val + 49, by rw [show cfg1.N = 100 from N_1]; omega⟩, rfl⟩
  obtain ⟨-, -, -, -, e0, e1, e2⟩ := rh_idx t
  refine ⟨t, (flush1_2 t).mpr (by rw [ht]; omega), ?_⟩
  show i ∈ ((View.whole main_v216).slice (win1_2.rect t)).set
  rw [View.set_slice_whole, Rect.mem_set_unit]
  intro a
  match a with
  | ⟨0, _⟩ => show win1_2.index t 0 * 1 ≤ (i 0).val ∧ (i 0).val < win1_2.index t 0 * 1 + 1; rw [e0, ht]; omega
  | ⟨1, _⟩ => show win1_2.index t 1 * 1 ≤ (i 1).val ∧ (i 1).val < win1_2.index t 1 * 1 + 1; rw [e1]; omega
  | ⟨2, _⟩ => show win1_2.index t 2 * 20 ≤ (i 2).val ∧ (i 2).val < win1_2.index t 2 * 20 + 20; rw [e2]; omega

theorem rh_arr (c : Dev nD) : (dat1 (V15 m ρ) c).arrAt 2 cfg1.N = halfSums m ρ c :=
  (dat1 (V15 m ρ) c).arrAt_eq_of_cover 2 (halfSums m ρ c) (rh_flushed m ρ c) rh_cover

theorem rh_ref (rw : FVec Ideal Cert.ReferenceIdeal.S1x1000000 .f32) (M : FVec Ideal Cert.ReferenceIdeal.S1000000x20 .f32) (d : Fin 20) :
    refReadHead rw M (ix2 0 d) = ∑ i : Fin 1000000, rw (ix2 0 i) * M (ix2 i d) := by
  show Host.dotGeneral (DotDims.plain 1 1000000 20) none rw M (ix2 0 d) = _
  exact StackMember.dotGeneral_plain_apply none rw M 0 d

theorem rh_sum_group {M : Type*} [AddCommMonoid M] (g : ℕ → M) (b : ℕ) : ∀ a : ℕ,
    ∑ i ∈ Finset.range (b * a), g i = ∑ j ∈ Finset.range a, ∑ k ∈ Finset.range b, g (b * j + k)
  | 0 => by simp
  | a + 1 => by
    rw [Nat.mul_succ, Finset.sum_range_add, rh_sum_group g b a, Finset.sum_range_succ]

theorem rh_host (c : Dev nD) (d : Fin 20) :
    W17 m ρ c (Proc.devRef .tc main_v219) (ix2 0 d) = ∑ n ∈ Finset.range 100, tileSum m ρ c n d := by
  have harr : W16 m ρ c (Proc.devRef .tc main_v216) = halfSums m ρ c := (W16_arr m ρ c 2).trans (rh_arr m ρ c)
  have hp : ∀ p : Fin 2, shapeCast S2x20 (halfSums m ρ c) shapeCasts_S2x1x20_S2x20 (ix2 p d)
      = 0 + ∑ s ∈ Finset.range 50, tileSum m ρ c (50 * p.val + s) d := fun p =>
    shapeCast_apply _ _ (ix2 p d) (ix3 p 0 d) (by
      rw [Shape.rowMajor_val_two, Shape.rowMajor_val_three]
      show (p.val * 1 + 0) * 20 + d.val = p.val * 20 + d.val
      omega)
  have e2 : ∀ F : ℕ → EReal, ∑ j ∈ Finset.range 2, F j = F 0 + F 1 := fun F => by
    rw [Finset.sum_range_succ, Finset.sum_range_one]
  have hg : ∑ n ∈ Finset.range 100, tileSum m ρ c n d
      = (∑ s ∈ Finset.range 50, tileSum m ρ c (50 * 0 + s) d) + ∑ s ∈ Finset.range 50, tileSum m ρ c (50 * 1 + s) d := by
    rw [show (100 : ℕ) = 50 * 2 from rfl, rh_sum_group (fun n => tileSum m ρ c n d) 50 2, e2]
  dsimp only [W17]
  after_results_simp
  rw [harr]
  refine (broadcastInDim_apply _ _ _ (ix2 0 d) (ix1 d) ?_).trans ?_
  · intro a
    match a with
    | ⟨0, _⟩ => rfl
  refine (hostReduceAdd_apply _ _ _ _ (ix1 d)).trans ?_
  have hR : Shape.Reduces S2x20 [0] S20 := by decide
  refine (Ideal.hostReduceAdd_single reducesTo_S2x20_S20_d0 hR _ _ (ix1 d)).trans ?_
  show Ideal.ofBits .f32 0x00000000#32
    + ∑ k : Fin 2, shapeCast S2x20 (halfSums m ρ c) shapeCasts_S2x1x20_S2x20 (hR.lift (ix1 d) k) = _
  rw [Ideal.ofBits_zero_f32, Fin.sum_univ_two, lift0, lift0, hp, hp, hg]
  simp only [Fin.val_zero, Fin.val_one, zero_add]

abbrev rwRow (c : Dev nD) : FVec Ideal S1x1000000 .f32 := W15 m ρ c (Proc.devRef .tc main_v157)
abbrev memLaunch (c : Dev nD) : FVec Ideal S1000000x20 .f32 := m ((c.tc : Thread nD τ).loc main_arg3)

def rowTerm (c : Dev nD) (i : ℕ) (d : Fin 20) : EReal :=
  if h : i < 1000000 then rwRow m ρ c (ix2 0 ⟨i, h⟩) * memLaunch m c (ix2 ⟨i, h⟩ d) else 0

theorem tileSum_eq (c : Dev nD) (n : ℕ) (hn : n < 100) (d : Fin 20) :
    tileSum m ρ c n d = ∑ k ∈ Finset.range 10000, rowTerm m ρ c (10000 * n + k) d := by
  have hN : n < cfg1.N := by rw [show cfg1.N = 100 from N_1]; exact hn
  unfold tileSum
  rw [dif_pos hN, Finset.sum_range]
  refine Finset.sum_congr rfl fun k _ => ?_
  have hk : k.val < 10000 := k.isLt
  have hlt : 10000 * n + k.val < 1000000 := by omega
  unfold rowTerm
  rw [dif_pos hlt, memTile_apply m ρ c ⟨n, hN⟩ k d hlt, wgtTile_apply m ρ c ⟨n, hN⟩ k hlt]
  have hm : memArr m ρ c = memLaunch m c := keep m ρ c 0 15 main_arg3 (by decide)
  have hw : wgtArr m ρ c (ix2 ⟨10000 * n + k.val, hlt⟩ 0) = rwRow m ρ c (ix2 0 ⟨10000 * n + k.val, hlt⟩) :=
    (congrFun (rh_col_eq m ρ c) _).trans
      (shapeCast_apply _ _ (ix2 ⟨10000 * n + k.val, hlt⟩ 0) (ix2 0 ⟨10000 * n + k.val, hlt⟩) (by
        rw [Shape.rowMajor_val_two, Shape.rowMajor_val_two]
        show 0 * 1000000 + (10000 * n + k.val) = (10000 * n + k.val) * 1 + 0
        omega))
  rw [hm, hw]
  exact mul_comm _ _

end RH

open RH in

theorem joint_rh (c : Dev nD) :
    W17 m ρ c (Proc.devRef .tc main_v219)
      = refReadHead (W15 m ρ c (Proc.devRef .tc main_v157)) (m ((c.tc : Thread nD τ).loc main_arg3)) := by
  funext j
  obtain ⟨a, d, rfl⟩ : ∃ (a : Fin 1) (d : Fin 20), j = ix2 a d := ⟨j 0, j 1, eq_ix2 j⟩
  obtain rfl : a = 0 := Subsingleton.elim _ _
  have hrows : ∑ i : Fin 1000000, rwRow m ρ c (ix2 0 i) * memLaunch m c (ix2 i d)
      = ∑ i ∈ Finset.range 1000000, rowTerm m ρ c i d := by
    rw [Finset.sum_range]
    refine Finset.sum_congr rfl fun i _ => ?_
    unfold rowTerm
    rw [dif_pos i.isLt]
  refine (rh_host m ρ c d).trans (Eq.trans ?_ (hrows.symm.trans (rh_ref (rwRow m ρ c) (memLaunch m c) d).symm))
  show _ = ∑ i ∈ Finset.range (10000 * 100), rowTerm m ρ c i d
  rw [rh_sum_group (fun i => rowTerm m ρ c i d) 10000 100]
  exact Finset.sum_congr rfl fun n hn => tileSum_eq m ρ c n (Finset.mem_range.mp hn) d

end Cert.KernelIdeal.Hand

end
-- ==== Proof.KI.JointMem.lean ====
import proofs.«420955_j27152783245914_3_alg».proof.Proof.KI.Skip
import proofs.«420955_j27152783245914_3_alg».proof.ReferenceIdeal
import proofs.«420955_j27152783245914_3_alg».proof.Proof.Gen.ReferenceIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.Lib.KernelVsHost
import Idealize.ShloMosaic.Lib.StackMember

set_option maxRecDepth 16384

noncomputable section

namespace Cert.KernelIdeal.Hand

open Cert.KernelIdeal Cert.KernelIdeal.Gen
open Idealize.ShloMosaic Idealize.ShloMosaic.TcCoe Idealize.SL Idealize.SL.Sem Idealize.ShloMosaic.StableHlo Idealize.ShloMosaic.ValueIdx

variable (m : (ℓ : Loc nD τ sig) → Buf (Elt Ideal) ℓ) (ρ : Dev nD → PrngReg)

abbrev refNewMemory (M : FVec Ideal Cert.ReferenceIdeal.S1000000x20 .f32) (ww : FVec Ideal Cert.ReferenceIdeal.S1x1000000 .f32) (er ad : FVec Ideal Cert.ReferenceIdeal.S1x20 .f32) : FVec Ideal Cert.ReferenceIdeal.S1000000x20 .f32 :=
  (addf (mulf M (subf (broadcastInDim Cert.ReferenceIdeal.S1000000x20 ![] Cert.ReferenceIdeal.Facts₀.bcast_S_S1000000x20 (constant Cert.ReferenceIdeal.S_ .f32 0x3F800000#32)) (Host.dotGeneral Cert.ReferenceIdeal.dot_S1000000x1_S1x20_S1000000x20_1_0_0_1_n_n none (transpose Cert.ReferenceIdeal.S1000000x1 [1, 0] ww Cert.ReferenceIdeal.Facts₀.transposes_S1x1000000_S1000000x1_1_0) er))) (Host.dotGeneral Cert.ReferenceIdeal.dot_S1000000x1_S1x20_S1000000x20_1_0_0_1_n_n none (transpose Cert.ReferenceIdeal.S1000000x1 [1, 0] ww Cert.ReferenceIdeal.Facts₀.transposes_S1x1000000_S1000000x1_1_0) ad))

namespace JointMem

theorem hz2 : (![0, 0] : Fin 2 → Nat) = fun _ => 0 := funext fun a => by fin_cases a <;> rfl

theorem bcast_col (v : S5000x1.Idx → Ideal .f32) (h : S5000x1.Broadcasts S5000x20) (p : Fin 5000) (q : Fin 20) :
    broadcastTo S5000x20 v h (ix2 p q) = v (ix2 p (0 : Fin 1)) :=
  broadcastTo_apply v h (ix2 p q) (ix2 p (0 : Fin 1)) fun a => by match a with | ⟨0, _⟩ => rfl | ⟨1, _⟩ => rfl

theorem pay_apply (x0 : Vec Ideal S5000x20 .f32) (x1 : Vec Ideal S5000x1 .f32) (x2 x3 : Vec Ideal S1x20 .f32) (p : Fin 5000) (q : Fin 20) :
    k2_pay1 (F := Ideal) x0 x1 x2 x3 (ix2 p q)
      = x0 (ix2 p q) * (Ideal.ofBits .f32 0x3F800000#32 - x1 (ix2 p 0) * x2 (ix2 0 q)) + x1 (ix2 p 0) * x3 (ix2 0 q) := by
  unfold k2_pay1
  simp only [shapeCast_self]
  rw [addf_apply, mulf_apply, subf_apply, mulf_apply, mulf_apply, broadcast_apply]
  rw [bcast_col, broadcastTo_1b_ab_apply, broadcastTo_1b_ab_apply]
  rfl

-- the contracted axis has one coordinate, so the sum defining an entry has one term
theorem outer_apply (col : FVec Ideal Cert.ReferenceIdeal.S1000000x1 .f32) (row : FVec Ideal Cert.ReferenceIdeal.S1x20 .f32)
    (i : Fin 1000000) (d : Fin 20) :
    Host.dotGeneral (F := Ideal) Cert.ReferenceIdeal.dot_S1000000x1_S1x20_S1000000x20_1_0_0_1_n_n none col row (ix2 i d) = col (ix2 i (0 : Fin 1)) * row (ix2 (0 : Fin 1) d) :=
  (StackMember.dotGeneral_plain_apply none col row i d).trans (Fin.sum_univ_one _)

theorem ref_apply (M : FVec Ideal Cert.ReferenceIdeal.S1000000x20 .f32) (ww : FVec Ideal Cert.ReferenceIdeal.S1x1000000 .f32)
    (er ad : FVec Ideal Cert.ReferenceIdeal.S1x20 .f32) (i : Fin 1000000) (d : Fin 20) :
    refNewMemory M ww er ad (ix2 i d)
      = M (ix2 i d) * (Ideal.ofBits .f32 0x3F800000#32 - ww (ix2 (0 : Fin 1) i) * er (ix2 (0 : Fin 1) d))
        + ww (ix2 (0 : Fin 1) i) * ad (ix2 (0 : Fin 1) d) := by
  unfold refNewMemory
  rw [addf_apply, mulf_apply, subf_apply, outer_apply, outer_apply, transpose_ix2_apply]
  rfl

section Region

variable (V : (c : Dev nD) → (b : Ref sig .tc) → Buf (Elt Ideal) ((c : Thread nD τ).loc b))

theorem pts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem memblk_apply (c : Dev nD) (t : Fin cfg2.N) (p : Fin 5000) (q : Fin 20) (k : S1000000x20.Idx)
    (hk0 : (k 0).val = 5000 * t.val + p.val) (hk1 : (k 1).val = q.val) :
    (iblk2 V c 0 t : Vec Ideal S5000x20 .f32) (ix2 p q) = (V c main_arg3 : S1000000x20.Idx → Elt Ideal .f32) k := by
  obtain ⟨e0, e1, -⟩ := pts2 t
  unfold iblk2
  rw [View.read_apply]
  show V c main_arg3 _ = V c main_arg3 _
  congr 1
  funext a
  apply Fin.ext
  match a with
  | ⟨0, _⟩ => show win2_0.index t 0 * 5000 + 1 * p.val = (k 0).val; rw [e0, hk0]; omega
  | ⟨1, _⟩ => show win2_0.index t 1 * 20 + 1 * q.val = (k 1).val; rw [e1, hk1]; omega

theorem colblk_apply (c : Dev nD) (t : Fin cfg2.N) (p : Fin 5000) (r : Fin 1000000) (hr : r.val = 5000 * t.val + p.val) :
    (iblk2 V c 1 t : Vec Ideal S5000x1 .f32) (ix2 p (0 : Fin 1)) = (V c main_v318 : S1000000x1.Idx → Elt Ideal .f32) (ix2 r (0 : Fin 1)) := by
  obtain ⟨-, -, e0, e1, -⟩ := pts2 t
  unfold iblk2
  rw [View.read_apply]
  show V c main_v318 _ = V c main_v318 _
  congr 1
  funext a
  apply Fin.ext
  match a with
  | ⟨0, _⟩ => show win2_1.index t 0 * 5000 + 1 * p.val = r.val; rw [e0, hr]; omega
  | ⟨1, _⟩ => show win2_1.index t 1 * 1 + 1 * 0 = 0; rw [e1]

theorem eraseblk_apply (c : Dev nD) (t : Fin cfg2.N) (q q' : Fin 20) (hq : q'.val = q.val) :
    (iblk2 V c 2 t : Vec Ideal S1x20 .f32) (ix2 (0 : Fin 1) q) = (V c main_v30 : S1x20.Idx → Elt Ideal .f32) (ix2 (0 : Fin 1) q') := by
  obtain ⟨-, -, -, -, e0, e1, -⟩ := pts2 t
  unfold iblk2
  rw [View.read_apply]
  show V c main_v30 _ = V c main_v30 _
  congr 1
  funext a
  apply Fin.ext
  match a with
  | ⟨0, _⟩ => show win2_2.index t 0 * 1 + 1 * 0 = 0; rw [e0]
  | ⟨1, _⟩ => show win2_2.index t 1 * 20 + 1 * q.val = q'.val; rw [e1, hq]; omega

theorem addblk_apply (c : Dev nD) (t : Fin cfg2.N) (q q' : Fin 20) (hq : q'.val = q.val) :
    (iblk2 V c 3 t : Vec Ideal S1x20 .f32) (ix2 (0 : Fin 1) q) = (V c main_v317 : S1x20.Idx → Elt Ideal .f32) (ix2 (0 : Fin 1) q') := by
  obtain ⟨-, -, -, -, -, -, e0, e1, -⟩ := pts2 t
  unfold iblk2
  rw [View.read_apply]
  show V c main_v317 _ = V c main_v317 _
  congr 1
  funext a
  apply Fin.ext
  match a with
  | ⟨0, _⟩ => show win2_3.index t 0 * 1 + 1 * 0 = 0; rw [e0]
  | ⟨1, _⟩ => show win2_3.index t 1 * 20 + 1 * q.val = q'.val; rw [e1, hq]; omega

theorem point_eq (c : Dev nD) (t : Fin cfg2.N) (p : Fin 5000) (q : Fin 20) (k : S1000000x20.Idx)
    (hk0 : (k 0).val = 5000 * t.val + p.val) (hk1 : (k 1).val = q.val) (ww : S1x1000000.Idx → Elt Ideal .f32)
    (hcol : ∀ r : Fin 1000000, (V c main_v318 : S1000000x1.Idx → Elt Ideal .f32) (ix2 r (0 : Fin 1)) = ww (ix2 (0 : Fin 1) r)) :
    k2_pay1 (F := Ideal) (iblk2 V c 0 t) (iblk2 V c 1 t) (iblk2 V c 2 t) (iblk2 V c 3 t) (ix2 p q)
      = refNewMemory (V c main_arg3) ww (V c main_v30) (V c main_v317) k := by
  obtain ⟨i, d, rfl⟩ : ∃ (i : Fin 1000000) (d : Fin 20), k = ix2 i d := ⟨k 0, k 1, eq_ix2 k⟩
  rw [pay_apply, ref_apply, ← hcol, memblk_apply V c t p q (ix2 i d) hk0 hk1, colblk_apply V c t p i hk0,
    eraseblk_apply V c t q d hk1, addblk_apply V c t q d hk1]

theorem flushed_eq (c : Dev nD) (t : Fin cfg2.N) (ww : S1x1000000.Idx → Elt Ideal .f32)
    (hcol : ∀ r : Fin 1000000, (V c main_v318 : S1000000x1.Idx → Elt Ideal .f32) (ix2 r (0 : Fin 1)) = ww (ix2 (0 : Fin 1) r)) :
    (dat2 V c).flushed 4 t = ((cfg2.win 4).blk t).view.read (Elt Ideal) (refNewMemory (V c main_arg3) ww (V c main_v30) (V c main_v317)) := by
  show (cfg2.win 4).cut (grid2.coords t) ((dat2 V c).after 4 t) = _
  rw [after2_4]
  unfold out2_4
  rw [View.canon_unit_zero hz2]
  simp only [View.ld_unit_zero (S := S5000x20) hz2, View.ld_unit_zero (S := S5000x1) hz2, View.ld_unit_zero (S := S1x20) hz2]
  refine funext fun j => ?_
  obtain ⟨p, q, rfl⟩ : ∃ (p : Fin 5000) (q : Fin 20), j = ix2 p q := ⟨j 0, j 1, eq_ix2 j⟩
  obtain ⟨-, -, -, -, -, -, -, -, e0, e1⟩ := pts2 t
  exact point_eq V c t p q (((cfg2.win 4).blk t).view.emb (ix2 p q))
    (by show win2_4.index t 0 * 5000 + 1 * p.val = 5000 * t.val + p.val; rw [e0]; omega)
    (by show win2_4.index t 1 * 20 + 1 * q.val = q.val; rw [e1]; omega) ww hcol

theorem covered (i : S1000000x20.Idx) :
    ∃ t : Fin cfg2.N, (cfg2.win 4).flush t = true ∧ i ∈ ((cfg2.win 4).blk t).view.set := by
  have hi0 : (i 0).val < 1000000 := idx2_lt0 i
  have hi1 : (i 1).val < 20 := idx2_lt1 i
  obtain ⟨t, ht⟩ : ∃ t : Fin cfg2.N, t.val = (i 0).val / 5000 :=
    ⟨⟨(i 0).val / 5000, by rw [show cfg2.N = 200 from N_2]; omega⟩, rfl⟩
  obtain ⟨-, -, -, -, -, -, -, -, e0, e1⟩ := pts2 t
  refine ⟨t, flush2_4 t, ?_⟩
  show i ∈ ((View.whole main_v319).slice (win2_4.rect t)).set
  rw [View.set_slice_whole, Rect.mem_set_unit]
  intro a
  match a with
  | ⟨0, _⟩ => show win2_4.index t (0 : Fin 2) * 5000 ≤ (i 0).val ∧ (i 0).val < win2_4.index t (0 : Fin 2) * 5000 + 5000; rw [e0, ht]; omega
  | ⟨1, _⟩ => show win2_4.index t (1 : Fin 2) * 20 ≤ (i 1).val ∧ (i 1).val < win2_4.index t (1 : Fin 2) * 20 + 20; rw [e1]; omega

theorem out_final (c : Dev nD) (ww : S1x1000000.Idx → Elt Ideal .f32)
    (hcol : ∀ r : Fin 1000000, (V c main_v318 : S1000000x1.Idx → Elt Ideal .f32) (ix2 r (0 : Fin 1)) = ww (ix2 (0 : Fin 1) r)) :
    (dat2 V c).arrAt 4 cfg2.N = refNewMemory (V c main_arg3) ww (V c main_v30) (V c main_v317) :=
  (dat2 V c).arrAt_eq_of_cover 4 _ (fun t _ => flushed_eq V c t ww hcol) covered

end Region

theorem col_apply (c : Dev nD) (r : Fin 1000000) :
    (W29 m ρ c (Proc.devRef .tc main_v318) : S1000000x1.Idx → Elt Ideal .f32) (ix2 r (0 : Fin 1))
      = (W29 m ρ c (Proc.devRef .tc main_v214) : S1x1000000.Idx → Elt Ideal .f32) (ix2 (0 : Fin 1) r) := by
  have e : (W29 m ρ c (Proc.devRef .tc main_v318) : S1000000x1.Idx → Elt Ideal .f32)
      = shapeCast S1000000x1 (W29 m ρ c (Proc.devRef .tc main_v214) : S1x1000000.Idx → Elt Ideal .f32) shapeCasts_S1x1000000_S1000000x1 := by
    dsimp only [W29]
    after_results_simp
    rfl
  rw [e]
  refine shapeCast_apply _ _ _ _ ?_
  show (S1x1000000.rowMajor (ix2 (0 : Fin 1) r)).val = (S1000000x1.rowMajor (ix2 r (0 : Fin 1))).val
  rw [Shape.rowMajor_val_two, Shape.rowMajor_val_two]
  show 0 * 1000000 + r.val = r.val * 1 + 0
  omega

end JointMem

theorem joint_mem (c : Dev nD) :
    W30 m ρ c (Proc.devRef .tc main_v319)
      = refNewMemory (m ((c.tc : Thread nD τ).loc main_arg3)) (W29 m ρ c (Proc.devRef .tc main_v214))
          (W29 m ρ c (Proc.devRef .tc main_v30)) (W29 m ρ c (Proc.devRef .tc main_v317)) := by
  refine (W30_arr m ρ c 4).trans ?_
  rw [JointMem.out_final (V29 m ρ) c _ (JointMem.col_apply m ρ c)]
  exact congrArg (fun M => refNewMemory M (W29 m ρ c (Proc.devRef .tc main_v214)) (W29 m ρ c (Proc.devRef .tc main_v30))
    (W29 m ρ c (Proc.devRef .tc main_v317))) (keep m ρ c 0 29 main_arg3 (by decide))

end Cert.KernelIdeal.Hand

end
-- ==== Proof.KI.JH2.lean ====
import proofs.«420955_j27152783245914_3_alg».proof.Proof.KI.JH1
import proofs.«420955_j27152783245914_3_alg».proof.Proof.KI.JointRH
import proofs.«420955_j27152783245914_3_alg».proof.Proof.KI.JointMem

set_option maxRecDepth 16384

namespace Cert.KernelIdeal.Hand

open Cert.KernelIdeal Cert.KernelIdeal.Gen Cert.ReferenceIdeal.Read Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

theorem j2_rh : W17 m ρ c (Proc.devRef .tc main_v219) = val_main_v219 (F := Ideal) (inp m c main_arg0) (inp m c main_arg1) (inp m c main_arg3) (inp m c main_arg5) (inp m c main_arg6) (inp m c main_arg7) (inp m c main_arg8) (inp m c main_arg9) (inp m c main_arg10) := by
  rw [joint_rh m ρ c, j1_rw m ρ c]; rfl

-- the same in the operations' own terms: the two halves' partial sums added and laid out as a row
theorem j2_rh_term :
    (broadcastInDim S1x20 ![1] bcast_S20_S1x20_1 (Host.reduceAdd (shapeCast S2x20 (W16 m ρ c (Proc.devRef .tc main_v216)) shapeCasts_S2x1x20_S2x20) (constant S_ .f32 0x00000000#32) reducesTo_S2x20_S20_d0 h_S_) : FVec Ideal S1x20 .f32) = val_main_v219 (F := Ideal) (inp m c main_arg0) (inp m c main_arg1) (inp m c main_arg3) (inp m c main_arg5) (inp m c main_arg6) (inp m c main_arg7) (inp m c main_arg8) (inp m c main_arg9) (inp m c main_arg10) := by
  rw [← j2_rh m ρ c]; dsimp only [W17]; after_results_kcat; all_goals rfl

theorem at16_main_v15 : W16 m ρ c (Proc.devRef .tc main_v15) = val_main_v15 (F := Ideal) (inp m c main_arg0) (inp m c main_arg5) (inp m c main_arg6) (inp m c main_arg7) (inp m c main_arg8) (inp m c main_arg11) (inp m c main_arg12) :=
  (keep m ρ c 9 7 main_v15 (by decide)).trans (j0_main_v15 m ρ c)

theorem at16_main_v34 : W16 m ρ c (Proc.devRef .tc main_v34) = val_main_v34 (F := Ideal) (inp m c main_arg0) (inp m c main_arg5) (inp m c main_arg6) (inp m c main_arg7) (inp m c main_arg8) (inp m c main_arg9) (inp m c main_arg10) :=
  (keep m ρ c 9 7 main_v34 (by decide)).trans (j0_main_v34 m ρ c)

set_option maxHeartbeats 4000000 in
theorem j2_out : W29 m ρ c (Proc.devRef .tc main_v307) = val_main_v307 (F := Ideal) (inp m c main_arg0) (inp m c main_arg1) (inp m c main_arg3) (inp m c main_arg4) (inp m c main_arg5) (inp m c main_arg6) (inp m c main_arg7) (inp m c main_arg8) (inp m c main_arg9) (inp m c main_arg10) (inp m c main_arg11) (inp m c main_arg12) (inp m c main_arg15) (inp m c main_arg16) (inp m c main_arg17) (inp m c main_arg18) (inp m c main_arg19) (inp m c main_arg20) (inp m c main_arg21) (inp m c main_arg22) (inp m c main_arg23) (inp m c main_arg24) (inp m c main_arg25) (inp m c main_arg26) (inp m c main_arg27) (inp m c main_arg28) (inp m c main_arg29) (inp m c main_arg30) := by
  dsimp only [W29, W28, W27, W26, W25, W24, W23, W22, W21, W20, W19, W18, W17]
  after_results_kcat
  simp only [val_main_v307, val_main_v306, val_main_v298, val_main_v297, val_main_v296, val_main_v295, val_main_v294, val_main_v293, val_main_v292, val_main_v291, val_main_v290, val_main_v288, val_main_v287, val_main_v286, val_main_v285, val_main_v284, val_main_v283, val_main_v282, val_main_v281, val_main_v280, val_main_v279, val_main_v278, val_main_v277, val_main_v276, val_main_v275, val_main_v274, val_main_v273, val_main_v272, val_main_v271, val_main_v270, val_main_v269, val_main_v220, val_main_v305, val_main_v304, val_main_v303, val_main_v238, val_main_v237, val_main_v236, val_main_v235, val_main_v234, val_main_v233, val_main_v232, val_main_v231, val_main_v230, val_main_v228, val_main_v227, val_main_v302, val_main_v268, val_main_v267, val_main_v266, val_main_v265, val_main_v264, val_main_v263, val_main_v262, val_main_v261, val_main_v260, val_main_v258, val_main_v257, val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_v301, val_main_v300, val_main_v299]
  rw [← j2_rh_term m ρ c]
  simp (disch := decide) only [at16_main_v15 m ρ c, at16_main_v34 m ρ c, at16 m ρ c]
  rfl

set_option maxHeartbeats 4000000 in
theorem j2_add : W29 m ρ c (Proc.devRef .tc main_v317) = val_main_v317 (F := Ideal) (inp m c main_arg0) (inp m c main_arg1) (inp m c main_arg3) (inp m c main_arg4) (inp m c main_arg5) (inp m c main_arg6) (inp m c main_arg7) (inp m c main_arg8) (inp m c main_arg9) (inp m c main_arg10) (inp m c main_arg11) (inp m c main_arg12) (inp m c main_arg13) (inp m c main_arg14) (inp m c main_arg15) (inp m c main_arg16) (inp m c main_arg17) (inp m c main_arg18) (inp m c main_arg19) (inp m c main_arg20) (inp m c main_arg21) (inp m c main_arg22) (inp m c main_arg23) (inp m c main_arg24) (inp m c main_arg25) (inp m c main_arg26) (inp m c main_arg27) (inp m c main_arg28) (inp m c main_arg29) (inp m c main_arg30) := by
  dsimp only [W29, W28, W27, W26, W25, W24, W23, W22, W21, W20, W19, W18, W17]
  after_results_kcat
  simp only [val_main_v317, val_main_v316, val_main_v311, val_main_v310, val_main_v309, val_main_v308, val_main_v307, val_main_v306, val_main_v298, val_main_v297, val_main_v296, val_main_v295, val_main_v294, val_main_v293, val_main_v292, val_main_v291, val_main_v290, val_main_v288, val_main_v287, val_main_v286, val_main_v285, val_main_v284, val_main_v283, val_main_v282, val_main_v281, val_main_v280, val_main_v279, val_main_v278, val_main_v277, val_main_v276, val_main_v275, val_main_v274, val_main_v273, val_main_v272, val_main_v271, val_main_v270, val_main_v269, val_main_v220, val_main_v305, val_main_v304, val_main_v303, val_main_v238, val_main_v237, val_main_v236, val_main_v235, val_main_v234, val_main_v233, val_main_v232, val_main_v231, val_main_v230, val_main_v228, val_main_v227, val_main_v302, val_main_v268, val_main_v267, val_main_v266, val_main_v265, val_main_v264, val_main_v263, val_main_v262, val_main_v261, val_main_v260, val_main_v258, val_main_v257, val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_v301, val_main_v300, val_main_v299, val_main_v315, val_main_v314, val_main_v226, val_main_v225, val_main_v224, val_main_v223, val_main_v222, val_main_v221, val_main_v313, val_main_v312]
  rw [← j2_rh_term m ρ c]
  simp (disch := decide) only [at16_main_v15 m ρ c, at16_main_v34 m ρ c, at16 m ρ c]
  rfl

theorem j2_mem : W30 m ρ c (Proc.devRef .tc main_v319) = val_main_v325 (F := Ideal) (inp m c main_arg0) (inp m c main_arg1) (inp m c main_arg2) (inp m c main_arg3) (inp m c main_arg4) (inp m c main_arg5) (inp m c main_arg6) (inp m c main_arg7) (inp m c main_arg8) (inp m c main_arg9) (inp m c main_arg10) (inp m c main_arg11) (inp m c main_arg12) (inp m c main_arg13) (inp m c main_arg14) (inp m c main_arg15) (inp m c main_arg16) (inp m c main_arg17) (inp m c main_arg18) (inp m c main_arg19) (inp m c main_arg20) (inp m c main_arg21) (inp m c main_arg22) (inp m c main_arg23) (inp m c main_arg24) (inp m c main_arg25) (inp m c main_arg26) (inp m c main_arg27) (inp m c main_arg28) (inp m c main_arg29) (inp m c main_arg30) := by
  rw [joint_mem m ρ c, show W29 m ρ c (Proc.devRef .tc main_v214) = _ from (keep m ρ c 15 14 main_v214 (by decide)).trans (j1_ww m ρ c),
    show W29 m ρ c (Proc.devRef .tc main_v30) = _ from (keep m ρ c 9 20 main_v30 (by decide)).trans (j0_main_v30 m ρ c), j2_add m ρ c]
  rfl

end Cert.KernelIdeal.Hand
-- ==== Proof.KI.Run.lean ====
import proofs.«420955_j27152783245914_3_alg».proof.Proof.KI.Skip

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V15 m ρ) c
  | ⟨2, _⟩ => fun c => dat2 (V29 m ρ) c
abbrev 𝒱₀ : Variants := Variants.none
abbrev L : GSem nD τ sig → Finset Unit := fun _ => ∅
abbrev lv : GSem nD τ sig → Unit → ℕ := fun _ _ => 0
abbrev Gn (c : Dev nD) : sProp 𝕄 := iprop(∃ r, prngReg c r)
abbrev Due (c : Dev nD) : sProp 𝕄 := iprop(∃ W, owes (c : Thread nD τ) (0 : CellTallies nD τ sig Unit) W)
abbrev R (c : Dev nD) : sProp 𝕄 := iprop(Gn c ∗ Due c)
abbrev St (W : Dev nD → Valuation τ sig (Elt F)) (c : Dev nD) : sProp 𝕄 :=
  iprop(StableHlo.held (c : Thread nD τ) (Pipeline.ucRefs τ sig) (W c) ∗ R c)

section Region

variable {cfg : Cfg sig Λ₀} {c : Dev nD} (d : Dat τ (Elt F) Unit ℕ (UR sig nD τ) ℕ cfg c)

theorem owesAt_of_due (t : Fin (cfg.N + 1)) (h0 : d.owed t = 0) (hrec : d.recorded t = Set.univ) :
    (Due c : sProp 𝕄) ⊢ d.owesAt () t := by
  show _ ⊢ iprop(∃ W, ⌜↑W ⊆ d.bound () t⌝ ∗ owes (c : Thread nD τ) (d.owed t) W)
  rw [h0]
  iintro ⟨%W, H⟩
  iexists W
  isplitr
  · ipureintro
    exact fun x _ => Or.inl (hrec ▸ Set.mem_univ x)
  · iexact H

theorem due_of_owesAt (t : Fin (cfg.N + 1)) (h0 : d.owed t = 0) : d.owesAt () t ⊢ (Due c : sProp 𝕄) := by
  show iprop(∃ W, ⌜↑W ⊆ d.bound () t⌝ ∗ owes (c : Thread nD τ) (d.owed t) W) ⊢ _
  rw [h0]
  iintro ⟨%W, -, H⟩
  iexists W
  iexact H

end Region

theorem prefHeld_none (c : Dev nD) (q : Fin 0 → PosShare TreeShare) (V : (Pipeline.Prefetch.none (sig := sig)).Contents (Elt F)) :
    (Pipeline.prefHeld (Ix := Unit) (Name := ℕ) (U := UR sig nD τ) (Lvl := ℕ) Pipeline.Prefetch.none c q V : sProp 𝕄) = BI.emp := by
  unfold Pipeline.prefHeld
  rw [show (Finset.univ : Finset (Fin (Pipeline.Prefetch.none (sig := sig)).K)) = ∅ from rfl, BI.bigSep_empty]

set_option backward.isDefEq.respectTransparency.types false in
def regionSeg (p : Fin 3) (lf : Pipeline.LaunchFacts (nD := nD) (τ := τ) cfgs p)
    (Wi Wo : Dev nD → Valuation τ sig (Elt F))
    (hbody : ∀ c, BodyObligation (pdats m ρ p c) (defs₀ (F := F)) Variants.none () Set.univ)
    (hq : ∀ c w, (pdats m ρ p c).q w = fullShare)
    (hA : ∀ c w, (pdats m ρ p c).A w = Wi c (Pipeline.arrRef (cfgs p).spec w))
    (hΦ : ∀ c t, (pdats m ρ p c).Φ t = Pipeline.ΦA (cfgs p).spec c)
    (howed : ∀ c t, (pdats m ρ p c).owed t = 0)
    (hrec : ∀ c t, (pdats m ρ p c).recorded t = Set.univ)
    (hF : ∀ c w, (pdats m ρ p c).arrAt w (cfgs p).N = Wo c (Pipeline.arrRef (cfgs p).spec w))
    (hrest : ∀ c (b : Ref sig .tc), b ∉ Finset.univ.image (Pipeline.arrRef (cfgs p).spec) → Wo c b = Wi c b) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X := Gn
  Y := Gn
  Z c := Pipeline.unscopedRest (Ix := Unit) (Name := ℕ) (U := UR sig nD τ) (Lvl := ℕ) (cfgs p).spec c (fun b => Wi c b)
  hentry c := by
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    rw [prefHeld_none]
    iintro ⟨⟨Hbufs, Hgen, Hdue⟩, -, -⟩
    imodintro
    ihave Hparts := hsplit $$ Hbufs
    icases Hparts with ⟨Harr, Hrest⟩
    ihave Hdue' := (owesAt_of_due (pdats m ρ p c) 0 (howed c 0) (hrec c 0)) $$ Hdue
    iframe Harr Hdue' Hgen Hrest
    iempintro
  hin c := by
    rw [hΦ c 0, prefHeld_none]
    unfold Pipeline.ΦA
    iintro ⟨Hgen, -, Hscoped⟩
    iframe Hscoped Hgen
  hout c := by
    rw [hΦ c (Fin.last _), Pipeline.ownSems0_none]
    unfold Pipeline.ΦA
    iintro ⟨Hscoped, Hgen⟩
    iframe Hgen Hscoped
    iempintro
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (cfgs p).N) (hF c) (hrest c)
    rw [Pipeline.unscopedBufs_held] at hjoin
    iintro ⟨Harr, Hdue, Hgen, Hrest⟩
    imodintro
    ihave Hbufs := hjoin $$ [Harr Hrest]
    · iframe Harr Hrest
    ihave Hdue' := (due_of_owesAt (pdats m ρ p c) (Fin.last _) (howed c _)) $$ Hdue
    isplitl [Hbufs]
    · iexact Hbufs
    isplitl [Hgen]
    · iexact Hgen
    · iexact Hdue'

def reg0 : Pipeline.RegionSeg (pcfgs (F := F)) adm (pdats m ρ) () defs₀ 𝒱₀ L lv 0 :=
  regionSeg m ρ 0 launch0 (W9 m ρ) (W10 m ρ) (fun c => body_obligation0 (V9 m ρ) c)
    (fun _ _ => rfl) (fun _ _ => rfl) (fun _ _ => rfl) (fun _ _ => rfl) (fun _ _ => rfl) (hF0 m ρ) (hrest0 m ρ)
def reg1 : Pipeline.RegionSeg (pcfgs (F := F)) adm (pdats m ρ) () defs₀ 𝒱₀ L lv 1 :=
  regionSeg m ρ 1 launch1 (W15 m ρ) (W16 m ρ) (fun c => body_obligation1 (V15 m ρ) c)
    (fun _ _ => rfl) (fun _ _ => rfl) (fun _ _ => rfl) (fun _ _ => rfl) (fun _ _ => rfl) (hF1 m ρ) (hrest1 m ρ)
def reg2 : Pipeline.RegionSeg (pcfgs (F := F)) adm (pdats m ρ) () defs₀ 𝒱₀ L lv 2 :=
  regionSeg m ρ 2 launch2 (W29 m ρ) (W30 m ρ) (fun c => body_obligation2 (V29 m ρ) c)
    (fun _ _ => rfl) (fun _ _ => rfl) (fun _ _ => rfl) (fun _ _ => rfl) (fun _ _ => rfl) (hF2 m ρ) (hrest2 m ρ)

-- a stretch none of whose operations allocates: their `fresh` sets are all empty
theorem fresh_of {ops : List (HloOp τ sig (Elt F))} (h : ops.map HloOp.fresh = ops.map fun _ => ∅) :
    ∀ op ∈ ops, op.fresh = ∅ := fun op hop => by
  obtain ⟨_, _, e⟩ := List.mem_map.mp (h ▸ List.mem_map_of_mem (f := HloOp.fresh) hop)
  exact e.symm

abbrev hseg (ops : List (HloOp τ sig (Elt F))) (hsub : ops.Forall fun op => op.bufs ⊆ StableHlo.tcRefs τ sig)
    (hfresh : ops.map HloOp.fresh = ops.map fun _ => ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fresh_of hfresh) W R

abbrev segs : List (Pipeline.Seg (pcfgs (F := F)) adm (pdats m ρ) () defs₀ 𝒱₀ L lv) :=
  [ .host (hseg hostOps0 hostOps0_sub rfl (W0 m ρ)),
    .host (hseg hostOps0_1 hostOps0_1_sub rfl (W1 m ρ)),
    .host (hseg hostOps0_2 hostOps0_2_sub rfl (W2 m ρ)),
    .host (hseg hostOps0_3 hostOps0_3_sub rfl (W3 m ρ)),
    .host (hseg hostOps0_4 hostOps0_4_sub rfl (W4 m ρ)),
    .host (hseg hostOps0_5 hostOps0_5_sub rfl (W5 m ρ)),
    .host (hseg hostOps0_6 hostOps0_6_sub rfl (W6 m ρ)),
    .host (hseg hostOps0_7 hostOps0_7_sub rfl (W7 m ρ)),
    .host (hseg hostOps0_8 hostOps0_8_sub rfl (W8 m ρ)),
    .region (reg0 m ρ),
    .host (hseg hostOps1 hostOps1_sub rfl (W10 m ρ)),
    .host (hseg hostOps1_1 hostOps1_1_sub rfl (W11 m ρ)),
    .host (hseg hostOps1_2 hostOps1_2_sub rfl (W12 m ρ)),
    .host (hseg hostOps1_3 hostOps1_3_sub rfl (W13 m ρ)),
    .host (hseg hostOps1_4 hostOps1_4_sub rfl (W14 m ρ)),
    .region (reg1 m ρ),
    .host (hseg hostOps2 hostOps2_sub rfl (W16 m ρ)),
    .host (hseg hostOps2_1 hostOps2_1_sub rfl (W17 m ρ)),
    .host (hseg hostOps2_2 hostOps2_2_sub rfl (W18 m ρ)),
    .host (hseg hostOps2_3 hostOps2_3_sub rfl (W19 m ρ)),
    .host (hseg hostOps2_4 hostOps2_4_sub rfl (W20 m ρ)),
    .host (hseg hostOps2_5 hostOps2_5_sub rfl (W21 m ρ)),
    .host (hseg hostOps2_6 hostOps2_6_sub rfl (W22 m ρ)),
    .host (hseg hostOps2_7 hostOps2_7_sub rfl (W23 m ρ)),
    .host (hseg hostOps2_8 hostOps2_8_sub rfl (W24 m ρ)),
    .host (hseg hostOps2_9 hostOps2_9_sub rfl (W25 m ρ)),
    .host (hseg hostOps2_10 hostOps2_10_sub rfl (W26 m ρ)),
    .host (hseg hostOps2_11 hostOps2_11_sub rfl (W27 m ρ)),
    .host (hseg hostOps2_12 hostOps2_12_sub rfl (W28 m ρ)),
    .region (reg2 m ρ) ]

theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem held_read (c : Dev nD) (W : Valuation τ sig (Elt F)) (s' : Phys nD τ sig (Elt F)) :
    iprop(StableHlo.held (c : Thread nD τ) (Pipeline.ucRefs τ sig) W ∗ SI s')
      ⊢ (iprop(⌜∀ b ∈ Pipeline.ucRefs τ sig, s'.mem.mem (((c : Thread nD τ)).1, b) = W b⌝ ∗ SI s') : sProp 𝕄) := by
  unfold StableHlo.held
  exact pointsTo_read_all (Pipeline.ucRefs τ sig) (fun b => (((c : Thread nD τ)).1, b)) W s'

abbrev Tₙ (c : Dev nD) : sProp 𝕄 := iprop(StableHlo.held (c : Thread nD τ) (Pipeline.ucRefs τ sig) (Wfin m ρ c) ∗ Gn c)

theorem last_state (c : Dev nD) : St (Wfin m ρ) c ⊢ iprop(Tₙ m ρ c ∗ Due c) := sep_assoc.2

theorem emp_all : (BI.emp : sProp 𝕄) ⊢ bigSep Finset.univ fun _ : Dev nD => (BI.emp : sProp 𝕄) :=
  .of_eq (BI.bigSep_emp_const Finset.univ).symm

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (emp_all (F := F)); iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m ρ c⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdue, -, Hgen, -⟩, -⟩
      imodintro
      isplitl [Hbufs]
      · iexact Hbufs
      isplitl [Hgen]
      · iexists _; iexact Hgen
      · iexists ∅; iexact Hdue)
    (QY := fun c s => ∀ b ∈ Pipeline.ucRefs τ sig, s.mem (((c : Thread nD τ)).1, b) = Wfin m ρ c b)
    (hfin := fun c s' => by
      iintro ⟨⟨Hbufs, -⟩, HSI⟩
      imodintro
      iapply (held_read c (Wfin m ρ c) s')
      iframe Hbufs HSI)
    (hQ := fun _ h => h)

theorem Wfin_of (c : Dev nD) (r : Ref sig .tc) (h : r ∉ span 0 30) :
    Wfin m ρ c (Proc.devRef .tc r) = m ((c : Thread nD τ).loc r) :=
  keep m ρ c 0 30 r h

abbrev args : List (Ref sig .tc) := [
  main_arg0, main_arg1, main_arg2, main_arg3, main_arg4, main_arg5, main_arg6, main_arg7, main_arg8, main_arg9,
  main_arg10, main_arg11, main_arg12, main_arg13, main_arg14, main_arg15, main_arg16, main_arg17, main_arg18,
  main_arg19, main_arg20, main_arg21, main_arg22, main_arg23, main_arg24, main_arg25, main_arg26, main_arg27,
  main_arg28, main_arg29, main_arg30]

-- no item changes an argument, so a final state that holds `Wfin` holds every argument as launched
theorem args_end (c : Dev nD) {s : MemSt nD τ sig (Elt F)}
    (h : ∀ b ∈ Pipeline.ucRefs τ sig, s.mem (((c : Thread nD τ)).1, b) = Wfin m ρ c b) :
    args.Forall fun a => s.mem ((c.tc : Thread nD τ).loc a) = m ((c.tc : Thread nD τ).loc a) :=
  List.forall_iff_forall_mem.mpr fun a ha =>
    (h _ (mem_uc a ((by decide : ∀ a ∈ args, ¬ (Proc.devRef .tc a : DevRef τ sig).isScoped) a ha))).trans
      (Wfin_of m ρ c a ((by decide : ∀ a ∈ args, a ∉ span 0 30) a ha))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c => args_end m ρ c (h c)) (run_all m ρ)

end Cert.KernelIdeal.Hand

end
-- ==== Proof.KI.Final.lean ====
import proofs.«420955_j27152783245914_3_alg».proof.Proof.KI.JH2
import proofs.«420955_j27152783245914_3_alg».proof.Proof.KI.Run

set_option maxRecDepth 16384

namespace Cert.KernelIdeal.Hand

open Cert.KernelIdeal Cert.KernelIdeal.Gen Cert.ReferenceIdeal.Read Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

theorem value_run :
    θ_run defs (onTc (τ := τ) (main (F := Ideal))) ⟨m, fun _ => 0, ρ⟩ (fun r => ∀ c : Dev nD,
      r.2.mem ((c.tc : Thread nD τ).loc main_v307) = Cert.ReferenceIdeal.Read.val_main_v307 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))
      ∧ r.2.mem ((c.tc : Thread nD τ).loc main_v157) = Cert.ReferenceIdeal.Read.val_main_v126 (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v214) = Cert.ReferenceIdeal.Read.val_main_v218 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v319) = Cert.ReferenceIdeal.Read.val_main_v325 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))
      ∧ r.2.mem ((c.tc : Thread nD τ).loc main_v219) = Cert.ReferenceIdeal.Read.val_main_v219 (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c =>
    ⟨((h c _ (mem_uc main_v307 (by decide))).trans (keep m ρ c 29 1 main_v307 (by decide))).trans (j2_out m ρ c),
     ((h c _ (mem_uc main_v157 (by decide))).trans (keep m ρ c 15 15 main_v157 (by decide))).trans (j1_rw m ρ c),
     ((h c _ (mem_uc main_v214 (by decide))).trans (keep m ρ c 15 15 main_v214 (by decide))).trans (j1_ww m ρ c),
     (h c _ (mem_uc main_v319 (by decide))).trans (j2_mem m ρ c),
     ((h c _ (mem_uc main_v219 (by decide))).trans (keep m ρ c 17 13 main_v219 (by decide))).trans (j2_rh m ρ c),
     args_end m ρ c (h c)⟩)
    (run_all m ρ)

end Cert.KernelIdeal.Hand
-- ==== Proof.Ref.Part0.lean ====
import proofs.«420955_j27152783245914_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 0 … 59 of the reference's 437: the ones its printed window `main_part0` runs, a called function's operations standing in its call's place. -/
abbrev ro0 : List (HloOp τ sig (Elt F)) :=
  [ unary main_arg5 main_v0 ((transpose S14x48 [1, 0] · transposes_S48x14_S14x48_1_0) : (⟨S48x14, .f32⟩ : BufTy).Contents (Elt F) → (⟨S14x48, .f32⟩ : BufTy).Contents (Elt F)),
    binary main_arg0 main_v0 main_v1 ((fun l r => Host.dotGeneral dot_S1x14_S14x48_S1x48_1_0_0_1_n_n none l r) : (⟨S1x14, .f32⟩ : BufTy).Contents (Elt F) → (⟨S14x48, .f32⟩ : BufTy).Contents (Elt F) → (⟨S1x48, .f32⟩ : BufTy).Contents (Elt F)),
    unary main_arg6 main_v2 (broadcastInDim S1x48 ![1] bcast_S48_S1x48_1 : (⟨S48, .f32⟩ : BufTy).Contents (Elt F) → (⟨S1x48, .f32⟩ : BufTy).Contents (Elt F)),
    binary main_v1 main_v2 main_v3 (addf : (⟨S1x48, .f32⟩ : BufTy).Contents (Elt F) → (⟨S1x48, .f32⟩ : BufTy).Contents (Elt F) → (⟨S1x48, .f32⟩ : BufTy).Contents (Elt F)),
    unary main_arg7 main_v4 ((transpose S48x72 [1, 0] · transposes_S72x48_S48x72_1_0) : (⟨S72x48, .f32⟩ : BufTy).Contents (Elt F) → (⟨S48x72, .f32⟩ : BufTy).Contents (Elt F)),
    binary main_v3 main_v4 main_v5 ((fun l r => Host.dotGeneral dot_S1x48_S48x72_S1x72_1_0_0_1_n_n none l r) : (⟨S1x48, .f32⟩ : BufTy).Contents (Elt F) → (⟨S48x72, .f32⟩ : BufTy).Contents (Elt F) → (⟨S1x72, .f32⟩ : BufTy).Contents (Elt F)),
    unary main_arg8 main_v6 (broadcastInDim S1x72 ![1] bcast_S72_S1x72_1 : (⟨S72, .f32⟩ : BufTy).Contents (Elt F) → (⟨S1x72, .f32⟩ : BufTy).Contents (Elt F)),
    binary main_v5 main_v6 main_v7 (addf : (⟨S1x72, .f32⟩ : BufTy).Contents (Elt F) → (⟨S1x72, .f32⟩ : BufTy).Contents (Elt F) → (⟨S1x72, .f32⟩ : BufTy).Contents (Elt F)),
    unary main_arg9 main_v8 ((transpose S72x92 [1, 0] · transposes_S92x72_S72x92_1_0) : (⟨S92x72, .f32⟩ : BufTy).Contents (Elt F) → (⟨S72x92, .f32⟩ : BufTy).Contents (Elt F)),
    binary main_v7 main_v8 main_v9 ((fun l r => Host.dotGeneral dot_S1x72_S72x92_S1x92_1_0_0_1_n_n none l r) : (⟨S1x72, .f32⟩ : BufTy).Contents (Elt F) → (⟨S72x92, .f32⟩ : BufTy).Contents (Elt F) → (⟨S1x92, .f32⟩ : BufTy).Contents (Elt F)),
    unary main_arg10 main_v10 (broadcastInDim S1x92 ![1] bcast_S92_S1x92_1 : (⟨S92, .f32⟩ : BufTy).Contents (Elt F) → (⟨S1x92, .f32⟩ : BufTy).Contents (Elt F)),
    binary main_v9 main_v10 main_v11 (addf : (⟨S1x92, .f32⟩ : BufTy).Contents (Elt F) → (⟨S1x92, .f32⟩ : BufTy).Contents (Elt F) → (⟨S1x92, .f32⟩ : BufTy).Contents (Elt F)),
    unary main_arg11 main_v12 ((transpose S72x3 [1, 0] · transposes_S3x72_S72x3_1_0) : (⟨S3x72, .f32⟩ : BufTy).Contents (Elt F) → (⟨S72x3, .f32⟩ : BufTy).Contents (Elt F)),
    binary main_v7 main_v12 main_v13 ((fun l r => Host.dotGeneral dot_S1x72_S72x3_S1x3_1_0_0_1_n_n none l r) : (⟨S1x72, .f32⟩ : BufTy).Contents (Elt F) → (⟨S72x3, .f32⟩ : BufTy).Contents (Elt F) → (⟨S1x3, .f32⟩ : BufTy).Contents (Elt F)),
    unary main_arg12 main_v14 (broadcastInDim S1x3 ![1] bcast_S3_S1x3_1 : (⟨S3, .f32⟩ : BufTy).Contents (Elt F) → (⟨S1x3, .f32⟩ : BufTy).Contents (Elt F)),
    binary main_v13 main_v14 main_v15 (addf : (⟨S1x3, .f32⟩ : BufTy).Contents (Elt F) → (⟨S1x3, .f32⟩ : BufTy).Contents (Elt F) → (⟨S1x3, .f32⟩ : BufTy).Contents (Elt F)),
    unary main_v11 main_v16 ((extractStridedSlice S1x26 ![0, 0] · slices_S1x92_S1x26_0_0) : (⟨S1x92, .f32⟩ : BufTy).Contents (Elt F) → (⟨S1x26, .f32⟩ : BufTy).Contents (Elt F)),
    reshape main_v16 main_v17 rfl shapeCasts_S1x26_S26,
    unary main_v17 main_v18 (broadcastInDim S1x26 ![1] bcast_S26_S1x26_1 : (⟨S26, .f32⟩ : BufTy).Contents (Elt F) → (⟨S1x26, .f32⟩ : BufTy).Contents (Elt F)),
    unary main_v11 main_v19 ((extractStridedSlice S1x26 ![0, 26] · slices_S1x92_S1x26_0_26) : (⟨S1x92, .f32⟩ : BufTy).Contents (Elt F) → (⟨S1x26, .f32⟩ : BufTy).Contents (Elt F)),
    reshape main_v19 main_v20 rfl shapeCasts_S1x26_S26,
    unary main_v20 main_v21 (broadcastInDim S1x26 ![1] bcast_S26_S1x26_1 : (⟨S26, .f32⟩ : BufTy).Contents (Elt F) → (⟨S1x26, .f32⟩ : BufTy).Contents (Elt F)),
    unary main_v11 main_v22 ((extractStridedSlice S1x20 ![0, 52] · slices_S1x92_S1x20_0_52) : (⟨S1x92, .f32⟩ : BufTy).Contents (Elt F) → (⟨S1x20, .f32⟩ : BufTy).Contents (Elt F)),
    reshape main_v22 main_v23 rfl shapeCasts_S1x20_S20,
    unary main_v23 main_v24 (broadcastInDim S1x20 ![1] bcast_S20_S1x20_1 : (⟨S20, .f32⟩ : BufTy).Contents (Elt F) → (⟨S1x20, .f32⟩ : BufTy).Contents (Elt F)),
    unary main_v24 main_v25 (Host.negf : (⟨S1x20, .f32⟩ : BufTy).Contents (Elt F) → (⟨S1x20, .f32⟩ : BufTy).Contents (Elt F)),
    unary main_v25 main_v26 (Host.exp : (⟨S1x20, .f32⟩ : BufTy).Contents (Elt F) → (⟨S1x20, .f32⟩ : BufTy).Contents (Elt F)),
    nullary main_cst (constant S_ .f32 0x3F800000#32),
    unary main_cst main_v27 (broadcastInDim S1x20 ![] bcast_S_S1x20 : (⟨S_, .f32⟩ : BufTy).Contents (Elt F) → (⟨S1x20, .f32⟩ : BufTy).Contents (Elt F)),
    binary main_v27 main_v26 main_v28 (addf : (⟨S1x20, .f32⟩ : BufTy).Contents (Elt F) → (⟨S1x20, .f32⟩ : BufTy).Contents (Elt F) → (⟨S1x20, .f32⟩ : BufTy).Contents (Elt F)),
    nullary main_cst_0 (constant S_ .f32 0x3F800000#32),
    unary main_cst_0 main_v29 (broadcastInDim S1x20 ![] bcast_S_S1x20 : (⟨S_, .f32⟩ : BufTy).Contents (Elt F) → (⟨S1x20, .f32⟩ : BufTy).Contents (Elt F)),
    binary main_v29 main_v28 main_v30 (Host.divf : (⟨S1x20, .f32⟩ : BufTy).Contents (Elt F) → (⟨S1x20, .f32⟩ : BufTy).Contents (Elt F) → (⟨S1x20, .f32⟩ : BufTy).Contents (Elt F)),
    unary main_v11 main_v31 ((extractStridedSlice S1x20 ![0, 72] · slices_S1x92_S1x20_0_72) : (⟨S1x92, .f32⟩ : BufTy).Contents (Elt F) → (⟨S1x20, .f32⟩ : BufTy).Contents (Elt F)),
    reshape main_v31 main_v32 rfl shapeCasts_S1x20_S20,
    unary main_v32 main_v33 (broadcastInDim S1x20 ![1] bcast_S20_S1x20_1 : (⟨S20, .f32⟩ : BufTy).Contents (Elt F) → (⟨S1x20, .f32⟩ : BufTy).Contents (Elt F)),
    unary main_v33 main_v34 (Host.tanh : (⟨S1x20, .f32⟩ : BufTy).Contents (Elt F) → (⟨S1x20, .f32⟩ : BufTy).Contents (Elt F)),
    unary main_v18 main_v35 ((extractStridedSlice S1x20 ![0, 0] · slices_S1x26_S1x20_0_0) : (⟨S1x26, .f32⟩ : BufTy).Contents (Elt F) → (⟨S1x20, .f32⟩ : BufTy).Contents (Elt F)),
    reshape main_v35 main_v36 rfl shapeCasts_S1x20_S20,
    unary main_v36 main_v37 (Host.tanh : (⟨S20, .f32⟩ : BufTy).Contents (Elt F) → (⟨S20, .f32⟩ : BufTy).Contents (Elt F)),
    unary main_v37 main_v38 (broadcastInDim S1x20 ![1] bcast_S20_S1x20_1 : (⟨S20, .f32⟩ : BufTy).Contents (Elt F) → (⟨S1x20, .f32⟩ : BufTy).Contents (Elt F)),
    unary main_v18 main_v39 ((extractStridedSlice S1x1 ![0, 20] · slices_S1x26_S1x1_0_20) : (⟨S1x26, .f32⟩ : BufTy).Contents (Elt F) → (⟨S1x1, .f32⟩ : BufTy).Contents (Elt F)),
    reshape main_v39 main_v40 rfl shapeCasts_S1x1_S_,
    unary main_v40 main_v41 (Host.negf : (⟨S_, .f32⟩ : BufTy).Contents (Elt F) → (⟨S_, .f32⟩ : BufTy).Contents (Elt F)),
    unary main_v41 main_v42 (Host.exp : (⟨S_, .f32⟩ : BufTy).Contents (Elt F) → (⟨S_, .f32⟩ : BufTy).Contents (Elt F)),
    nullary main_cst_1 (constant S_ .f32 0x3F800000#32),
    binary main_cst_1 main_v42 main_v43 (addf : (⟨S_, .f32⟩ : BufTy).Contents (Elt F) → (⟨S_, .f32⟩ : BufTy).Contents (Elt F) → (⟨S_, .f32⟩ : BufTy).Contents (Elt F)),
    nullary main_cst_2 (constant S_ .f32 0x3F800000#32),
    binary main_cst_2 main_v43 main_v44 (Host.divf : (⟨S_, .f32⟩ : BufTy).Contents (Elt F) → (⟨S_, .f32⟩ : BufTy).Contents (Elt F) → (⟨S_, .f32⟩ : BufTy).Contents (Elt F)),
    unary main_v18 main_v45 ((extractStridedSlice S1x3 ![0, 21] · slices_S1x26_S1x3_0_21) : (⟨S1x26, .f32⟩ : BufTy).Contents (Elt F) → (⟨S1x3, .f32⟩ : BufTy).Contents (Elt F)),
    reshape main_v45 main_v46 rfl shapeCasts_S1x3_S3,
    nullary main_cst_3 (constant S_ .f32 0xFF800000#32),
    binary main_v46 main_cst_3 main_v47 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    nullary main_cst_4 (constant S_ .f32 0xFF800000#32),
    binary main_cst_4 main_v47 main_v48 (maximumf : (⟨S_, .f32⟩ : BufTy).Contents (Elt F) → (⟨S_, .f32⟩ : BufTy).Contents (Elt F) → (⟨S_, .f32⟩ : BufTy).Contents (Elt F)),
    unary main_v48 main_v49 (broadcastInDim S1 ![] bcast_S_S1 : (⟨S_, .f32⟩ : BufTy).Contents (Elt F) → (⟨S1, .f32⟩ : BufTy).Contents (Elt F)),
    unary main_v49 main_v50 (broadcastInDim S3 ![0] bcast_S1_S3_0 : (⟨S1, .f32⟩ : BufTy).Contents (Elt F) → (⟨S3, .f32⟩ : BufTy).Contents (Elt F)),
    binary main_v46 main_v50 main_v51 (subf : (⟨S3, .f32⟩ : BufTy).Contents (Elt F) → (⟨S3, .f32⟩ : BufTy).Contents (Elt F) → (⟨S3, .f32⟩ : BufTy).Contents (Elt F)),
    unary main_v51 main_v52 (Host.exp : (⟨S3, .f32⟩ : BufTy).Contents (Elt F) → (⟨S3, .f32⟩ : BufTy).Contents (Elt F)),
    nullary main_cst_5 (constant S_ .f32 0x00000000#32) ]

set_option maxRecDepth 8192 in
set_option maxHeartbeats 4000000 in
/-- The printed window is the sequence of these operations. -/
theorem part0_eq (c : Dev nD) : main_part0 (F := F) c = seq ro0 := rfl

set_option maxRecDepth 8192 in
/-- Each touches TensorCore buffers only. -/
theorem ro0_sub : (ro0 : List (HloOp τ sig (Elt F))).Forall fun op => op.bufs ⊆ tcRefs τ sig :=
  ⟨unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., unary_bufs_sub .., unary_bufs_sub .., reshape_bufs_sub .., unary_bufs_sub .., unary_bufs_sub .., unary_bufs_sub .., reshape_bufs_sub .., unary_bufs_sub .., unary_bufs_sub .., nullary_bufs_sub .., binary_bufs_sub .., nullary_bufs_sub .., binary_bufs_sub .., unary_bufs_sub .., reshape_bufs_sub .., nullary_bufs_sub .., binary_bufs_sub .., nullary_bufs_sub .., binary_bufs_sub .., unary_bufs_sub .., unary_bufs_sub .., binary_bufs_sub .., unary_bufs_sub .., nullary_bufs_sub ..⟩

set_option maxRecDepth 8192 in
/-- None allocates a buffer. -/
theorem ro0_fresh : ∀ op ∈ (ro0 : List (HloOp τ sig (Elt F))), op.fresh = ∅ := by
  intro _ h; (repeat (cases h with | head => rfl | tail _ h => ?_)); exact nomatch h

end Cert.ReferenceIdeal.HandRun

end
-- ==== Proof.Ref.Part1.lean ====
import proofs.«420955_j27152783245914_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 60 … 145 of the reference's 437: the ones its printed window `main_part1` runs, a called function's operations standing in its call's place. -/
abbrev ro1 : List (HloOp τ sig (Elt F)) :=
  [ binary main_v52 main_cst_5 main_v53 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v53 main_v54 (broadcastInDim S1 ![] bcast_S_S1 : (⟨S_, .f32⟩ : BufTy).Contents (Elt F) → (⟨S1, .f32⟩ : BufTy).Contents (Elt F)),
    unary main_v54 main_v55 (broadcastInDim S3 ![0] bcast_S1_S3_0 : (⟨S1, .f32⟩ : BufTy).Contents (Elt F) → (⟨S3, .f32⟩ : BufTy).Contents (Elt F)),
    binary main_v52 main_v55 main_v56 (Host.divf : (⟨S3, .f32⟩ : BufTy).Contents (Elt F) → (⟨S3, .f32⟩ : BufTy).Contents (Elt F) → (⟨S3, .f32⟩ : BufTy).Contents (Elt F)),
    unary main_v18 main_v57 ((extractStridedSlice S1x1 ![0, 24] · slices_S1x26_S1x1_0_24) : (⟨S1x26, .f32⟩ : BufTy).Contents (Elt F) → (⟨S1x1, .f32⟩ : BufTy).Contents (Elt F)),
    reshape main_v57 main_v58 rfl shapeCasts_S1x1_S_,
    TRef.nullary (TRef.of (T := ⟨S_, .f32⟩) main_call0_cst) (constant S_ .f32 0x00000000#32),
    TRef.binary (TRef.of (T := ⟨S_, .f32⟩) main_v58) (TRef.of (T := ⟨S_, .f32⟩) main_call0_cst) (TRef.of (T := ⟨S_, .f32⟩) main_call0_v0) maximumf,
    TRef.binary (TRef.of (T := ⟨S_, .f32⟩) main_v58) (TRef.of (T := ⟨S_, .f32⟩) main_call0_cst) (TRef.of (T := ⟨S_, .f32⟩) main_call0_v1) subf,
    TRef.binary (TRef.of (T := ⟨S_, .f32⟩) main_call0_v1) (TRef.of (T := ⟨S_, .f32⟩) main_call0_v1) (TRef.of (T := ⟨S_, .i1⟩) main_call0_v2) (cmpf .une),
    TRef.binary (TRef.of (T := ⟨S_, .f32⟩) main_v58) (TRef.of (T := ⟨S_, .f32⟩) main_call0_cst) (TRef.of (T := ⟨S_, .f32⟩) main_call0_v3) addf,
    TRef.unary (TRef.of (T := ⟨S_, .f32⟩) main_call0_v1) (TRef.of (T := ⟨S_, .f32⟩) main_call0_v4) Host.absf,
    TRef.unary (TRef.of (T := ⟨S_, .f32⟩) main_call0_v4) (TRef.of (T := ⟨S_, .f32⟩) main_call0_v5) Host.negf,
    TRef.unary (TRef.of (T := ⟨S_, .f32⟩) main_call0_v5) (TRef.of (T := ⟨S_, .f32⟩) main_call0_v6) Host.exp,
    TRef.unary (TRef.of (T := ⟨S_, .f32⟩) main_call0_v6) (TRef.of (T := ⟨S_, .f32⟩) main_call0_v7) Host.log1p,
    TRef.binary (TRef.of (T := ⟨S_, .f32⟩) main_call0_v0) (TRef.of (T := ⟨S_, .f32⟩) main_call0_v7) (TRef.of (T := ⟨S_, .f32⟩) main_call0_v8) addf,
    TRef.ternary (TRef.of (T := ⟨S_, .i1⟩) main_call0_v2) (TRef.of (T := ⟨S_, .f32⟩) main_call0_v3) (TRef.of (T := ⟨S_, .f32⟩) main_call0_v8) (TRef.of (T := ⟨S_, .f32⟩) main_v59) select,
    nullary main_cst_6 (constant S_ .f32 0x3F800000#32),
    binary main_cst_6 main_v59 main_v60 (addf : (⟨S_, .f32⟩ : BufTy).Contents (Elt F) → (⟨S_, .f32⟩ : BufTy).Contents (Elt F) → (⟨S_, .f32⟩ : BufTy).Contents (Elt F)),
    unary main_v18 main_v61 ((extractStridedSlice S1x1 ![0, 25] · slices_S1x26_S1x1_0_25) : (⟨S1x26, .f32⟩ : BufTy).Contents (Elt F) → (⟨S1x1, .f32⟩ : BufTy).Contents (Elt F)),
    reshape main_v61 main_v62 rfl shapeCasts_S1x1_S_,
    TRef.nullary (TRef.of (T := ⟨S_, .f32⟩) main_call1_cst) (constant S_ .f32 0x00000000#32),
    TRef.binary (TRef.of (T := ⟨S_, .f32⟩) main_v62) (TRef.of (T := ⟨S_, .f32⟩) main_call1_cst) (TRef.of (T := ⟨S_, .f32⟩) main_call1_v0) maximumf,
    TRef.binary (TRef.of (T := ⟨S_, .f32⟩) main_v62) (TRef.of (T := ⟨S_, .f32⟩) main_call1_cst) (TRef.of (T := ⟨S_, .f32⟩) main_call1_v1) subf,
    TRef.binary (TRef.of (T := ⟨S_, .f32⟩) main_call1_v1) (TRef.of (T := ⟨S_, .f32⟩) main_call1_v1) (TRef.of (T := ⟨S_, .i1⟩) main_call1_v2) (cmpf .une),
    TRef.binary (TRef.of (T := ⟨S_, .f32⟩) main_v62) (TRef.of (T := ⟨S_, .f32⟩) main_call1_cst) (TRef.of (T := ⟨S_, .f32⟩) main_call1_v3) addf,
    TRef.unary (TRef.of (T := ⟨S_, .f32⟩) main_call1_v1) (TRef.of (T := ⟨S_, .f32⟩) main_call1_v4) Host.absf,
    TRef.unary (TRef.of (T := ⟨S_, .f32⟩) main_call1_v4) (TRef.of (T := ⟨S_, .f32⟩) main_call1_v5) Host.negf,
    TRef.unary (TRef.of (T := ⟨S_, .f32⟩) main_call1_v5) (TRef.of (T := ⟨S_, .f32⟩) main_call1_v6) Host.exp,
    TRef.unary (TRef.of (T := ⟨S_, .f32⟩) main_call1_v6) (TRef.of (T := ⟨S_, .f32⟩) main_call1_v7) Host.log1p,
    TRef.binary (TRef.of (T := ⟨S_, .f32⟩) main_call1_v0) (TRef.of (T := ⟨S_, .f32⟩) main_call1_v7) (TRef.of (T := ⟨S_, .f32⟩) main_call1_v8) addf,
    TRef.ternary (TRef.of (T := ⟨S_, .i1⟩) main_call1_v2) (TRef.of (T := ⟨S_, .f32⟩) main_call1_v3) (TRef.of (T := ⟨S_, .f32⟩) main_call1_v8) (TRef.of (T := ⟨S_, .f32⟩) main_v63) select,
    nullary main_cst_7 (constant S_ .f32 0x24E69595#32),
    unary main_cst_7 main_v64 (broadcastInDim S1000000x20 ![] bcast_S_S1000000x20 : (⟨S_, .f32⟩ : BufTy).Contents (Elt F) → (⟨S1000000x20, .f32⟩ : BufTy).Contents (Elt F)),
    binary main_arg3 main_v64 main_v65 (addf : (⟨S1000000x20, .f32⟩ : BufTy).Contents (Elt F) → (⟨S1000000x20, .f32⟩ : BufTy).Contents (Elt F) → (⟨S1000000x20, .f32⟩ : BufTy).Contents (Elt F)),
    nullary main_cst_8 (constant S_ .f32 0x24E69595#32),
    unary main_cst_8 main_v66 (broadcastInDim S1x20 ![] bcast_S_S1x20 : (⟨S_, .f32⟩ : BufTy).Contents (Elt F) → (⟨S1x20, .f32⟩ : BufTy).Contents (Elt F)),
    binary main_v38 main_v66 main_v67 (addf : (⟨S1x20, .f32⟩ : BufTy).Contents (Elt F) → (⟨S1x20, .f32⟩ : BufTy).Contents (Elt F) → (⟨S1x20, .f32⟩ : BufTy).Contents (Elt F)),
    unary main_v67 main_v68 ((transpose S20x1 [1, 0] · transposes_S1x20_S20x1_1_0) : (⟨S1x20, .f32⟩ : BufTy).Contents (Elt F) → (⟨S20x1, .f32⟩ : BufTy).Contents (Elt F)),
    binary main_v65 main_v68 main_v69 ((fun l r => Host.dotGeneral dot_S1000000x20_S20x1_S1000000x1_1_0_0_1_n_n none l r) : (⟨S1000000x20, .f32⟩ : BufTy).Contents (Elt F) → (⟨S20x1, .f32⟩ : BufTy).Contents (Elt F) → (⟨S1000000x1, .f32⟩ : BufTy).Contents (Elt F)),
    reshape main_v69 main_v70 rfl shapeCasts_S1000000x1_S1000000,
    TRef.binary (TRef.of (T := ⟨S1000000x20, .f32⟩) main_v65) (TRef.of (T := ⟨S1000000x20, .f32⟩) main_v65) (TRef.of (T := ⟨S1000000x20, .f32⟩) main_call2_v0) mulf,
    TRef.nullary (TRef.of (T := ⟨S_, .f32⟩) main_call2_cst) (constant S_ .f32 0x00000000#32),
    TRef.binary (TRef.of (T := ⟨S1000000x20, .f32⟩) main_call2_v0) (TRef.of (T := ⟨S_, .f32⟩) main_call2_cst) (TRef.of (T := ⟨S1000000, .f32⟩) main_call2_v1) (fun x v => Host.reduceAdd x v reducesTo_S1000000x20_S1000000_d1 h_S_),
    TRef.unary (TRef.of (T := ⟨S1000000, .f32⟩) main_call2_v1) (TRef.of (T := ⟨S1000000, .f32⟩) main_v71) Host.sqrt,
    nullary main_cst_9 (constant S_ .f32 0x322BCC77#32),
    unary main_cst_9 main_v72 (broadcastInDim S1000000 ![] bcast_S_S1000000 : (⟨S_, .f32⟩ : BufTy).Contents (Elt F) → (⟨S1000000, .f32⟩ : BufTy).Contents (Elt F)),
    binary main_v71 main_v72 main_v73 (maximumf : (⟨S1000000, .f32⟩ : BufTy).Contents (Elt F) → (⟨S1000000, .f32⟩ : BufTy).Contents (Elt F) → (⟨S1000000, .f32⟩ : BufTy).Contents (Elt F)),
    TRef.binary (TRef.of (T := ⟨S1x20, .f32⟩) main_v67) (TRef.of (T := ⟨S1x20, .f32⟩) main_v67) (TRef.of (T := ⟨S1x20, .f32⟩) main_call3_v0) mulf,
    TRef.nullary (TRef.of (T := ⟨S_, .f32⟩) main_call3_cst) (constant S_ .f32 0x00000000#32),
    TRef.binary (TRef.of (T := ⟨S1x20, .f32⟩) main_call3_v0) (TRef.of (T := ⟨S_, .f32⟩) main_call3_cst) (TRef.of (T := ⟨S1, .f32⟩) main_call3_v1) (fun x v => Host.reduceAdd x v reducesTo_S1x20_S1_d1 h_S_),
    TRef.unary (TRef.of (T := ⟨S1, .f32⟩) main_call3_v1) (TRef.of (T := ⟨S1, .f32⟩) main_v74) Host.sqrt,
    nullary main_cst_10 (constant S_ .f32 0x322BCC77#32),
    unary main_cst_10 main_v75 (broadcastInDim S1 ![] bcast_S_S1 : (⟨S_, .f32⟩ : BufTy).Contents (Elt F) → (⟨S1, .f32⟩ : BufTy).Contents (Elt F)),
    binary main_v74 main_v75 main_v76 (maximumf : (⟨S1, .f32⟩ : BufTy).Contents (Elt F) → (⟨S1, .f32⟩ : BufTy).Contents (Elt F) → (⟨S1, .f32⟩ : BufTy).Contents (Elt F)),
    unary main_v76 main_v77 (broadcastInDim S1000000 ![0] bcast_S1_S1000000_0 : (⟨S1, .f32⟩ : BufTy).Contents (Elt F) → (⟨S1000000, .f32⟩ : BufTy).Contents (Elt F)),
    binary main_v73 main_v77 main_v78 (mulf : (⟨S1000000, .f32⟩ : BufTy).Contents (Elt F) → (⟨S1000000, .f32⟩ : BufTy).Contents (Elt F) → (⟨S1000000, .f32⟩ : BufTy).Contents (Elt F)),
    binary main_v70 main_v78 main_v79 (Host.divf : (⟨S1000000, .f32⟩ : BufTy).Contents (Elt F) → (⟨S1000000, .f32⟩ : BufTy).Contents (Elt F) → (⟨S1000000, .f32⟩ : BufTy).Contents (Elt F)),
    unary main_v63 main_v80 (broadcastInDim S1000000 ![] bcast_S_S1000000 : (⟨S_, .f32⟩ : BufTy).Contents (Elt F) → (⟨S1000000, .f32⟩ : BufTy).Contents (Elt F)),
    binary main_v79 main_v80 main_v81 (mulf : (⟨S1000000, .f32⟩ : BufTy).Contents (Elt F) → (⟨S1000000, .f32⟩ : BufTy).Contents (Elt F) → (⟨S1000000, .f32⟩ : BufTy).Contents (Elt F)),
    nullary main_cst_11 (constant S_ .f32 0xFF800000#32),
    binary main_v81 main_cst_11 main_v82 ((fun x v => Host.reduce FloatOps.maximumf x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_12 (constant S_ .f32 0xFF800000#32),
    binary main_cst_12 main_v82 main_v83 (maximumf : (⟨S_, .f32⟩ : BufTy).Contents (Elt F) → (⟨S_, .f32⟩ : BufTy).Contents (Elt F) → (⟨S_, .f32⟩ : BufTy).Contents (Elt F)),
    unary main_v83 main_v84 (broadcastInDim S1 ![] bcast_S_S1 : (⟨S_, .f32⟩ : BufTy).Contents (Elt F) → (⟨S1, .f32⟩ : BufTy).Contents (Elt F)),
    unary main_v84 main_v85 (broadcastInDim S1000000 ![0] bcast_S1_S1000000_0 : (⟨S1, .f32⟩ : BufTy).Contents (Elt F) → (⟨S1000000, .f32⟩ : BufTy).Contents (Elt F)),
    binary main_v81 main_v85 main_v86 (subf : (⟨S1000000, .f32⟩ : BufTy).Contents (Elt F) → (⟨S1000000, .f32⟩ : BufTy).Contents (Elt F) → (⟨S1000000, .f32⟩ : BufTy).Contents (Elt F)),
    unary main_v86 main_v87 (Host.exp : (⟨S1000000, .f32⟩ : BufTy).Contents (Elt F) → (⟨S1000000, .f32⟩ : BufTy).Contents (Elt F)),
    nullary main_cst_13 (constant S_ .f32 0x00000000#32),
    binary main_v87 main_cst_13 main_v88 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    unary main_v88 main_v89 (broadcastInDim S1 ![] bcast_S_S1 : (⟨S_, .f32⟩ : BufTy).Contents (Elt F) → (⟨S1, .f32⟩ : BufTy).Contents (Elt F)),
    unary main_v89 main_v90 (broadcastInDim S1000000 ![0] bcast_S1_S1000000_0 : (⟨S1, .f32⟩ : BufTy).Contents (Elt F) → (⟨S1000000, .f32⟩ : BufTy).Contents (Elt F)),
    binary main_v87 main_v90 main_v91 (Host.divf : (⟨S1000000, .f32⟩ : BufTy).Contents (Elt F) → (⟨S1000000, .f32⟩ : BufTy).Contents (Elt F) → (⟨S1000000, .f32⟩ : BufTy).Contents (Elt F)),
    unary main_v44 main_v92 (broadcastInDim S1000000 ![] bcast_S_S1000000 : (⟨S_, .f32⟩ : BufTy).Contents (Elt F) → (⟨S1000000, .f32⟩ : BufTy).Contents (Elt F)),
    binary main_v92 main_v91 main_v93 (mulf : (⟨S1000000, .f32⟩ : BufTy).Contents (Elt F) → (⟨S1000000, .f32⟩ : BufTy).Contents (Elt F) → (⟨S1000000, .f32⟩ : BufTy).Contents (Elt F)),
    nullary main_cst_14 (constant S_ .f32 0x3F800000#32),
    binary main_cst_14 main_v44 main_v94 (subf : (⟨S_, .f32⟩ : BufTy).Contents (Elt F) → (⟨S_, .f32⟩ : BufTy).Contents (Elt F) → (⟨S_, .f32⟩ : BufTy).Contents (Elt F)),
    unary main_v94 main_v95 (broadcastInDim S1x1000000 ![] bcast_S_S1x1000000 : (⟨S_, .f32⟩ : BufTy).Contents (Elt F) → (⟨S1x1000000, .f32⟩ : BufTy).Contents (Elt F)),
    binary main_v95 main_arg1 main_v96 (mulf : (⟨S1x1000000, .f32⟩ : BufTy).Contents (Elt F) → (⟨S1x1000000, .f32⟩ : BufTy).Contents (Elt F) → (⟨S1x1000000, .f32⟩ : BufTy).Contents (Elt F)),
    unary main_v93 main_v97 (broadcastInDim S1x1000000 ![1] bcast_S1000000_S1x1000000_1 : (⟨S1000000, .f32⟩ : BufTy).Contents (Elt F) → (⟨S1x1000000, .f32⟩ : BufTy).Contents (Elt F)),
    binary main_v97 main_v96 main_v98 (addf : (⟨S1x1000000, .f32⟩ : BufTy).Contents (Elt F) → (⟨S1x1000000, .f32⟩ : BufTy).Contents (Elt F) → (⟨S1x1000000, .f32⟩ : BufTy).Contents (Elt F)),
    unary main_v98 main_v99 ((extractStridedSlice S1x1 ![0, 999999] · slices_S1x1000000_S1x1_0_999999) : (⟨S1x1000000, .f32⟩ : BufTy).Contents (Elt F) → (⟨S1x1, .f32⟩ : BufTy).Contents (Elt F)),
    unary main_v98 main_v100 ((extractStridedSlice S1x1 ![0, 0] · slices_S1x1000000_S1x1_0_0) : (⟨S1x1000000, .f32⟩ : BufTy).Contents (Elt F) → (⟨S1x1, .f32⟩ : BufTy).Contents (Elt F)),
    nary ![main_v99, main_v98, main_v100] main_v101 (fun u => concatenate S1x1000002 1 [⟨S1x1, u 0⟩, ⟨S1x1000000, u 1⟩, ⟨S1x1, u 2⟩] concatenates_S1x1_S1x1000000_S1x1_S1x1000002_d1),
    unary main_v56 main_v102 ((extractStridedSlice S1 ![0] · slices_S3_S1_0) : (⟨S3, .f32⟩ : BufTy).Contents (Elt F) → (⟨S1, .f32⟩ : BufTy).Contents (Elt F)),
    reshape main_v102 main_v103 rfl shapeCasts_S1_S_ ]

set_option maxRecDepth 8192 in
set_option maxHeartbeats 4000000 in
/-- The printed window is the sequence of these operations. -/
theorem part1_eq (c : Dev nD) : main_part1 (F := F) c = seq ro1 := rfl

set_option maxRecDepth 8192 in
/-- Each touches TensorCore buffers only. -/
theorem ro1_sub : (ro1 : List (HloOp τ sig (Elt F))).Forall fun op => op.bufs ⊆ tcRefs τ sig :=
  ⟨binary_bufs_sub .., unary_bufs_sub .., unary_bufs_sub .., binary_bufs_sub .., unary_bufs_sub .., reshape_bufs_sub .., nullary_bufs_sub .., binary_bufs_sub .., binary_bufs_sub .., binary_bufs_sub .., binary_bufs_sub .., unary_bufs_sub .., unary_bufs_sub .., unary_bufs_sub .., unary_bufs_sub .., binary_bufs_sub .., ternary_bufs_sub .., nullary_bufs_sub .., binary_bufs_sub .., unary_bufs_sub .., reshape_bufs_sub .., nullary_bufs_sub .., binary_bufs_sub .., binary_bufs_sub .., binary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., binary_bufs_sub .., unary_bufs_sub .., binary_bufs_sub .., reshape_bufs_sub .., binary_bufs_sub .., nullary_bufs_sub .., binary_bufs_sub .., unary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., binary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., binary_bufs_sub .., unary_bufs_sub .., binary_bufs_sub .., unary_bufs_sub .., unary_bufs_sub .., nary_bufs_sub .., unary_bufs_sub .., reshape_bufs_sub ..⟩

set_option maxRecDepth 8192 in
/-- None allocates a buffer. -/
theorem ro1_fresh : ∀ op ∈ (ro1 : List (HloOp τ sig (Elt F))), op.fresh = ∅ := by
  intro _ h; (repeat (cases h with | head => rfl | tail _ h => ?_)); exact nomatch h

end Cert.ReferenceIdeal.HandRun

end
-- ==== Proof.Ref.Part2.lean ====
import proofs.«420955_j27152783245914_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 146 … 225 of the reference's 437: the ones its printed window `main_part2` runs, a called function's operations standing in its call's place. -/
abbrev ro2 : List (HloOp τ sig (Elt F)) :=
  [ unary main_v101 main_v104 ((extractStridedSlice S1x1000000 ![0, 0] · slices_S1x1000002_S1x1000000_0_0) : (⟨S1x1000002, .f32⟩ : BufTy).Contents (Elt F) → (⟨S1x1000000, .f32⟩ : BufTy).Contents (Elt F)),
    unary main_v103 main_v105 (broadcastInDim S1x1000000 ![] bcast_S_S1x1000000 : (⟨S_, .f32⟩ : BufTy).Contents (Elt F) → (⟨S1x1000000, .f32⟩ : BufTy).Contents (Elt F)),
    binary main_v105 main_v104 main_v106 (mulf : (⟨S1x1000000, .f32⟩ : BufTy).Contents (Elt F) → (⟨S1x1000000, .f32⟩ : BufTy).Contents (Elt F) → (⟨S1x1000000, .f32⟩ : BufTy).Contents (Elt F)),
    unary main_v56 main_v107 ((extractStridedSlice S1 ![1] · slices_S3_S1_1) : (⟨S3, .f32⟩ : BufTy).Contents (Elt F) → (⟨S1, .f32⟩ : BufTy).Contents (Elt F)),
    reshape main_v107 main_v108 rfl shapeCasts_S1_S_,
    unary main_v101 main_v109 ((extractStridedSlice S1x1000000 ![0, 1] · slices_S1x1000002_S1x1000000_0_1) : (⟨S1x1000002, .f32⟩ : BufTy).Contents (Elt F) → (⟨S1x1000000, .f32⟩ : BufTy).Contents (Elt F)),
    unary main_v108 main_v110 (broadcastInDim S1x1000000 ![] bcast_S_S1x1000000 : (⟨S_, .f32⟩ : BufTy).Contents (Elt F) → (⟨S1x1000000, .f32⟩ : BufTy).Contents (Elt F)),
    binary main_v110 main_v109 main_v111 (mulf : (⟨S1x1000000, .f32⟩ : BufTy).Contents (Elt F) → (⟨S1x1000000, .f32⟩ : BufTy).Contents (Elt F) → (⟨S1x1000000, .f32⟩ : BufTy).Contents (Elt F)),
    binary main_v106 main_v111 main_v112 (addf : (⟨S1x1000000, .f32⟩ : BufTy).Contents (Elt F) → (⟨S1x1000000, .f32⟩ : BufTy).Contents (Elt F) → (⟨S1x1000000, .f32⟩ : BufTy).Contents (Elt F)),
    unary main_v56 main_v113 ((extractStridedSlice S1 ![2] · slices_S3_S1_2) : (⟨S3, .f32⟩ : BufTy).Contents (Elt F) → (⟨S1, .f32⟩ : BufTy).Contents (Elt F)),
    reshape main_v113 main_v114 rfl shapeCasts_S1_S_,
    unary main_v101 main_v115 ((extractStridedSlice S1x1000000 ![0, 2] · slices_S1x1000002_S1x1000000_0_2) : (⟨S1x1000002, .f32⟩ : BufTy).Contents (Elt F) → (⟨S1x1000000, .f32⟩ : BufTy).Contents (Elt F)),
    unary main_v114 main_v116 (broadcastInDim S1x1000000 ![] bcast_S_S1x1000000 : (⟨S_, .f32⟩ : BufTy).Contents (Elt F) → (⟨S1x1000000, .f32⟩ : BufTy).Contents (Elt F)),
    binary main_v116 main_v115 main_v117 (mulf : (⟨S1x1000000, .f32⟩ : BufTy).Contents (Elt F) → (⟨S1x1000000, .f32⟩ : BufTy).Contents (Elt F) → (⟨S1x1000000, .f32⟩ : BufTy).Contents (Elt F)),
    binary main_v112 main_v117 main_v118 (addf : (⟨S1x1000000, .f32⟩ : BufTy).Contents (Elt F) → (⟨S1x1000000, .f32⟩ : BufTy).Contents (Elt F) → (⟨S1x1000000, .f32⟩ : BufTy).Contents (Elt F)),
    unary main_v60 main_v119 (broadcastInDim S1x1000000 ![] bcast_S_S1x1000000 : (⟨S_, .f32⟩ : BufTy).Contents (Elt F) → (⟨S1x1000000, .f32⟩ : BufTy).Contents (Elt F)),
    binary main_v118 main_v119 main_v120 (Host.powf : (⟨S1x1000000, .f32⟩ : BufTy).Contents (Elt F) → (⟨S1x1000000, .f32⟩ : BufTy).Contents (Elt F) → (⟨S1x1000000, .f32⟩ : BufTy).Contents (Elt F)),
    nullary main_cst_15 (constant S_ .f32 0x00000000#32),
    binary main_v120 main_cst_15 main_v121 ((fun x v => Host.reduceAdd x v reducesTo_S1x1000000_S1_d1 h_S_) : (⟨S1x1000000, .f32⟩ : BufTy).Contents (Elt F) → (⟨S_, .f32⟩ : BufTy).Contents (Elt F) → (⟨S1, .f32⟩ : BufTy).Contents (Elt F)),
    unary main_v121 main_v122 (broadcastInDim S1x1 ![0] bcast_S1_S1x1_0 : (⟨S1, .f32⟩ : BufTy).Contents (Elt F) → (⟨S1x1, .f32⟩ : BufTy).Contents (Elt F)),
    nullary main_cst_16 (constant S_ .f32 0x24E69595#32),
    unary main_cst_16 main_v123 (broadcastInDim S1x1 ![] bcast_S_S1x1 : (⟨S_, .f32⟩ : BufTy).Contents (Elt F) → (⟨S1x1, .f32⟩ : BufTy).Contents (Elt F)),
    binary main_v122 main_v123 main_v124 (addf : (⟨S1x1, .f32⟩ : BufTy).Contents (Elt F) → (⟨S1x1, .f32⟩ : BufTy).Contents (Elt F) → (⟨S1x1, .f32⟩ : BufTy).Contents (Elt F)),
    unary main_v124 main_v125 (broadcastInDim S1x1000000 ![0, 1] bcast_S1x1_S1x1000000_0_1 : (⟨S1x1, .f32⟩ : BufTy).Contents (Elt F) → (⟨S1x1000000, .f32⟩ : BufTy).Contents (Elt F)),
    binary main_v120 main_v125 main_v126 (Host.divf : (⟨S1x1000000, .f32⟩ : BufTy).Contents (Elt F) → (⟨S1x1000000, .f32⟩ : BufTy).Contents (Elt F) → (⟨S1x1000000, .f32⟩ : BufTy).Contents (Elt F)),
    unary main_v21 main_v127 ((extractStridedSlice S1x20 ![0, 0] · slices_S1x26_S1x20_0_0) : (⟨S1x26, .f32⟩ : BufTy).Contents (Elt F) → (⟨S1x20, .f32⟩ : BufTy).Contents (Elt F)),
    reshape main_v127 main_v128 rfl shapeCasts_S1x20_S20,
    unary main_v128 main_v129 (Host.tanh : (⟨S20, .f32⟩ : BufTy).Contents (Elt F) → (⟨S20, .f32⟩ : BufTy).Contents (Elt F)),
    unary main_v129 main_v130 (broadcastInDim S1x20 ![1] bcast_S20_S1x20_1 : (⟨S20, .f32⟩ : BufTy).Contents (Elt F) → (⟨S1x20, .f32⟩ : BufTy).Contents (Elt F)),
    unary main_v21 main_v131 ((extractStridedSlice S1x1 ![0, 20] · slices_S1x26_S1x1_0_20) : (⟨S1x26, .f32⟩ : BufTy).Contents (Elt F) → (⟨S1x1, .f32⟩ : BufTy).Contents (Elt F)),
    reshape main_v131 main_v132 rfl shapeCasts_S1x1_S_,
    unary main_v132 main_v133 (Host.negf : (⟨S_, .f32⟩ : BufTy).Contents (Elt F) → (⟨S_, .f32⟩ : BufTy).Contents (Elt F)),
    unary main_v133 main_v134 (Host.exp : (⟨S_, .f32⟩ : BufTy).Contents (Elt F) → (⟨S_, .f32⟩ : BufTy).Contents (Elt F)),
    nullary main_cst_17 (constant S_ .f32 0x3F800000#32),
    binary main_cst_17 main_v134 main_v135 (addf : (⟨S_, .f32⟩ : BufTy).Contents (Elt F) → (⟨S_, .f32⟩ : BufTy).Contents (Elt F) → (⟨S_, .f32⟩ : BufTy).Contents (Elt F)),
    nullary main_cst_18 (constant S_ .f32 0x3F800000#32),
    binary main_cst_18 main_v135 main_v136 (Host.divf : (⟨S_, .f32⟩ : BufTy).Contents (Elt F) → (⟨S_, .f32⟩ : BufTy).Contents (Elt F) → (⟨S_, .f32⟩ : BufTy).Contents (Elt F)),
    unary main_v21 main_v137 ((extractStridedSlice S1x3 ![0, 21] · slices_S1x26_S1x3_0_21) : (⟨S1x26, .f32⟩ : BufTy).Contents (Elt F) → (⟨S1x3, .f32⟩ : BufTy).Contents (Elt F)),
    reshape main_v137 main_v138 rfl shapeCasts_S1x3_S3,
    nullary main_cst_19 (constant S_ .f32 0xFF800000#32),
    binary main_v138 main_cst_19 main_v139 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    nullary main_cst_20 (constant S_ .f32 0xFF800000#32),
    binary main_cst_20 main_v139 main_v140 (maximumf : (⟨S_, .f32⟩ : BufTy).Contents (Elt F) → (⟨S_, .f32⟩ : BufTy).Contents (Elt F) → (⟨S_, .f32⟩ : BufTy).Contents (Elt F)),
    unary main_v140 main_v141 (broadcastInDim S1 ![] bcast_S_S1 : (⟨S_, .f32⟩ : BufTy).Contents (Elt F) → (⟨S1, .f32⟩ : BufTy).Contents (Elt F)),
    unary main_v141 main_v142 (broadcastInDim S3 ![0] bcast_S1_S3_0 : (⟨S1, .f32⟩ : BufTy).Contents (Elt F) → (⟨S3, .f32⟩ : BufTy).Contents (Elt F)),
    binary main_v138 main_v142 main_v143 (subf : (⟨S3, .f32⟩ : BufTy).Contents (Elt F) → (⟨S3, .f32⟩ : BufTy).Contents (Elt F) → (⟨S3, .f32⟩ : BufTy).Contents (Elt F)),
    unary main_v143 main_v144 (Host.exp : (⟨S3, .f32⟩ : BufTy).Contents (Elt F) → (⟨S3, .f32⟩ : BufTy).Contents (Elt F)),
    nullary main_cst_21 (constant S_ .f32 0x00000000#32),
    binary main_v144 main_cst_21 main_v145 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v145 main_v146 (broadcastInDim S1 ![] bcast_S_S1 : (⟨S_, .f32⟩ : BufTy).Contents (Elt F) → (⟨S1, .f32⟩ : BufTy).Contents (Elt F)),
    unary main_v146 main_v147 (broadcastInDim S3 ![0] bcast_S1_S3_0 : (⟨S1, .f32⟩ : BufTy).Contents (Elt F) → (⟨S3, .f32⟩ : BufTy).Contents (Elt F)),
    binary main_v144 main_v147 main_v148 (Host.divf : (⟨S3, .f32⟩ : BufTy).Contents (Elt F) → (⟨S3, .f32⟩ : BufTy).Contents (Elt F) → (⟨S3, .f32⟩ : BufTy).Contents (Elt F)),
    unary main_v21 main_v149 ((extractStridedSlice S1x1 ![0, 24] · slices_S1x26_S1x1_0_24) : (⟨S1x26, .f32⟩ : BufTy).Contents (Elt F) → (⟨S1x1, .f32⟩ : BufTy).Contents (Elt F)),
    reshape main_v149 main_v150 rfl shapeCasts_S1x1_S_,
    TRef.nullary (TRef.of (T := ⟨S_, .f32⟩) main_call4_cst) (constant S_ .f32 0x00000000#32),
    TRef.binary (TRef.of (T := ⟨S_, .f32⟩) main_v150) (TRef.of (T := ⟨S_, .f32⟩) main_call4_cst) (TRef.of (T := ⟨S_, .f32⟩) main_call4_v0) maximumf,
    TRef.binary (TRef.of (T := ⟨S_, .f32⟩) main_v150) (TRef.of (T := ⟨S_, .f32⟩) main_call4_cst) (TRef.of (T := ⟨S_, .f32⟩) main_call4_v1) subf,
    TRef.binary (TRef.of (T := ⟨S_, .f32⟩) main_call4_v1) (TRef.of (T := ⟨S_, .f32⟩) main_call4_v1) (TRef.of (T := ⟨S_, .i1⟩) main_call4_v2) (cmpf .une),
    TRef.binary (TRef.of (T := ⟨S_, .f32⟩) main_v150) (TRef.of (T := ⟨S_, .f32⟩) main_call4_cst) (TRef.of (T := ⟨S_, .f32⟩) main_call4_v3) addf,
    TRef.unary (TRef.of (T := ⟨S_, .f32⟩) main_call4_v1) (TRef.of (T := ⟨S_, .f32⟩) main_call4_v4) Host.absf,
    TRef.unary (TRef.of (T := ⟨S_, .f32⟩) main_call4_v4) (TRef.of (T := ⟨S_, .f32⟩) main_call4_v5) Host.negf,
    TRef.unary (TRef.of (T := ⟨S_, .f32⟩) main_call4_v5) (TRef.of (T := ⟨S_, .f32⟩) main_call4_v6) Host.exp,
    TRef.unary (TRef.of (T := ⟨S_, .f32⟩) main_call4_v6) (TRef.of (T := ⟨S_, .f32⟩) main_call4_v7) Host.log1p,
    TRef.binary (TRef.of (T := ⟨S_, .f32⟩) main_call4_v0) (TRef.of (T := ⟨S_, .f32⟩) main_call4_v7) (TRef.of (T := ⟨S_, .f32⟩) main_call4_v8) addf,
    TRef.ternary (TRef.of (T := ⟨S_, .i1⟩) main_call4_v2) (TRef.of (T := ⟨S_, .f32⟩) main_call4_v3) (TRef.of (T := ⟨S_, .f32⟩) main_call4_v8) (TRef.of (T := ⟨S_, .f32⟩) main_v151) select,
    nullary main_cst_22 (constant S_ .f32 0x3F800000#32),
    binary main_cst_22 main_v151 main_v152 (addf : (⟨S_, .f32⟩ : BufTy).Contents (Elt F) → (⟨S_, .f32⟩ : BufTy).Contents (Elt F) → (⟨S_, .f32⟩ : BufTy).Contents (Elt F)),
    unary main_v21 main_v153 ((extractStridedSlice S1x1 ![0, 25] · slices_S1x26_S1x1_0_25) : (⟨S1x26, .f32⟩ : BufTy).Contents (Elt F) → (⟨S1x1, .f32⟩ : BufTy).Contents (Elt F)),
    reshape main_v153 main_v154 rfl shapeCasts_S1x1_S_,
    TRef.nullary (TRef.of (T := ⟨S_, .f32⟩) main_call5_cst) (constant S_ .f32 0x00000000#32),
    TRef.binary (TRef.of (T := ⟨S_, .f32⟩) main_v154) (TRef.of (T := ⟨S_, .f32⟩) main_call5_cst) (TRef.of (T := ⟨S_, .f32⟩) main_call5_v0) maximumf,
    TRef.binary (TRef.of (T := ⟨S_, .f32⟩) main_v154) (TRef.of (T := ⟨S_, .f32⟩) main_call5_cst) (TRef.of (T := ⟨S_, .f32⟩) main_call5_v1) subf,
    TRef.binary (TRef.of (T := ⟨S_, .f32⟩) main_call5_v1) (TRef.of (T := ⟨S_, .f32⟩) main_call5_v1) (TRef.of (T := ⟨S_, .i1⟩) main_call5_v2) (cmpf .une),
    TRef.binary (TRef.of (T := ⟨S_, .f32⟩) main_v154) (TRef.of (T := ⟨S_, .f32⟩) main_call5_cst) (TRef.of (T := ⟨S_, .f32⟩) main_call5_v3) addf,
    TRef.unary (TRef.of (T := ⟨S_, .f32⟩) main_call5_v1) (TRef.of (T := ⟨S_, .f32⟩) main_call5_v4) Host.absf,
    TRef.unary (TRef.of (T := ⟨S_, .f32⟩) main_call5_v4) (TRef.of (T := ⟨S_, .f32⟩) main_call5_v5) Host.negf,
    TRef.unary (TRef.of (T := ⟨S_, .f32⟩) main_call5_v5) (TRef.of (T := ⟨S_, .f32⟩) main_call5_v6) Host.exp,
    TRef.unary (TRef.of (T := ⟨S_, .f32⟩) main_call5_v6) (TRef.of (T := ⟨S_, .f32⟩) main_call5_v7) Host.log1p,
    TRef.binary (TRef.of (T := ⟨S_, .f32⟩) main_call5_v0) (TRef.of (T := ⟨S_, .f32⟩) main_call5_v7) (TRef.of (T := ⟨S_, .f32⟩) main_call5_v8) addf,
    TRef.ternary (TRef.of (T := ⟨S_, .i1⟩) main_call5_v2) (TRef.of (T := ⟨S_, .f32⟩) main_call5_v3) (TRef.of (T := ⟨S_, .f32⟩) main_call5_v8) (TRef.of (T := ⟨S_, .f32⟩) main_v155) select ]

set_option maxRecDepth 8192 in
set_option maxHeartbeats 4000000 in
/-- The printed window is the sequence of these operations. -/
theorem part2_eq (c : Dev nD) : main_part2 (F := F) c = seq ro2 := rfl

set_option maxRecDepth 8192 in
/-- Each touches TensorCore buffers only. -/
theorem ro2_sub : (ro2 : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., unary_bufs_sub .., reshape_bufs_sub .., unary_bufs_sub .., unary_bufs_sub .., unary_bufs_sub .., reshape_bufs_sub .., unary_bufs_sub .., unary_bufs_sub .., nullary_bufs_sub .., binary_bufs_sub .., nullary_bufs_sub .., binary_bufs_sub .., unary_bufs_sub .., reshape_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., nullary_bufs_sub .., binary_bufs_sub .., binary_bufs_sub .., binary_bufs_sub .., binary_bufs_sub .., unary_bufs_sub .., unary_bufs_sub .., unary_bufs_sub .., unary_bufs_sub .., binary_bufs_sub .., ternary_bufs_sub .., nullary_bufs_sub .., binary_bufs_sub .., unary_bufs_sub .., reshape_bufs_sub .., nullary_bufs_sub .., binary_bufs_sub .., binary_bufs_sub .., binary_bufs_sub .., binary_bufs_sub .., unary_bufs_sub .., unary_bufs_sub .., unary_bufs_sub .., unary_bufs_sub .., binary_bufs_sub .., ternary_bufs_sub ..⟩

set_option maxRecDepth 8192 in
/-- None allocates a buffer. -/
theorem ro2_fresh : ∀ op ∈ (ro2 : List (HloOp τ sig (Elt F))), op.fresh = ∅ := by
  intro _ h; (repeat (cases h with | head => rfl | tail _ h => ?_)); exact nomatch h

end Cert.ReferenceIdeal.HandRun

end
-- ==== Proof.Ref.Part3.lean ====
import proofs.«420955_j27152783245914_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 226 … 291 of the reference's 437: the ones its printed window `main_part3` runs, a called function's operations standing in its call's place. -/
abbrev ro3 : List (HloOp τ sig (Elt F)) :=
  [ nullary main_cst_23 (constant S_ .f32 0x24E69595#32),
    unary main_cst_23 main_v156 (broadcastInDim S1000000x20 ![] bcast_S_S1000000x20 : (⟨S_, .f32⟩ : BufTy).Contents (Elt F) → (⟨S1000000x20, .f32⟩ : BufTy).Contents (Elt F)),
    binary main_arg3 main_v156 main_v157 (addf : (⟨S1000000x20, .f32⟩ : BufTy).Contents (Elt F) → (⟨S1000000x20, .f32⟩ : BufTy).Contents (Elt F) → (⟨S1000000x20, .f32⟩ : BufTy).Contents (Elt F)),
    nullary main_cst_24 (constant S_ .f32 0x24E69595#32),
    unary main_cst_24 main_v158 (broadcastInDim S1x20 ![] bcast_S_S1x20 : (⟨S_, .f32⟩ : BufTy).Contents (Elt F) → (⟨S1x20, .f32⟩ : BufTy).Contents (Elt F)),
    binary main_v130 main_v158 main_v159 (addf : (⟨S1x20, .f32⟩ : BufTy).Contents (Elt F) → (⟨S1x20, .f32⟩ : BufTy).Contents (Elt F) → (⟨S1x20, .f32⟩ : BufTy).Contents (Elt F)),
    unary main_v159 main_v160 ((transpose S20x1 [1, 0] · transposes_S1x20_S20x1_1_0) : (⟨S1x20, .f32⟩ : BufTy).Contents (Elt F) → (⟨S20x1, .f32⟩ : BufTy).Contents (Elt F)),
    binary main_v157 main_v160 main_v161 ((fun l r => Host.dotGeneral dot_S1000000x20_S20x1_S1000000x1_1_0_0_1_n_n none l r) : (⟨S1000000x20, .f32⟩ : BufTy).Contents (Elt F) → (⟨S20x1, .f32⟩ : BufTy).Contents (Elt F) → (⟨S1000000x1, .f32⟩ : BufTy).Contents (Elt F)),
    reshape main_v161 main_v162 rfl shapeCasts_S1000000x1_S1000000,
    TRef.binary (TRef.of (T := ⟨S1000000x20, .f32⟩) main_v157) (TRef.of (T := ⟨S1000000x20, .f32⟩) main_v157) (TRef.of (T := ⟨S1000000x20, .f32⟩) main_call6_v0) mulf,
    TRef.nullary (TRef.of (T := ⟨S_, .f32⟩) main_call6_cst) (constant S_ .f32 0x00000000#32),
    TRef.binary (TRef.of (T := ⟨S1000000x20, .f32⟩) main_call6_v0) (TRef.of (T := ⟨S_, .f32⟩) main_call6_cst) (TRef.of (T := ⟨S1000000, .f32⟩) main_call6_v1) (fun x v => Host.reduceAdd x v reducesTo_S1000000x20_S1000000_d1 h_S_),
    TRef.unary (TRef.of (T := ⟨S1000000, .f32⟩) main_call6_v1) (TRef.of (T := ⟨S1000000, .f32⟩) main_v163) Host.sqrt,
    nullary main_cst_25 (constant S_ .f32 0x322BCC77#32),
    unary main_cst_25 main_v164 (broadcastInDim S1000000 ![] bcast_S_S1000000 : (⟨S_, .f32⟩ : BufTy).Contents (Elt F) → (⟨S1000000, .f32⟩ : BufTy).Contents (Elt F)),
    binary main_v163 main_v164 main_v165 (maximumf : (⟨S1000000, .f32⟩ : BufTy).Contents (Elt F) → (⟨S1000000, .f32⟩ : BufTy).Contents (Elt F) → (⟨S1000000, .f32⟩ : BufTy).Contents (Elt F)),
    TRef.binary (TRef.of (T := ⟨S1x20, .f32⟩) main_v159) (TRef.of (T := ⟨S1x20, .f32⟩) main_v159) (TRef.of (T := ⟨S1x20, .f32⟩) main_call7_v0) mulf,
    TRef.nullary (TRef.of (T := ⟨S_, .f32⟩) main_call7_cst) (constant S_ .f32 0x00000000#32),
    TRef.binary (TRef.of (T := ⟨S1x20, .f32⟩) main_call7_v0) (TRef.of (T := ⟨S_, .f32⟩) main_call7_cst) (TRef.of (T := ⟨S1, .f32⟩) main_call7_v1) (fun x v => Host.reduceAdd x v reducesTo_S1x20_S1_d1 h_S_),
    TRef.unary (TRef.of (T := ⟨S1, .f32⟩) main_call7_v1) (TRef.of (T := ⟨S1, .f32⟩) main_v166) Host.sqrt,
    nullary main_cst_26 (constant S_ .f32 0x322BCC77#32),
    unary main_cst_26 main_v167 (broadcastInDim S1 ![] bcast_S_S1 : (⟨S_, .f32⟩ : BufTy).Contents (Elt F) → (⟨S1, .f32⟩ : BufTy).Contents (Elt F)),
    binary main_v166 main_v167 main_v168 (maximumf : (⟨S1, .f32⟩ : BufTy).Contents (Elt F) → (⟨S1, .f32⟩ : BufTy).Contents (Elt F) → (⟨S1, .f32⟩ : BufTy).Contents (Elt F)),
    unary main_v168 main_v169 (broadcastInDim S1000000 ![0] bcast_S1_S1000000_0 : (⟨S1, .f32⟩ : BufTy).Contents (Elt F) → (⟨S1000000, .f32⟩ : BufTy).Contents (Elt F)),
    binary main_v165 main_v169 main_v170 (mulf : (⟨S1000000, .f32⟩ : BufTy).Contents (Elt F) → (⟨S1000000, .f32⟩ : BufTy).Contents (Elt F) → (⟨S1000000, .f32⟩ : BufTy).Contents (Elt F)),
    binary main_v162 main_v170 main_v171 (Host.divf : (⟨S1000000, .f32⟩ : BufTy).Contents (Elt F) → (⟨S1000000, .f32⟩ : BufTy).Contents (Elt F) → (⟨S1000000, .f32⟩ : BufTy).Contents (Elt F)),
    unary main_v155 main_v172 (broadcastInDim S1000000 ![] bcast_S_S1000000 : (⟨S_, .f32⟩ : BufTy).Contents (Elt F) → (⟨S1000000, .f32⟩ : BufTy).Contents (Elt F)),
    binary main_v171 main_v172 main_v173 (mulf : (⟨S1000000, .f32⟩ : BufTy).Contents (Elt F) → (⟨S1000000, .f32⟩ : BufTy).Contents (Elt F) → (⟨S1000000, .f32⟩ : BufTy).Contents (Elt F)),
    nullary main_cst_27 (constant S_ .f32 0xFF800000#32),
    binary main_v173 main_cst_27 main_v174 ((fun x v => Host.reduce FloatOps.maximumf x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_28 (constant S_ .f32 0xFF800000#32),
    binary main_cst_28 main_v174 main_v175 (maximumf : (⟨S_, .f32⟩ : BufTy).Contents (Elt F) → (⟨S_, .f32⟩ : BufTy).Contents (Elt F) → (⟨S_, .f32⟩ : BufTy).Contents (Elt F)),
    unary main_v175 main_v176 (broadcastInDim S1 ![] bcast_S_S1 : (⟨S_, .f32⟩ : BufTy).Contents (Elt F) → (⟨S1, .f32⟩ : BufTy).Contents (Elt F)),
    unary main_v176 main_v177 (broadcastInDim S1000000 ![0] bcast_S1_S1000000_0 : (⟨S1, .f32⟩ : BufTy).Contents (Elt F) → (⟨S1000000, .f32⟩ : BufTy).Contents (Elt F)),
    binary main_v173 main_v177 main_v178 (subf : (⟨S1000000, .f32⟩ : BufTy).Contents (Elt F) → (⟨S1000000, .f32⟩ : BufTy).Contents (Elt F) → (⟨S1000000, .f32⟩ : BufTy).Contents (Elt F)),
    unary main_v178 main_v179 (Host.exp : (⟨S1000000, .f32⟩ : BufTy).Contents (Elt F) → (⟨S1000000, .f32⟩ : BufTy).Contents (Elt F)),
    nullary main_cst_29 (constant S_ .f32 0x00000000#32),
    binary main_v179 main_cst_29 main_v180 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    unary main_v180 main_v181 (broadcastInDim S1 ![] bcast_S_S1 : (⟨S_, .f32⟩ : BufTy).Contents (Elt F) → (⟨S1, .f32⟩ : BufTy).Contents (Elt F)),
    unary main_v181 main_v182 (broadcastInDim S1000000 ![0] bcast_S1_S1000000_0 : (⟨S1, .f32⟩ : BufTy).Contents (Elt F) → (⟨S1000000, .f32⟩ : BufTy).Contents (Elt F)),
    binary main_v179 main_v182 main_v183 (Host.divf : (⟨S1000000, .f32⟩ : BufTy).Contents (Elt F) → (⟨S1000000, .f32⟩ : BufTy).Contents (Elt F) → (⟨S1000000, .f32⟩ : BufTy).Contents (Elt F)),
    unary main_v136 main_v184 (broadcastInDim S1000000 ![] bcast_S_S1000000 : (⟨S_, .f32⟩ : BufTy).Contents (Elt F) → (⟨S1000000, .f32⟩ : BufTy).Contents (Elt F)),
    binary main_v184 main_v183 main_v185 (mulf : (⟨S1000000, .f32⟩ : BufTy).Contents (Elt F) → (⟨S1000000, .f32⟩ : BufTy).Contents (Elt F) → (⟨S1000000, .f32⟩ : BufTy).Contents (Elt F)),
    nullary main_cst_30 (constant S_ .f32 0x3F800000#32),
    binary main_cst_30 main_v136 main_v186 (subf : (⟨S_, .f32⟩ : BufTy).Contents (Elt F) → (⟨S_, .f32⟩ : BufTy).Contents (Elt F) → (⟨S_, .f32⟩ : BufTy).Contents (Elt F)),
    unary main_v186 main_v187 (broadcastInDim S1x1000000 ![] bcast_S_S1x1000000 : (⟨S_, .f32⟩ : BufTy).Contents (Elt F) → (⟨S1x1000000, .f32⟩ : BufTy).Contents (Elt F)),
    binary main_v187 main_arg2 main_v188 (mulf : (⟨S1x1000000, .f32⟩ : BufTy).Contents (Elt F) → (⟨S1x1000000, .f32⟩ : BufTy).Contents (Elt F) → (⟨S1x1000000, .f32⟩ : BufTy).Contents (Elt F)),
    unary main_v185 main_v189 (broadcastInDim S1x1000000 ![1] bcast_S1000000_S1x1000000_1 : (⟨S1000000, .f32⟩ : BufTy).Contents (Elt F) → (⟨S1x1000000, .f32⟩ : BufTy).Contents (Elt F)),
    binary main_v189 main_v188 main_v190 (addf : (⟨S1x1000000, .f32⟩ : BufTy).Contents (Elt F) → (⟨S1x1000000, .f32⟩ : BufTy).Contents (Elt F) → (⟨S1x1000000, .f32⟩ : BufTy).Contents (Elt F)),
    unary main_v190 main_v191 ((extractStridedSlice S1x1 ![0, 999999] · slices_S1x1000000_S1x1_0_999999) : (⟨S1x1000000, .f32⟩ : BufTy).Contents (Elt F) → (⟨S1x1, .f32⟩ : BufTy).Contents (Elt F)),
    unary main_v190 main_v192 ((extractStridedSlice S1x1 ![0, 0] · slices_S1x1000000_S1x1_0_0) : (⟨S1x1000000, .f32⟩ : BufTy).Contents (Elt F) → (⟨S1x1, .f32⟩ : BufTy).Contents (Elt F)),
    nary ![main_v191, main_v190, main_v192] main_v193 (fun u => concatenate S1x1000002 1 [⟨S1x1, u 0⟩, ⟨S1x1000000, u 1⟩, ⟨S1x1, u 2⟩] concatenates_S1x1_S1x1000000_S1x1_S1x1000002_d1),
    unary main_v148 main_v194 ((extractStridedSlice S1 ![0] · slices_S3_S1_0) : (⟨S3, .f32⟩ : BufTy).Contents (Elt F) → (⟨S1, .f32⟩ : BufTy).Contents (Elt F)),
    reshape main_v194 main_v195 rfl shapeCasts_S1_S_,
    unary main_v193 main_v196 ((extractStridedSlice S1x1000000 ![0, 0] · slices_S1x1000002_S1x1000000_0_0) : (⟨S1x1000002, .f32⟩ : BufTy).Contents (Elt F) → (⟨S1x1000000, .f32⟩ : BufTy).Contents (Elt F)),
    unary main_v195 main_v197 (broadcastInDim S1x1000000 ![] bcast_S_S1x1000000 : (⟨S_, .f32⟩ : BufTy).Contents (Elt F) → (⟨S1x1000000, .f32⟩ : BufTy).Contents (Elt F)),
    binary main_v197 main_v196 main_v198 (mulf : (⟨S1x1000000, .f32⟩ : BufTy).Contents (Elt F) → (⟨S1x1000000, .f32⟩ : BufTy).Contents (Elt F) → (⟨S1x1000000, .f32⟩ : BufTy).Contents (Elt F)),
    unary main_v148 main_v199 ((extractStridedSlice S1 ![1] · slices_S3_S1_1) : (⟨S3, .f32⟩ : BufTy).Contents (Elt F) → (⟨S1, .f32⟩ : BufTy).Contents (Elt F)),
    reshape main_v199 main_v200 rfl shapeCasts_S1_S_,
    unary main_v193 main_v201 ((extractStridedSlice S1x1000000 ![0, 1] · slices_S1x1000002_S1x1000000_0_1) : (⟨S1x1000002, .f32⟩ : BufTy).Contents (Elt F) → (⟨S1x1000000, .f32⟩ : BufTy).Contents (Elt F)),
    unary main_v200 main_v202 (broadcastInDim S1x1000000 ![] bcast_S_S1x1000000 : (⟨S_, .f32⟩ : BufTy).Contents (Elt F) → (⟨S1x1000000, .f32⟩ : BufTy).Contents (Elt F)),
    binary main_v202 main_v201 main_v203 (mulf : (⟨S1x1000000, .f32⟩ : BufTy).Contents (Elt F) → (⟨S1x1000000, .f32⟩ : BufTy).Contents (Elt F) → (⟨S1x1000000, .f32⟩ : BufTy).Contents (Elt F)),
    binary main_v198 main_v203 main_v204 (addf : (⟨S1x1000000, .f32⟩ : BufTy).Contents (Elt F) → (⟨S1x1000000, .f32⟩ : BufTy).Contents (Elt F) → (⟨S1x1000000, .f32⟩ : BufTy).Contents (Elt F)),
    unary main_v148 main_v205 ((extractStridedSlice S1 ![2] · slices_S3_S1_2) : (⟨S3, .f32⟩ : BufTy).Contents (Elt F) → (⟨S1, .f32⟩ : BufTy).Contents (Elt F)),
    reshape main_v205 main_v206 rfl shapeCasts_S1_S_,
    unary main_v193 main_v207 ((extractStridedSlice S1x1000000 ![0, 2] · slices_S1x1000002_S1x1000000_0_2) : (⟨S1x1000002, .f32⟩ : BufTy).Contents (Elt F) → (⟨S1x1000000, .f32⟩ : BufTy).Contents (Elt F)) ]

set_option maxRecDepth 8192 in
set_option maxHeartbeats 4000000 in
/-- The printed window is the sequence of these operations. -/
theorem part3_eq (c : Dev nD) : main_part3 (F := F) c = seq ro3 := rfl

set_option maxRecDepth 8192 in
/-- Each touches TensorCore buffers only. -/
theorem ro3_sub : (ro3 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., reshape_bufs_sub .., binary_bufs_sub .., nullary_bufs_sub .., binary_bufs_sub .., unary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., binary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., binary_bufs_sub .., unary_bufs_sub .., binary_bufs_sub .., unary_bufs_sub .., unary_bufs_sub .., nary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub ..⟩

set_option maxRecDepth 8192 in
/-- None allocates a buffer. -/
theorem ro3_fresh : ∀ op ∈ (ro3 : List (HloOp τ sig (Elt F))), op.fresh = ∅ := by
  intro _ h; (repeat (cases h with | head => rfl | tail _ h => ?_)); exact nomatch h

end Cert.ReferenceIdeal.HandRun

end
-- ==== Proof.Ref.Part4.lean ====
import proofs.«420955_j27152783245914_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 292 … 357 of the reference's 437: the ones its printed window `main_part4` runs, a called function's operations standing in its call's place. -/
abbrev ro4 : List (HloOp τ sig (Elt F)) :=
  [ unary main_v206 main_v208 (broadcastInDim S1x1000000 ![] bcast_S_S1x1000000 : (⟨S_, .f32⟩ : BufTy).Contents (Elt F) → (⟨S1x1000000, .f32⟩ : BufTy).Contents (Elt F)),
    binary main_v208 main_v207 main_v209 (mulf : (⟨S1x1000000, .f32⟩ : BufTy).Contents (Elt F) → (⟨S1x1000000, .f32⟩ : BufTy).Contents (Elt F) → (⟨S1x1000000, .f32⟩ : BufTy).Contents (Elt F)),
    binary main_v204 main_v209 main_v210 (addf : (⟨S1x1000000, .f32⟩ : BufTy).Contents (Elt F) → (⟨S1x1000000, .f32⟩ : BufTy).Contents (Elt F) → (⟨S1x1000000, .f32⟩ : BufTy).Contents (Elt F)),
    unary main_v152 main_v211 (broadcastInDim S1x1000000 ![] bcast_S_S1x1000000 : (⟨S_, .f32⟩ : BufTy).Contents (Elt F) → (⟨S1x1000000, .f32⟩ : BufTy).Contents (Elt F)),
    binary main_v210 main_v211 main_v212 (Host.powf : (⟨S1x1000000, .f32⟩ : BufTy).Contents (Elt F) → (⟨S1x1000000, .f32⟩ : BufTy).Contents (Elt F) → (⟨S1x1000000, .f32⟩ : BufTy).Contents (Elt F)),
    nullary main_cst_31 (constant S_ .f32 0x00000000#32),
    binary main_v212 main_cst_31 main_v213 ((fun x v => Host.reduceAdd x v reducesTo_S1x1000000_S1_d1 h_S_) : (⟨S1x1000000, .f32⟩ : BufTy).Contents (Elt F) → (⟨S_, .f32⟩ : BufTy).Contents (Elt F) → (⟨S1, .f32⟩ : BufTy).Contents (Elt F)),
    unary main_v213 main_v214 (broadcastInDim S1x1 ![0] bcast_S1_S1x1_0 : (⟨S1, .f32⟩ : BufTy).Contents (Elt F) → (⟨S1x1, .f32⟩ : BufTy).Contents (Elt F)),
    nullary main_cst_32 (constant S_ .f32 0x24E69595#32),
    unary main_cst_32 main_v215 (broadcastInDim S1x1 ![] bcast_S_S1x1 : (⟨S_, .f32⟩ : BufTy).Contents (Elt F) → (⟨S1x1, .f32⟩ : BufTy).Contents (Elt F)),
    binary main_v214 main_v215 main_v216 (addf : (⟨S1x1, .f32⟩ : BufTy).Contents (Elt F) → (⟨S1x1, .f32⟩ : BufTy).Contents (Elt F) → (⟨S1x1, .f32⟩ : BufTy).Contents (Elt F)),
    unary main_v216 main_v217 (broadcastInDim S1x1000000 ![0, 1] bcast_S1x1_S1x1000000_0_1 : (⟨S1x1, .f32⟩ : BufTy).Contents (Elt F) → (⟨S1x1000000, .f32⟩ : BufTy).Contents (Elt F)),
    binary main_v212 main_v217 main_v218 (Host.divf : (⟨S1x1000000, .f32⟩ : BufTy).Contents (Elt F) → (⟨S1x1000000, .f32⟩ : BufTy).Contents (Elt F) → (⟨S1x1000000, .f32⟩ : BufTy).Contents (Elt F)),
    binary main_v126 main_arg3 main_v219 ((fun l r => Host.dotGeneral dot_S1x1000000_S1000000x20_S1x20_1_0_0_1_n_n none l r) : (⟨S1x1000000, .f32⟩ : BufTy).Contents (Elt F) → (⟨S1000000x20, .f32⟩ : BufTy).Contents (Elt F) → (⟨S1x20, .f32⟩ : BufTy).Contents (Elt F)),
    binary main_arg4 main_v219 main_v220 ((fun a b => concatenate S1x40 1 [⟨S1x20, a⟩, ⟨S1x20, b⟩] concatenates_S1x20_S1x20_S1x40_d1) : (⟨S1x20, .f32⟩ : BufTy).Contents (Elt F) → (⟨S1x20, .f32⟩ : BufTy).Contents (Elt F) → (⟨S1x40, .f32⟩ : BufTy).Contents (Elt F)),
    unary main_v15 main_v221 ((extractStridedSlice S1x1 ![0, 0] · slices_S1x3_S1x1_0_0) : (⟨S1x3, .f32⟩ : BufTy).Contents (Elt F) → (⟨S1x1, .f32⟩ : BufTy).Contents (Elt F)),
    reshape main_v221 main_v222 rfl shapeCasts_S1x1_S_,
    unary main_v222 main_v223 (Host.negf : (⟨S_, .f32⟩ : BufTy).Contents (Elt F) → (⟨S_, .f32⟩ : BufTy).Contents (Elt F)),
    unary main_v223 main_v224 (Host.exp : (⟨S_, .f32⟩ : BufTy).Contents (Elt F) → (⟨S_, .f32⟩ : BufTy).Contents (Elt F)),
    nullary main_cst_33 (constant S_ .f32 0x3F800000#32),
    binary main_cst_33 main_v224 main_v225 (addf : (⟨S_, .f32⟩ : BufTy).Contents (Elt F) → (⟨S_, .f32⟩ : BufTy).Contents (Elt F) → (⟨S_, .f32⟩ : BufTy).Contents (Elt F)),
    nullary main_cst_34 (constant S_ .f32 0x3F800000#32),
    binary main_cst_34 main_v225 main_v226 (Host.divf : (⟨S_, .f32⟩ : BufTy).Contents (Elt F) → (⟨S_, .f32⟩ : BufTy).Contents (Elt F) → (⟨S_, .f32⟩ : BufTy).Contents (Elt F)),
    unary main_v15 main_v227 ((extractStridedSlice S1x2 ![0, 1] · slices_S1x3_S1x2_0_1) : (⟨S1x3, .f32⟩ : BufTy).Contents (Elt F) → (⟨S1x2, .f32⟩ : BufTy).Contents (Elt F)),
    nullary main_cst_35 (constant S_ .f32 0xFF800000#32),
    binary main_v227 main_cst_35 main_v228 ((fun x v => Host.reduce FloatOps.maximumf x v reducesTo_S1x2_S1_d1 h_S_) : (⟨S1x2, .f32⟩ : BufTy).Contents (Elt F) → (⟨S_, .f32⟩ : BufTy).Contents (Elt F) → (⟨S1, .f32⟩ : BufTy).Contents (Elt F)),
    nullary main_cst_36 (constant S_ .f32 0xFF800000#32),
    unary main_cst_36 main_v229 (broadcastInDim S1 ![] bcast_S_S1 : (⟨S_, .f32⟩ : BufTy).Contents (Elt F) → (⟨S1, .f32⟩ : BufTy).Contents (Elt F)),
    binary main_v229 main_v228 main_v230 (maximumf : (⟨S1, .f32⟩ : BufTy).Contents (Elt F) → (⟨S1, .f32⟩ : BufTy).Contents (Elt F) → (⟨S1, .f32⟩ : BufTy).Contents (Elt F)),
    unary main_v230 main_v231 (broadcastInDim S1x1 ![0] bcast_S1_S1x1_0 : (⟨S1, .f32⟩ : BufTy).Contents (Elt F) → (⟨S1x1, .f32⟩ : BufTy).Contents (Elt F)),
    unary main_v231 main_v232 (broadcastInDim S1x2 ![0, 1] bcast_S1x1_S1x2_0_1 : (⟨S1x1, .f32⟩ : BufTy).Contents (Elt F) → (⟨S1x2, .f32⟩ : BufTy).Contents (Elt F)),
    binary main_v227 main_v232 main_v233 (subf : (⟨S1x2, .f32⟩ : BufTy).Contents (Elt F) → (⟨S1x2, .f32⟩ : BufTy).Contents (Elt F) → (⟨S1x2, .f32⟩ : BufTy).Contents (Elt F)),
    unary main_v233 main_v234 (Host.exp : (⟨S1x2, .f32⟩ : BufTy).Contents (Elt F) → (⟨S1x2, .f32⟩ : BufTy).Contents (Elt F)),
    nullary main_cst_37 (constant S_ .f32 0x00000000#32),
    binary main_v234 main_cst_37 main_v235 ((fun x v => Host.reduceAdd x v reducesTo_S1x2_S1_d1 h_S_) : (⟨S1x2, .f32⟩ : BufTy).Contents (Elt F) → (⟨S_, .f32⟩ : BufTy).Contents (Elt F) → (⟨S1, .f32⟩ : BufTy).Contents (Elt F)),
    unary main_v235 main_v236 (broadcastInDim S1x1 ![0] bcast_S1_S1x1_0 : (⟨S1, .f32⟩ : BufTy).Contents (Elt F) → (⟨S1x1, .f32⟩ : BufTy).Contents (Elt F)),
    unary main_v236 main_v237 (broadcastInDim S1x2 ![0, 1] bcast_S1x1_S1x2_0_1 : (⟨S1x1, .f32⟩ : BufTy).Contents (Elt F) → (⟨S1x2, .f32⟩ : BufTy).Contents (Elt F)),
    binary main_v234 main_v237 main_v238 (Host.divf : (⟨S1x2, .f32⟩ : BufTy).Contents (Elt F) → (⟨S1x2, .f32⟩ : BufTy).Contents (Elt F) → (⟨S1x2, .f32⟩ : BufTy).Contents (Elt F)),
    unary main_arg15 main_v239 ((transpose S40x110 [1, 0] · transposes_S110x40_S40x110_1_0) : (⟨S110x40, .f32⟩ : BufTy).Contents (Elt F) → (⟨S40x110, .f32⟩ : BufTy).Contents (Elt F)),
    binary main_v220 main_v239 main_v240 ((fun l r => Host.dotGeneral dot_S1x40_S40x110_S1x110_1_0_0_1_n_n none l r) : (⟨S1x40, .f32⟩ : BufTy).Contents (Elt F) → (⟨S40x110, .f32⟩ : BufTy).Contents (Elt F) → (⟨S1x110, .f32⟩ : BufTy).Contents (Elt F)),
    unary main_arg16 main_v241 (broadcastInDim S1x110 ![1] bcast_S110_S1x110_1 : (⟨S110, .f32⟩ : BufTy).Contents (Elt F) → (⟨S1x110, .f32⟩ : BufTy).Contents (Elt F)),
    binary main_v240 main_v241 main_v242 (addf : (⟨S1x110, .f32⟩ : BufTy).Contents (Elt F) → (⟨S1x110, .f32⟩ : BufTy).Contents (Elt F) → (⟨S1x110, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1x110, .f32⟩) main_call8_v0) (broadcastInDim S1x110 ![] bcast_S_S1x110),
    TRef.binary (TRef.of (T := ⟨S1x110, .f32⟩) main_v242) (TRef.of (T := ⟨S1x110, .f32⟩) main_call8_v0) (TRef.of (T := ⟨S1x110, .f32⟩) main_v243) maximumf,
    unary main_arg17 main_v244 ((transpose S110x190 [1, 0] · transposes_S190x110_S110x190_1_0) : (⟨S190x110, .f32⟩ : BufTy).Contents (Elt F) → (⟨S110x190, .f32⟩ : BufTy).Contents (Elt F)),
    binary main_v243 main_v244 main_v245 ((fun l r => Host.dotGeneral dot_S1x110_S110x190_S1x190_1_0_0_1_n_n none l r) : (⟨S1x110, .f32⟩ : BufTy).Contents (Elt F) → (⟨S110x190, .f32⟩ : BufTy).Contents (Elt F) → (⟨S1x190, .f32⟩ : BufTy).Contents (Elt F)),
    unary main_arg18 main_v246 (broadcastInDim S1x190 ![1] bcast_S190_S1x190_1 : (⟨S190, .f32⟩ : BufTy).Contents (Elt F) → (⟨S1x190, .f32⟩ : BufTy).Contents (Elt F)),
    binary main_v245 main_v246 main_v247 (addf : (⟨S1x190, .f32⟩ : BufTy).Contents (Elt F) → (⟨S1x190, .f32⟩ : BufTy).Contents (Elt F) → (⟨S1x190, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S1x190, .f32⟩) main_call9_v0) (broadcastInDim S1x190 ![] bcast_S_S1x190),
    TRef.binary (TRef.of (T := ⟨S1x190, .f32⟩) main_v247) (TRef.of (T := ⟨S1x190, .f32⟩) main_call9_v0) (TRef.of (T := ⟨S1x190, .f32⟩) main_v248) maximumf,
    unary main_arg19 main_v249 ((transpose S190x270 [1, 0] · transposes_S270x190_S190x270_1_0) : (⟨S270x190, .f32⟩ : BufTy).Contents (Elt F) → (⟨S190x270, .f32⟩ : BufTy).Contents (Elt F)),
    binary main_v248 main_v249 main_v250 ((fun l r => Host.dotGeneral dot_S1x190_S190x270_S1x270_1_0_0_1_n_n none l r) : (⟨S1x190, .f32⟩ : BufTy).Contents (Elt F) → (⟨S190x270, .f32⟩ : BufTy).Contents (Elt F) → (⟨S1x270, .f32⟩ : BufTy).Contents (Elt F)),
    unary main_arg20 main_v251 (broadcastInDim S1x270 ![1] bcast_S270_S1x270_1 : (⟨S270, .f32⟩ : BufTy).Contents (Elt F) → (⟨S1x270, .f32⟩ : BufTy).Contents (Elt F)),
    binary main_v250 main_v251 main_v252 (addf : (⟨S1x270, .f32⟩ : BufTy).Contents (Elt F) → (⟨S1x270, .f32⟩ : BufTy).Contents (Elt F) → (⟨S1x270, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S1x270, .f32⟩) main_call10_v0) (broadcastInDim S1x270 ![] bcast_S_S1x270),
    TRef.binary (TRef.of (T := ⟨S1x270, .f32⟩) main_v252) (TRef.of (T := ⟨S1x270, .f32⟩) main_call10_v0) (TRef.of (T := ⟨S1x270, .f32⟩) main_v253) maximumf,
    unary main_arg21 main_v254 ((transpose S270x325 [1, 0] · transposes_S325x270_S270x325_1_0) : (⟨S325x270, .f32⟩ : BufTy).Contents (Elt F) → (⟨S270x325, .f32⟩ : BufTy).Contents (Elt F)),
    binary main_v253 main_v254 main_v255 ((fun l r => Host.dotGeneral dot_S1x270_S270x325_S1x325_1_0_0_1_n_n none l r) : (⟨S1x270, .f32⟩ : BufTy).Contents (Elt F) → (⟨S270x325, .f32⟩ : BufTy).Contents (Elt F) → (⟨S1x325, .f32⟩ : BufTy).Contents (Elt F)),
    unary main_arg22 main_v256 (broadcastInDim S1x325 ![1] bcast_S325_S1x325_1 : (⟨S325, .f32⟩ : BufTy).Contents (Elt F) → (⟨S1x325, .f32⟩ : BufTy).Contents (Elt F)),
    binary main_v255 main_v256 main_v257 (addf : (⟨S1x325, .f32⟩ : BufTy).Contents (Elt F) → (⟨S1x325, .f32⟩ : BufTy).Contents (Elt F) → (⟨S1x325, .f32⟩ : BufTy).Contents (Elt F)),
    nullary main_cst_38 (constant S_ .f32 0xFF800000#32),
    binary main_v257 main_cst_38 main_v258 ((fun x v => Host.reduce FloatOps.maximumf x v reducesTo_S1x325_S1_d1 h_S_) : (⟨S1x325, .f32⟩ : BufTy).Contents (Elt F) → (⟨S_, .f32⟩ : BufTy).Contents (Elt F) → (⟨S1, .f32⟩ : BufTy).Contents (Elt F)),
    nullary main_cst_39 (constant S_ .f32 0xFF800000#32) ]

set_option maxRecDepth 8192 in
set_option maxHeartbeats 4000000 in
/-- The printed window is the sequence of these operations. -/
theorem part4_eq (c : Dev nD) : main_part4 (F := F) c = seq ro4 := rfl

set_option maxRecDepth 8192 in
/-- Each touches TensorCore buffers only. -/
theorem ro4_sub : (ro4 : List (HloOp τ sig (Elt F))).Forall fun op => op.bufs ⊆ tcRefs τ sig :=
  ⟨unary_bufs_sub .., binary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., binary_bufs_sub .., unary_bufs_sub .., reshape_bufs_sub .., unary_bufs_sub .., unary_bufs_sub .., nullary_bufs_sub .., binary_bufs_sub .., nullary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., binary_bufs_sub .., nullary_bufs_sub ..⟩

set_option maxRecDepth 8192 in
/-- None allocates a buffer. -/
theorem ro4_fresh : ∀ op ∈ (ro4 : List (HloOp τ sig (Elt F))), op.fresh = ∅ := by
  intro _ h; (repeat (cases h with | head => rfl | tail _ h => ?_)); exact nomatch h

end Cert.ReferenceIdeal.HandRun

end
-- ==== Proof.Ref.Part5.lean ====
import proofs.«420955_j27152783245914_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 358 … 423 of the reference's 437: the ones its printed window `main_part5` runs, a called function's operations standing in its call's place. -/
abbrev ro5 : List (HloOp τ sig (Elt F)) :=
  [ unary main_cst_39 main_v259 (broadcastInDim S1 ![] bcast_S_S1 : (⟨S_, .f32⟩ : BufTy).Contents (Elt F) → (⟨S1, .f32⟩ : BufTy).Contents (Elt F)),
    binary main_v259 main_v258 main_v260 (maximumf : (⟨S1, .f32⟩ : BufTy).Contents (Elt F) → (⟨S1, .f32⟩ : BufTy).Contents (Elt F) → (⟨S1, .f32⟩ : BufTy).Contents (Elt F)),
    unary main_v260 main_v261 (broadcastInDim S1x1 ![0] bcast_S1_S1x1_0 : (⟨S1, .f32⟩ : BufTy).Contents (Elt F) → (⟨S1x1, .f32⟩ : BufTy).Contents (Elt F)),
    unary main_v261 main_v262 (broadcastInDim S1x325 ![0, 1] bcast_S1x1_S1x325_0_1 : (⟨S1x1, .f32⟩ : BufTy).Contents (Elt F) → (⟨S1x325, .f32⟩ : BufTy).Contents (Elt F)),
    binary main_v257 main_v262 main_v263 (subf : (⟨S1x325, .f32⟩ : BufTy).Contents (Elt F) → (⟨S1x325, .f32⟩ : BufTy).Contents (Elt F) → (⟨S1x325, .f32⟩ : BufTy).Contents (Elt F)),
    unary main_v263 main_v264 (Host.exp : (⟨S1x325, .f32⟩ : BufTy).Contents (Elt F) → (⟨S1x325, .f32⟩ : BufTy).Contents (Elt F)),
    nullary main_cst_40 (constant S_ .f32 0x00000000#32),
    binary main_v264 main_cst_40 main_v265 ((fun x v => Host.reduceAdd x v reducesTo_S1x325_S1_d1 h_S_) : (⟨S1x325, .f32⟩ : BufTy).Contents (Elt F) → (⟨S_, .f32⟩ : BufTy).Contents (Elt F) → (⟨S1, .f32⟩ : BufTy).Contents (Elt F)),
    unary main_v265 main_v266 (broadcastInDim S1x1 ![0] bcast_S1_S1x1_0 : (⟨S1, .f32⟩ : BufTy).Contents (Elt F) → (⟨S1x1, .f32⟩ : BufTy).Contents (Elt F)),
    unary main_v266 main_v267 (broadcastInDim S1x325 ![0, 1] bcast_S1x1_S1x325_0_1 : (⟨S1x1, .f32⟩ : BufTy).Contents (Elt F) → (⟨S1x325, .f32⟩ : BufTy).Contents (Elt F)),
    binary main_v264 main_v267 main_v268 (Host.divf : (⟨S1x325, .f32⟩ : BufTy).Contents (Elt F) → (⟨S1x325, .f32⟩ : BufTy).Contents (Elt F) → (⟨S1x325, .f32⟩ : BufTy).Contents (Elt F)),
    unary main_arg23 main_v269 ((transpose S40x110 [1, 0] · transposes_S110x40_S40x110_1_0) : (⟨S110x40, .f32⟩ : BufTy).Contents (Elt F) → (⟨S40x110, .f32⟩ : BufTy).Contents (Elt F)),
    binary main_v220 main_v269 main_v270 ((fun l r => Host.dotGeneral dot_S1x40_S40x110_S1x110_1_0_0_1_n_n none l r) : (⟨S1x40, .f32⟩ : BufTy).Contents (Elt F) → (⟨S40x110, .f32⟩ : BufTy).Contents (Elt F) → (⟨S1x110, .f32⟩ : BufTy).Contents (Elt F)),
    unary main_arg24 main_v271 (broadcastInDim S1x110 ![1] bcast_S110_S1x110_1 : (⟨S110, .f32⟩ : BufTy).Contents (Elt F) → (⟨S1x110, .f32⟩ : BufTy).Contents (Elt F)),
    binary main_v270 main_v271 main_v272 (addf : (⟨S1x110, .f32⟩ : BufTy).Contents (Elt F) → (⟨S1x110, .f32⟩ : BufTy).Contents (Elt F) → (⟨S1x110, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S1x110, .f32⟩) main_call11_v0) (broadcastInDim S1x110 ![] bcast_S_S1x110),
    TRef.binary (TRef.of (T := ⟨S1x110, .f32⟩) main_v272) (TRef.of (T := ⟨S1x110, .f32⟩) main_call11_v0) (TRef.of (T := ⟨S1x110, .f32⟩) main_v273) maximumf,
    unary main_arg25 main_v274 ((transpose S110x190 [1, 0] · transposes_S190x110_S110x190_1_0) : (⟨S190x110, .f32⟩ : BufTy).Contents (Elt F) → (⟨S110x190, .f32⟩ : BufTy).Contents (Elt F)),
    binary main_v273 main_v274 main_v275 ((fun l r => Host.dotGeneral dot_S1x110_S110x190_S1x190_1_0_0_1_n_n none l r) : (⟨S1x110, .f32⟩ : BufTy).Contents (Elt F) → (⟨S110x190, .f32⟩ : BufTy).Contents (Elt F) → (⟨S1x190, .f32⟩ : BufTy).Contents (Elt F)),
    unary main_arg26 main_v276 (broadcastInDim S1x190 ![1] bcast_S190_S1x190_1 : (⟨S190, .f32⟩ : BufTy).Contents (Elt F) → (⟨S1x190, .f32⟩ : BufTy).Contents (Elt F)),
    binary main_v275 main_v276 main_v277 (addf : (⟨S1x190, .f32⟩ : BufTy).Contents (Elt F) → (⟨S1x190, .f32⟩ : BufTy).Contents (Elt F) → (⟨S1x190, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S1x190, .f32⟩) main_call12_v0) (broadcastInDim S1x190 ![] bcast_S_S1x190),
    TRef.binary (TRef.of (T := ⟨S1x190, .f32⟩) main_v277) (TRef.of (T := ⟨S1x190, .f32⟩) main_call12_v0) (TRef.of (T := ⟨S1x190, .f32⟩) main_v278) maximumf,
    unary main_arg27 main_v279 ((transpose S190x270 [1, 0] · transposes_S270x190_S190x270_1_0) : (⟨S270x190, .f32⟩ : BufTy).Contents (Elt F) → (⟨S190x270, .f32⟩ : BufTy).Contents (Elt F)),
    binary main_v278 main_v279 main_v280 ((fun l r => Host.dotGeneral dot_S1x190_S190x270_S1x270_1_0_0_1_n_n none l r) : (⟨S1x190, .f32⟩ : BufTy).Contents (Elt F) → (⟨S190x270, .f32⟩ : BufTy).Contents (Elt F) → (⟨S1x270, .f32⟩ : BufTy).Contents (Elt F)),
    unary main_arg28 main_v281 (broadcastInDim S1x270 ![1] bcast_S270_S1x270_1 : (⟨S270, .f32⟩ : BufTy).Contents (Elt F) → (⟨S1x270, .f32⟩ : BufTy).Contents (Elt F)),
    binary main_v280 main_v281 main_v282 (addf : (⟨S1x270, .f32⟩ : BufTy).Contents (Elt F) → (⟨S1x270, .f32⟩ : BufTy).Contents (Elt F) → (⟨S1x270, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S1x270, .f32⟩) main_call13_v0) (broadcastInDim S1x270 ![] bcast_S_S1x270),
    TRef.binary (TRef.of (T := ⟨S1x270, .f32⟩) main_v282) (TRef.of (T := ⟨S1x270, .f32⟩) main_call13_v0) (TRef.of (T := ⟨S1x270, .f32⟩) main_v283) maximumf,
    unary main_arg29 main_v284 ((transpose S270x325 [1, 0] · transposes_S325x270_S270x325_1_0) : (⟨S325x270, .f32⟩ : BufTy).Contents (Elt F) → (⟨S270x325, .f32⟩ : BufTy).Contents (Elt F)),
    binary main_v283 main_v284 main_v285 ((fun l r => Host.dotGeneral dot_S1x270_S270x325_S1x325_1_0_0_1_n_n none l r) : (⟨S1x270, .f32⟩ : BufTy).Contents (Elt F) → (⟨S270x325, .f32⟩ : BufTy).Contents (Elt F) → (⟨S1x325, .f32⟩ : BufTy).Contents (Elt F)),
    unary main_arg30 main_v286 (broadcastInDim S1x325 ![1] bcast_S325_S1x325_1 : (⟨S325, .f32⟩ : BufTy).Contents (Elt F) → (⟨S1x325, .f32⟩ : BufTy).Contents (Elt F)),
    binary main_v285 main_v286 main_v287 (addf : (⟨S1x325, .f32⟩ : BufTy).Contents (Elt F) → (⟨S1x325, .f32⟩ : BufTy).Contents (Elt F) → (⟨S1x325, .f32⟩ : BufTy).Contents (Elt F)),
    nullary main_cst_41 (constant S_ .f32 0xFF800000#32),
    binary main_v287 main_cst_41 main_v288 ((fun x v => Host.reduce FloatOps.maximumf x v reducesTo_S1x325_S1_d1 h_S_) : (⟨S1x325, .f32⟩ : BufTy).Contents (Elt F) → (⟨S_, .f32⟩ : BufTy).Contents (Elt F) → (⟨S1, .f32⟩ : BufTy).Contents (Elt F)),
    nullary main_cst_42 (constant S_ .f32 0xFF800000#32),
    unary main_cst_42 main_v289 (broadcastInDim S1 ![] bcast_S_S1 : (⟨S_, .f32⟩ : BufTy).Contents (Elt F) → (⟨S1, .f32⟩ : BufTy).Contents (Elt F)),
    binary main_v289 main_v288 main_v290 (maximumf : (⟨S1, .f32⟩ : BufTy).Contents (Elt F) → (⟨S1, .f32⟩ : BufTy).Contents (Elt F) → (⟨S1, .f32⟩ : BufTy).Contents (Elt F)),
    unary main_v290 main_v291 (broadcastInDim S1x1 ![0] bcast_S1_S1x1_0 : (⟨S1, .f32⟩ : BufTy).Contents (Elt F) → (⟨S1x1, .f32⟩ : BufTy).Contents (Elt F)),
    unary main_v291 main_v292 (broadcastInDim S1x325 ![0, 1] bcast_S1x1_S1x325_0_1 : (⟨S1x1, .f32⟩ : BufTy).Contents (Elt F) → (⟨S1x325, .f32⟩ : BufTy).Contents (Elt F)),
    binary main_v287 main_v292 main_v293 (subf : (⟨S1x325, .f32⟩ : BufTy).Contents (Elt F) → (⟨S1x325, .f32⟩ : BufTy).Contents (Elt F) → (⟨S1x325, .f32⟩ : BufTy).Contents (Elt F)),
    unary main_v293 main_v294 (Host.exp : (⟨S1x325, .f32⟩ : BufTy).Contents (Elt F) → (⟨S1x325, .f32⟩ : BufTy).Contents (Elt F)),
    nullary main_cst_43 (constant S_ .f32 0x00000000#32),
    binary main_v294 main_cst_43 main_v295 ((fun x v => Host.reduceAdd x v reducesTo_S1x325_S1_d1 h_S_) : (⟨S1x325, .f32⟩ : BufTy).Contents (Elt F) → (⟨S_, .f32⟩ : BufTy).Contents (Elt F) → (⟨S1, .f32⟩ : BufTy).Contents (Elt F)),
    unary main_v295 main_v296 (broadcastInDim S1x1 ![0] bcast_S1_S1x1_0 : (⟨S1, .f32⟩ : BufTy).Contents (Elt F) → (⟨S1x1, .f32⟩ : BufTy).Contents (Elt F)),
    unary main_v296 main_v297 (broadcastInDim S1x325 ![0, 1] bcast_S1x1_S1x325_0_1 : (⟨S1x1, .f32⟩ : BufTy).Contents (Elt F) → (⟨S1x325, .f32⟩ : BufTy).Contents (Elt F)),
    binary main_v294 main_v297 main_v298 (Host.divf : (⟨S1x325, .f32⟩ : BufTy).Contents (Elt F) → (⟨S1x325, .f32⟩ : BufTy).Contents (Elt F) → (⟨S1x325, .f32⟩ : BufTy).Contents (Elt F)),
    unary main_v238 main_v299 ((extractStridedSlice S1x1 ![0, 0] · slices_S1x2_S1x1_0_0) : (⟨S1x2, .f32⟩ : BufTy).Contents (Elt F) → (⟨S1x1, .f32⟩ : BufTy).Contents (Elt F)),
    reshape main_v299 main_v300 rfl shapeCasts_S1x1_S_,
    unary main_v300 main_v301 (broadcastInDim S1x325 ![] bcast_S_S1x325 : (⟨S_, .f32⟩ : BufTy).Contents (Elt F) → (⟨S1x325, .f32⟩ : BufTy).Contents (Elt F)),
    binary main_v301 main_v268 main_v302 (mulf : (⟨S1x325, .f32⟩ : BufTy).Contents (Elt F) → (⟨S1x325, .f32⟩ : BufTy).Contents (Elt F) → (⟨S1x325, .f32⟩ : BufTy).Contents (Elt F)),
    unary main_v238 main_v303 ((extractStridedSlice S1x1 ![0, 1] · slices_S1x2_S1x1_0_1) : (⟨S1x2, .f32⟩ : BufTy).Contents (Elt F) → (⟨S1x1, .f32⟩ : BufTy).Contents (Elt F)),
    reshape main_v303 main_v304 rfl shapeCasts_S1x1_S_,
    unary main_v304 main_v305 (broadcastInDim S1x325 ![] bcast_S_S1x325 : (⟨S_, .f32⟩ : BufTy).Contents (Elt F) → (⟨S1x325, .f32⟩ : BufTy).Contents (Elt F)),
    binary main_v305 main_v298 main_v306 (mulf : (⟨S1x325, .f32⟩ : BufTy).Contents (Elt F) → (⟨S1x325, .f32⟩ : BufTy).Contents (Elt F) → (⟨S1x325, .f32⟩ : BufTy).Contents (Elt F)),
    binary main_v302 main_v306 main_v307 (addf : (⟨S1x325, .f32⟩ : BufTy).Contents (Elt F) → (⟨S1x325, .f32⟩ : BufTy).Contents (Elt F) → (⟨S1x325, .f32⟩ : BufTy).Contents (Elt F)),
    unary main_arg13 main_v308 ((transpose S325x20 [1, 0] · transposes_S20x325_S325x20_1_0) : (⟨S20x325, .f32⟩ : BufTy).Contents (Elt F) → (⟨S325x20, .f32⟩ : BufTy).Contents (Elt F)),
    binary main_v307 main_v308 main_v309 ((fun l r => Host.dotGeneral dot_S1x325_S325x20_S1x20_1_0_0_1_n_n none l r) : (⟨S1x325, .f32⟩ : BufTy).Contents (Elt F) → (⟨S325x20, .f32⟩ : BufTy).Contents (Elt F) → (⟨S1x20, .f32⟩ : BufTy).Contents (Elt F)),
    unary main_arg14 main_v310 (broadcastInDim S1x20 ![1] bcast_S20_S1x20_1 : (⟨S20, .f32⟩ : BufTy).Contents (Elt F) → (⟨S1x20, .f32⟩ : BufTy).Contents (Elt F)),
    binary main_v309 main_v310 main_v311 (addf : (⟨S1x20, .f32⟩ : BufTy).Contents (Elt F) → (⟨S1x20, .f32⟩ : BufTy).Contents (Elt F) → (⟨S1x20, .f32⟩ : BufTy).Contents (Elt F)),
    unary main_v226 main_v312 (broadcastInDim S1x20 ![] bcast_S_S1x20 : (⟨S_, .f32⟩ : BufTy).Contents (Elt F) → (⟨S1x20, .f32⟩ : BufTy).Contents (Elt F)),
    binary main_v312 main_v34 main_v313 (mulf : (⟨S1x20, .f32⟩ : BufTy).Contents (Elt F) → (⟨S1x20, .f32⟩ : BufTy).Contents (Elt F) → (⟨S1x20, .f32⟩ : BufTy).Contents (Elt F)),
    nullary main_cst_44 (constant S_ .f32 0x3F800000#32) ]

set_option maxRecDepth 8192 in
set_option maxHeartbeats 4000000 in
/-- The printed window is the sequence of these operations. -/
theorem part5_eq (c : Dev nD) : main_part5 (F := F) c = seq ro5 := rfl

set_option maxRecDepth 8192 in
/-- Each touches TensorCore buffers only. -/
theorem ro5_sub : (ro5 : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., binary_bufs_sub .., unary_bufs_sub .., binary_bufs_sub .., unary_bufs_sub .., binary_bufs_sub .., nullary_bufs_sub ..⟩

set_option maxRecDepth 8192 in
/-- None allocates a buffer. -/
theorem ro5_fresh : ∀ op ∈ (ro5 : List (HloOp τ sig (Elt F))), op.fresh = ∅ := by
  intro _ h; (repeat (cases h with | head => rfl | tail _ h => ?_)); exact nomatch h

end Cert.ReferenceIdeal.HandRun

end
-- ==== Proof.Ref.Part6.lean ====
import proofs.«420955_j27152783245914_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 424 … 436 of the reference's 437: the ones its printed window `main_part6` runs, a called function's operations standing in its call's place. -/
abbrev ro6 : List (HloOp τ sig (Elt F)) :=
  [ binary main_cst_44 main_v226 main_v314 (subf : (⟨S_, .f32⟩ : BufTy).Contents (Elt F) → (⟨S_, .f32⟩ : BufTy).Contents (Elt F) → (⟨S_, .f32⟩ : BufTy).Contents (Elt F)),
    unary main_v314 main_v315 (broadcastInDim S1x20 ![] bcast_S_S1x20 : (⟨S_, .f32⟩ : BufTy).Contents (Elt F) → (⟨S1x20, .f32⟩ : BufTy).Contents (Elt F)),
    binary main_v315 main_v311 main_v316 (mulf : (⟨S1x20, .f32⟩ : BufTy).Contents (Elt F) → (⟨S1x20, .f32⟩ : BufTy).Contents (Elt F) → (⟨S1x20, .f32⟩ : BufTy).Contents (Elt F)),
    binary main_v313 main_v316 main_v317 (addf : (⟨S1x20, .f32⟩ : BufTy).Contents (Elt F) → (⟨S1x20, .f32⟩ : BufTy).Contents (Elt F) → (⟨S1x20, .f32⟩ : BufTy).Contents (Elt F)),
    unary main_v218 main_v318 ((transpose S1000000x1 [1, 0] · transposes_S1x1000000_S1000000x1_1_0) : (⟨S1x1000000, .f32⟩ : BufTy).Contents (Elt F) → (⟨S1000000x1, .f32⟩ : BufTy).Contents (Elt F)),
    binary main_v318 main_v30 main_v319 ((fun l r => Host.dotGeneral dot_S1000000x1_S1x20_S1000000x20_1_0_0_1_n_n none l r) : (⟨S1000000x1, .f32⟩ : BufTy).Contents (Elt F) → (⟨S1x20, .f32⟩ : BufTy).Contents (Elt F) → (⟨S1000000x20, .f32⟩ : BufTy).Contents (Elt F)),
    nullary main_cst_45 (constant S_ .f32 0x3F800000#32),
    unary main_cst_45 main_v320 (broadcastInDim S1000000x20 ![] bcast_S_S1000000x20 : (⟨S_, .f32⟩ : BufTy).Contents (Elt F) → (⟨S1000000x20, .f32⟩ : BufTy).Contents (Elt F)),
    binary main_v320 main_v319 main_v321 (subf : (⟨S1000000x20, .f32⟩ : BufTy).Contents (Elt F) → (⟨S1000000x20, .f32⟩ : BufTy).Contents (Elt F) → (⟨S1000000x20, .f32⟩ : BufTy).Contents (Elt F)),
    binary main_arg3 main_v321 main_v322 (mulf : (⟨S1000000x20, .f32⟩ : BufTy).Contents (Elt F) → (⟨S1000000x20, .f32⟩ : BufTy).Contents (Elt F) → (⟨S1000000x20, .f32⟩ : BufTy).Contents (Elt F)),
    unary main_v218 main_v323 ((transpose S1000000x1 [1, 0] · transposes_S1x1000000_S1000000x1_1_0) : (⟨S1x1000000, .f32⟩ : BufTy).Contents (Elt F) → (⟨S1000000x1, .f32⟩ : BufTy).Contents (Elt F)),
    binary main_v323 main_v317 main_v324 ((fun l r => Host.dotGeneral dot_S1000000x1_S1x20_S1000000x20_1_0_0_1_n_n none l r) : (⟨S1000000x1, .f32⟩ : BufTy).Contents (Elt F) → (⟨S1x20, .f32⟩ : BufTy).Contents (Elt F) → (⟨S1000000x20, .f32⟩ : BufTy).Contents (Elt F)),
    binary main_v322 main_v324 main_v325 (addf : (⟨S1000000x20, .f32⟩ : BufTy).Contents (Elt F) → (⟨S1000000x20, .f32⟩ : BufTy).Contents (Elt F) → (⟨S1000000x20, .f32⟩ : BufTy).Contents (Elt F)) ]

set_option maxRecDepth 8192 in
set_option maxHeartbeats 4000000 in
/-- The printed window is the sequence of these operations. -/
theorem part6_eq (c : Dev nD) : main_part6 (F := F) c = seq ro6 := rfl

set_option maxRecDepth 8192 in
/-- Each touches TensorCore buffers only. -/
theorem ro6_sub : (ro6 : List (HloOp τ sig (Elt F))).Forall fun op => op.bufs ⊆ tcRefs τ sig :=
  ⟨binary_bufs_sub .., unary_bufs_sub .., binary_bufs_sub .., binary_bufs_sub .., unary_bufs_sub .., binary_bufs_sub .., nullary_bufs_sub .., unary_bufs_sub .., binary_bufs_sub .., binary_bufs_sub .., unary_bufs_sub .., binary_bufs_sub .., binary_bufs_sub ..⟩

set_option maxRecDepth 8192 in
/-- None allocates a buffer. -/
theorem ro6_fresh : ∀ op ∈ (ro6 : List (HloOp τ sig (Elt F))), op.fresh = ∅ := by
  intro _ h; (repeat (cases h with | head => rfl | tail _ h => ?_)); exact nomatch h

end Cert.ReferenceIdeal.HandRun

end
-- ==== Proof.Ref.Run.lean ====
import proofs.«420955_j27152783245914_3_alg».proof.Proof.Ref.Part0
import proofs.«420955_j27152783245914_3_alg».proof.Proof.Ref.Part1
import proofs.«420955_j27152783245914_3_alg».proof.Proof.Ref.Part2
import proofs.«420955_j27152783245914_3_alg».proof.Proof.Ref.Part3
import proofs.«420955_j27152783245914_3_alg».proof.Proof.Ref.Part4
import proofs.«420955_j27152783245914_3_alg».proof.Proof.Ref.Part5
import proofs.«420955_j27152783245914_3_alg».proof.Proof.Ref.Part6
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

def win : Nat → List (HloOp τ sig (Elt F))
  | 0 => ro0 | 1 => ro1 | 2 => ro2 | 3 => ro3 | 4 => ro4 | 5 => ro5 | 6 => ro6 | _ => []

abbrev rops : List (HloOp τ sig (Elt F)) := ro0 ++ ro1 ++ ro2 ++ ro3 ++ ro4 ++ ro5 ++ ro6

theorem main_eq (c : Dev nD) : main (F := F) c = seq rops := by
  simp only [main, rops, List.append_assoc, seq_append, part0_eq, part1_eq, part2_eq, part3_eq, part4_eq, part5_eq, part6_eq]

theorem scopedRefs_eq : (Finset.univ.filter fun b : Ref sig .tc => b.isScoped) = ∅ := by decide
theorem scopedSems_eq : (Finset.univ.filter fun sm : SemLoc sig => sm.isScoped .tc) = ∅ := by decide

theorem rops_sub : (rops : List (HloOp τ sig (Elt F))).Forall fun op => op.bufs ⊆ tcRefs τ sig := by
  simp only [rops, List.forall_append]
  exact ⟨⟨⟨⟨⟨⟨ro0_sub, ro1_sub⟩, ro2_sub⟩, ro3_sub⟩, ro4_sub⟩, ro5_sub⟩, ro6_sub⟩

theorem rops_fresh : ∀ op ∈ (rops : List (HloOp τ sig (Elt F))), op.fresh = ∅ := by
  simp only [rops, List.forall_mem_append]
  exact ⟨⟨⟨⟨⟨⟨ro0_fresh, ro1_fresh⟩, ro2_fresh⟩, ro3_fresh⟩, ro4_fresh⟩, ro5_fresh⟩, ro6_fresh⟩

variable (m : (ℓ : Loc nD τ sig) → Buf (Elt F) ℓ)

-- A core's buffers after the first k windows.
def RV (c : Dev nD) : Nat → Valuation τ sig (Elt F)
  | 0 => launchContents m c
  | k + 1 => after (win k) (RV c k)

theorem after_rops (c : Dev nD) : after rops (launchContents m c) = RV m c 7 := by
  simp only [rops, after_append]
  rfl

theorem run0 (ρ : Dev nD → PrngReg) :
    θ_run defs (onTc (τ := τ) (main (F := F))) ⟨m, fun _ => 0, ρ⟩ fun r =>
      ∀ (c : Dev nD) (b : Ref sig .tc), r.2.mem ((c.tc : Thread nD τ).loc b) = RV m c 7 b :=
  (θ_run defs _ _).mono (fun _ h c b => (h c b).trans (congrFun (after_rops m c) _))
    (run_seq scopedRefs_eq scopedSems_eq defs main (fun _ => rops) main_eq (fun _ => rops_sub) m ρ (fun _ => rops_fresh))

end Cert.ReferenceIdeal.HandRun

end
-- ==== Proof.Ref.Skip.lean ====
import proofs.«420955_j27152783245914_3_alg».proof.Proof.Ref.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

-- The buffers window k writes: the results of its operations, in order.
noncomputable def wr : Nat → List (Ref sig .tc)
  | 0 => [
    main_v0, main_v1, main_v2, main_v3, main_v4, main_v5, main_v6, main_v7, main_v8, main_v9, main_v10, main_v11,
    main_v12, main_v13, main_v14, main_v15, main_v16, main_v17, main_v18, main_v19, main_v20, main_v21, main_v22,
    main_v23, main_v24, main_v25, main_v26, main_cst, main_v27, main_v28, main_cst_0, main_v29, main_v30, main_v31,
    main_v32, main_v33, main_v34, main_v35, main_v36, main_v37, main_v38, main_v39, main_v40, main_v41, main_v42,
    main_cst_1, main_v43, main_cst_2, main_v44, main_v45, main_v46, main_cst_3, main_v47, main_cst_4, main_v48,
    main_v49, main_v50, main_v51, main_v52, main_cst_5]
  | 1 => [
    main_v53, main_v54, main_v55, main_v56, main_v57, main_v58, main_call0_cst, main_call0_v0, main_call0_v1,
    main_call0_v2, main_call0_v3, main_call0_v4, main_call0_v5, main_call0_v6, main_call0_v7, main_call0_v8, main_v59,
    main_cst_6, main_v60, main_v61, main_v62, main_call1_cst, main_call1_v0, main_call1_v1, main_call1_v2,
    main_call1_v3, main_call1_v4, main_call1_v5, main_call1_v6, main_call1_v7, main_call1_v8, main_v63, main_cst_7,
    main_v64, main_v65, main_cst_8, main_v66, main_v67, main_v68, main_v69, main_v70, main_call2_v0, main_call2_cst,
    main_call2_v1, main_v71, main_cst_9, main_v72, main_v73, main_call3_v0, main_call3_cst, main_call3_v1, main_v74,
    main_cst_10, main_v75, main_v76, main_v77, main_v78, main_v79, main_v80, main_v81, main_cst_11, main_v82,
    main_cst_12, main_v83, main_v84, main_v85, main_v86, main_v87, main_cst_13, main_v88, main_v89, main_v90,
    main_v91, main_v92, main_v93, main_cst_14, main_v94, main_v95, main_v96, main_v97, main_v98, main_v99, main_v100,
    main_v101, main_v102, main_v103]
  | 2 => [
    main_v104, main_v105, main_v106, main_v107, main_v108, main_v109, main_v110, main_v111, main_v112, main_v113,
    main_v114, main_v115, main_v116, main_v117, main_v118, main_v119, main_v120, main_cst_15, main_v121, main_v122,
    main_cst_16, main_v123, main_v124, main_v125, main_v126, main_v127, main_v128, main_v129, main_v130, main_v131,
    main_v132, main_v133, main_v134, main_cst_17, main_v135, main_cst_18, main_v136, main_v137, main_v138,
    main_cst_19, main_v139, main_cst_20, main_v140, main_v141, main_v142, main_v143, main_v144, main_cst_21,
    main_v145, main_v146, main_v147, main_v148, main_v149, main_v150, main_call4_cst, main_call4_v0, main_call4_v1,
    main_call4_v2, main_call4_v3, main_call4_v4, main_call4_v5, main_call4_v6, main_call4_v7, main_call4_v8,
    main_v151, main_cst_22, main_v152, main_v153, main_v154, main_call5_cst, main_call5_v0, main_call5_v1,
    main_call5_v2, main_call5_v3, main_call5_v4, main_call5_v5, main_call5_v6, main_call5_v7, main_call5_v8, main_v155]
  | 3 => [
    main_cst_23, main_v156, main_v157, main_cst_24, main_v158, main_v159, main_v160, main_v161, main_v162,
    main_call6_v0, main_call6_cst, main_call6_v1, main_v163, main_cst_25, main_v164, main_v165, main_call7_v0,
    main_call7_cst, main_call7_v1, main_v166, main_cst_26, main_v167, main_v168, main_v169, main_v170, main_v171,
    main_v172, main_v173, main_cst_27, main_v174, main_cst_28, main_v175, main_v176, main_v177, main_v178, main_v179,
    main_cst_29, main_v180, main_v181, main_v182, main_v183, main_v184, main_v185, main_cst_30, main_v186, main_v187,
    main_v188, main_v189, main_v190, main_v191, main_v192, main_v193, main_v194, main_v195, main_v196, main_v197,
    main_v198, main_v199, main_v200, main_v201, main_v202, main_v203, main_v204, main_v205, main_v206, main_v207]
  | 4 => [
    main_v208, main_v209, main_v210, main_v211, main_v212, main_cst_31, main_v213, main_v214, main_cst_32, main_v215,
    main_v216, main_v217, main_v218, main_v219, main_v220, main_v221, main_v222, main_v223, main_v224, main_cst_33,
    main_v225, main_cst_34, main_v226, main_v227, main_cst_35, main_v228, main_cst_36, main_v229, main_v230,
    main_v231, main_v232, main_v233, main_v234, main_cst_37, main_v235, main_v236, main_v237, main_v238, main_v239,
    main_v240, main_v241, main_v242, main_call8_cst, main_call8_v0, main_v243, main_v244, main_v245, main_v246,
    main_v247, main_call9_cst, main_call9_v0, main_v248, main_v249, main_v250, main_v251, main_v252, main_call10_cst,
    main_call10_v0, main_v253, main_v254, main_v255, main_v256, main_v257, main_cst_38, main_v258, main_cst_39]
  | 5 => [
    main_v259, main_v260, main_v261, main_v262, main_v263, main_v264, main_cst_40, main_v265, main_v266, main_v267,
    main_v268, main_v269, main_v270, main_v271, main_v272, main_call11_cst, main_call11_v0, main_v273, main_v274,
    main_v275, main_v276, main_v277, main_call12_cst, main_call12_v0, main_v278, main_v279, main_v280, main_v281,
    main_v282, main_call13_cst, main_call13_v0, main_v283, main_v284, main_v285, main_v286, main_v287, main_cst_41,
    main_v288, main_cst_42, main_v289, main_v290, main_v291, main_v292, main_v293, main_v294, main_cst_43, main_v295,
    main_v296, main_v297, main_v298, main_v299, main_v300, main_v301, main_v302, main_v303, main_v304, main_v305,
    main_v306, main_v307, main_v308, main_v309, main_v310, main_v311, main_v312, main_v313, main_cst_44]
  | 6 => [
    main_v314, main_v315, main_v316, main_v317, main_v318, main_v319, main_cst_45, main_v320, main_v321, main_v322,
    main_v323, main_v324, main_v325]
  | _ => []

theorem wrsub {W : List (Ref sig .tc)} {op : HloOp τ sig (Elt F)} {y : Ref sig .tc}
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

theorem win_writes : ∀ k, (win k : List (HloOp τ sig (Elt F))).Forall fun op =>
    op.writes ⊆ ((wr k).map (Proc.devRef (τ := τ) .tc)).toFinset
  | 0 | 1 | 2 | 3 | 4 | 5 | 6 => by
    repeat' apply And.intro
    all_goals exact wrsub rfl (by decide)
  | _ + 7 => trivial

-- A buffer that windows j, …, j + n - 1 do not write holds after them what it held before them.
theorem RV_keep (c : Dev nD) (r : Ref sig .tc) (j : Nat) :
    ∀ n, (∀ i < n, r ∉ wr (j + i)) → RV m c (j + n) r = RV m c j r
  | 0, _ => rfl
  | n + 1, h => (after_of_writes_sub _ _ (win_writes (j + n)) (h n n.lt_succ_self)).trans
      (RV_keep c r j n fun i hi => h i (Nat.lt_succ_of_lt hi))

-- In particular a buffer no window writes, such as an argument, keeps its launch contents.
theorem RV_arg (c : Dev nD) (r : Ref sig .tc) (k : Nat) (h : ∀ i < k + 1, r ∉ wr i) :
    RV m c (k + 1) r = RV m c 0 r := by
  have e := RV_keep m c r 0 (k + 1); simp only [Nat.zero_add] at e; exact e h

end Cert.ReferenceIdeal.HandRun

end
-- ==== Proof.Ref.Cat.lean ====
import proofs.«420955_j27152783245914_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem

variable {F : FTy → Type} [FloatOps F]

def cat3_main_v101 (p : main_v99.ty.Contents (Elt F)) (q : main_v98.ty.Contents (Elt F)) (r : main_v100.ty.Contents (Elt F)) : main_v101.ty.Contents (Elt F) :=
  concatenate S1x1000002 1 [⟨S1x1, p⟩, ⟨S1x1000000, q⟩, ⟨S1x1, r⟩] concatenates_S1x1_S1x1000000_S1x1_S1x1000002_d1

theorem cat_main_v101 (V : Valuation τ sig (Elt F)) :
    (StableHlo.nary ![main_v99, main_v98, main_v100] main_v101 (fun u => concatenate S1x1000002 1 [⟨S1x1, u 0⟩, ⟨S1x1000000, u 1⟩, ⟨S1x1, u 2⟩] concatenates_S1x1_S1x1000000_S1x1_S1x1000002_d1)).result V (no_index (Proc.devRef .tc main_v101))
      = cat3_main_v101 (V (Proc.devRef .tc main_v99)) (V (Proc.devRef .tc main_v98)) (V (Proc.devRef .tc main_v100)) :=
  StableHlo.nary_result _ _ _ _ _ V

def cat3_main_v193 (p : main_v191.ty.Contents (Elt F)) (q : main_v190.ty.Contents (Elt F)) (r : main_v192.ty.Contents (Elt F)) : main_v193.ty.Contents (Elt F) :=
  concatenate S1x1000002 1 [⟨S1x1, p⟩, ⟨S1x1000000, q⟩, ⟨S1x1, r⟩] concatenates_S1x1_S1x1000000_S1x1_S1x1000002_d1

theorem cat_main_v193 (V : Valuation τ sig (Elt F)) :
    (StableHlo.nary ![main_v191, main_v190, main_v192] main_v193 (fun u => concatenate S1x1000002 1 [⟨S1x1, u 0⟩, ⟨S1x1000000, u 1⟩, ⟨S1x1, u 2⟩] concatenates_S1x1_S1x1000000_S1x1_S1x1000002_d1)).result V (no_index (Proc.devRef .tc main_v193))
      = cat3_main_v193 (V (Proc.devRef .tc main_v191)) (V (Proc.devRef .tc main_v190)) (V (Proc.devRef .tc main_v192)) :=
  StableHlo.nary_result _ _ _ _ _ V

def cat2_main_v220 (p : main_arg4.ty.Contents (Elt F)) (q : main_v219.ty.Contents (Elt F)) : main_v220.ty.Contents (Elt F) :=
  concatenate S1x40 1 [⟨S1x20, p⟩, ⟨S1x20, q⟩] concatenates_S1x20_S1x20_S1x40_d1

theorem cat_main_v220 (V : Valuation τ sig (Elt F)) :
    (StableHlo.binary main_arg4 main_v219 main_v220 ((fun a b => concatenate S1x40 1 [⟨S1x20, a⟩, ⟨S1x20, b⟩] concatenates_S1x20_S1x20_S1x40_d1) : (⟨S1x20, .f32⟩ : BufTy).Contents (Elt F) → (⟨S1x20, .f32⟩ : BufTy).Contents (Elt F) → (⟨S1x40, .f32⟩ : BufTy).Contents (Elt F))).result V (no_index (Proc.devRef .tc main_v220))
      = cat2_main_v220 (V (Proc.devRef .tc main_arg4)) (V (Proc.devRef .tc main_v219)) :=
  StableHlo.binary_result _ _ _ _ _ _ _ V

macro "after_results_refcat" : tactic =>
  `(tactic| (simp (disch := decide) only [StableHlo.after_cons, StableHlo.after_nil,
      StableHlo.nullary_result', StableHlo.unary_result', StableHlo.binary_result', StableHlo.ternary_result', StableHlo.quaternary_result', StableHlo.reshape_result', cat_main_v101, cat_main_v193, ↓cat_main_v220,
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']))

end Cert.ReferenceIdeal.HandRun

end
-- ==== Proof.Ref.Read0.lean ====
import proofs.«420955_j27152783245914_3_alg».proof.Proof.Ref.Skip
import proofs.«420955_j27152783245914_3_alg».proof.Proof.Ref.Stages
import proofs.«420955_j27152783245914_3_alg».proof.Proof.Ref.Cat

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

theorem rv_main_v52 (c : Dev nD) : RV m c 1 main_v52 = Read.val_main_v52 (RV m c 0 main_arg0) (RV m c 0 main_arg5) (RV m c 0 main_arg6) (RV m c 0 main_arg7) (RV m c 0 main_arg8) (RV m c 0 main_arg9) (RV m c 0 main_arg10) := by
  show after ro0 _ _ = _
  after_results_refcat
  rfl

theorem rv_main_cst_5 (c : Dev nD) : RV m c 1 main_cst_5 = Read.val_main_cst_5 (F := F) := by
  show after ro0 _ _ = _
  after_results_refcat
  rfl

theorem rv_main_v18 (c : Dev nD) : RV m c 1 main_v18 = Read.val_main_v18 (RV m c 0 main_arg0) (RV m c 0 main_arg5) (RV m c 0 main_arg6) (RV m c 0 main_arg7) (RV m c 0 main_arg8) (RV m c 0 main_arg9) (RV m c 0 main_arg10) := by
  show after ro0 _ _ = _
  after_results_refcat
  rfl

theorem rv_main_v38 (c : Dev nD) : RV m c 1 main_v38 = Read.val_main_v38 (RV m c 0 main_arg0) (RV m c 0 main_arg5) (RV m c 0 main_arg6) (RV m c 0 main_arg7) (RV m c 0 main_arg8) (RV m c 0 main_arg9) (RV m c 0 main_arg10) := by
  show after ro0 _ _ = _
  after_results_refcat
  rfl

theorem rv_main_v44 (c : Dev nD) : RV m c 1 main_v44 = Read.val_main_v44 (RV m c 0 main_arg0) (RV m c 0 main_arg5) (RV m c 0 main_arg6) (RV m c 0 main_arg7) (RV m c 0 main_arg8) (RV m c 0 main_arg9) (RV m c 0 main_arg10) := by
  show after ro0 _ _ = _
  after_results_refcat
  rfl

theorem rv_main_v21 (c : Dev nD) : RV m c 1 main_v21 = Read.val_main_v21 (RV m c 0 main_arg0) (RV m c 0 main_arg5) (RV m c 0 main_arg6) (RV m c 0 main_arg7) (RV m c 0 main_arg8) (RV m c 0 main_arg9) (RV m c 0 main_arg10) := by
  show after ro0 _ _ = _
  after_results_refcat
  rfl

theorem rv_main_v15 (c : Dev nD) : RV m c 1 main_v15 = Read.val_main_v15 (RV m c 0 main_arg0) (RV m c 0 main_arg5) (RV m c 0 main_arg6) (RV m c 0 main_arg7) (RV m c 0 main_arg8) (RV m c 0 main_arg11) (RV m c 0 main_arg12) := by
  show after ro0 _ _ = _
  after_results_refcat
  rfl

theorem rv_main_v34 (c : Dev nD) : RV m c 1 main_v34 = Read.val_main_v34 (RV m c 0 main_arg0) (RV m c 0 main_arg5) (RV m c 0 main_arg6) (RV m c 0 main_arg7) (RV m c 0 main_arg8) (RV m c 0 main_arg9) (RV m c 0 main_arg10) := by
  show after ro0 _ _ = _
  after_results_refcat
  rfl

theorem rv_main_v30 (c : Dev nD) : RV m c 1 main_v30 = Read.val_main_v30 (RV m c 0 main_arg0) (RV m c 0 main_arg5) (RV m c 0 main_arg6) (RV m c 0 main_arg7) (RV m c 0 main_arg8) (RV m c 0 main_arg9) (RV m c 0 main_arg10) := by
  show after ro0 _ _ = _
  after_results_refcat
  rfl

end Cert.ReferenceIdeal.HandRun

end
-- ==== Proof.Ref.Read1.lean ====
import proofs.«420955_j27152783245914_3_alg».proof.Proof.Ref.Skip
import proofs.«420955_j27152783245914_3_alg».proof.Proof.Ref.Stages
import proofs.«420955_j27152783245914_3_alg».proof.Proof.Ref.Cat
import proofs.«420955_j27152783245914_3_alg».proof.Proof.Ref.Read0

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

theorem rv_main_v101 (c : Dev nD) : RV m c 2 main_v101 = Read.val_main_v101 (RV m c 0 main_arg0) (RV m c 0 main_arg1) (RV m c 0 main_arg3) (RV m c 0 main_arg5) (RV m c 0 main_arg6) (RV m c 0 main_arg7) (RV m c 0 main_arg8) (RV m c 0 main_arg9) (RV m c 0 main_arg10) := by
  show after ro1 _ _ = _
  after_results_refcat
  simp (disch := decide) only [RV_arg m c, rv_main_v44 m c, rv_main_v18 m c, rv_main_v38 m c]
  rfl

theorem rv_main_v103 (c : Dev nD) : RV m c 2 main_v103 = Read.val_main_v103 (RV m c 0 main_arg0) (RV m c 0 main_arg5) (RV m c 0 main_arg6) (RV m c 0 main_arg7) (RV m c 0 main_arg8) (RV m c 0 main_arg9) (RV m c 0 main_arg10) := by
  show after ro1 _ _ = _
  after_results_refcat
  simp only [rv_main_v52 m c, rv_main_cst_5 m c]
  rfl

theorem rv_main_v56 (c : Dev nD) : RV m c 2 main_v56 = Read.val_main_v56 (RV m c 0 main_arg0) (RV m c 0 main_arg5) (RV m c 0 main_arg6) (RV m c 0 main_arg7) (RV m c 0 main_arg8) (RV m c 0 main_arg9) (RV m c 0 main_arg10) := by
  show after ro1 _ _ = _
  after_results_refcat
  simp only [rv_main_v52 m c, rv_main_cst_5 m c]
  rfl

theorem rv_main_v60 (c : Dev nD) : RV m c 2 main_v60 = Read.val_main_v60 (RV m c 0 main_arg0) (RV m c 0 main_arg5) (RV m c 0 main_arg6) (RV m c 0 main_arg7) (RV m c 0 main_arg8) (RV m c 0 main_arg9) (RV m c 0 main_arg10) := by
  show after ro1 _ _ = _
  after_results_refcat
  simp only [rv_main_v18 m c]
  rfl

end Cert.ReferenceIdeal.HandRun

end
-- ==== Proof.Ref.Read2.lean ====
import proofs.«420955_j27152783245914_3_alg».proof.Proof.Ref.Skip
import proofs.«420955_j27152783245914_3_alg».proof.Proof.Ref.Stages
import proofs.«420955_j27152783245914_3_alg».proof.Proof.Ref.Cat
import proofs.«420955_j27152783245914_3_alg».proof.Proof.Ref.Read1

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

theorem rv_main_v130 (c : Dev nD) : RV m c 3 main_v130 = Read.val_main_v130 (RV m c 0 main_arg0) (RV m c 0 main_arg5) (RV m c 0 main_arg6) (RV m c 0 main_arg7) (RV m c 0 main_arg8) (RV m c 0 main_arg9) (RV m c 0 main_arg10) := by
  show after ro2 _ _ = _
  after_results_refcat
  simp only [RV_keep m c main_v21 1 1 (by decide), rv_main_v21 m c]
  rfl

theorem rv_main_v155 (c : Dev nD) : RV m c 3 main_v155 = Read.val_main_v155 (RV m c 0 main_arg0) (RV m c 0 main_arg5) (RV m c 0 main_arg6) (RV m c 0 main_arg7) (RV m c 0 main_arg8) (RV m c 0 main_arg9) (RV m c 0 main_arg10) := by
  show after ro2 _ _ = _
  after_results_refcat
  simp only [RV_keep m c main_v21 1 1 (by decide), rv_main_v21 m c]
  rfl

theorem rv_main_v136 (c : Dev nD) : RV m c 3 main_v136 = Read.val_main_v136 (RV m c 0 main_arg0) (RV m c 0 main_arg5) (RV m c 0 main_arg6) (RV m c 0 main_arg7) (RV m c 0 main_arg8) (RV m c 0 main_arg9) (RV m c 0 main_arg10) := by
  show after ro2 _ _ = _
  after_results_refcat
  simp only [RV_keep m c main_v21 1 1 (by decide), rv_main_v21 m c]
  rfl

theorem rv_main_v148 (c : Dev nD) : RV m c 3 main_v148 = Read.val_main_v148 (RV m c 0 main_arg0) (RV m c 0 main_arg5) (RV m c 0 main_arg6) (RV m c 0 main_arg7) (RV m c 0 main_arg8) (RV m c 0 main_arg9) (RV m c 0 main_arg10) := by
  show after ro2 _ _ = _
  after_results_refcat
  simp only [RV_keep m c main_v21 1 1 (by decide), rv_main_v21 m c]
  rfl

theorem rv_main_v152 (c : Dev nD) : RV m c 3 main_v152 = Read.val_main_v152 (RV m c 0 main_arg0) (RV m c 0 main_arg5) (RV m c 0 main_arg6) (RV m c 0 main_arg7) (RV m c 0 main_arg8) (RV m c 0 main_arg9) (RV m c 0 main_arg10) := by
  show after ro2 _ _ = _
  after_results_refcat
  simp only [RV_keep m c main_v21 1 1 (by decide), rv_main_v21 m c]
  rfl

theorem rv_main_v126 (c : Dev nD) : RV m c 3 main_v126 = Read.val_main_v126 (RV m c 0 main_arg0) (RV m c 0 main_arg1) (RV m c 0 main_arg3) (RV m c 0 main_arg5) (RV m c 0 main_arg6) (RV m c 0 main_arg7) (RV m c 0 main_arg8) (RV m c 0 main_arg9) (RV m c 0 main_arg10) := by
  show after ro2 _ _ = _
  after_results_refcat
  simp only [rv_main_v60 m c, rv_main_v101 m c, rv_main_v56 m c, rv_main_v103 m c]
  rfl

end Cert.ReferenceIdeal.HandRun

end
-- ==== Proof.Ref.Read3.lean ====
import proofs.«420955_j27152783245914_3_alg».proof.Proof.Ref.Skip
import proofs.«420955_j27152783245914_3_alg».proof.Proof.Ref.Stages
import proofs.«420955_j27152783245914_3_alg».proof.Proof.Ref.Cat
import proofs.«420955_j27152783245914_3_alg».proof.Proof.Ref.Read2

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

theorem rv_main_v206 (c : Dev nD) : RV m c 4 main_v206 = Read.val_main_v206 (RV m c 0 main_arg0) (RV m c 0 main_arg5) (RV m c 0 main_arg6) (RV m c 0 main_arg7) (RV m c 0 main_arg8) (RV m c 0 main_arg9) (RV m c 0 main_arg10) := by
  show after ro3 _ _ = _
  after_results_refcat
  simp only [rv_main_v148 m c]
  rfl

theorem rv_main_v207 (c : Dev nD) : RV m c 4 main_v207 = Read.val_main_v207 (RV m c 0 main_arg0) (RV m c 0 main_arg2) (RV m c 0 main_arg3) (RV m c 0 main_arg5) (RV m c 0 main_arg6) (RV m c 0 main_arg7) (RV m c 0 main_arg8) (RV m c 0 main_arg9) (RV m c 0 main_arg10) := by
  show after ro3 _ _ = _
  after_results_refcat
  simp (disch := decide) only [RV_arg m c, rv_main_v136 m c, rv_main_v155 m c, rv_main_v130 m c]
  rfl

theorem rv_main_v204 (c : Dev nD) : RV m c 4 main_v204 = Read.val_main_v204 (RV m c 0 main_arg0) (RV m c 0 main_arg2) (RV m c 0 main_arg3) (RV m c 0 main_arg5) (RV m c 0 main_arg6) (RV m c 0 main_arg7) (RV m c 0 main_arg8) (RV m c 0 main_arg9) (RV m c 0 main_arg10) := by
  show after ro3 _ _ = _
  after_results_refcat
  simp (disch := decide) only [RV_arg m c, rv_main_v136 m c, rv_main_v155 m c, rv_main_v130 m c, rv_main_v148 m c]
  rfl

end Cert.ReferenceIdeal.HandRun

end
-- ==== Proof.Ref.Read4.lean ====
import proofs.«420955_j27152783245914_3_alg».proof.Proof.Ref.Skip
import proofs.«420955_j27152783245914_3_alg».proof.Proof.Ref.Stages
import proofs.«420955_j27152783245914_3_alg».proof.Proof.Ref.Cat
import proofs.«420955_j27152783245914_3_alg».proof.Proof.Ref.Read3

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

theorem rv_main_cst_39 (c : Dev nD) : RV m c 5 main_cst_39 = Read.val_main_cst_39 (F := F) := by
  show after ro4 _ _ = _
  after_results_refcat
  rfl

set_option maxHeartbeats 4000000 in
theorem rv_main_v258 (c : Dev nD) : RV m c 5 main_v258 = Read.val_main_v258 (RV m c 0 main_arg0) (RV m c 0 main_arg1) (RV m c 0 main_arg3) (RV m c 0 main_arg4) (RV m c 0 main_arg5) (RV m c 0 main_arg6) (RV m c 0 main_arg7) (RV m c 0 main_arg8) (RV m c 0 main_arg9) (RV m c 0 main_arg10) (RV m c 0 main_arg15) (RV m c 0 main_arg16) (RV m c 0 main_arg17) (RV m c 0 main_arg18) (RV m c 0 main_arg19) (RV m c 0 main_arg20) (RV m c 0 main_arg21) (RV m c 0 main_arg22) := by
  show after ro4 _ _ = _
  after_results_refcat
  simp (disch := decide) only [RV_arg m c, RV_keep m c main_v126 3 1 (by decide), rv_main_v126 m c]
  rfl

set_option maxHeartbeats 4000000 in
theorem rv_main_v257 (c : Dev nD) : RV m c 5 main_v257 = Read.val_main_v257 (RV m c 0 main_arg0) (RV m c 0 main_arg1) (RV m c 0 main_arg3) (RV m c 0 main_arg4) (RV m c 0 main_arg5) (RV m c 0 main_arg6) (RV m c 0 main_arg7) (RV m c 0 main_arg8) (RV m c 0 main_arg9) (RV m c 0 main_arg10) (RV m c 0 main_arg15) (RV m c 0 main_arg16) (RV m c 0 main_arg17) (RV m c 0 main_arg18) (RV m c 0 main_arg19) (RV m c 0 main_arg20) (RV m c 0 main_arg21) (RV m c 0 main_arg22) := by
  show after ro4 _ _ = _
  after_results_refcat
  simp (disch := decide) only [RV_arg m c, RV_keep m c main_v126 3 1 (by decide), rv_main_v126 m c]
  rfl

theorem rv_main_v220 (c : Dev nD) : RV m c 5 main_v220 = Read.val_main_v220 (RV m c 0 main_arg0) (RV m c 0 main_arg1) (RV m c 0 main_arg3) (RV m c 0 main_arg4) (RV m c 0 main_arg5) (RV m c 0 main_arg6) (RV m c 0 main_arg7) (RV m c 0 main_arg8) (RV m c 0 main_arg9) (RV m c 0 main_arg10) := by
  show after ro4 _ _ = _
  after_results_refcat
  simp (disch := decide) only [RV_arg m c, RV_keep m c main_v126 3 1 (by decide), rv_main_v126 m c]
  rfl

theorem rv_main_v238 (c : Dev nD) : RV m c 5 main_v238 = Read.val_main_v238 (RV m c 0 main_arg0) (RV m c 0 main_arg5) (RV m c 0 main_arg6) (RV m c 0 main_arg7) (RV m c 0 main_arg8) (RV m c 0 main_arg11) (RV m c 0 main_arg12) := by
  show after ro4 _ _ = _
  after_results_refcat
  simp only [RV_keep m c main_v15 1 3 (by decide), rv_main_v15 m c]
  rfl

theorem rv_main_v226 (c : Dev nD) : RV m c 5 main_v226 = Read.val_main_v226 (RV m c 0 main_arg0) (RV m c 0 main_arg5) (RV m c 0 main_arg6) (RV m c 0 main_arg7) (RV m c 0 main_arg8) (RV m c 0 main_arg11) (RV m c 0 main_arg12) := by
  show after ro4 _ _ = _
  after_results_refcat
  simp only [RV_keep m c main_v15 1 3 (by decide), rv_main_v15 m c]
  rfl

theorem rv_main_v218 (c : Dev nD) : RV m c 5 main_v218 = Read.val_main_v218 (RV m c 0 main_arg0) (RV m c 0 main_arg2) (RV m c 0 main_arg3) (RV m c 0 main_arg5) (RV m c 0 main_arg6) (RV m c 0 main_arg7) (RV m c 0 main_arg8) (RV m c 0 main_arg9) (RV m c 0 main_arg10) := by
  show after ro4 _ _ = _
  after_results_refcat
  simp only [RV_keep m c main_v152 3 1 (by decide), rv_main_v152 m c, rv_main_v204 m c, rv_main_v207 m c, rv_main_v206 m c]
  rfl

theorem rv_main_v219 (c : Dev nD) : RV m c 5 main_v219 = Read.val_main_v219 (RV m c 0 main_arg0) (RV m c 0 main_arg1) (RV m c 0 main_arg3) (RV m c 0 main_arg5) (RV m c 0 main_arg6) (RV m c 0 main_arg7) (RV m c 0 main_arg8) (RV m c 0 main_arg9) (RV m c 0 main_arg10) := by
  show after ro4 _ _ = _
  after_results_refcat
  simp (disch := decide) only [RV_arg m c, RV_keep m c main_v126 3 1 (by decide), rv_main_v126 m c]
  rfl

end Cert.ReferenceIdeal.HandRun

end
-- ==== Proof.Ref.Read5.lean ====
import proofs.«420955_j27152783245914_3_alg».proof.Proof.Ref.Skip
import proofs.«420955_j27152783245914_3_alg».proof.Proof.Ref.Stages
import proofs.«420955_j27152783245914_3_alg».proof.Proof.Ref.Cat
import proofs.«420955_j27152783245914_3_alg».proof.Proof.Ref.Read4

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

theorem rv_main_cst_44 (c : Dev nD) : RV m c 6 main_cst_44 = Read.val_main_cst_44 (F := F) := by
  show after ro5 _ _ = _
  after_results_refcat
  rfl

theorem rv_main_v311 (c : Dev nD) : RV m c 6 main_v311 = Read.val_main_v311 (RV m c 0 main_arg0) (RV m c 0 main_arg1) (RV m c 0 main_arg3) (RV m c 0 main_arg4) (RV m c 0 main_arg5) (RV m c 0 main_arg6) (RV m c 0 main_arg7) (RV m c 0 main_arg8) (RV m c 0 main_arg9) (RV m c 0 main_arg10) (RV m c 0 main_arg11) (RV m c 0 main_arg12) (RV m c 0 main_arg13) (RV m c 0 main_arg14) (RV m c 0 main_arg15) (RV m c 0 main_arg16) (RV m c 0 main_arg17) (RV m c 0 main_arg18) (RV m c 0 main_arg19) (RV m c 0 main_arg20) (RV m c 0 main_arg21) (RV m c 0 main_arg22) (RV m c 0 main_arg23) (RV m c 0 main_arg24) (RV m c 0 main_arg25) (RV m c 0 main_arg26) (RV m c 0 main_arg27) (RV m c 0 main_arg28) (RV m c 0 main_arg29) (RV m c 0 main_arg30) := by
  show after ro5 _ _ = _
  after_results_refcat
  simp (disch := decide) only [RV_arg m c, rv_main_v220 m c, rv_main_v238 m c, rv_main_v257 m c, rv_main_v258 m c, rv_main_cst_39 m c]
  rfl

theorem rv_main_v313 (c : Dev nD) : RV m c 6 main_v313 = Read.val_main_v313 (RV m c 0 main_arg0) (RV m c 0 main_arg5) (RV m c 0 main_arg6) (RV m c 0 main_arg7) (RV m c 0 main_arg8) (RV m c 0 main_arg9) (RV m c 0 main_arg10) (RV m c 0 main_arg11) (RV m c 0 main_arg12) := by
  show after ro5 _ _ = _
  after_results_refcat
  simp only [RV_keep m c main_v34 1 4 (by decide), rv_main_v34 m c, rv_main_v226 m c]
  rfl

theorem rv_main_v307 (c : Dev nD) : RV m c 6 main_v307 = Read.val_main_v307 (RV m c 0 main_arg0) (RV m c 0 main_arg1) (RV m c 0 main_arg3) (RV m c 0 main_arg4) (RV m c 0 main_arg5) (RV m c 0 main_arg6) (RV m c 0 main_arg7) (RV m c 0 main_arg8) (RV m c 0 main_arg9) (RV m c 0 main_arg10) (RV m c 0 main_arg11) (RV m c 0 main_arg12) (RV m c 0 main_arg15) (RV m c 0 main_arg16) (RV m c 0 main_arg17) (RV m c 0 main_arg18) (RV m c 0 main_arg19) (RV m c 0 main_arg20) (RV m c 0 main_arg21) (RV m c 0 main_arg22) (RV m c 0 main_arg23) (RV m c 0 main_arg24) (RV m c 0 main_arg25) (RV m c 0 main_arg26) (RV m c 0 main_arg27) (RV m c 0 main_arg28) (RV m c 0 main_arg29) (RV m c 0 main_arg30) := by
  show after ro5 _ _ = _
  after_results_refcat
  simp (disch := decide) only [RV_arg m c, rv_main_v220 m c, rv_main_v238 m c, rv_main_v257 m c, rv_main_v258 m c, rv_main_cst_39 m c]
  rfl

end Cert.ReferenceIdeal.HandRun

end
-- ==== Proof.Ref.Read6.lean ====
import proofs.«420955_j27152783245914_3_alg».proof.Proof.Ref.Skip
import proofs.«420955_j27152783245914_3_alg».proof.Proof.Ref.Stages
import proofs.«420955_j27152783245914_3_alg».proof.Proof.Ref.Cat
import proofs.«420955_j27152783245914_3_alg».proof.Proof.Ref.Read5

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

theorem rv_main_v325 (c : Dev nD) : RV m c 7 main_v325 = Read.val_main_v325 (RV m c 0 main_arg0) (RV m c 0 main_arg1) (RV m c 0 main_arg2) (RV m c 0 main_arg3) (RV m c 0 main_arg4) (RV m c 0 main_arg5) (RV m c 0 main_arg6) (RV m c 0 main_arg7) (RV m c 0 main_arg8) (RV m c 0 main_arg9) (RV m c 0 main_arg10) (RV m c 0 main_arg11) (RV m c 0 main_arg12) (RV m c 0 main_arg13) (RV m c 0 main_arg14) (RV m c 0 main_arg15) (RV m c 0 main_arg16) (RV m c 0 main_arg17) (RV m c 0 main_arg18) (RV m c 0 main_arg19) (RV m c 0 main_arg20) (RV m c 0 main_arg21) (RV m c 0 main_arg22) (RV m c 0 main_arg23) (RV m c 0 main_arg24) (RV m c 0 main_arg25) (RV m c 0 main_arg26) (RV m c 0 main_arg27) (RV m c 0 main_arg28) (RV m c 0 main_arg29) (RV m c 0 main_arg30) := by
  show after ro6 _ _ = _
  after_results_refcat
  simp (disch := decide) only [RV_arg m c, rv_main_v313 m c, rv_main_v311 m c, rv_main_cst_44 m c, RV_keep m c main_v226 5 1 (by decide), rv_main_v226 m c, RV_keep m c main_v218 5 1 (by decide), rv_main_v218 m c, RV_keep m c main_v30 1 5 (by decide), rv_main_v30 m c]
  rfl

end Cert.ReferenceIdeal.HandRun

end
-- ==== Proof.Ref.Final.lean ====
import proofs.«420955_j27152783245914_3_alg».proof.Proof.Ref.Read6

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

-- Each result keeps its stage from the window that writes it to the end, and no window writes an argument.
theorem ref_run (ρ : Dev nD → PrngReg) :
    θ_run defs (onTc (τ := τ) (main (F := F))) ⟨m, fun _ => 0, ρ⟩ (fun r => ∀ c : Dev nD,
      r.2.mem ((c.tc : Thread nD τ).loc main_v307) = Cert.ReferenceIdeal.Read.val_main_v307 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))
      ∧ r.2.mem ((c.tc : Thread nD τ).loc main_v126) = Cert.ReferenceIdeal.Read.val_main_v126 (F := F) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v218) = Cert.ReferenceIdeal.Read.val_main_v218 (F := F) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v325) = Cert.ReferenceIdeal.Read.val_main_v325 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))
      ∧ r.2.mem ((c.tc : Thread nD τ).loc main_v219) = Cert.ReferenceIdeal.Read.val_main_v219 (F := F) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c => by
    refine ⟨(h c _).trans ((RV_keep m c main_v307 6 1 (by decide)).trans (rv_main_v307 m c)),
      (h c _).trans ((RV_keep m c main_v126 3 4 (by decide)).trans (rv_main_v126 m c)),
      (h c _).trans ((RV_keep m c main_v218 5 2 (by decide)).trans (rv_main_v218 m c)),
      (h c _).trans (rv_main_v325 m c),
      (h c _).trans ((RV_keep m c main_v219 5 2 (by decide)).trans (rv_main_v219 m c)), ?_⟩
    repeat' apply And.intro
    all_goals exact (h c _).trans (RV_arg m c _ 6 (by decide)))
    (run0 m ρ)

end Cert.ReferenceIdeal.HandRun

end
-- ==== Proof.lean ====
/- The certificate. Each frame is a run of the program with every argument array at its launch contents at the end. For the
   equivalence both idealized programs' results are read as one function of the arguments, the reference's stages
   `val_main_*`, so that memories agreeing on the arguments give equal results. -/
import proofs.«420955_j27152783245914_3_alg».proof.Defs
import proofs.«420955_j27152783245914_3_alg».proof.Proof.Gen.Kernel
import proofs.«420955_j27152783245914_3_alg».proof.Proof.Gen.KernelIdeal
import proofs.«420955_j27152783245914_3_alg».proof.Proof.Gen.ReferenceIdeal
import proofs.«420955_j27152783245914_3_alg».proof.Proof.Gen.Pre_finite_inputs
import proofs.«420955_j27152783245914_3_alg».proof.Proof.K.Run
import proofs.«420955_j27152783245914_3_alg».proof.Proof.KI.Final
import proofs.«420955_j27152783245914_3_alg».proof.Proof.Ref.Final
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2.2.2.2) (Cert.ReferenceIdeal.HandRun.ref_run (F := Ideal) m ρ)

/-- Both runs end with each result at the same stage of their own arguments, and the arguments agree. -/
theorem algebraic : Cert.algebraic_KernelIdeal_ReferenceIdeal := by
  intro m ρ m' ρ' _ hagree
  refine ⟨_, _, _, _, _, Cert.KernelIdeal.Hand.value_run m ρ, ?_⟩
  refine (θ_run Cert.ReferenceIdeal.defs _ _).mono (fun r h c => ?_) (Cert.ReferenceIdeal.HandRun.ref_run (F := Ideal) m' ρ')
  obtain ⟨a0, a1, a2, a3, a4, a5, a6, a7, a8, a9, a10, a11, a12, a13, a14, a15, a16, a17, a18, a19, a20, a21, a22, a23, a24, a25, a26, a27, a28, a29, a30⟩ := hagree c
  obtain ⟨h0, h1, h2, h3, h4, hargs⟩ := h c
  refine ⟨?_, ?_, ?_, ?_, ?_, hargs⟩
  · rw [h0, a0, a1, a3, a4, a5, a6, a7, a8, a9, a10, a11, a12, a15, a16, a17, a18, a19, a20, a21, a22, a23, a24, a25, a26, a27, a28, a29, a30]
  · rw [h1, a0, a1, a3, a5, a6, a7, a8, a9, a10]
  · rw [h2, a0, a2, a3, a5, a6, a7, a8, a9, a10]
  · rw [h3, a0, a1, a2, a3, a4, a5, a6, a7, a8, a9, a10, a11, a12, a13, a14, a15, a16, a17, a18, a19, a20, a21, a22, a23, a24, a25, a26, a27, a28, a29, a30]
  · rw [h4, a0, a1, a3, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
